-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x6 : Shape := ⟨2, ![128, 6]⟩
abbrev S6 : Shape := ⟨1, ![6]⟩
abbrev S6x6 : Shape := ⟨2, ![6, 6]⟩
abbrev S6x10 : Shape := ⟨2, ![6, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_
  bcast_S_S6x10 : S_.BroadcastsInDim S6x10 (![] : Fin 0 → Fin S6x10.rank)
  reducesTo_S6x10_S_d0_1 : S6x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S6x6 .f32) (main_arg14 : FVec F S6 .f32) (main_arg15 : FVec F S6x10 .f32) (main_arg16 : FVec F S10 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6x6 .f32 := Host.absf main_arg13
  let main_cst_20 : FVec F S_ .f32 := constant S_ .f32 0x7F800000#32
  let main_v55 : FVec F S6x6 .f32 := broadcastInDim S6x6 ![] bcast_S_S6x6 main_cst_20
  let main_v56 : IVec S6x6 1 := cmpf .olt main_v54 main_v55
  let main_c_21 : IVec S_ 1 := constantI S_ 1 1#1
  let main_v57 : IVec S_ 1 := (fun x v => Host.reduce IntOp.andi x v reducesTo_S6x6_S_d0_1 h_S_) main_v56 main_c_21
  let main_v58 : IVec S_ 1 := andi main_v53 main_v57
  let main_v59 : FVec F S6 .f32 := Host.absf main_arg14
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S6x10 .f32 := Host.absf main_arg15
  let main_cst_24 : FVec F S_ .f32 := constant S_ .f32 0x7F800000#32
  let main_v65 : FVec F S6x10 .f32 := broadcastInDim S6x10 ![] bcast_S_S6x10 main_cst_24
  let main_v66 : IVec S6x10 1 := cmpf .olt main_v64 main_v65
  let main_c_25 : IVec S_ 1 := constantI S_ 1 1#1
  let main_v67 : IVec S_ 1 := (fun x v => Host.reduce IntOp.andi x v reducesTo_S6x10_S_d0_1 h_S_) main_v66 main_c_25
  fn_part4 (F := F) main_arg16 main_v63 main_v67

def fn_part2 {F : FTy → Type} [FloatOps F] (main_arg9 : FVec F S6x6 .f32) (main_arg10 : FVec F S6 .f32) (main_arg11 : FVec F S6x6 .f32) (main_arg12 : FVec F S6 .f32) (main_arg13 : FVec F S6x6 .f32) (main_arg14 : FVec F S6 .f32) (main_arg15 : FVec F S6x10 .f32) (main_arg16 : FVec F S10 .f32) (main_v33 : IVec S_ 1) : IVec S_ 1 :=
  let main_v34 : FVec F S6x6 .f32 := Host.absf main_arg9
  let main_cst_12 : FVec F S_ .f32 := constant S_ .f32 0x7F800000#32
  let main_v35 : FVec F S6x6 .f32 := broadcastInDim S6x6 ![] bcast_S_S6x6 main_cst_12
  let main_v36 : IVec S6x6 1 := cmpf .olt main_v34 main_v35
  let main_c_13 : IVec S_ 1 := constantI S_ 1 1#1
  let main_v37 : IVec S_ 1 := (fun x v => Host.reduce IntOp.andi x v reducesTo_S6x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x6 .f32 := Host.absf main_arg11
  let main_cst_16 : FVec F S_ .f32 := constant S_ .f32 0x7F800000#32
  let main_v45 : FVec F S6x6 .f32 := broadcastInDim S6x6 ![] bcast_S_S6x6 main_cst_16
  let main_v46 : IVec S6x6 1 := cmpf .olt main_v44 main_v45
  let main_c_17 : IVec S_ 1 := constantI S_ 1 1#1
  let main_v47 : IVec S_ 1 := (fun x v => Host.reduce IntOp.andi x v reducesTo_S6x6_S_d0_1 h_S_) main_v46 main_c_17
  let main_v48 : IVec S_ 1 := andi main_v43 main_v47
  let main_v49 : FVec F S6 .f32 := Host.absf main_arg12
  let main_cst_18 : FVec F S_ .f32 := constant S_ .f32 0x7F800000#32
  let main_v50 : FVec F S6 .f32 := broadcastInDim S6 ![] bcast_S_S6 main_cst_18
  fn_part3 (F := F) main_arg13 main_arg14 main_arg15 main_arg16 main_v48 main_v49 main_v50

def fn_part1 {F : FTy → Type} [FloatOps F] (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S6x6 .f32) (main_arg14 : FVec F S6 .f32) (main_arg15 : FVec F S6x10 .f32) (main_arg16 : FVec F S10 .f32) (main_v13 : IVec S_ 1) (main_v16 : IVec S6x6 1) : IVec S_ 1 :=
  let main_c_5 : IVec S_ 1 := constantI S_ 1 1#1
  let main_v17 : IVec S_ 1 := (fun x v => Host.reduce IntOp.andi x v reducesTo_S6x6_S_d0_1 h_S_) main_v16 main_c_5
  let main_v18 : IVec S_ 1 := andi main_v13 main_v17
  let main_v19 : FVec F S6 .f32 := Host.absf main_arg6
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S6x6 .f32 := Host.absf main_arg7
  let main_cst_8 : FVec F S_ .f32 := constant S_ .f32 0x7F800000#32
  let main_v25 : FVec F S6x6 .f32 := broadcastInDim S6x6 ![] bcast_S_S6x6 main_cst_8
  let main_v26 : IVec S6x6 1 := cmpf .olt main_v24 main_v25
  let main_c_9 : IVec S_ 1 := constantI S_ 1 1#1
  let main_v27 : IVec S_ 1 := (fun x v => Host.reduce IntOp.andi x v reducesTo_S6x6_S_d0_1 h_S_) main_v26 main_c_9
  let main_v28 : IVec S_ 1 := andi main_v23 main_v27
  let main_v29 : FVec F S6 .f32 := Host.absf main_arg8
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x3200000 32) (main_arg2 : IVec S100000 32) (main_arg3 : FVec F S128x6 .f32) (main_arg4 : FVec F S6 .f32) (main_arg5 : FVec F S6x6 .f32) (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S6x6 .f32) (main_arg14 : FVec F S6 .f32) (main_arg15 : FVec F S6x10 .f32) (main_arg16 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x6 .f32 := Host.absf main_arg3
  let main_cst_0 : FVec F S_ .f32 := constant S_ .f32 0x7F800000#32
  let main_v5 : FVec F S128x6 .f32 := broadcastInDim S128x6 ![] bcast_S_S128x6 main_cst_0
  let main_v6 : IVec S128x6 1 := cmpf .olt main_v4 main_v5
  let main_c_1 : IVec S_ 1 := constantI S_ 1 1#1
  let main_v7 : IVec S_ 1 := (fun x v => Host.reduce IntOp.andi x v reducesTo_S128x6_S_d0_1 h_S_) main_v6 main_c_1
  let main_v8 : IVec S_ 1 := andi main_v3 main_v7
  let main_v9 : FVec F S6 .f32 := Host.absf main_arg4
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x6 .f32 := Host.absf main_arg5
  let main_cst_4 : FVec F S_ .f32 := constant S_ .f32 0x7F800000#32
  let main_v15 : FVec F S6x6 .f32 := broadcastInDim S6x6 ![] bcast_S_S6x6 main_cst_4
  let main_v16 : IVec S6x6 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x6 : Shape := ⟨2, ![128, 6]⟩
abbrev S6 : Shape := ⟨1, ![6]⟩
abbrev S6x6 : Shape := ⟨2, ![6, 6]⟩
abbrev S6x10 : Shape := ⟨2, ![6, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x6 : Shape := ⟨2, ![100000, 6]⟩
abbrev S5000x128 : Shape := ⟨2, ![5000, 128]⟩
abbrev S5000x1 : Shape := ⟨2, ![5000, 1]⟩
abbrev S5000x6 : Shape := ⟨2, ![5000, 6]⟩
abbrev S3200000x6 : Shape := ⟨2, ![3200000, 6]⟩
abbrev S1x6 : Shape := ⟨2, ![1, 6]⟩
abbrev S100000x10 : Shape := ⟨2, ![100000, 10]⟩
abbrev S5000x10 : Shape := ⟨2, ![5000, 10]⟩
abbrev S3200000x10 : Shape := ⟨2, ![3200000, 10]⟩
abbrev S1x10 : Shape := ⟨2, ![1, 10]⟩
abbrev S64x10 : Shape := ⟨2, ![64, 10]⟩
abbrev S10000x10 : Shape := ⟨2, ![10000, 10]⟩
abbrev S10000x1 : Shape := ⟨2, ![10000, 1]⟩
abbrev S64x1 : Shape := ⟨2, ![64, 1]⟩
abbrev S10000x64 : Shape := ⟨2, ![10000, 64]⟩
abbrev S64 : Shape := ⟨1, ![64]⟩

abbrev nBuf : Space → Nat
  | .hbm => 139
  | .vmem => 119
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x6, .f32⟩
  | 4 => ⟨S6, .f32⟩
  | 5 => ⟨S6x6, .f32⟩
  | 6 => ⟨S6, .f32⟩
  | 7 => ⟨S6x6, .f32⟩
  | 8 => ⟨S6, .f32⟩
  | 9 => ⟨S6x6, .f32⟩
  | 10 => ⟨S6, .f32⟩
  | 11 => ⟨S6x6, .f32⟩
  | 12 => ⟨S6, .f32⟩
  | 13 => ⟨S6x6, .f32⟩
  | 14 => ⟨S6, .f32⟩
  | 15 => ⟨S6x10, .f32⟩
  | 16 => ⟨S10, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3200000, .f32⟩
  | 23 => ⟨S_, .f32⟩
  | 24 => ⟨S100000, .f32⟩
  | 25 => ⟨S3200000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x6, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x6, .f32⟩
  | 42 => ⟨S_, .f32⟩
  | 43 => ⟨S100000x6, .f32⟩
  | 44 => ⟨S3200000x1, .i32⟩
  | 45 => ⟨S100000x6, .f32⟩
  | 46 => ⟨S100000x6, .f32⟩
  | 47 => ⟨S100000x6, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x6, .f32⟩
  | 57 => ⟨S_, .f32⟩
  | 58 => ⟨S100000x6, .f32⟩
  | 59 => ⟨S3200000x1, .i32⟩
  | 60 => ⟨S100000x6, .f32⟩
  | 61 => ⟨S100000x6, .f32⟩
  | 62 => ⟨S100000x6, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000x6, .f32⟩
  | 72 => ⟨S_, .f32⟩
  | 73 => ⟨S100000x6, .f32⟩
  | 74 => ⟨S3200000x1, .i32⟩
  | 75 => ⟨S100000x6, .f32⟩
  | 76 => ⟨S100000x6, .f32⟩
  | 77 => ⟨S100000x6, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x6, .f32⟩
  | 87 => ⟨S_, .f32⟩
  | 88 => ⟨S100000x6, .f32⟩
  | 89 => ⟨S3200000x1, .i32⟩
  | 90 => ⟨S100000x6, .f32⟩
  | 91 => ⟨S100000x6, .f32⟩
  | 92 => ⟨S100000x6, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000x6, .f32⟩
  | 102 => ⟨S_, .f32⟩
  | 103 => ⟨S100000x6, .f32⟩
  | 104 => ⟨S3200000x1, .i32⟩
  | 105 => ⟨S100000x6, .f32⟩
  | 106 => ⟨S100000x6, .f32⟩
  | 107 => ⟨S100000x6, .f32⟩
  | 108 => ⟨S_, .i32⟩
  | 109 => ⟨S3200000, .i32⟩
  | 110 => ⟨S3200000, .i1⟩
  | 111 => ⟨S_, .i32⟩
  | 112 => ⟨S3200000, .i32⟩
  | 113 => ⟨S3200000, .i32⟩
  | 114 => ⟨S3200000, .i32⟩
  | 115 => ⟨S3200000x1, .i32⟩
  | 116 => ⟨S3200000x6, .f32⟩
  | 117 => ⟨S_, .f32⟩
  | 118 => ⟨S100000x6, .f32⟩
  | 119 => ⟨S3200000x1, .i32⟩
  | 120 => ⟨S100000x6, .f32⟩
  | 121 => ⟨S100000x6, .f32⟩
  | 122 => ⟨S100000x10, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x128, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x10, .f32⟩
  | 4 => ⟨S_, .f32⟩
  | 5 => ⟨S100000x10, .f32⟩
  | 6 => ⟨S3200000x1, .i32⟩
  | 7 => ⟨S100000x10, .f32⟩
  | 8 => ⟨S100000x10, .f32⟩
  | 9 => ⟨S100000x1, .i32⟩
  | 10 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x6, .f32⟩
  | .local _ .vmem, ⟨3, _⟩ => ⟨S5000x1, .f32⟩
  | .local _ .vmem, ⟨4, _⟩ => ⟨S5000x1, .f32⟩
  | .local _ .vmem, ⟨5, _⟩ => ⟨S5000x6, .f32⟩
  | .local _ .vmem, ⟨6, _⟩ => ⟨S5000x6, .f32⟩
  | .local _ .vmem, ⟨7, _⟩ => ⟨S5000x6, .f32⟩
  | .local _ .vmem, ⟨8, _⟩ => ⟨S5000x6, .f32⟩
  | .local _ .vmem, ⟨9, _⟩ => ⟨S5000x6, .f32⟩
  | .local _ .vmem, ⟨10, _⟩ => ⟨S5000x6, .f32⟩
  | .local _ .vmem, ⟨11, _⟩ => ⟨S5000x1, .f32⟩
  | .local _ .vmem, ⟨12, _⟩ => ⟨S5000x1, .f32⟩
  | .local _ .vmem, ⟨13, _⟩ => ⟨S6, .f32⟩
  | .local _ .vmem, ⟨14, _⟩ => ⟨S5000x6, .f32⟩
  | .local _ .vmem, ⟨15, _⟩ => ⟨S5000x6, .f32⟩
  | .local _ .vmem, ⟨16, _⟩ => ⟨S5000x6, .f32⟩
  | .local _ .vmem, ⟨17, _⟩ => ⟨S5000x6, .f32⟩
  | .local _ .vmem, ⟨18, _⟩ => ⟨S6x6, .f32⟩
  | .local _ .vmem, ⟨19, _⟩ => ⟨S5000x1, .f32⟩
  | .local _ .vmem, ⟨20, _⟩ => ⟨S5000x1, .f32⟩
  | .local _ .vmem, ⟨21, _⟩ => ⟨S5000x6, .f32⟩
  | .local _ .vmem, ⟨22, _⟩ => ⟨S5000x6, .f32⟩
  | .local _ .vmem, ⟨23, _⟩ => ⟨S5000x6, .f32⟩
  | .local _ .vmem, ⟨24, _⟩ => ⟨S5000x6, .f32⟩
  | .local _ .vmem, ⟨25, _⟩ => ⟨S5000x6, .f32⟩
  | .local _ .vmem, ⟨26, _⟩ => ⟨S5000x6, .f32⟩
  | .local _ .vmem, ⟨27, _⟩ => ⟨S5000x1, .f32⟩
  | .local _ .vmem, ⟨28, _⟩ => ⟨S5000x1, .f32⟩
  | .local _ .vmem, ⟨29, _⟩ => ⟨S6, .f32⟩
  | .local _ .vmem, ⟨30, _⟩ => ⟨S5000x6, .f32⟩
  | .local _ .vmem, ⟨31, _⟩ => ⟨S5000x6, .f32⟩
  | .local _ .vmem, ⟨32, _⟩ => ⟨S5000x6, .f32⟩
  | .local _ .vmem, ⟨33, _⟩ => ⟨S5000x6, .f32⟩
  | .local _ .vmem, ⟨34, _⟩ => ⟨S6x6, .f32⟩
  | .local _ .vmem, ⟨35, _⟩ => ⟨S5000x1, .f32⟩
  | .local _ .vmem, ⟨36, _⟩ => ⟨S5000x1, .f32⟩
  | .local _ .vmem, ⟨37, _⟩ => ⟨S5000x6, .f32⟩
  | .local _ .vmem, ⟨38, _⟩ => ⟨S5000x6, .f32⟩
  | .local _ .vmem, ⟨39, _⟩ => ⟨S5000x6, .f32⟩
  | .local _ .vmem, ⟨40, _⟩ => ⟨S5000x6, .f32⟩
  | .local _ .vmem, ⟨41, _⟩ => ⟨S5000x6, .f32⟩
  | .local _ .vmem, ⟨42, _⟩ => ⟨S5000x6, .f32⟩
  | .local _ .vmem, ⟨43, _⟩ => ⟨S5000x1, .f32⟩
  | .local _ .vmem, ⟨44, _⟩ => ⟨S5000x1, .f32⟩
  | .local _ .vmem, ⟨45, _⟩ => ⟨S6, .f32⟩
  | .local _ .vmem, ⟨46, _⟩ => ⟨S5000x6, .f32⟩
  | .local _ .vmem, ⟨47, _⟩ => ⟨S5000x6, .f32⟩
  | .local _ .vmem, ⟨48, _⟩ => ⟨S5000x6, .f32⟩
  | .local _ .vmem, ⟨49, _⟩ => ⟨S5000x6, .f32⟩
  | .local _ .vmem, ⟨50, _⟩ => ⟨S6x6, .f32⟩
  | .local _ .vmem, ⟨51, _⟩ => ⟨S5000x1, .f32⟩
  | .local _ .vmem, ⟨52, _⟩ => ⟨S5000x1, .f32⟩
  | .local _ .vmem, ⟨53, _⟩ => ⟨S5000x6, .f32⟩
  | .local _ .vmem, ⟨54, _⟩ => ⟨S5000x6, .f32⟩
  | .local _ .vmem, ⟨55, _⟩ => ⟨S5000x6, .f32⟩
  | .local _ .vmem, ⟨56, _⟩ => ⟨S5000x6, .f32⟩
  | .local _ .vmem, ⟨57, _⟩ => ⟨S5000x6, .f32⟩
  | .local _ .vmem, ⟨58, _⟩ => ⟨S5000x6, .f32⟩
  | .local _ .vmem, ⟨59, _⟩ => ⟨S5000x1, .f32⟩
  | .local _ .vmem, ⟨60, _⟩ => ⟨S5000x1, .f32⟩
  | .local _ .vmem, ⟨61, _⟩ => ⟨S6, .f32⟩
  | .local _ .vmem, ⟨62, _⟩ => ⟨S5000x6, .f32⟩
  | .local _ .vmem, ⟨63, _⟩ => ⟨S5000x6, .f32⟩
  | .local _ .vmem, ⟨64, _⟩ => ⟨S5000x6, .f32⟩
  | .local _ .vmem, ⟨65, _⟩ => ⟨S5000x6, .f32⟩
  | .local _ .vmem, ⟨66, _⟩ => ⟨S6x6, .f32⟩
  | .local _ .vmem, ⟨67, _⟩ => ⟨S5000x1, .f32⟩
  | .local _ .vmem, ⟨68, _⟩ => ⟨S5000x1, .f32⟩
  | .local _ .vmem, ⟨69, _⟩ => ⟨S5000x6, .f32⟩
  | .local _ .vmem, ⟨70, _⟩ => ⟨S5000x6, .f32⟩
  | .local _ .vmem, ⟨71, _⟩ => ⟨S5000x6, .f32⟩
  | .local _ .vmem, ⟨72, _⟩ => ⟨S5000x6, .f32⟩
  | .local _ .vmem, ⟨73, _⟩ => ⟨S5000x6, .f32⟩
  | .local _ .vmem, ⟨74, _⟩ => ⟨S5000x6, .f32⟩
  | .local _ .vmem, ⟨75, _⟩ => ⟨S5000x1, .f32⟩
  | .local _ .vmem, ⟨76, _⟩ => ⟨S5000x1, .f32⟩
  | .local _ .vmem, ⟨77, _⟩ => ⟨S6, .f32⟩
  | .local _ .vmem, ⟨78, _⟩ => ⟨S5000x6, .f32⟩
  | .local _ .vmem, ⟨79, _⟩ => ⟨S5000x6, .f32⟩
  | .local _ .vmem, ⟨80, _⟩ => ⟨S5000x6, .f32⟩
  | .local _ .vmem, ⟨81, _⟩ => ⟨S5000x6, .f32⟩
  | .local _ .vmem, ⟨82, _⟩ => ⟨S6x6, .f32⟩
  | .local _ .vmem, ⟨83, _⟩ => ⟨S5000x1, .f32⟩
  | .local _ .vmem, ⟨84, _⟩ => ⟨S5000x1, .f32⟩
  | .local _ .vmem, ⟨85, _⟩ => ⟨S5000x6, .f32⟩
  | .local _ .vmem, ⟨86, _⟩ => ⟨S5000x6, .f32⟩
  | .local _ .vmem, ⟨87, _⟩ => ⟨S5000x6, .f32⟩
  | .local _ .vmem, ⟨88, _⟩ => ⟨S5000x6, .f32⟩
  | .local _ .vmem, ⟨89, _⟩ => ⟨S5000x6, .f32⟩
  | .local _ .vmem, ⟨90, _⟩ => ⟨S5000x6, .f32⟩
  | .local _ .vmem, ⟨91, _⟩ => ⟨S5000x1, .f32⟩
  | .local _ .vmem, ⟨92, _⟩ => ⟨S5000x1, .f32⟩
  | .local _ .vmem, ⟨93, _⟩ => ⟨S6, .f32⟩
  | .local _ .vmem, ⟨94, _⟩ => ⟨S5000x6, .f32⟩
  | .local _ .vmem, ⟨95, _⟩ => ⟨S5000x6, .f32⟩
  | .local _ .vmem, ⟨96, _⟩ => ⟨S5000x6, .f32⟩
  | .local _ .vmem, ⟨97, _⟩ => ⟨S5000x6, .f32⟩
  | .local _ .vmem, ⟨98, _⟩ => ⟨S6x10, .f32⟩
  | .local _ .vmem, ⟨99, _⟩ => ⟨S5000x1, .f32⟩
  | .local _ .vmem, ⟨100, _⟩ => ⟨S5000x1, .f32⟩
  | .local _ .vmem, ⟨101, _⟩ => ⟨S5000x10, .f32⟩
  | .local _ .vmem, ⟨102, _⟩ => ⟨S5000x10, .f32⟩
  | .local _ .vmem, ⟨103, _⟩ => ⟨S5000x10, .f32⟩
  | .local _ .vmem, ⟨104, _⟩ => ⟨S5000x10, .f32⟩
  | .local _ .vmem, ⟨105, _⟩ => ⟨S5000x10, .f32⟩
  | .local _ .vmem, ⟨106, _⟩ => ⟨S5000x10, .f32⟩
  | .local _ .vmem, ⟨107, _⟩ => ⟨S5000x1, .f32⟩
  | .local _ .vmem, ⟨108, _⟩ => ⟨S5000x1, .f32⟩
  | .local _ .vmem, ⟨109, _⟩ => ⟨S10, .f32⟩
  | .local _ .vmem, ⟨110, _⟩ => ⟨S5000x10, .f32⟩
  | .local _ .vmem, ⟨111, _⟩ => ⟨S5000x10, .f32⟩
  | .local _ .vmem, ⟨112, _⟩ => ⟨S10000x10, .f32⟩
  | .local _ .vmem, ⟨113, _⟩ => ⟨S10000x10, .f32⟩
  | .local _ .vmem, ⟨114, _⟩ => ⟨S10000x1, .i32⟩
  | .local _ .vmem, ⟨115, _⟩ => ⟨S10000x1, .i32⟩
  | .local _ .vmem, ⟨116, _⟩ => ⟨S64x10, .f32⟩
  | .local _ .vmem, ⟨117, _⟩ => ⟨S64x10, .f32⟩
  | .local _ .vmem, ⟨118, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | _, _ => false

abbrev semScoped : Fin 0 → Bool
  | ⟨_, h⟩ => absurd h (Nat.not_lt_zero _)

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  ofTc nBuf bufTy 0 117 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_15 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_18 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_19 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg3_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg2_1 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg4_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg2_1 : Ref sig .tc := ⟨.vmem, 84, rfl⟩
abbrev cc10_stg3_0 : Ref sig .tc := ⟨.vmem, 85, rfl⟩
abbrev cc10_stg3_1 : Ref sig .tc := ⟨.vmem, 86, rfl⟩
abbrev cc11_stg0_0 : Ref sig .tc := ⟨.vmem, 87, rfl⟩
abbrev cc11_stg0_1 : Ref sig .tc := ⟨.vmem, 88, rfl⟩
abbrev cc11_stg1_0 : Ref sig .tc := ⟨.vmem, 89, rfl⟩
abbrev cc11_stg1_1 : Ref sig .tc := ⟨.vmem, 90, rfl⟩
abbrev cc11_stg2_0 : Ref sig .tc := ⟨.vmem, 91, rfl⟩
abbrev cc11_stg2_1 : Ref sig .tc := ⟨.vmem, 92, rfl⟩
abbrev cc11_stg3_0 : Ref sig .tc := ⟨.vmem, 93, rfl⟩
abbrev cc11_stg4_0 : Ref sig .tc := ⟨.vmem, 94, rfl⟩
abbrev cc11_stg4_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg2_0 : Ref sig .tc := ⟨.vmem, 99, rfl⟩
abbrev cc12_stg2_1 : Ref sig .tc := ⟨.vmem, 100, rfl⟩
abbrev cc12_stg3_0 : Ref sig .tc := ⟨.vmem, 101, rfl⟩
abbrev cc12_stg3_1 : Ref sig .tc := ⟨.vmem, 102, rfl⟩
abbrev cc13_stg0_0 : Ref sig .tc := ⟨.vmem, 103, rfl⟩
abbrev cc13_stg0_1 : Ref sig .tc := ⟨.vmem, 104, rfl⟩
abbrev cc13_stg1_0 : Ref sig .tc := ⟨.vmem, 105, rfl⟩
abbrev cc13_stg1_1 : Ref sig .tc := ⟨.vmem, 106, rfl⟩
abbrev cc13_stg2_0 : Ref sig .tc := ⟨.vmem, 107, rfl⟩
abbrev cc13_stg2_1 : Ref sig .tc := ⟨.vmem, 108, rfl⟩
abbrev cc13_stg3_0 : Ref sig .tc := ⟨.vmem, 109, rfl⟩
abbrev cc13_stg4_0 : Ref sig .tc := ⟨.vmem, 110, rfl⟩
abbrev cc13_stg4_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg1_1 : Ref sig .tc := ⟨.vmem, 115, rfl⟩
abbrev cc14_stg2_0 : Ref sig .tc := ⟨.vmem, 116, rfl⟩
abbrev cc14_scratch0 : Ref sig .tc := ⟨.vmem, 117, rfl⟩
abbrev cc14_scratch1 : Ref sig .tc := ⟨.vmem, 118, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc8_sem3_0 : DmaSem sig := 69
abbrev cc8_sem3_1 : DmaSem sig := 70
abbrev cc9_sem0_0 : DmaSem sig := 71
abbrev cc9_sem0_1 : DmaSem sig := 72
abbrev cc9_sem1_0 : DmaSem sig := 73
abbrev cc9_sem1_1 : DmaSem sig := 74
abbrev cc9_sem2_0 : DmaSem sig := 75
abbrev cc9_sem2_1 : DmaSem sig := 76
abbrev cc9_sem3_0 : DmaSem sig := 77
abbrev cc9_sem4_0 : DmaSem sig := 78
abbrev cc9_sem4_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem2_1 : DmaSem sig := 84
abbrev cc10_sem3_0 : DmaSem sig := 85
abbrev cc10_sem3_1 : DmaSem sig := 86
abbrev cc11_sem0_0 : DmaSem sig := 87
abbrev cc11_sem0_1 : DmaSem sig := 88
abbrev cc11_sem1_0 : DmaSem sig := 89
abbrev cc11_sem1_1 : DmaSem sig := 90
abbrev cc11_sem2_0 : DmaSem sig := 91
abbrev cc11_sem2_1 : DmaSem sig := 92
abbrev cc11_sem3_0 : DmaSem sig := 93
abbrev cc11_sem4_0 : DmaSem sig := 94
abbrev cc11_sem4_1 : DmaSem sig := 95
abbrev cc12_sem0_0 : DmaSem sig := 96
abbrev cc12_sem0_1 : DmaSem sig := 97
abbrev cc12_sem1_0 : DmaSem sig := 98
abbrev cc12_sem2_0 : DmaSem sig := 99
abbrev cc12_sem2_1 : DmaSem sig := 100
abbrev cc12_sem3_0 : DmaSem sig := 101
abbrev cc12_sem3_1 : DmaSem sig := 102
abbrev cc13_sem0_0 : DmaSem sig := 103
abbrev cc13_sem0_1 : DmaSem sig := 104
abbrev cc13_sem1_0 : DmaSem sig := 105
abbrev cc13_sem1_1 : DmaSem sig := 106
abbrev cc13_sem2_0 : DmaSem sig := 107
abbrev cc13_sem2_1 : DmaSem sig := 108
abbrev cc13_sem3_0 : DmaSem sig := 109
abbrev cc13_sem4_0 : DmaSem sig := 110
abbrev cc13_sem4_1 : DmaSem sig := 111
abbrev cc14_sem0_0 : DmaSem sig := 112
abbrev cc14_sem0_1 : DmaSem sig := 113
abbrev cc14_sem1_0 : DmaSem sig := 114
abbrev cc14_sem1_1 : DmaSem sig := 115
abbrev cc14_sem2_0 : DmaSem sig := 116

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x6 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x6 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S6 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x6 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x6 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S6x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x6 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x6 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x6 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S6 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x6 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x6 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S6x6 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x6 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x6 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x6 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S6 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x6 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x6 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S6x6 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x6 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x6 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x6 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S6 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x6 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x6 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S6x6 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S5000x6 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x6 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x6 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S5000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S6 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x6 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x6 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S6x10 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S5000x10 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x10 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x10 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x1 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 1 → Memref sig .tc .vmem S10 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x10 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![10], ![false]⟩

def k14_cond2 (i : grid14.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_13 : BitVec 32 := 0#32
  let v37 : BitVec 1 := Scalar.cmpi .ne v36 c0_i32_13
  v37

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S10000x10 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x1 .i32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S64x10 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  inb_S128x6_S128x6_0_0 : ∀ a, (![0, 0] : Fin 2 → Nat) a + S128x6.size a ≤ S128x6.size a
  h_S128x6 : 0 < S128x6.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x6 : S5000x1.Broadcasts S5000x6
  inb_S5000x6_S5000x6_0_0 : ∀ a, (![0, 0] : Fin 2 → Nat) a + S5000x6.size a ≤ S5000x6.size a
  h_S5000x6 : 0 < S5000x6.numel
  bcast_S_S100000x6 : S_.BroadcastsInDim S100000x6 (![] : Fin 0 → Fin S100000x6.rank)
  shapeCasts_S5000x6_S5000x6 : S5000x6.ShapeCasts S5000x6
  inb_S6_S6_0 : ∀ a, (![0] : Fin 1 → Nat) a + S6.size a ≤ S6.size a
  h_S6 : 0 < S6.numel
  shapeCasts_S6_S1x6 : S6.ShapeCasts S1x6
  broadcasts_S1x6_S5000x6 : S1x6.Broadcasts S5000x6
  inb_S6x6_S6x6_0_0 : ∀ a, (![0, 0] : Fin 2 → Nat) a + S6x6.size a ≤ S6x6.size a
  h_S6x6 : 0 < S6x6.numel
  inb_S6x10_S6x10_0_0 : ∀ a, (![0, 0] : Fin 2 → Nat) a + S6x10.size a ≤ S6x10.size a
  h_S6x10 : 0 < S6x10.numel
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  bcast_S_S100000x10 : S_.BroadcastsInDim S100000x10 (![] : Fin 0 → Fin S100000x10.rank)
  shapeCasts_S5000x10_S5000x10 : S5000x10.ShapeCasts S5000x10
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x1_d0_w32 : S10000x1.Iotas .tc 32 [0]
  natLt_1_32 : 1 < 32
  iota_S10000x64_d1_w32 : S10000x64.Iotas .tc 32 [1]
  broadcasts_S10000x1_S10000x64 : S10000x1.Broadcasts S10000x64
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  reduces_S10000x64_S64 : S10000x64.Reduces [0] S64
  shapeCasts_S64_S64x1 : S64.ShapeCasts S64x1
  broadcasts_S64x1_S64x10 : S64x1.Broadcasts S64x10
  reduces_S64x10_S64 : S64x10.Reduces [1] S64
  scatter_S100000_S3200000x1_S3200000_n_0_0_1_wf : ScatterDims.WF S100000 S3200000x1 S3200000 [] [0] [0] 1
  dot_S5000x128_S128x6_S5000x6_1_0_0_1_n_n_wf : DotDims.WF S5000x128 S128x6 S5000x6 [1] [0] [0] [1] [] []
  gather_S100000x6_S3200000x1_S3200000x6_1_0_n_n_0_1_16_wf : GatherDims.WF S100000x6 S3200000x1 S3200000x6 [1] [0] [] [0] [] 1 ![1, 6]
  scatter_S100000x6_S3200000x1_S3200000x6_1_0_0_1_wf : ScatterDims.WF S100000x6 S3200000x1 S3200000x6 [1] [0] [0] 1
  dot_S5000x6_S6x6_S5000x6_1_0_0_1_n_n_wf : DotDims.WF S5000x6 S6x6 S5000x6 [1] [0] [0] [1] [] []
  dot_S5000x6_S6x10_S5000x10_1_0_0_1_n_n_wf : DotDims.WF S5000x6 S6x10 S5000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S10000x64_S10000x10_S64x10_0_0_1_1_n_n_wf : DotDims.WF S10000x64 S10000x10 S64x10 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x6.size a ≤ S128x6.size a
  hwx0_1 : ∀ i : grid0.Coords, EltTy.bits .f32 = 32 ∨ (Rect.block (s := S128x6) S128x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x6.size a ≤ S100000x6.size a
  hwx0_3 : ∀ i : grid0.Coords, EltTy.bits .f32 = 32 ∨ (Rect.block (s := S100000x6) S5000x6.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x6.size a ≤ S100000x6.size a
  hwx1_0 : ∀ i : grid1.Coords, EltTy.bits .f32 = 32 ∨ (Rect.block (s := S100000x6) S5000x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x6.size a ≤ S100000x6.size a
  hwx1_1 : ∀ i : grid1.Coords, EltTy.bits .f32 = 32 ∨ (Rect.block (s := S100000x6) S5000x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6.size a ≤ S6.size a
  hwx1_3 : ∀ i : grid1.Coords, EltTy.bits .f32 = 32 ∨ (Rect.block (s := S6) S6.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x6.size a ≤ S100000x6.size a
  hwx1_4 : ∀ i : grid1.Coords, EltTy.bits .f32 = 32 ∨ (Rect.block (s := S100000x6) S5000x6.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x6.size a ≤ S100000x6.size a
  hwx2_0 : ∀ i : grid2.Coords, EltTy.bits .f32 = 32 ∨ (Rect.block (s := S100000x6) S5000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x6.size a ≤ S6x6.size a
  hwx2_1 : ∀ i : grid2.Coords, EltTy.bits .f32 = 32 ∨ (Rect.block (s := S6x6) S6x6.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x6.size a ≤ S100000x6.size a
  hwx2_3 : ∀ i : grid2.Coords, EltTy.bits .f32 = 32 ∨ (Rect.block (s := S100000x6) S5000x6.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x6.size a ≤ S100000x6.size a
  hwx3_0 : ∀ i : grid3.Coords, EltTy.bits .f32 = 32 ∨ (Rect.block (s := S100000x6) S5000x6.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x6.size a ≤ S100000x6.size a
  hwx3_1 : ∀ i : grid3.Coords, EltTy.bits .f32 = 32 ∨ (Rect.block (s := S100000x6) S5000x6.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S6.size a ≤ S6.size a
  hwx3_3 : ∀ i : grid3.Coords, EltTy.bits .f32 = 32 ∨ (Rect.block (s := S6) S6.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x6.size a ≤ S100000x6.size a
  hwx3_4 : ∀ i : grid3.Coords, EltTy.bits .f32 = 32 ∨ (Rect.block (s := S100000x6) S5000x6.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x6.size a ≤ S100000x6.size a
  hwx4_0 : ∀ i : grid4.Coords, EltTy.bits .f32 = 32 ∨ (Rect.block (s := S100000x6) S5000x6.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S6x6.size a ≤ S6x6.size a
  hwx4_1 : ∀ i : grid4.Coords, EltTy.bits .f32 = 32 ∨ (Rect.block (s := S6x6) S6x6.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x6.size a ≤ S100000x6.size a
  hwx4_3 : ∀ i : grid4.Coords, EltTy.bits .f32 = 32 ∨ (Rect.block (s := S100000x6) S5000x6.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x6.size a ≤ S100000x6.size a
  hwx5_0 : ∀ i : grid5.Coords, EltTy.bits .f32 = 32 ∨ (Rect.block (s := S100000x6) S5000x6.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x6.size a ≤ S100000x6.size a
  hwx5_1 : ∀ i : grid5.Coords, EltTy.bits .f32 = 32 ∨ (Rect.block (s := S100000x6) S5000x6.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S6.size a ≤ S6.size a
  hwx5_3 : ∀ i : grid5.Coords, EltTy.bits .f32 = 32 ∨ (Rect.block (s := S6) S6.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x6.size a ≤ S100000x6.size a
  hwx5_4 : ∀ i : grid5.Coords, EltTy.bits .f32 = 32 ∨ (Rect.block (s := S100000x6) S5000x6.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x6.size a ≤ S100000x6.size a
  hwx6_0 : ∀ i : grid6.Coords, EltTy.bits .f32 = 32 ∨ (Rect.block (s := S100000x6) S5000x6.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S6x6.size a ≤ S6x6.size a
  hwx6_1 : ∀ i : grid6.Coords, EltTy.bits .f32 = 32 ∨ (Rect.block (s := S6x6) S6x6.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x6.size a ≤ S100000x6.size a
  hwx6_3 : ∀ i : grid6.Coords, EltTy.bits .f32 = 32 ∨ (Rect.block (s := S100000x6) S5000x6.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x6.size a ≤ S100000x6.size a
  hwx7_0 : ∀ i : grid7.Coords, EltTy.bits .f32 = 32 ∨ (Rect.block (s := S100000x6) S5000x6.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x6.size a ≤ S100000x6.size a
  hwx7_1 : ∀ i : grid7.Coords, EltTy.bits .f32 = 32 ∨ (Rect.block (s := S100000x6) S5000x6.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S6.size a ≤ S6.size a
  hwx7_3 : ∀ i : grid7.Coords, EltTy.bits .f32 = 32 ∨ (Rect.block (s := S6) S6.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x6.size a ≤ S100000x6.size a
  hwx7_4 : ∀ i : grid7.Coords, EltTy.bits .f32 = 32 ∨ (Rect.block (s := S100000x6) S5000x6.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x6.size a ≤ S100000x6.size a
  hwx8_0 : ∀ i : grid8.Coords, EltTy.bits .f32 = 32 ∨ (Rect.block (s := S100000x6) S5000x6.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S6x6.size a ≤ S6x6.size a
  hwx8_1 : ∀ i : grid8.Coords, EltTy.bits .f32 = 32 ∨ (Rect.block (s := S6x6) S6x6.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x6.size a ≤ S100000x6.size a
  hwx8_3 : ∀ i : grid8.Coords, EltTy.bits .f32 = 32 ∨ (Rect.block (s := S100000x6) S5000x6.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x6.size a ≤ S100000x6.size a
  hwx9_0 : ∀ i : grid9.Coords, EltTy.bits .f32 = 32 ∨ (Rect.block (s := S100000x6) S5000x6.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x6.size a ≤ S100000x6.size a
  hwx9_1 : ∀ i : grid9.Coords, EltTy.bits .f32 = 32 ∨ (Rect.block (s := S100000x6) S5000x6.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S6.size a ≤ S6.size a
  hwx9_3 : ∀ i : grid9.Coords, EltTy.bits .f32 = 32 ∨ (Rect.block (s := S6) S6.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x6.size a ≤ S100000x6.size a
  hwx9_4 : ∀ i : grid9.Coords, EltTy.bits .f32 = 32 ∨ (Rect.block (s := S100000x6) S5000x6.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x6.size a ≤ S100000x6.size a
  hwx10_0 : ∀ i : grid10.Coords, EltTy.bits .f32 = 32 ∨ (Rect.block (s := S100000x6) S5000x6.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S6x6.size a ≤ S6x6.size a
  hwx10_1 : ∀ i : grid10.Coords, EltTy.bits .f32 = 32 ∨ (Rect.block (s := S6x6) S6x6.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x6.size a ≤ S100000x6.size a
  hwx10_3 : ∀ i : grid10.Coords, EltTy.bits .f32 = 32 ∨ (Rect.block (s := S100000x6) S5000x6.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x6.size a ≤ S100000x6.size a
  hwx11_0 : ∀ i : grid11.Coords, EltTy.bits .f32 = 32 ∨ (Rect.block (s := S100000x6) S5000x6.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x6.size a ≤ S100000x6.size a
  hwx11_1 : ∀ i : grid11.Coords, EltTy.bits .f32 = 32 ∨ (Rect.block (s := S100000x6) S5000x6.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x1.size a ≤ S100000x1.size a
  hwx11_2 : ∀ i : grid11.Coords, EltTy.bits .f32 = 32 ∨ (Rect.block (s := S100000x1) S5000x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S6.size a ≤ S6.size a
  hwx11_3 : ∀ i : grid11.Coords, EltTy.bits .f32 = 32 ∨ (Rect.block (s := S6) S6.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x6.size a ≤ S100000x6.size a
  hwx11_4 : ∀ i : grid11.Coords, EltTy.bits .f32 = 32 ∨ (Rect.block (s := S100000x6) S5000x6.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x6.size a ≤ S100000x6.size a
  hwx12_0 : ∀ i : grid12.Coords, EltTy.bits .f32 = 32 ∨ (Rect.block (s := S100000x6) S5000x6.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S6x10.size a ≤ S6x10.size a
  hwx12_1 : ∀ i : grid12.Coords, EltTy.bits .f32 = 32 ∨ (Rect.block (s := S6x10) S6x10.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S100000x1.size a
  hwx12_2 : ∀ i : grid12.Coords, EltTy.bits .f32 = 32 ∨ (Rect.block (s := S100000x1) S5000x1.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x10.size a ≤ S100000x10.size a
  hwx12_3 : ∀ i : grid12.Coords, EltTy.bits .f32 = 32 ∨ (Rect.block (s := S100000x10) S5000x10.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x10.size a ≤ S100000x10.size a
  hwx13_0 : ∀ i : grid13.Coords, EltTy.bits .f32 = 32 ∨ (Rect.block (s := S100000x10) S5000x10.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x10.size a ≤ S100000x10.size a
  hwx13_1 : ∀ i : grid13.Coords, EltTy.bits .f32 = 32 ∨ (Rect.block (s := S100000x10) S5000x10.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x1.size a ≤ S100000x1.size a
  hwx13_2 : ∀ i : grid13.Coords, EltTy.bits .f32 = 32 ∨ (Rect.block (s := S100000x1) S5000x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S10.size a ≤ S10.size a
  hwx13_3 : ∀ i : grid13.Coords, EltTy.bits .f32 = 32 ∨ (Rect.block (s := S10) S10.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x10.size a ≤ S100000x10.size a
  hwx13_4 : ∀ i : grid13.Coords, EltTy.bits .f32 = 32 ∨ (Rect.block (s := S100000x10) S5000x10.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x10.size a ≤ S100000x10.size a
  hwx14_0 : ∀ i : grid14.Coords, EltTy.bits .f32 = 32 ∨ (Rect.block (s := S100000x10) S10000x10.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x1.size a ≤ S100000x1.size a
  hwx14_1 : ∀ i : grid14.Coords, EltTy.bits .i32 = 32 ∨ (Rect.block (s := S100000x1) S10000x1.size (cc14_transform_1 i) (hinb14_1 i)).WholeWords (EltTy.packing .i32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x10.size a ≤ S64x10.size a
  hwx14_2 : ∀ i : grid14.Coords, EltTy.bits .f32 = 32 ∨ (Rect.block (s := S64x10) S64x10.size (cc14_transform_2 i) (hinb14_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x128_S128x6_S5000x6_1_0_0_1_n_n : DotDims S5000x128 S128x6 S5000x6 where
  lhsContracting := [1]
  rhsContracting := [0]
  lhsNonContracting := [0]
  rhsNonContracting := [1]
  lhsBatch := []
  rhsBatch := []
  wf := dot_S5000x128_S128x6_S5000x6_1_0_0_1_n_n_wf
def gather_S100000x6_S3200000x1_S3200000x6_1_0_n_n_0_1_16 : GatherDims S100000x6 S3200000x1 S3200000x6 where
  offsetDims := [1]
  collapsedSliceDims := [0]
  operandBatchingDims := []
  startIndicesBatchingDims := []
  startIndexMap := [0]
  indexVectorDim := 1
  sliceSizes := ![1, 6]
  wf := gather_S100000x6_S3200000x1_S3200000x6_1_0_n_n_0_1_16_wf
def scatter_S100000x6_S3200000x1_S3200000x6_1_0_0_1 : ScatterDims S100000x6 S3200000x1 S3200000x6 where
  updateWindowDims := [1]
  insertedWindowDims := [0]
  scatterDimsToOperandDims := [0]
  indexVectorDim := 1
  wf := scatter_S100000x6_S3200000x1_S3200000x6_1_0_0_1_wf
def dot_S5000x6_S6x6_S5000x6_1_0_0_1_n_n : DotDims S5000x6 S6x6 S5000x6 where
  lhsContracting := [1]
  rhsContracting := [0]
  lhsNonContracting := [0]
  rhsNonContracting := [1]
  lhsBatch := []
  rhsBatch := []
  wf := dot_S5000x6_S6x6_S5000x6_1_0_0_1_n_n_wf
def dot_S5000x6_S6x10_S5000x10_1_0_0_1_n_n : DotDims S5000x6 S6x10 S5000x10 where
  lhsContracting := [1]
  rhsContracting := [0]
  lhsNonContracting := [0]
  rhsNonContracting := [1]
  lhsBatch := []
  rhsBatch := []
  wf := dot_S5000x6_S6x10_S5000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x64_S10000x10_S64x10_0_0_1_1_n_n : DotDims S10000x64 S10000x10 S64x10 where
  lhsContracting := [0]
  rhsContracting := [0]
  lhsNonContracting := [1]
  rhsNonContracting := [1]
  lhsBatch := []
  rhsBatch := []
  wf := dot_S10000x64_S10000x10_S64x10_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x6.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S6.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x6.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S6x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x6.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v34) S5000x6.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S5000x6.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S6.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S5000x6.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v35) S5000x6.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S6x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v36) S5000x6.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v46) S5000x6.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S5000x6.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S6.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v47) S5000x6.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v47) S5000x6.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S6x6.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v11) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v48) S5000x6.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v58) S5000x6.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S5000x6.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg10) S6.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v59) S5000x6.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v59) S5000x6.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S6x6.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v11) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v60) S5000x6.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v70) S5000x6.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v60) S5000x6.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v11) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_arg12) S6.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v71) S5000x6.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v71) S5000x6.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S6x6.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v11) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v72) S5000x6.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v82) S5000x6.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v72) S5000x6.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v11) S5000x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_arg14) S6.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v83) S5000x6.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v83) S5000x6.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg15) S6x10.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v11) S5000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v84) S5000x10.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v94) S5000x10.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v84) S5000x10.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v11) S5000x1.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_arg16) S10.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v95) S5000x10.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v95) S10000x10.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v96) S10000x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v97) S64x10.size cc14_transform_2 reads14_2 true true 1 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev idle14 : Fin 3 → grid14.Coords → Bool := fun | 0 => fun _ => false | 1 => fun _ => false | 2 => fun i => !(k14_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x6 : Shape := ⟨2, ![128, 6]⟩
abbrev S6 : Shape := ⟨1, ![6]⟩
abbrev S6x6 : Shape := ⟨2, ![6, 6]⟩
abbrev S6x10 : Shape := ⟨2, ![6, 10]⟩
abbrev S10 : Shape := ⟨1, ![10]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x6 : Shape := ⟨2, ![100000, 6]⟩
abbrev S3300000x6 : Shape := ⟨2, ![3300000, 6]⟩
abbrev S1x6 : Shape := ⟨2, ![1, 6]⟩
abbrev S100000x10 : Shape := ⟨2, ![100000, 10]⟩
abbrev S3300000x10 : Shape := ⟨2, ![3300000, 10]⟩
abbrev S1x10 : Shape := ⟨2, ![1, 10]⟩
abbrev S64x10 : Shape := ⟨2, ![64, 10]⟩
abbrev S100000x1 : Shape := ⟨2, ![100000, 1]⟩
abbrev S64 : Shape := ⟨1, ![64]⟩
abbrev S64x1 : Shape := ⟨2, ![64, 1]⟩

abbrev nBuf : Space → Nat
  | .hbm => 249
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x6, .f32⟩
  | 4 => ⟨S6, .f32⟩
  | 5 => ⟨S6x6, .f32⟩
  | 6 => ⟨S6, .f32⟩
  | 7 => ⟨S6x6, .f32⟩
  | 8 => ⟨S6, .f32⟩
  | 9 => ⟨S6x6, .f32⟩
  | 10 => ⟨S6, .f32⟩
  | 11 => ⟨S6x6, .f32⟩
  | 12 => ⟨S6, .f32⟩
  | 13 => ⟨S6x6, .f32⟩
  | 14 => ⟨S6, .f32⟩
  | 15 => ⟨S6x10, .f32⟩
  | 16 => ⟨S10, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x6, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x6, .f32⟩
  | 67 => ⟨S3300000x1, .f32⟩
  | 68 => ⟨S3300000x6, .f32⟩
  | 69 => ⟨S3300000x6, .f32⟩
  | 70 => ⟨S_, .f32⟩
  | 71 => ⟨S100000x6, .f32⟩
  | 72 => ⟨S3300000x1, .i32⟩
  | 73 => ⟨S100000x6, .f32⟩
  | 74 => ⟨S1x6, .f32⟩
  | 75 => ⟨S100000x6, .f32⟩
  | 76 => ⟨S100000x6, .f32⟩
  | 77 => ⟨S_, .f32⟩
  | 78 => ⟨S100000x6, .f32⟩
  | 79 => ⟨S100000x6, .f32⟩
  | 80 => ⟨S100000x6, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000x6, .f32⟩
  | 90 => ⟨S3300000x1, .f32⟩
  | 91 => ⟨S3300000x6, .f32⟩
  | 92 => ⟨S3300000x6, .f32⟩
  | 93 => ⟨S_, .f32⟩
  | 94 => ⟨S100000x6, .f32⟩
  | 95 => ⟨S3300000x1, .i32⟩
  | 96 => ⟨S100000x6, .f32⟩
  | 97 => ⟨S1x6, .f32⟩
  | 98 => ⟨S100000x6, .f32⟩
  | 99 => ⟨S100000x6, .f32⟩
  | 100 => ⟨S_, .f32⟩
  | 101 => ⟨S100000x6, .f32⟩
  | 102 => ⟨S100000x6, .f32⟩
  | 103 => ⟨S100000x6, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x6, .f32⟩
  | 113 => ⟨S3300000x1, .f32⟩
  | 114 => ⟨S3300000x6, .f32⟩
  | 115 => ⟨S3300000x6, .f32⟩
  | 116 => ⟨S_, .f32⟩
  | 117 => ⟨S100000x6, .f32⟩
  | 118 => ⟨S3300000x1, .i32⟩
  | 119 => ⟨S100000x6, .f32⟩
  | 120 => ⟨S1x6, .f32⟩
  | 121 => ⟨S100000x6, .f32⟩
  | 122 => ⟨S100000x6, .f32⟩
  | 123 => ⟨S_, .f32⟩
  | 124 => ⟨S100000x6, .f32⟩
  | 125 => ⟨S100000x6, .f32⟩
  | 126 => ⟨S100000x6, .f32⟩
  | 127 => ⟨S_, .i32⟩
  | _ => ⟨S100000x128, .f32⟩

abbrev hbmTy0_1 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000x6, .f32⟩
  | 8 => ⟨S3300000x1, .f32⟩
  | 9 => ⟨S3300000x6, .f32⟩
  | 10 => ⟨S3300000x6, .f32⟩
  | 11 => ⟨S_, .f32⟩
  | 12 => ⟨S100000x6, .f32⟩
  | 13 => ⟨S3300000x1, .i32⟩
  | 14 => ⟨S100000x6, .f32⟩
  | 15 => ⟨S1x6, .f32⟩
  | 16 => ⟨S100000x6, .f32⟩
  | 17 => ⟨S100000x6, .f32⟩
  | 18 => ⟨S_, .f32⟩
  | 19 => ⟨S100000x6, .f32⟩
  | 20 => ⟨S100000x6, .f32⟩
  | 21 => ⟨S100000x6, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x6, .f32⟩
  | 31 => ⟨S3300000x1, .f32⟩
  | 32 => ⟨S3300000x6, .f32⟩
  | 33 => ⟨S3300000x6, .f32⟩
  | 34 => ⟨S_, .f32⟩
  | 35 => ⟨S100000x6, .f32⟩
  | 36 => ⟨S3300000x1, .i32⟩
  | 37 => ⟨S100000x6, .f32⟩
  | 38 => ⟨S1x6, .f32⟩
  | 39 => ⟨S100000x6, .f32⟩
  | 40 => ⟨S100000x6, .f32⟩
  | 41 => ⟨S_, .f32⟩
  | 42 => ⟨S100000x6, .f32⟩
  | 43 => ⟨S100000x6, .f32⟩
  | 44 => ⟨S100000x6, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000x6, .f32⟩
  | 54 => ⟨S3300000x1, .f32⟩
  | 55 => ⟨S3300000x6, .f32⟩
  | 56 => ⟨S3300000x6, .f32⟩
  | 57 => ⟨S_, .f32⟩
  | 58 => ⟨S100000x6, .f32⟩
  | 59 => ⟨S3300000x1, .i32⟩
  | 60 => ⟨S100000x6, .f32⟩
  | 61 => ⟨S1x6, .f32⟩
  | 62 => ⟨S100000x6, .f32⟩
  | 63 => ⟨S100000x6, .f32⟩
  | 64 => ⟨S_, .f32⟩
  | 65 => ⟨S100000x6, .f32⟩
  | 66 => ⟨S100000x6, .f32⟩
  | 67 => ⟨S100000x10, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x10, .f32⟩
  | 77 => ⟨S3300000x1, .f32⟩
  | 78 => ⟨S3300000x10, .f32⟩
  | 79 => ⟨S3300000x10, .f32⟩
  | 80 => ⟨S_, .f32⟩
  | 81 => ⟨S100000x10, .f32⟩
  | 82 => ⟨S3300000x1, .i32⟩
  | 83 => ⟨S100000x10, .f32⟩
  | 84 => ⟨S1x10, .f32⟩
  | 85 => ⟨S100000x10, .f32⟩
  | 86 => ⟨S100000x10, .f32⟩
  | 87 => ⟨S_, .f32⟩
  | 88 => ⟨S100000x10, .f32⟩
  | 89 => ⟨S100000x10, .f32⟩
  | 90 => ⟨S_, .f32⟩
  | 91 => ⟨S64x10, .f32⟩
  | 92 => ⟨S100000x1, .i32⟩
  | 93 => ⟨S64x10, .f32⟩
  | 94 => ⟨S_, .f32⟩
  | 95 => ⟨S100000, .f32⟩
  | 96 => ⟨S_, .f32⟩
  | 97 => ⟨S64, .f32⟩
  | 98 => ⟨S100000x1, .i32⟩
  | 99 => ⟨S64, .f32⟩
  | 100 => ⟨S_, .f32⟩
  | 101 => ⟨S64, .f32⟩
  | 102 => ⟨S64, .f32⟩
  | 103 => ⟨S64x1, .f32⟩
  | 104 => ⟨S64x10, .f32⟩
  | 105 => ⟨S64x10, .f32⟩
  | 106 => ⟨S_, .f32⟩
  | 107 => ⟨S64, .f32⟩
  | 108 => ⟨S_, .f32⟩
  | 109 => ⟨S64, .f32⟩
  | 110 => ⟨S64, .f32⟩
  | 111 => ⟨S64x1, .f32⟩
  | 112 => ⟨S64x10, .f32⟩
  | 113 => ⟨S64x10, .f32⟩
  | 114 => ⟨S64x10, .f32⟩
  | 115 => ⟨S_, .f32⟩
  | 116 => ⟨S64, .f32⟩
  | 117 => ⟨S64x1, .f32⟩
  | 118 => ⟨S64x1, .f32⟩
  | 119 => ⟨S64x10, .f32⟩
  | 120 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_c_9 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_call2_cst : Ref sig .tc := ⟨.hbm, 100, rfl⟩
abbrev main_call2_v0 : Ref sig .tc := ⟨.hbm, 101, rfl⟩
abbrev main_v65 : Ref sig .tc := ⟨.hbm, 102, rfl⟩
abbrev main_v66 : Ref sig .tc := ⟨.hbm, 103, rfl⟩
abbrev main_c_12 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_14 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call3_cst : Ref sig .tc := ⟨.hbm, 123, rfl⟩
abbrev main_call3_v0 : Ref sig .tc := ⟨.hbm, 124, rfl⟩
abbrev main_v83 : Ref sig .tc := ⟨.hbm, 125, rfl⟩
abbrev main_v84 : Ref sig .tc := ⟨.hbm, 126, rfl⟩
abbrev main_c_15 : Ref sig .tc := ⟨.hbm, 127, rfl⟩
abbrev main_v85 : Ref sig .tc := ⟨.hbm, 128, rfl⟩
abbrev main_v86 : Ref sig .tc := ⟨.hbm, 129, rfl⟩
abbrev main_c_16 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩
abbrev main_v102 : Ref sig .tc := ⟨.hbm, 149, rfl⟩
abbrev main_c_18 : Ref sig .tc := ⟨.hbm, 150, rfl⟩
abbrev main_v103 : Ref sig .tc := ⟨.hbm, 151, rfl⟩
abbrev main_v104 : Ref sig .tc := ⟨.hbm, 152, rfl⟩
abbrev main_c_19 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_20 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call5_cst : Ref sig .tc := ⟨.hbm, 169, rfl⟩
abbrev main_call5_v0 : Ref sig .tc := ⟨.hbm, 170, rfl⟩
abbrev main_v119 : Ref sig .tc := ⟨.hbm, 171, rfl⟩
abbrev main_v120 : Ref sig .tc := ⟨.hbm, 172, rfl⟩
abbrev main_c_21 : Ref sig .tc := ⟨.hbm, 173, rfl⟩
abbrev main_v121 : Ref sig .tc := ⟨.hbm, 174, rfl⟩
abbrev main_v122 : Ref sig .tc := ⟨.hbm, 175, rfl⟩
abbrev main_c_22 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_23 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call6_cst : Ref sig .tc := ⟨.hbm, 192, rfl⟩
abbrev main_call6_v0 : Ref sig .tc := ⟨.hbm, 193, rfl⟩
abbrev main_v137 : Ref sig .tc := ⟨.hbm, 194, rfl⟩
abbrev main_v138 : Ref sig .tc := ⟨.hbm, 195, rfl⟩
abbrev main_c_24 : Ref sig .tc := ⟨.hbm, 196, rfl⟩
abbrev main_v139 : Ref sig .tc := ⟨.hbm, 197, rfl⟩
abbrev main_v140 : Ref sig .tc := ⟨.hbm, 198, rfl⟩
abbrev main_c_25 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_26 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_call7_cst : Ref sig .tc := ⟨.hbm, 215, rfl⟩
abbrev main_call7_v0 : Ref sig .tc := ⟨.hbm, 216, rfl⟩
abbrev main_v155 : Ref sig .tc := ⟨.hbm, 217, rfl⟩
abbrev main_cst_27 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_28 : Ref sig .tc := ⟨.hbm, 222, rfl⟩
abbrev main_v159 : Ref sig .tc := ⟨.hbm, 223, rfl⟩
abbrev main_cst_29 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_30 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_call8_cst : Ref sig .tc := ⟨.hbm, 234, rfl⟩
abbrev main_call8_v0 : Ref sig .tc := ⟨.hbm, 235, rfl⟩
abbrev main_call8_cst_0 : Ref sig .tc := ⟨.hbm, 236, rfl⟩
abbrev main_call8_v1 : Ref sig .tc := ⟨.hbm, 237, rfl⟩
abbrev main_call8_v2 : Ref sig .tc := ⟨.hbm, 238, rfl⟩
abbrev main_call8_v3 : Ref sig .tc := ⟨.hbm, 239, rfl⟩
abbrev main_call8_v4 : Ref sig .tc := ⟨.hbm, 240, rfl⟩
abbrev main_call8_v5 : Ref sig .tc := ⟨.hbm, 241, rfl⟩
abbrev main_call8_v6 : Ref sig .tc := ⟨.hbm, 242, rfl⟩
abbrev main_call8_cst_1 : Ref sig .tc := ⟨.hbm, 243, rfl⟩
abbrev main_call8_v7 : Ref sig .tc := ⟨.hbm, 244, rfl⟩
abbrev main_call8_v8 : Ref sig .tc := ⟨.hbm, 245, rfl⟩
abbrev main_call8_v9 : Ref sig .tc := ⟨.hbm, 246, rfl⟩
abbrev main_call8_v10 : Ref sig .tc := ⟨.hbm, 247, rfl⟩
abbrev main_v168 : Ref sig .tc := ⟨.hbm, 248, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x6_0_1 : S3300000x1.BroadcastsInDim S3300000x6 (![0, 1] : Fin 2 → Fin S3300000x6.rank)
  bcast_S_S100000x6 : S_.BroadcastsInDim S100000x6 (![] : Fin 0 → Fin S100000x6.rank)
  bcast_S6_S1x6_1 : S6.BroadcastsInDim S1x6 (![1] : Fin 1 → Fin S1x6.rank)
  bcast_S1x6_S100000x6_0_1 : S1x6.BroadcastsInDim S100000x6 (![0, 1] : Fin 2 → Fin S100000x6.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S64x10 : S_.BroadcastsInDim S64x10 (![] : Fin 0 → Fin S64x10.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  reducesTo_S64x10_S64_d1 : S64x10.ReducesTo [1] S64
  h_S_ : 0 < S_.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x6_S100000x6_1_0_0_1_n_n_wf : DotDims.WF S100000x128 S128x6 S100000x6 [1] [0] [0] [1] [] []
  gather_S100000x6_S3300000x1_S3300000x6_1_0_n_n_0_1_16_wf : GatherDims.WF S100000x6 S3300000x1 S3300000x6 [1] [0] [] [0] [] 1 ![1, 6]
  scatter_S100000x6_S3300000x1_S3300000x6_1_0_0_1_wf : ScatterDims.WF S100000x6 S3300000x1 S3300000x6 [1] [0] [0] 1
  dot_S100000x6_S6x6_S100000x6_1_0_0_1_n_n_wf : DotDims.WF S100000x6 S6x6 S100000x6 [1] [0] [0] [1] [] []
  dot_S100000x6_S6x10_S100000x10_1_0_0_1_n_n_wf : DotDims.WF S100000x6 S6x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  scatter_S64x10_S100000x1_S100000x10_1_0_0_1_wf : ScatterDims.WF S64x10 S100000x1 S100000x10 [1] [0] [0] 1
  scatter_S64_S100000x1_S100000_n_0_0_1_wf : ScatterDims.WF S64 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x6_S100000x6_1_0_0_1_n_n : DotDims S100000x128 S128x6 S100000x6 where
  lhsContracting := [1]
  rhsContracting := [0]
  lhsNonContracting := [0]
  rhsNonContracting := [1]
  lhsBatch := []
  rhsBatch := []
  wf := dot_S100000x128_S128x6_S100000x6_1_0_0_1_n_n_wf
def gather_S100000x6_S3300000x1_S3300000x6_1_0_n_n_0_1_16 : GatherDims S100000x6 S3300000x1 S3300000x6 where
  offsetDims := [1]
  collapsedSliceDims := [0]
  operandBatchingDims := []
  startIndicesBatchingDims := []
  startIndexMap := [0]
  indexVectorDim := 1
  sliceSizes := ![1, 6]
  wf := gather_S100000x6_S3300000x1_S3300000x6_1_0_n_n_0_1_16_wf
def scatter_S100000x6_S3300000x1_S3300000x6_1_0_0_1 : ScatterDims S100000x6 S3300000x1 S3300000x6 where
  updateWindowDims := [1]
  insertedWindowDims := [0]
  scatterDimsToOperandDims := [0]
  indexVectorDim := 1
  wf := scatter_S100000x6_S3300000x1_S3300000x6_1_0_0_1_wf
def dot_S100000x6_S6x6_S100000x6_1_0_0_1_n_n : DotDims S100000x6 S6x6 S100000x6 where
  lhsContracting := [1]
  rhsContracting := [0]
  lhsNonContracting := [0]
  rhsNonContracting := [1]
  lhsBatch := []
  rhsBatch := []
  wf := dot_S100000x6_S6x6_S100000x6_1_0_0_1_n_n_wf
def dot_S100000x6_S6x10_S100000x10_1_0_0_1_n_n : DotDims S100000x6 S6x10 S100000x10 where
  lhsContracting := [1]
  rhsContracting := [0]
  lhsNonContracting := [0]
  rhsNonContracting := [1]
  lhsBatch := []
  rhsBatch := []
  wf := dot_S100000x6_S6x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf
def scatter_S64x10_S100000x1_S100000x10_1_0_0_1 : ScatterDims S64x10 S100000x1 S100000x10 where
  updateWindowDims := [1]
  insertedWindowDims := [0]
  scatterDimsToOperandDims := [0]
  indexVectorDim := 1
  wf := scatter_S64x10_S100000x1_S100000x10_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.RegLib.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.RegLib

open Idealize.SL Idealize.SL.RA Idealize.SL.BI Idealize.SL.Sem Idealize.SL.ProofMode
open scoped Idealize.SL.BI
open Idealize.SL.BI.BIBase Idealize.SL.BI.Laws

variable {Ef : Type → Type} {M : Type} [URA M] {α : Type} {Mask : Type}
variable (Fr : Mask → sProp M) (wpE : Mask → ∀ ⦃β : Type⦄, Ef β → sWPT M β) (E : Mask)
variable [∀ ⦃β : Type⦄ (e : Ef β), sWPT.Frameable (wpE E e)]

/-- Two assertions a program does not touch pass through it. -/
theorem wp_frame2 {Φ O R : sProp M} {p : Prog Ef α} {Q : α → sProp M} (h : R ⊢ wp Fr wpE E p Q) :
    iprop(Φ ∗ O ∗ R) ⊢ wp Fr wpE E p fun a => iprop(Φ ∗ O ∗ Q a) :=
  (sep_mono_right ((sep_mono_right h).trans (wp_frame_l Fr wpE E))).trans (wp_frame_l Fr wpE E)

/-- A triple over four assertions at any values of their parameters, beside two assertions it does not touch. -/
theorem wp_ex4 {α0 α1 α2 α3 : Type} {A0 : α0 → sProp M} {A1 : α1 → sProp M} {A2 : α2 → sProp M} {A3 : α3 → sProp M}
    {Φ O : sProp M} {p : Prog Ef α} {Q : α → sProp M}
    (h : ∀ d0 d1 d2 d3, iprop(A0 d0 ∗ A1 d1 ∗ A2 d2 ∗ A3 d3) ⊢ wp Fr wpE E p Q) :
    iprop(Φ ∗ O ∗ (∃ d, A0 d) ∗ (∃ d, A1 d) ∗ (∃ d, A2 d) ∗ ∃ d, A3 d) ⊢ wp Fr wpE E p fun a => iprop(Φ ∗ O ∗ Q a) := by
  refine wp_frame2 Fr wpE E ?_
  iintro ⟨⟨%d0, H0⟩, ⟨%d1, H1⟩, ⟨%d2, H2⟩, ⟨%d3, H3⟩⟩
  iapply (h d0 d1 d2 d3)
  isplitl [H0]; · iexact H0
  isplitl [H1]; · iexact H1
  isplitl [H2]; · iexact H2
  iexact H3

/-- The same over five. -/
theorem wp_ex5 {α0 α1 α2 α3 α4 : Type} {A0 : α0 → sProp M} {A1 : α1 → sProp M} {A2 : α2 → sProp M} {A3 : α3 → sProp M}
    {A4 : α4 → sProp M} {Φ O : sProp M} {p : Prog Ef α} {Q : α → sProp M}
    (h : ∀ d0 d1 d2 d3 d4, iprop(A0 d0 ∗ A1 d1 ∗ A2 d2 ∗ A3 d3 ∗ A4 d4) ⊢ wp Fr wpE E p Q) :
    iprop(Φ ∗ O ∗ (∃ d, A0 d) ∗ (∃ d, A1 d) ∗ (∃ d, A2 d) ∗ (∃ d, A3 d) ∗ ∃ d, A4 d)
      ⊢ wp Fr wpE E p fun a => iprop(Φ ∗ O ∗ Q a) := by
  refine wp_frame2 Fr wpE E ?_
  iintro ⟨⟨%d0, H0⟩, ⟨%d1, H1⟩, ⟨%d2, H2⟩, ⟨%d3, H3⟩, ⟨%d4, H4⟩⟩
  iapply (h d0 d1 d2 d3 d4)
  isplitl [H0]; · iexact H0
  isplitl [H1]; · iexact H1
  isplitl [H2]; · iexact H2
  isplitl [H3]; · iexact H3
  iexact H4

end Cert.RegLib
-- ==== Proof.Kernel.Reg0.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import proofs.«415844_j33432025432092_2_alg».proof.Proof.RegLib

set_option maxRecDepth 16384

noncomputable section

namespace Cert.Kernel.Regions

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x6 := Rect.unit (s := S128x6) ![0, 0] S128x6.size inb_S128x6_S128x6_0_0
abbrev r0_d : Rect S5000x1 := Rect.unit (s := S5000x1) ![0, 0] S5000x1.size inb_S5000x1_S5000x1_0_0
abbrev r0_o : Rect S5000x6 := Rect.unit (s := S5000x6) ![0, 0] S5000x6.size inb_S5000x6_S5000x6_0_0

/-- What the body's one store leaves in the output's buffer. -/
noncomputable def out0_3 (x0 : Vec F S5000x128 .f32) (x1 : Vec F S128x6 .f32) (x2 : Vec F S5000x1 .f32) : Vec F S5000x6 .f32 :=
  View.canon [⟨r0_o, k0_pay1 (View.ld x0 r0_x) (View.ld x1 r0_w) (View.ld x2 r0_d)⟩]

set_option maxHeartbeats 4000000 in
/-- The body keeps its inputs, and its one store covers the output's buffer. -/
theorem sound_kernel0 (c : Dev nD) (E : Set ℕ) (i : grid0.Coords)
    (arg1 : Memref sig .tc .vmem S5000x128 .f32) (harg1 : arg1.IsWhole) (arg2 : Memref sig .tc .vmem S128x6 .f32) (harg2 : arg2.IsWhole)
    (arg3 : Memref sig .tc .vmem S5000x1 .f32) (harg3 : arg3.IsWhole) (arg4 : Memref sig .tc .vmem S5000x6 .f32) (harg4 : arg4.IsWhole)
    (x0 : Vec F S5000x128 .f32) (x1 : Vec F S128x6 .f32) (x2 : Vec F S5000x1 .f32) (d : Vec F S5000x6 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc0__linear_scaled_kernel i arg1 harg1 arg2 harg2 arg3 harg3 arg4 harg4) fun _ =>
        iprop(owns c arg1 fullShare x0 ∗ owns c arg2 fullShare x1 ∗ owns c arg3 fullShare x2 ∗ owns c arg4 fullShare (out0_3 x0 x1 x2)) := by
  simp only [cc0__linear_scaled_kernel_eq_skeleton]; unfold cc0__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x6.size (by rfl))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by
  dsimp only [dat0]

theorem body_obligation0 (c : Dev nD) : BodyObligation (dat0 (F := F) V c) (defs₀ (F := F)) Variants.none () Set.univ := fun t => by
  rw [bigSep_W0, bigSep_W0]
  refine wp_ex4 (p := bodyAt0 t) _ _ _ fun d0 d1 d2 d3 => ?_
  rw [(dat0 V c).before_in_eq_fetched 0 rfl (fun _ => rfl) (fun _ _ _ => rfl) fun _ => by dsimp only [dat0]; rfl,
    (dat0 V c).before_in_eq_fetched 1 rfl (fun _ => rfl) (fun _ _ _ => rfl) fun _ => by dsimp only [dat0]; rfl,
    (dat0 V c).before_in_eq_fetched 2 rfl (fun _ => rfl) (fun _ _ _ => rfl) fun _ => by dsimp only [dat0]; rfl]
  dsimp only [dat0]
  exact sound_kernel0 c Set.univ _ _ _ _ _ _ _ _ _ _ _ _ _

end Cert.Kernel.Regions

end
-- ==== Proof.Kernel.Reg1.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import proofs.«415844_j33432025432092_2_alg».proof.Proof.RegLib

set_option maxRecDepth 16384

noncomputable section

namespace Cert.Kernel.Regions

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x6 := Rect.unit (s := S5000x6) ![0, 0] S5000x6.size inb_S5000x6_S5000x6_0_0
abbrev r1_d : Rect S5000x1 := Rect.unit (s := S5000x1) ![0, 0] S5000x1.size inb_S5000x1_S5000x1_0_0
abbrev r1_b : Rect S6 := Rect.unit (s := S6) ![0] S6.size inb_S6_S6_0

/-- What the body's one store leaves in the output's buffer. -/
noncomputable def out1_4 (x0 : Vec F S5000x6 .f32) (x1 : Vec F S5000x6 .f32) (x2 : Vec F S5000x1 .f32) (x3 : Vec F S6 .f32) : Vec F S5000x6 .f32 :=
  View.canon [⟨r1_a, k1_pay1 (View.ld x0 r1_a) (View.ld x1 r1_a) (View.ld x2 r1_d) (View.ld x3 r1_b)⟩]

set_option maxHeartbeats 4000000 in
/-- The body keeps its inputs, and its one store covers the output's buffer. -/
theorem sound_kernel1 (c : Dev nD) (E : Set ℕ) (i : grid1.Coords)
    (arg1 : Memref sig .tc .vmem S5000x6 .f32) (harg1 : arg1.IsWhole) (arg2 : Memref sig .tc .vmem S5000x6 .f32) (harg2 : arg2.IsWhole)
    (arg3 : Memref sig .tc .vmem S5000x1 .f32) (harg3 : arg3.IsWhole) (arg4 : Memref sig .tc .vmem S6 .f32) (harg4 : arg4.IsWhole)
    (arg5 : Memref sig .tc .vmem S5000x6 .f32) (harg5 : arg5.IsWhole)
    (x0 : Vec F S5000x6 .f32) (x1 : Vec F S5000x6 .f32) (x2 : Vec F S5000x1 .f32) (x3 : Vec F S6 .f32) (d : Vec F S5000x6 .f32) :
    (iprop(owns c arg1 fullShare x0 ∗ owns c arg2 fullShare x1 ∗ owns c arg3 fullShare x2 ∗ owns c arg4 fullShare x3 ∗ owns c arg5 fullShare d)
        : sProp (MT nD τ sig Unit (Elt F) ℕ (UR sig nD τ) ℕ))
      ⊢ wp frame (wpE (defs₀ (F := F)) Variants.none c none) E
          (cc1__postscale_bias_relu_kernel i arg1 harg1 arg2 harg2 arg3 harg3 arg4 harg4 arg5 harg5) fun _ =>
        iprop(owns c arg1 fullShare x0 ∗ owns c arg2 fullShare x1 ∗ owns c arg3 fullShare x2 ∗ owns c arg4 fullShare x3
          ∗ owns c arg5 fullShare (out1_4 x0 x1 x2 x3)) := by
  simp only [cc1__postscale_bias_relu_kernel_eq_skeleton]; unfold cc1__postscale_bias_relu_kernel_skel owns
  iintro ⟨⟨%f0, %hf0, H0⟩, ⟨%f1, %hf1, H1⟩, ⟨%f2, %hf2, H2⟩, ⟨%f3, %hf3, H3⟩, ⟨%f4, -, H4⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x6.size (by rfl))

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by
  dsimp only [dat1]

theorem body_obligation1 (c : Dev nD) : BodyObligation (dat1 (F := F) V c) (defs₀ (F := F)) Variants.none () Set.univ := fun t => by
  rw [bigSep_W1, bigSep_W1]
  refine wp_ex5 (p := bodyAt1 t) _ _ _ fun d0 d1 d2 d3 d4 => ?_
  rw [(dat1 V c).before_in_eq_fetched 0 rfl (fun _ => rfl) (fun _ _ _ => rfl) fun _ => by dsimp only [dat1]; rfl,
    (dat1 V c).before_in_eq_fetched 1 rfl (fun _ => rfl) (fun _ _ _ => rfl) fun _ => by dsimp only [dat1]; rfl,
    (dat1 V c).before_in_eq_fetched 2 rfl (fun _ => rfl) (fun _ _ _ => rfl) fun _ => by dsimp only [dat1]; rfl,
    (dat1 V c).before_in_eq_fetched 3 rfl (fun _ => rfl) (fun _ _ _ => rfl) fun _ => by dsimp only [dat1]; rfl]
  dsimp only [dat1]
  exact sound_kernel1 c Set.univ _ _ _ _ _ _ _ _ _ _ _ _ _ _ _ _

end Cert.Kernel.Regions

end
-- ==== Proof.Kernel.Reg2.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import proofs.«415844_j33432025432092_2_alg».proof.Proof.RegLib

set_option maxRecDepth 16384

noncomputable section

namespace Cert.Kernel.Regions

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x6 := Rect.unit (s := S5000x6) ![0, 0] S5000x6.size inb_S5000x6_S5000x6_0_0
abbrev r2_w : Rect S6x6 := Rect.unit (s := S6x6) ![0, 0] S6x6.size inb_S6x6_S6x6_0_0
abbrev r2_d : Rect S5000x1 := Rect.unit (s := S5000x1) ![0, 0] S5000x1.size inb_S5000x1_S5000x1_0_0
abbrev r2_o : Rect S5000x6 := Rect.unit (s := S5000x6) ![0, 0] S5000x6.size inb_S5000x6_S5000x6_0_0

/-- What the body's one store leaves in the output's buffer. -/
noncomputable def out2_3 (x0 : Vec F S5000x6 .f32) (x1 : Vec F S6x6 .f32) (x2 : Vec F S5000x1 .f32) : Vec F S5000x6 .f32 :=
  View.canon [⟨r2_o, k2_pay1 (View.ld x0 r2_x) (View.ld x1 r2_w) (View.ld x2 r2_d)⟩]

set_option maxHeartbeats 4000000 in
/-- The body keeps its inputs, and its one store covers the output's buffer. -/
theorem sound_kernel2 (c : Dev nD) (E : Set ℕ) (i : grid2.Coords)
    (arg1 : Memref sig .tc .vmem S5000x6 .f32) (harg1 : arg1.IsWhole) (arg2 : Memref sig .tc .vmem S6x6 .f32) (harg2 : arg2.IsWhole)
    (arg3 : Memref sig .tc .vmem S5000x1 .f32) (harg3 : arg3.IsWhole) (arg4 : Memref sig .tc .vmem S5000x6 .f32) (harg4 : arg4.IsWhole)
    (x0 : Vec F S5000x6 .f32) (x1 : Vec F S6x6 .f32) (x2 : Vec F S5000x1 .f32) (d : Vec F S5000x6 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc2__linear_scaled_kernel i arg1 harg1 arg2 harg2 arg3 harg3 arg4 harg4) fun _ =>
        iprop(owns c arg1 fullShare x0 ∗ owns c arg2 fullShare x1 ∗ owns c arg3 fullShare x2 ∗ owns c arg4 fullShare (out2_3 x0 x1 x2)) := by
  simp only [cc2__linear_scaled_kernel_eq_skeleton]; unfold cc2__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x6.size (by rfl))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by
  dsimp only [dat2]

theorem body_obligation2 (c : Dev nD) : BodyObligation (dat2 (F := F) V c) (defs₀ (F := F)) Variants.none () Set.univ := fun t => by
  rw [bigSep_W2, bigSep_W2]
  refine wp_ex4 (p := bodyAt2 t) _ _ _ fun d0 d1 d2 d3 => ?_
  rw [(dat2 V c).before_in_eq_fetched 0 rfl (fun _ => rfl) (fun _ _ _ => rfl) fun _ => by dsimp only [dat2]; rfl,
    (dat2 V c).before_in_eq_fetched 1 rfl (fun _ => rfl) (fun _ _ _ => rfl) fun _ => by dsimp only [dat2]; rfl,
    (dat2 V c).before_in_eq_fetched 2 rfl (fun _ => rfl) (fun _ _ _ => rfl) fun _ => by dsimp only [dat2]; rfl]
  dsimp only [dat2]
  exact sound_kernel2 c Set.univ _ _ _ _ _ _ _ _ _ _ _ _ _

end Cert.Kernel.Regions

end
-- ==== Proof.Kernel.Reg3.lean ====
import proofs.«415844_j33432025432092_2_alg».proof.Proof.Kernel.Reg1

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body's one store leaves in the output's buffer. -/
noncomputable def out3_4 (x0 : Vec F S5000x6 .f32) (x1 : Vec F S5000x6 .f32) (x2 : Vec F S5000x1 .f32) (x3 : Vec F S6 .f32) : Vec F S5000x6 .f32 :=
  View.canon [⟨r1_a, k3_pay1 (View.ld x0 r1_a) (View.ld x1 r1_a) (View.ld x2 r1_d) (View.ld x3 r1_b)⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = out3_4 (iblk3 V c 0 t) (iblk3 V c 1 t) (iblk3 V c 2 t) (iblk3 V c 3 t) := by
  dsimp only [dat3]

theorem body_obligation3 (c : Dev nD) : BodyObligation (dat3 (F := F) V c) (defs₀ (F := F)) Variants.none () Set.univ := fun t => by
  rw [bigSep_W3, bigSep_W3]
  refine wp_ex5 (p := bodyAt3 t) _ _ _ fun d0 d1 d2 d3 d4 => ?_
  rw [(dat3 V c).before_in_eq_fetched 0 rfl (fun _ => rfl) (fun _ _ _ => rfl) fun _ => by dsimp only [dat3]; rfl,
    (dat3 V c).before_in_eq_fetched 1 rfl (fun _ => rfl) (fun _ _ _ => rfl) fun _ => by dsimp only [dat3]; rfl,
    (dat3 V c).before_in_eq_fetched 2 rfl (fun _ => rfl) (fun _ _ _ => rfl) fun _ => by dsimp only [dat3]; rfl,
    (dat3 V c).before_in_eq_fetched 3 rfl (fun _ => rfl) (fun _ _ _ => rfl) fun _ => by dsimp only [dat3]; rfl]
  dsimp only [dat3]
  exact sound_kernel1 c Set.univ (grid3.coords t) _ (hstage3_0 _) _ (hstage3_1 _) _ (hstage3_2 _) _ (hstage3_3 _) _ (hstage3_4 _) _ _ _ _ _

end Cert.Kernel.Regions

end
-- ==== Proof.Kernel.Reg4.lean ====
import proofs.«415844_j33432025432092_2_alg».proof.Proof.Kernel.Reg2

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body's one store leaves in the output's buffer. -/
noncomputable def out4_3 (x0 : Vec F S5000x6 .f32) (x1 : Vec F S6x6 .f32) (x2 : Vec F S5000x1 .f32) : Vec F S5000x6 .f32 :=
  View.canon [⟨r2_o, k4_pay1 (View.ld x0 r2_x) (View.ld x1 r2_w) (View.ld x2 r2_d)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by
  dsimp only [dat4]

theorem body_obligation4 (c : Dev nD) : BodyObligation (dat4 (F := F) V c) (defs₀ (F := F)) Variants.none () Set.univ := fun t => by
  rw [bigSep_W4, bigSep_W4]
  refine wp_ex4 (p := bodyAt4 t) _ _ _ fun d0 d1 d2 d3 => ?_
  rw [(dat4 V c).before_in_eq_fetched 0 rfl (fun _ => rfl) (fun _ _ _ => rfl) fun _ => by dsimp only [dat4]; rfl,
    (dat4 V c).before_in_eq_fetched 1 rfl (fun _ => rfl) (fun _ _ _ => rfl) fun _ => by dsimp only [dat4]; rfl,
    (dat4 V c).before_in_eq_fetched 2 rfl (fun _ => rfl) (fun _ _ _ => rfl) fun _ => by dsimp only [dat4]; rfl]
  dsimp only [dat4]
  exact sound_kernel2 c Set.univ (grid4.coords t) _ (hstage4_0 _) _ (hstage4_1 _) _ (hstage4_2 _) _ (hstage4_3 _) _ _ _ _

end Cert.Kernel.Regions

end
-- ==== Proof.Kernel.Reg5.lean ====
import proofs.«415844_j33432025432092_2_alg».proof.Proof.Kernel.Reg1

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body's one store leaves in the output's buffer. -/
noncomputable def out5_4 (x0 : Vec F S5000x6 .f32) (x1 : Vec F S5000x6 .f32) (x2 : Vec F S5000x1 .f32) (x3 : Vec F S6 .f32) : Vec F S5000x6 .f32 :=
  View.canon [⟨r1_a, k5_pay1 (View.ld x0 r1_a) (View.ld x1 r1_a) (View.ld x2 r1_d) (View.ld x3 r1_b)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) : (dat5 V c).after 4 t = out5_4 (iblk5 V c 0 t) (iblk5 V c 1 t) (iblk5 V c 2 t) (iblk5 V c 3 t) := by
  dsimp only [dat5]

theorem body_obligation5 (c : Dev nD) : BodyObligation (dat5 (F := F) V c) (defs₀ (F := F)) Variants.none () Set.univ := fun t => by
  rw [bigSep_W5, bigSep_W5]
  refine wp_ex5 (p := bodyAt5 t) _ _ _ fun d0 d1 d2 d3 d4 => ?_
  rw [(dat5 V c).before_in_eq_fetched 0 rfl (fun _ => rfl) (fun _ _ _ => rfl) fun _ => by dsimp only [dat5]; rfl,
    (dat5 V c).before_in_eq_fetched 1 rfl (fun _ => rfl) (fun _ _ _ => rfl) fun _ => by dsimp only [dat5]; rfl,
    (dat5 V c).before_in_eq_fetched 2 rfl (fun _ => rfl) (fun _ _ _ => rfl) fun _ => by dsimp only [dat5]; rfl,
    (dat5 V c).before_in_eq_fetched 3 rfl (fun _ => rfl) (fun _ _ _ => rfl) fun _ => by dsimp only [dat5]; rfl]
  dsimp only [dat5]
  exact sound_kernel1 c Set.univ (grid5.coords t) _ (hstage5_0 _) _ (hstage5_1 _) _ (hstage5_2 _) _ (hstage5_3 _) _ (hstage5_4 _) _ _ _ _ _

end Cert.Kernel.Regions

end
-- ==== Proof.Kernel.Reg6.lean ====
import proofs.«415844_j33432025432092_2_alg».proof.Proof.Kernel.Reg2

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body's one store leaves in the output's buffer. -/
noncomputable def out6_3 (x0 : Vec F S5000x6 .f32) (x1 : Vec F S6x6 .f32) (x2 : Vec F S5000x1 .f32) : Vec F S5000x6 .f32 :=
  View.canon [⟨r2_o, k6_pay1 (View.ld x0 r2_x) (View.ld x1 r2_w) (View.ld x2 r2_d)⟩]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) : (dat6 V c).after 3 t = out6_3 (iblk6 V c 0 t) (iblk6 V c 1 t) (iblk6 V c 2 t) := by
  dsimp only [dat6]

theorem body_obligation6 (c : Dev nD) : BodyObligation (dat6 (F := F) V c) (defs₀ (F := F)) Variants.none () Set.univ := fun t => by
  rw [bigSep_W6, bigSep_W6]
  refine wp_ex4 (p := bodyAt6 t) _ _ _ fun d0 d1 d2 d3 => ?_
  rw [(dat6 V c).before_in_eq_fetched 0 rfl (fun _ => rfl) (fun _ _ _ => rfl) fun _ => by dsimp only [dat6]; rfl,
    (dat6 V c).before_in_eq_fetched 1 rfl (fun _ => rfl) (fun _ _ _ => rfl) fun _ => by dsimp only [dat6]; rfl,
    (dat6 V c).before_in_eq_fetched 2 rfl (fun _ => rfl) (fun _ _ _ => rfl) fun _ => by dsimp only [dat6]; rfl]
  dsimp only [dat6]
  exact sound_kernel2 c Set.univ (grid6.coords t) _ (hstage6_0 _) _ (hstage6_1 _) _ (hstage6_2 _) _ (hstage6_3 _) _ _ _ _

end Cert.Kernel.Regions

end
-- ==== Proof.Kernel.Reg7.lean ====
import proofs.«415844_j33432025432092_2_alg».proof.Proof.Kernel.Reg1

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the body's one store leaves in the output's buffer. -/
noncomputable def out7_4 (x0 : Vec F S5000x6 .f32) (x1 : Vec F S5000x6 .f32) (x2 : Vec F S5000x1 .f32) (x3 : Vec F S6 .f32) : Vec F S5000x6 .f32 :=
  View.canon [⟨r1_a, k7_pay1 (View.ld x0 r1_a) (View.ld x1 r1_a) (View.ld x2 r1_d) (View.ld x3 r1_b)⟩]

noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) : (dat7 V c).after 4 t = out7_4 (iblk7 V c 0 t) (iblk7 V c 1 t) (iblk7 V c 2 t) (iblk7 V c 3 t) := by
  dsimp only [dat7]

theorem body_obligation7 (c : Dev nD) : BodyObligation (dat7 (F := F) V c) (defs₀ (F := F)) Variants.none () Set.univ := fun t => by
  rw [bigSep_W7, bigSep_W7]
  refine wp_ex5 (p := bodyAt7 t) _ _ _ fun d0 d1 d2 d3 d4 => ?_
  rw [(dat7 V c).before_in_eq_fetched 0 rfl (fun _ => rfl) (fun _ _ _ => rfl) fun _ => by dsimp only [dat7]; rfl,
    (dat7 V c).before_in_eq_fetched 1 rfl (fun _ => rfl) (fun _ _ _ => rfl) fun _ => by dsimp only [dat7]; rfl,
    (dat7 V c).before_in_eq_fetched 2 rfl (fun _ => rfl) (fun _ _ _ => rfl) fun _ => by dsimp only [dat7]; rfl,
    (dat7 V c).before_in_eq_fetched 3 rfl (fun _ => rfl) (fun _ _ _ => rfl) fun _ => by dsimp only [dat7]; rfl]
  dsimp only [dat7]
  exact sound_kernel1 c Set.univ (grid7.coords t) _ (hstage7_0 _) _ (hstage7_1 _) _ (hstage7_2 _) _ (hstage7_3 _) _ (hstage7_4 _) _ _ _ _ _

end Cert.Kernel.Regions

end
-- ==== Proof.Kernel.Reg8.lean ====
import proofs.«415844_j33432025432092_2_alg».proof.Proof.Kernel.Reg2

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the body's one store leaves in the output's buffer. -/
noncomputable def out8_3 (x0 : Vec F S5000x6 .f32) (x1 : Vec F S6x6 .f32) (x2 : Vec F S5000x1 .f32) : Vec F S5000x6 .f32 :=
  View.canon [⟨r2_o, k8_pay1 (View.ld x0 r2_x) (View.ld x1 r2_w) (View.ld x2 r2_d)⟩]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by
  dsimp only [dat8]

theorem body_obligation8 (c : Dev nD) : BodyObligation (dat8 (F := F) V c) (defs₀ (F := F)) Variants.none () Set.univ := fun t => by
  rw [bigSep_W8, bigSep_W8]
  refine wp_ex4 (p := bodyAt8 t) _ _ _ fun d0 d1 d2 d3 => ?_
  rw [(dat8 V c).before_in_eq_fetched 0 rfl (fun _ => rfl) (fun _ _ _ => rfl) fun _ => by dsimp only [dat8]; rfl,
    (dat8 V c).before_in_eq_fetched 1 rfl (fun _ => rfl) (fun _ _ _ => rfl) fun _ => by dsimp only [dat8]; rfl,
    (dat8 V c).before_in_eq_fetched 2 rfl (fun _ => rfl) (fun _ _ _ => rfl) fun _ => by dsimp only [dat8]; rfl]
  dsimp only [dat8]
  exact sound_kernel2 c Set.univ (grid8.coords t) _ (hstage8_0 _) _ (hstage8_1 _) _ (hstage8_2 _) _ (hstage8_3 _) _ _ _ _

end Cert.Kernel.Regions

end
-- ==== Proof.Kernel.Reg9.lean ====
import proofs.«415844_j33432025432092_2_alg».proof.Proof.Kernel.Reg1

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- What the body's one store leaves in the output's buffer. -/
noncomputable def out9_4 (x0 : Vec F S5000x6 .f32) (x1 : Vec F S5000x6 .f32) (x2 : Vec F S5000x1 .f32) (x3 : Vec F S6 .f32) : Vec F S5000x6 .f32 :=
  View.canon [⟨r1_a, k9_pay1 (View.ld x0 r1_a) (View.ld x1 r1_a) (View.ld x2 r1_d) (View.ld x3 r1_b)⟩]

noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) : (dat9 V c).after 4 t = out9_4 (iblk9 V c 0 t) (iblk9 V c 1 t) (iblk9 V c 2 t) (iblk9 V c 3 t) := by
  dsimp only [dat9]

theorem body_obligation9 (c : Dev nD) : BodyObligation (dat9 (F := F) V c) (defs₀ (F := F)) Variants.none () Set.univ := fun t => by
  rw [bigSep_W9, bigSep_W9]
  refine wp_ex5 (p := bodyAt9 t) _ _ _ fun d0 d1 d2 d3 d4 => ?_
  rw [(dat9 V c).before_in_eq_fetched 0 rfl (fun _ => rfl) (fun _ _ _ => rfl) fun _ => by dsimp only [dat9]; rfl,
    (dat9 V c).before_in_eq_fetched 1 rfl (fun _ => rfl) (fun _ _ _ => rfl) fun _ => by dsimp only [dat9]; rfl,
    (dat9 V c).before_in_eq_fetched 2 rfl (fun _ => rfl) (fun _ _ _ => rfl) fun _ => by dsimp only [dat9]; rfl,
    (dat9 V c).before_in_eq_fetched 3 rfl (fun _ => rfl) (fun _ _ _ => rfl) fun _ => by dsimp only [dat9]; rfl]
  dsimp only [dat9]
  exact sound_kernel1 c Set.univ (grid9.coords t) _ (hstage9_0 _) _ (hstage9_1 _) _ (hstage9_2 _) _ (hstage9_3 _) _ (hstage9_4 _) _ _ _ _ _

end Cert.Kernel.Regions

end
-- ==== Proof.Kernel.Reg10.lean ====
import proofs.«415844_j33432025432092_2_alg».proof.Proof.Kernel.Reg2

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the body's one store leaves in the output's buffer. -/
noncomputable def out10_3 (x0 : Vec F S5000x6 .f32) (x1 : Vec F S6x6 .f32) (x2 : Vec F S5000x1 .f32) : Vec F S5000x6 .f32 :=
  View.canon [⟨r2_o, k10_pay1 (View.ld x0 r2_x) (View.ld x1 r2_w) (View.ld x2 r2_d)⟩]

noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) : (dat10 V c).after 3 t = out10_3 (iblk10 V c 0 t) (iblk10 V c 1 t) (iblk10 V c 2 t) := by
  dsimp only [dat10]

theorem body_obligation10 (c : Dev nD) : BodyObligation (dat10 (F := F) V c) (defs₀ (F := F)) Variants.none () Set.univ := fun t => by
  rw [bigSep_W10, bigSep_W10]
  refine wp_ex4 (p := bodyAt10 t) _ _ _ fun d0 d1 d2 d3 => ?_
  rw [(dat10 V c).before_in_eq_fetched 0 rfl (fun _ => rfl) (fun _ _ _ => rfl) fun _ => by dsimp only [dat10]; rfl,
    (dat10 V c).before_in_eq_fetched 1 rfl (fun _ => rfl) (fun _ _ _ => rfl) fun _ => by dsimp only [dat10]; rfl,
    (dat10 V c).before_in_eq_fetched 2 rfl (fun _ => rfl) (fun _ _ _ => rfl) fun _ => by dsimp only [dat10]; rfl]
  dsimp only [dat10]
  exact sound_kernel2 c Set.univ (grid10.coords t) _ (hstage10_0 _) _ (hstage10_1 _) _ (hstage10_2 _) _ (hstage10_3 _) _ _ _ _

end Cert.Kernel.Regions

end
-- ==== Proof.Kernel.Reg11.lean ====
import proofs.«415844_j33432025432092_2_alg».proof.Proof.Kernel.Reg1

set_option maxRecDepth 16384

noncomputable section

namespace Cert.Kernel.Regions

open Cert.Kernel Cert.Kernel.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the body's one store leaves in the output's buffer. -/
noncomputable def out11_4 (x0 : Vec F S5000x6 .f32) (x1 : Vec F S5000x6 .f32) (x2 : Vec F S5000x1 .f32) (x3 : Vec F S6 .f32) : Vec F S5000x6 .f32 :=
  View.canon [⟨r1_a, k11_pay1 (View.ld x0 r1_a) (View.ld x1 r1_a) (View.ld x2 r1_d) (View.ld x3 r1_b)⟩]

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := rfl

theorem after11_4 (c : Dev nD) (t : Fin cfg11.N) : (dat11 V c).after 4 t = out11_4 (iblk11 V c 0 t) (iblk11 V c 1 t) (iblk11 V c 2 t) (iblk11 V c 3 t) := by
  dsimp only [dat11]

theorem body_obligation11 (c : Dev nD) : BodyObligation (dat11 (F := F) V c) (defs₀ (F := F)) Variants.none () Set.univ := fun t => by
  rw [bigSep_W11, bigSep_W11]
  refine wp_ex5 (p := bodyAt11 t) _ _ _ fun d0 d1 d2 d3 d4 => ?_
  rw [(dat11 V c).before_in_eq_fetched 0 rfl (fun _ => rfl) (fun _ _ _ => rfl) fun _ => by dsimp only [dat11]; rfl,
    (dat11 V c).before_in_eq_fetched 1 rfl (fun _ => rfl) (fun _ _ _ => rfl) fun _ => by dsimp only [dat11]; rfl,
    (dat11 V c).before_in_eq_fetched 2 rfl (fun _ => rfl) (fun _ _ _ => rfl) fun _ => by dsimp only [dat11]; rfl,
    (dat11 V c).before_in_eq_fetched 3 rfl (fun _ => rfl) (fun _ _ _ => rfl) fun _ => by dsimp only [dat11]; rfl]
  dsimp only [dat11]
  exact sound_kernel1 c Set.univ (grid11.coords t) _ (hstage11_0 _) _ (hstage11_1 _) _ (hstage11_2 _) _ (hstage11_3 _) _ (hstage11_4 _) _ _ _ _ _

end Cert.Kernel.Regions

end
-- ==== Proof.Kernel.Reg12.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import proofs.«415844_j33432025432092_2_alg».proof.Proof.RegLib

set_option maxRecDepth 16384

noncomputable section

namespace Cert.Kernel.Regions

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_x : Rect S5000x6 := Rect.unit (s := S5000x6) ![0, 0] S5000x6.size inb_S5000x6_S5000x6_0_0
abbrev r12_w : Rect S6x10 := Rect.unit (s := S6x10) ![0, 0] S6x10.size inb_S6x10_S6x10_0_0
abbrev r12_d : Rect S5000x1 := Rect.unit (s := S5000x1) ![0, 0] S5000x1.size inb_S5000x1_S5000x1_0_0
abbrev r12_o : Rect S5000x10 := Rect.unit (s := S5000x10) ![0, 0] S5000x10.size inb_S5000x10_S5000x10_0_0

/-- What the body's one store leaves in the output's buffer. -/
noncomputable def out12_3 (x0 : Vec F S5000x6 .f32) (x1 : Vec F S6x10 .f32) (x2 : Vec F S5000x1 .f32) : Vec F S5000x10 .f32 :=
  View.canon [⟨r12_o, k12_pay1 (View.ld x0 r12_x) (View.ld x1 r12_w) (View.ld x2 r12_d)⟩]

set_option maxHeartbeats 4000000 in
/-- The body keeps its inputs, and its one store covers the output's buffer. -/
theorem sound_kernel12 (c : Dev nD) (E : Set ℕ) (i : grid12.Coords)
    (arg1 : Memref sig .tc .vmem S5000x6 .f32) (harg1 : arg1.IsWhole) (arg2 : Memref sig .tc .vmem S6x10 .f32) (harg2 : arg2.IsWhole)
    (arg3 : Memref sig .tc .vmem S5000x1 .f32) (harg3 : arg3.IsWhole) (arg4 : Memref sig .tc .vmem S5000x10 .f32) (harg4 : arg4.IsWhole)
    (x0 : Vec F S5000x6 .f32) (x1 : Vec F S6x10 .f32) (x2 : Vec F S5000x1 .f32) (d : Vec F S5000x10 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc12__linear_scaled_kernel i arg1 harg1 arg2 harg2 arg3 harg3 arg4 harg4) fun _ =>
        iprop(owns c arg1 fullShare x0 ∗ owns c arg2 fullShare x1 ∗ owns c arg3 fullShare x2 ∗ owns c arg4 fullShare (out12_3 x0 x1 x2)) := by
  simp only [cc12__linear_scaled_kernel_eq_skeleton]; unfold cc12__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x10.size (by rfl))

noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := rfl

theorem after12_3 (c : Dev nD) (t : Fin cfg12.N) : (dat12 V c).after 3 t = out12_3 (iblk12 V c 0 t) (iblk12 V c 1 t) (iblk12 V c 2 t) := by
  dsimp only [dat12]

theorem body_obligation12 (c : Dev nD) : BodyObligation (dat12 (F := F) V c) (defs₀ (F := F)) Variants.none () Set.univ := fun t => by
  rw [bigSep_W12, bigSep_W12]
  refine wp_ex4 (p := bodyAt12 t) _ _ _ fun d0 d1 d2 d3 => ?_
  rw [(dat12 V c).before_in_eq_fetched 0 rfl (fun _ => rfl) (fun _ _ _ => rfl) fun _ => by dsimp only [dat12]; rfl,
    (dat12 V c).before_in_eq_fetched 1 rfl (fun _ => rfl) (fun _ _ _ => rfl) fun _ => by dsimp only [dat12]; rfl,
    (dat12 V c).before_in_eq_fetched 2 rfl (fun _ => rfl) (fun _ _ _ => rfl) fun _ => by dsimp only [dat12]; rfl]
  dsimp only [dat12]
  exact sound_kernel12 c Set.univ _ _ _ _ _ _ _ _ _ _ _ _ _

end Cert.Kernel.Regions

end
-- ==== Proof.Kernel.Reg13.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import proofs.«415844_j33432025432092_2_alg».proof.Proof.RegLib

set_option maxRecDepth 16384

noncomputable section

namespace Cert.Kernel.Regions

open Cert.Kernel Cert.Kernel.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_a : Rect S5000x10 := Rect.unit (s := S5000x10) ![0, 0] S5000x10.size inb_S5000x10_S5000x10_0_0
abbrev r13_d : Rect S5000x1 := Rect.unit (s := S5000x1) ![0, 0] S5000x1.size inb_S5000x1_S5000x1_0_0
abbrev r13_b : Rect S10 := Rect.unit (s := S10) ![0] S10.size inb_S10_S10_0

/-- What the body's one store leaves in the output's buffer. -/
noncomputable def out13_4 (x0 : Vec F S5000x10 .f32) (x1 : Vec F S5000x10 .f32) (x2 : Vec F S5000x1 .f32) (x3 : Vec F S10 .f32) : Vec F S5000x10 .f32 :=
  View.canon [⟨r13_a, k13_pay1 (View.ld x0 r13_a) (View.ld x1 r13_a) (View.ld x2 r13_d) (View.ld x3 r13_b)⟩]

set_option maxHeartbeats 4000000 in
/-- The body keeps its inputs, and its one store covers the output's buffer. -/
theorem sound_kernel13 (c : Dev nD) (E : Set ℕ) (i : grid13.Coords)
    (arg1 : Memref sig .tc .vmem S5000x10 .f32) (harg1 : arg1.IsWhole) (arg2 : Memref sig .tc .vmem S5000x10 .f32) (harg2 : arg2.IsWhole)
    (arg3 : Memref sig .tc .vmem S5000x1 .f32) (harg3 : arg3.IsWhole) (arg4 : Memref sig .tc .vmem S10 .f32) (harg4 : arg4.IsWhole)
    (arg5 : Memref sig .tc .vmem S5000x10 .f32) (harg5 : arg5.IsWhole)
    (x0 : Vec F S5000x10 .f32) (x1 : Vec F S5000x10 .f32) (x2 : Vec F S5000x1 .f32) (x3 : Vec F S10 .f32) (d : Vec F S5000x10 .f32) :
    (iprop(owns c arg1 fullShare x0 ∗ owns c arg2 fullShare x1 ∗ owns c arg3 fullShare x2 ∗ owns c arg4 fullShare x3 ∗ owns c arg5 fullShare d)
        : sProp (MT nD τ sig Unit (Elt F) ℕ (UR sig nD τ) ℕ))
      ⊢ wp frame (wpE (defs₀ (F := F)) Variants.none c none) E
          (cc13__postscale_bias_relu_kernel i arg1 harg1 arg2 harg2 arg3 harg3 arg4 harg4 arg5 harg5) fun _ =>
        iprop(owns c arg1 fullShare x0 ∗ owns c arg2 fullShare x1 ∗ owns c arg3 fullShare x2 ∗ owns c arg4 fullShare x3
          ∗ owns c arg5 fullShare (out13_4 x0 x1 x2 x3)) := by
  simp only [cc13__postscale_bias_relu_kernel_eq_skeleton]; unfold cc13__postscale_bias_relu_kernel_skel owns
  iintro ⟨⟨%f0, %hf0, H0⟩, ⟨%f1, %hf1, H1⟩, ⟨%f2, %hf2, H2⟩, ⟨%f3, %hf3, H3⟩, ⟨%f4, -, H4⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x10.size (by rfl))

noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := rfl

theorem after13_4 (c : Dev nD) (t : Fin cfg13.N) : (dat13 V c).after 4 t = out13_4 (iblk13 V c 0 t) (iblk13 V c 1 t) (iblk13 V c 2 t) (iblk13 V c 3 t) := by
  dsimp only [dat13]

theorem body_obligation13 (c : Dev nD) : BodyObligation (dat13 (F := F) V c) (defs₀ (F := F)) Variants.none () Set.univ := fun t => by
  rw [bigSep_W13, bigSep_W13]
  refine wp_ex5 (p := bodyAt13 t) _ _ _ fun d0 d1 d2 d3 d4 => ?_
  rw [(dat13 V c).before_in_eq_fetched 0 rfl (fun _ => rfl) (fun _ _ _ => rfl) fun _ => by dsimp only [dat13]; rfl,
    (dat13 V c).before_in_eq_fetched 1 rfl (fun _ => rfl) (fun _ _ _ => rfl) fun _ => by dsimp only [dat13]; rfl,
    (dat13 V c).before_in_eq_fetched 2 rfl (fun _ => rfl) (fun _ _ _ => rfl) fun _ => by dsimp only [dat13]; rfl,
    (dat13 V c).before_in_eq_fetched 3 rfl (fun _ => rfl) (fun _ _ _ => rfl) fun _ => by dsimp only [dat13]; rfl]
  dsimp only [dat13]
  exact sound_kernel13 c Set.univ _ _ _ _ _ _ _ _ _ _ _ _ _ _ _ _

end Cert.Kernel.Regions

end
-- ==== Proof.Kernel.Reg14.lean ====
import proofs.«415844_j33432025432092_2_alg».proof.Proof.Gen.Kernel.Launch
import proofs.«415844_j33432025432092_2_alg».proof.Proof.Gen.Kernel.Skeleton
import proofs.«415844_j33432025432092_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_a : Rect S64x10 := Rect.unit (s := S64x10) ![0, 0] S64x10.size inb_S64x10_S64x10_0_0
abbrev r14_b : Rect S64x1 := Rect.unit (s := S64x1) ![0, 0] S64x1.size inb_S64x1_S64x1_0_0
abbrev r14_x : Rect S10000x10 := Rect.unit (s := S10000x10) ![0, 0] S10000x10.size inb_S10000x10_S10000x10_0_0
abbrev r14_w : Rect S10000x1 := Rect.unit (s := S10000x1) ![0, 0] S10000x1.size inb_S10000x1_S10000x1_0_0

noncomputable def zero14_s : Vec F S64x10 .f32 := View.canon [⟨r14_a, k14_pay2 (F := F)⟩]
noncomputable def zero14_c : Vec F S64x1 .f32 := View.canon [⟨r14_b, k14_pay3 (F := F)⟩]

noncomputable def acc14_s (i : grid14.Coords) (x : Vec F S10000x10 .f32) (w : Vec F S10000x1 .i32) (S : Vec F S64x10 .f32) : Vec F S64x10 .f32 :=
  View.canon [⟨r14_a, k14_pay5 i (View.ld w r14_w) (View.ld S r14_a) (View.ld x r14_x)⟩]

noncomputable def acc14_c (i : grid14.Coords) (w : Vec F S10000x1 .i32) (C : Vec F S64x1 .f32) : Vec F S64x1 .f32 :=
  View.canon [⟨r14_b, k14_pay6 i (View.ld w r14_w) (View.ld C r14_b)⟩]

noncomputable def fin14 (S : Vec F S64x10 .f32) (C : Vec F S64x1 .f32) : Vec F S64x10 .f32 :=
  View.canon [⟨r14_a, k14_pay1 (View.ld S r14_a) (View.ld C r14_b)⟩]

noncomputable def pt14 (n : ℕ) : Fin cfg14.N := ⟨n % 10, (Nat.mod_lt n (by decide)).trans_eq N_14.symm⟩

theorem pt14_val (t : Fin cfg14.N) : pt14 t.val = t :=
  Fin.ext (Nat.mod_eq_of_lt (t.isLt.trans_eq N_14))

noncomputable def sum14 (c : Dev nD) : ℕ → Vec F S64x10 .f32
  | 0 => acc14_s (grid14.coords (pt14 0)) (iblk14 V c 0 (pt14 0)) (iblk14 V c 1 (pt14 0)) zero14_s
  | n + 1 => acc14_s (grid14.coords (pt14 (n + 1))) (iblk14 V c 0 (pt14 (n + 1))) (iblk14 V c 1 (pt14 (n + 1))) (sum14 c n)

noncomputable def cnt14 (c : Dev nD) : ℕ → Vec F S64x1 .f32
  | 0 => acc14_c (grid14.coords (pt14 0)) (iblk14 V c 1 (pt14 0)) zero14_c
  | n + 1 => acc14_c (grid14.coords (pt14 (n + 1))) (iblk14 V c 1 (pt14 (n + 1))) (cnt14 c n)

theorem sum14_zero (c : Dev nD) :
    sum14 V c 0 = acc14_s (grid14.coords (pt14 0)) (iblk14 V c 0 (pt14 0)) (iblk14 V c 1 (pt14 0)) zero14_s := rfl
theorem sum14_succ (c : Dev nD) (n : ℕ) :
    sum14 V c (n + 1) = acc14_s (grid14.coords (pt14 (n + 1))) (iblk14 V c 0 (pt14 (n + 1))) (iblk14 V c 1 (pt14 (n + 1))) (sum14 V c n) := rfl
theorem cnt14_zero (c : Dev nD) :
    cnt14 V c 0 = acc14_c (grid14.coords (pt14 0)) (iblk14 V c 1 (pt14 0)) zero14_c := rfl
theorem cnt14_succ (c : Dev nD) (n : ℕ) :
    cnt14 V c (n + 1) = acc14_c (grid14.coords (pt14 (n + 1))) (iblk14 V c 1 (pt14 (n + 1))) (cnt14 V c n) := rfl

noncomputable def out14_2 (c : Dev nD) : Vec F S64x10 .f32 := fin14 (sum14 V c 9) (cnt14 V c 9)

noncomputable def Phi14 (c : Dev nD) : ℕ → sProp 𝕄
  | 0 => Pipeline.ΦA spec14 c
  | n + 1 => iprop(owns (c : Thread nD τ) (Memref.whole cc14_scratch0) fullShare (sum14 V c n)
      ∗ owns (c : Thread nD τ) (Memref.whole cc14_scratch1) fullShare (cnt14 V c n)
      ∗ Pipeline.scopedRestBut (Ix := Unit) (Name := ℕ) (U := UR sig nD τ) (Lvl := ℕ) (Val := Elt F) spec14 c [cc14_scratch0, cc14_scratch1]
      ∗ ∃ r, prngReg c r)

noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 V c
  Φ t := Phi14 V c t.val
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 V c := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

theorem Phi14_first (c : Dev nD) : (dat14 V c).Φ 0 = Pipeline.ΦA spec14 c := rfl

abbrev cond14_0 (i : grid14.Coords) : Prop :=
  Scalar.cmpi .ne (Scalar.extui (Scalar.cmpi .eq (BitVec.ofNat 32 (i 0).val) 0#32) : BitVec 32) 0#32 = 1#1

theorem hcond14_0 : ∀ t : Fin cfg14.N, cond14_0 (grid14.coords t) ↔ t.val = 0 :=
  (by decide +kernel : ∀ t : Fin grid14.N, cond14_0 (grid14.coords t) ↔ t.val = 0)

theorem hcond14_1 : ∀ t : Fin cfg14.N, k14_cond2 (grid14.coords t) = 1#1 ↔ t.val = 9 :=
  (by decide +kernel : ∀ t : Fin grid14.N, k14_cond2 (grid14.coords t) = 1#1 ↔ t.val = 9)

theorem liveAt14_0 : ∀ t : Fin cfg14.N, cfg14.idle 0 (grid14.coords t) = false := by decide +kernel
theorem liveAt14_1 : ∀ t : Fin cfg14.N, cfg14.idle 1 (grid14.coords t) = false := by decide +kernel
theorem idleAt14_2 : ∀ t : Fin cfg14.N, t.val ≠ 9 → cfg14.idle 2 (grid14.coords t) = true :=
  (by decide +kernel : ∀ t : Fin grid14.N, t.val ≠ 9 → cfg14.idle 2 (grid14.coords t) = true)
theorem noFlush14_2 : ∀ t : Fin cfg14.N, t.val ≠ 9 → (cfg14.win 2).flush t = false :=
  (by decide +kernel : ∀ t : Fin grid14.N, t.val ≠ 9 → win14_2.flush t = false)
theorem liveAt14_2 : ∀ t : Fin cfg14.N, t.val = 9 → cfg14.idle 2 (grid14.coords t) = false :=
  (by decide +kernel : ∀ t : Fin grid14.N, t.val = 9 → cfg14.idle 2 (grid14.coords t) = false)

theorem cover14_a (p0 : Vec F S64x10 .f32) (y : S64x10.Idx) :
    ∃ pc ∈ ([⟨r14_a, p0⟩] : List (View.Piece (Elt F) S64x10 .f32)), y ∈ pc.1.set :=
  View.cover_of_tiled [⟨r14_a, p0⟩] S64x10.size (by rfl) y
theorem cover14_b (p0 : Vec F S64x1 .f32) (y : S64x1.Idx) :
    ∃ pc ∈ ([⟨r14_b, p0⟩] : List (View.Piece (Elt F) S64x1 .f32)), y ∈ pc.1.set :=
  View.cover_of_tiled [⟨r14_b, p0⟩] S64x1.size (by rfl) y

theorem whole14_a (p0 : Vec F S64x10 .f32) (y : S64x10.Idx) : y ∈ (⟨r14_a, p0⟩ : View.Piece (Elt F) S64x10 .f32).1.set := by
  obtain ⟨pc, hm, hy⟩ := cover14_a p0 y
  rw [List.mem_singleton] at hm; subst hm; exact hy
theorem whole14_b (p0 : Vec F S64x1 .f32) (y : S64x1.Idx) : y ∈ (⟨r14_b, p0⟩ : View.Piece (Elt F) S64x1 .f32).1.set := by
  obtain ⟨pc, hm, hy⟩ := cover14_b p0 y
  rw [List.mem_singleton] at hm; subst hm; exact hy

set_option maxHeartbeats 4000000 in

theorem sound_kernel14_first (c : Dev nD) (E : Set ℕ) (i : grid14.Coords) (h1 : cond14_0 i) (h2 : ¬ k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (K : PUnit → sProp 𝕄) :
    iprop(owns (c : Thread nD τ) arg1 fullShare x ∗ owns (c : Thread nD τ) arg2 fullShare w
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w
            ∗ owns (c : Thread nD τ) arg4 fullShare (acc14_s i x w zero14_s) ∗ owns (c : Thread nD τ) arg5 fullShare (acc14_c i w zero14_c)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.readCov_eq_canon']
    exact (View.read_writes_of_cover_last arg4.view f4 arg4.view f4 _ _ [] (whole14_a _)).trans (View.read_writes_eq_canon arg4.view f4 _ (cover14_a _))
  iexists _; isplitr
  swap; · iexact H5
  ipureintro
  sl_unfold_words
  rw [View.readCov_eq_canon']
  exact (View.read_writes_of_cover_last arg5.view f5 arg5.view f5 _ _ [] (whole14_b _)).trans (View.read_writes_eq_canon arg5.view f5 _ (cover14_b _))

set_option maxHeartbeats 4000000 in

theorem sound_kernel14_mid (c : Dev nD) (E : Set ℕ) (i : grid14.Coords) (h1 : ¬ cond14_0 i) (h2 : ¬ k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (S : Vec F S64x10 .f32) (C : Vec F S64x1 .f32) (K : PUnit → sProp 𝕄) :
    iprop(owns (c : Thread nD τ) arg1 fullShare x ∗ owns (c : Thread nD τ) arg2 fullShare w
        ∗ owns (c : Thread nD τ) arg4 fullShare S ∗ owns (c : Thread nD τ) arg5 fullShare C
        ∗ (iprop(owns (c : Thread nD τ) arg1 fullShare x ∗ owns (c : Thread nD τ) arg2 fullShare w
            ∗ owns (c : Thread nD τ) arg4 fullShare (acc14_s i x w S) ∗ owns (c : Thread nD τ) arg5 fullShare (acc14_c i w C)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact View.read_writes_eq_canon _ _ _ (cover14_a _)
  iexists _; isplitr
  swap; · iexact H5
  ipureintro
  exact View.read_writes_eq_canon _ _ _ (cover14_b _)

set_option maxHeartbeats 4000000 in

theorem sound_kernel14_last (c : Dev nD) (E : Set ℕ) (i : grid14.Coords) (h1 : ¬ cond14_0 i) (h2 : k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (S : Vec F S64x10 .f32) (C : Vec F S64x1 .f32) (K : PUnit → sProp 𝕄) :
    iprop(owns (c : Thread nD τ) arg1 fullShare x ∗ owns (c : Thread nD τ) arg2 fullShare w ∗ (∃ d, owns (c : Thread nD τ) arg3 fullShare d)
        ∗ owns (c : Thread nD τ) arg4 fullShare S ∗ owns (c : Thread nD τ) arg5 fullShare C
        ∗ (iprop(owns (c : Thread nD τ) arg1 fullShare x ∗ owns (c : Thread nD τ) arg2 fullShare w
            ∗ owns (c : Thread nD τ) arg3 fullShare (fin14 (acc14_s i x w S) (acc14_c i w C))
            ∗ owns (c : Thread nD τ) arg4 fullShare (acc14_s i x w S) ∗ owns (c : Thread nD τ) arg5 fullShare (acc14_c i w C)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.readCov_eq_canon', View.readCov_eq_canon']
    exact View.read_writes_eq_canon _ _ _ (cover14_a _)
  isplitl [H4]
  · iexists _; isplitr
    swap; · iexact H4
    ipureintro
    exact View.read_writes_eq_canon _ _ _ (cover14_a _)
  iexists _; isplitr
  swap; · iexact H5
  ipureintro
  exact View.read_writes_eq_canon _ _ _ (cover14_b _)

theorem sum14_first (c : Dev nD) (t : Fin cfg14.N) (hz : t.val = 0) :
    sum14 V c t.val = acc14_s (grid14.coords t) (iblk14 V c 0 t) (iblk14 V c 1 t) zero14_s := by
  obtain ⟨n, hn⟩ := t
  cases n with
  | zero => rw [sum14_zero, show pt14 0 = ⟨0, hn⟩ from pt14_val ⟨0, hn⟩]
  | succ n => exact absurd hz (Nat.succ_ne_zero n)
theorem cnt14_first (c : Dev nD) (t : Fin cfg14.N) (hz : t.val = 0) :
    cnt14 V c t.val = acc14_c (grid14.coords t) (iblk14 V c 1 t) zero14_c := by
  obtain ⟨n, hn⟩ := t
  cases n with
  | zero => rw [cnt14_zero, show pt14 0 = ⟨0, hn⟩ from pt14_val ⟨0, hn⟩]
  | succ n => exact absurd hz (Nat.succ_ne_zero n)
theorem sum14_pos (c : Dev nD) (t : Fin cfg14.N) (hz : t.val ≠ 0) :
    sum14 V c t.val = acc14_s (grid14.coords t) (iblk14 V c 0 t) (iblk14 V c 1 t) (sum14 V c (t.val - 1)) := by
  obtain ⟨n, hn⟩ := t
  cases n with
  | zero => exact absurd rfl hz
  | succ n => rw [sum14_succ, show pt14 (n + 1) = ⟨n + 1, hn⟩ from pt14_val ⟨n + 1, hn⟩]; rfl
theorem cnt14_pos (c : Dev nD) (t : Fin cfg14.N) (hz : t.val ≠ 0) :
    cnt14 V c t.val = acc14_c (grid14.coords t) (iblk14 V c 1 t) (cnt14 V c (t.val - 1)) := by
  obtain ⟨n, hn⟩ := t
  cases n with
  | zero => exact absurd rfl hz
  | succ n => rw [cnt14_succ, show pt14 (n + 1) = ⟨n + 1, hn⟩ from pt14_val ⟨n + 1, hn⟩]; rfl

theorem Phi14_zero (c : Dev nD) (n : ℕ) (hz : n = 0) : Phi14 V c n = Pipeline.ΦA spec14 c := by
  subst hz; rfl
theorem Phi14_succ (c : Dev nD) (n : ℕ) :
    Phi14 V c (n + 1) = iprop(owns (c : Thread nD τ) (Memref.whole cc14_scratch0) fullShare (sum14 V c n)
      ∗ owns (c : Thread nD τ) (Memref.whole cc14_scratch1) fullShare (cnt14 V c n)
      ∗ Pipeline.scopedRestBut (Ix := Unit) (Name := ℕ) (U := UR sig nD τ) (Lvl := ℕ) (Val := Elt F) spec14 c [cc14_scratch0, cc14_scratch1]
      ∗ ∃ r, prngReg c r) := rfl
theorem Phi14_pos (c : Dev nD) (n : ℕ) (hz : n ≠ 0) :
    Phi14 V c n = iprop(owns (c : Thread nD τ) (Memref.whole cc14_scratch0) fullShare (sum14 V c (n - 1))
      ∗ owns (c : Thread nD τ) (Memref.whole cc14_scratch1) fullShare (cnt14 V c (n - 1))
      ∗ Pipeline.scopedRestBut (Ix := Unit) (Name := ℕ) (U := UR sig nD τ) (Lvl := ℕ) (Val := Elt F) spec14 c [cc14_scratch0, cc14_scratch1]
      ∗ ∃ r, prngReg c r) := by
  cases n with
  | zero => exact absurd rfl hz
  | succ n => rfl

theorem PhiA14_eq (c : Dev nD) :
    (Pipeline.ΦA spec14 c : sProp 𝕄)
      = iprop(iprop(iprop((∃ d, owns (c : Thread nD τ) (Memref.whole cc14_scratch0) fullShare d)
            ∗ (∃ d, owns (c : Thread nD τ) (Memref.whole cc14_scratch1) fullShare d))
          ∗ Pipeline.scopedRestBut (Ix := Unit) (Name := ℕ) (U := UR sig nD τ) (Lvl := ℕ) (Val := Elt F) spec14 c [cc14_scratch0, cc14_scratch1])
        ∗ ∃ r, prngReg c r) := by
  unfold Pipeline.ΦA; rw [scopedRest14_split]; simp only [owns_whole]; try rfl

theorem Phi14_out (c : Dev nD) (n : ℕ) (hz : n ≠ 0) : Phi14 V c n ⊢ Pipeline.ΦA spec14 c := by
  rw [Phi14_pos V c n hz, PhiA14_eq]
  iintro ⟨HS, HC, HR, Hg⟩
  isplitl [HS HC HR]
  · isplitl [HS HC]
    · isplitl [HS]
      · iexists _; iexact HS
      iexists _; iexact HC
    iexact HR
  iexact Hg

theorem Phi14_last (c : Dev nD) : (dat14 V c).Φ (Fin.last _) ⊢ Pipeline.ΦA spec14 c := by
  rw [show (dat14 V c).Φ (Fin.last _) = Phi14 V c (Fin.last cfg14.N).val from rfl]
  exact Phi14_out V c _ (by rw [Fin.val_last]; have : cfg14.N = 10 := N_14; omega)

noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4000000 in

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = Phi14 V c (t.val + 1) from rfl, Phi14_succ]
  rw [show (dat14 V c).Φ t.castSucc = Phi14 V c t.val from rfl]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  have hN : t.val < 10 := t.isLt.trans_eq N_14
  by_cases h9 : t.val = 9
  · have hz : t.val ≠ 0 := by omega
    rw [show (dat14 V c).leavesExact 2 t = owns (c : Thread nD τ) (st14_2 t) fullShare ((dat14 V c).after 2 t) from by
      unfold Dat.leavesExact; rw [liveAt14_2 t h9], after14_2]
    rw [show out14_2 V c = fin14 (sum14 V c t.val) (cnt14 V c t.val) from by rw [h9]; rfl]
    rw [Phi14_pos V c _ hz, sum14_pos V c t hz, cnt14_pos V c t hz]
    iintro ⟨⟨HS, HC, HR, Hg⟩, Ho, ⟨%d0, H0⟩, ⟨%d1, H1⟩, ⟨%d2, H2⟩⟩
    iapply (sound_kernel14_last c Set.univ _ (fun h => hz ((hcond14_0 t).mp h)) ((hcond14_1 t).mpr h9) _ _ _ _ _ _ _ _ _ _
      (iblk14 V c 0 t) (iblk14 V c 1 t) (sum14 V c (t.val - 1)) (cnt14 V c (t.val - 1)) _)
    isplitl [H0]; · iexact H0
    isplitl [H1]; · iexact H1
    isplitl [H2]; · iexists _; iexact H2
    isplitl [HS]; · iexact HS
    isplitl [HC]; · iexact HC
    iintro ⟨H0, H1, H2, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    iexact H2
  · rw [Dat.leavesExact_idle (dat14 V c) 2 t (idleAt14_2 t h9) (noFlush14_2 t h9)]
    by_cases hz : t.val = 0
    · rw [Phi14_zero V c _ hz, PhiA14_eq, sum14_first V c t hz, cnt14_first V c t hz]
      iintro ⟨⟨⟨⟨HS, HC⟩, HR⟩, Hg⟩, Ho, ⟨%d0, H0⟩, ⟨%d1, H1⟩, ⟨%d2, H2⟩⟩
      iapply (sound_kernel14_first c Set.univ _ ((hcond14_0 t).mpr hz) (fun h => h9 ((hcond14_1 t).mp h)) _ _ _ _ _ _ _ _ _ _
        (iblk14 V c 0 t) (iblk14 V c 1 t) _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2
    · rw [Phi14_pos V c _ hz, sum14_pos V c t hz, cnt14_pos V c t hz]
      iintro ⟨⟨HS, HC, HR, Hg⟩, Ho, ⟨%d0, H0⟩, ⟨%d1, H1⟩, ⟨%d2, H2⟩⟩
      iapply (sound_kernel14_mid c Set.univ _ (fun h => hz ((hcond14_0 t).mp h)) (fun h => h9 ((hcond14_1 t).mp h)) _ _ _ _ _ _ _ _ _ _
        (iblk14 V c 0 t) (iblk14 V c 1 t) (sum14 V c (t.val - 1)) (cnt14 V c (t.val - 1)) _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

end Cert.Kernel.Regions

end
-- ==== Proof.Kernel.Run.lean ====
import proofs.«415844_j33432025432092_2_alg».proof.Proof.Kernel.RunAll
import proofs.«415844_j33432025432092_2_alg».proof.Proof.Kernel.Reg0
import proofs.«415844_j33432025432092_2_alg».proof.Proof.Kernel.Reg1
import proofs.«415844_j33432025432092_2_alg».proof.Proof.Kernel.Reg2
import proofs.«415844_j33432025432092_2_alg».proof.Proof.Kernel.Reg3
import proofs.«415844_j33432025432092_2_alg».proof.Proof.Kernel.Reg4
import proofs.«415844_j33432025432092_2_alg».proof.Proof.Kernel.Reg5
import proofs.«415844_j33432025432092_2_alg».proof.Proof.Kernel.Reg6
import proofs.«415844_j33432025432092_2_alg».proof.Proof.Kernel.Reg7
import proofs.«415844_j33432025432092_2_alg».proof.Proof.Kernel.Reg8
import proofs.«415844_j33432025432092_2_alg».proof.Proof.Kernel.Reg9
import proofs.«415844_j33432025432092_2_alg».proof.Proof.Kernel.Reg10
import proofs.«415844_j33432025432092_2_alg».proof.Proof.Kernel.Reg11
import proofs.«415844_j33432025432092_2_alg».proof.Proof.Kernel.Reg12
import proofs.«415844_j33432025432092_2_alg».proof.Proof.Kernel.Reg13
import proofs.«415844_j33432025432092_2_alg».proof.Proof.Kernel.Reg14

noncomputable section

namespace Cert.Kernel.Regions

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat RegionSeg)

variable {F : FTy → Type} [FloatOps F]

abbrev atRefs (U : Dev nD → Valuation τ sig (Elt F)) : (c : Dev nD) → (b : Ref sig .tc) → Buf (Elt F) ((c : Thread nD τ).loc b) :=
  fun c b => U c b

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- An update at one reference is not seen at another. -/
theorem upd_of {V : Valuation τ sig (Elt F)} {b : Ref sig .tc} {x : (Proc.devRef (τ := τ) .tc b).ty.Contents (Elt F)} (r : Ref sig .tc)
    (h : r ∉ [b]) : Function.update V b x r = V r :=
  Function.update_of_ne (StableHlo.devRef_ne_of_ne (List.ne_of_not_mem_cons h)) _ _

/-- Updating at a reference with what the target valuation holds there reaches the target, if the two agree before. -/
theorem upd_eq {V W : Valuation τ sig (Elt F)} {b : DevRef τ sig} {x : b.ty.Contents (Elt F)} (h : V = W) :
    Function.update V b (Function.update W b x b) = Function.update W b x := by
  rw [h, Function.update_self]

def regOf (pdats : (p : Fin 15) → (c : Dev nD) → Dat τ (Elt F) Unit ℕ (UR sig nD τ) ℕ (cfgs p) c) {p : Fin 15}
    (lf : Pipeline.LaunchFacts (nD := nD) (τ := τ) cfgs p) (V V' : Dev nD → Valuation τ sig (Elt F)) (o : Fin (cfgs p).W)
    (hio : ∀ w, w ≠ o → ((cfgs p).win w).isOut = false)
    (hq : ∀ c w, (pdats p c).q w = fullShare)
    (hA : ∀ c w, (pdats p c).A w = V c (Pipeline.arrRef (cfgs p).spec w))
    (howed : ∀ c t, (pdats p c).owed t = 0)
    (hrec : ∀ c x, x ∈ (pdats p c).recorded 0)
    (hΦ0 : ∀ c, Pipeline.ΦA (cfgs p).spec c ⊢ (pdats p c).Φ 0)
    (hΦN : ∀ c, (pdats p c).Φ (Fin.last _) ⊢ Pipeline.ΦA (cfgs p).spec c)
    (hbody : ∀ c, Pipeline.BodyObligation (pdats p c) (defs₀ (F := F)) Variants.none () Set.univ)
    (hout : ∀ c, V' c (Pipeline.arrRef (cfgs p).spec o) = (pdats p c).arrAt o (cfgs p).N)
    (hne : ∀ c (b : Ref sig .tc), b ∉ [Pipeline.arrRef (cfgs p).spec o] → V' c b = V c b) :
    RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    have hsplit := Pipeline.arrays_of_unscopedBufs (p := p) (pcfgs (F := F)) adm pdats lf.win lf.arr_whole c
      ((pdats p c).share_full (hq c)) (atRefs V c) (hA c)
    rw [Pipeline.unscopedBufs_held] at hsplit
    rw [Pipeline.ownSems0_none]
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c)) (atRefs V c) (atRefs V' c) ((pdats p c).arrAt · (cfgs p).N)
      (fun w => by
        by_cases h : w = o
        · subst h; exact (hout c).symm
        · exact ((pdats p c).arrAt_in w (hio w h) _).trans
            ((hA c w).trans (hne c _ fun hm => h (lf.win.arr_inj (List.mem_singleton.mp hm))).symm))
      fun b hb => hne c b fun hm => hb (Finset.mem_image.mpr ⟨o, Finset.mem_univ _, (List.mem_singleton.mp hm).symm⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

variable (m : (ℓ : Loc nD τ sig) → Buf (Elt F) ℓ)

def U1 (c : Dev nD) : Valuation τ sig (Elt F) := Gen.V1 m c
theorem U1_def (c : Dev nD) : U1 m c = StableHlo.after hostOps0 (Gen.V0 m c) := rfl
def o2 (c : Dev nD) : Buf (Elt F) ((c : Thread nD τ).loc main_v12) := (dat0 (atRefs (U1 m)) c).arrAt 3 cfg0.N
theorem o2_def (c : Dev nD) : o2 m c = (dat0 (atRefs (U1 m)) c).arrAt 3 cfg0.N := rfl
def U2 (c : Dev nD) : Valuation τ sig (Elt F) := Function.update (U1 m c) main_v12 (o2 m c)
theorem U2_out (c : Dev nD) : U2 m c main_v12 = o2 m c := Function.update_self ..
def U3 (c : Dev nD) : Valuation τ sig (Elt F) := StableHlo.after hostOps1 (U2 m c)
theorem U3_def (c : Dev nD) : U3 m c = StableHlo.after hostOps1 (U2 m c) := rfl
def o4 (c : Dev nD) : Buf (Elt F) ((c : Thread nD τ).loc main_v23) := (dat1 (atRefs (U3 m)) c).arrAt 4 cfg1.N
theorem o4_def (c : Dev nD) : o4 m c = (dat1 (atRefs (U3 m)) c).arrAt 4 cfg1.N := rfl
def U4 (c : Dev nD) : Valuation τ sig (Elt F) := Function.update (U3 m c) main_v23 (o4 m c)
theorem U4_out (c : Dev nD) : U4 m c main_v23 = o4 m c := Function.update_self ..
def o5 (c : Dev nD) : Buf (Elt F) ((c : Thread nD τ).loc main_v24) := (dat2 (atRefs (U4 m)) c).arrAt 3 cfg2.N
theorem o5_def (c : Dev nD) : o5 m c = (dat2 (atRefs (U4 m)) c).arrAt 3 cfg2.N := rfl
def U5 (c : Dev nD) : Valuation τ sig (Elt F) := Function.update (U4 m c) main_v24 (o5 m c)
theorem U5_out (c : Dev nD) : U5 m c main_v24 = o5 m c := Function.update_self ..
def U6 (c : Dev nD) : Valuation τ sig (Elt F) := StableHlo.after hostOps3 (U5 m c)
theorem U6_def (c : Dev nD) : U6 m c = StableHlo.after hostOps3 (U5 m c) := rfl
def o7 (c : Dev nD) : Buf (Elt F) ((c : Thread nD τ).loc main_v35) := (dat3 (atRefs (U6 m)) c).arrAt 4 cfg3.N
theorem o7_def (c : Dev nD) : o7 m c = (dat3 (atRefs (U6 m)) c).arrAt 4 cfg3.N := rfl
def U7 (c : Dev nD) : Valuation τ sig (Elt F) := Function.update (U6 m c) main_v35 (o7 m c)
theorem U7_out (c : Dev nD) : U7 m c main_v35 = o7 m c := Function.update_self ..
def o8 (c : Dev nD) : Buf (Elt F) ((c : Thread nD τ).loc main_v36) := (dat4 (atRefs (U7 m)) c).arrAt 3 cfg4.N
theorem o8_def (c : Dev nD) : o8 m c = (dat4 (atRefs (U7 m)) c).arrAt 3 cfg4.N := rfl
def U8 (c : Dev nD) : Valuation τ sig (Elt F) := Function.update (U7 m c) main_v36 (o8 m c)
theorem U8_out (c : Dev nD) : U8 m c main_v36 = o8 m c := Function.update_self ..
def U9 (c : Dev nD) : Valuation τ sig (Elt F) := StableHlo.after hostOps5 (U8 m c)
theorem U9_def (c : Dev nD) : U9 m c = StableHlo.after hostOps5 (U8 m c) := rfl
def o10 (c : Dev nD) : Buf (Elt F) ((c : Thread nD τ).loc main_v47) := (dat5 (atRefs (U9 m)) c).arrAt 4 cfg5.N
theorem o10_def (c : Dev nD) : o10 m c = (dat5 (atRefs (U9 m)) c).arrAt 4 cfg5.N := rfl
def U10 (c : Dev nD) : Valuation τ sig (Elt F) := Function.update (U9 m c) main_v47 (o10 m c)
theorem U10_out (c : Dev nD) : U10 m c main_v47 = o10 m c := Function.update_self ..
def o11 (c : Dev nD) : Buf (Elt F) ((c : Thread nD τ).loc main_v48) := (dat6 (atRefs (U10 m)) c).arrAt 3 cfg6.N
theorem o11_def (c : Dev nD) : o11 m c = (dat6 (atRefs (U10 m)) c).arrAt 3 cfg6.N := rfl
def U11 (c : Dev nD) : Valuation τ sig (Elt F) := Function.update (U10 m c) main_v48 (o11 m c)
theorem U11_out (c : Dev nD) : U11 m c main_v48 = o11 m c := Function.update_self ..
def U12 (c : Dev nD) : Valuation τ sig (Elt F) := StableHlo.after hostOps7 (U11 m c)
theorem U12_def (c : Dev nD) : U12 m c = StableHlo.after hostOps7 (U11 m c) := rfl
def o13 (c : Dev nD) : Buf (Elt F) ((c : Thread nD τ).loc main_v59) := (dat7 (atRefs (U12 m)) c).arrAt 4 cfg7.N
theorem o13_def (c : Dev nD) : o13 m c = (dat7 (atRefs (U12 m)) c).arrAt 4 cfg7.N := rfl
def U13 (c : Dev nD) : Valuation τ sig (Elt F) := Function.update (U12 m c) main_v59 (o13 m c)
theorem U13_out (c : Dev nD) : U13 m c main_v59 = o13 m c := Function.update_self ..
def o14 (c : Dev nD) : Buf (Elt F) ((c : Thread nD τ).loc main_v60) := (dat8 (atRefs (U13 m)) c).arrAt 3 cfg8.N
theorem o14_def (c : Dev nD) : o14 m c = (dat8 (atRefs (U13 m)) c).arrAt 3 cfg8.N := rfl
def U14 (c : Dev nD) : Valuation τ sig (Elt F) := Function.update (U13 m c) main_v60 (o14 m c)
theorem U14_out (c : Dev nD) : U14 m c main_v60 = o14 m c := Function.update_self ..
def U15 (c : Dev nD) : Valuation τ sig (Elt F) := StableHlo.after hostOps9 (U14 m c)
theorem U15_def (c : Dev nD) : U15 m c = StableHlo.after hostOps9 (U14 m c) := rfl
def o16 (c : Dev nD) : Buf (Elt F) ((c : Thread nD τ).loc main_v71) := (dat9 (atRefs (U15 m)) c).arrAt 4 cfg9.N
theorem o16_def (c : Dev nD) : o16 m c = (dat9 (atRefs (U15 m)) c).arrAt 4 cfg9.N := rfl
def U16 (c : Dev nD) : Valuation τ sig (Elt F) := Function.update (U15 m c) main_v71 (o16 m c)
theorem U16_out (c : Dev nD) : U16 m c main_v71 = o16 m c := Function.update_self ..
def o17 (c : Dev nD) : Buf (Elt F) ((c : Thread nD τ).loc main_v72) := (dat10 (atRefs (U16 m)) c).arrAt 3 cfg10.N
theorem o17_def (c : Dev nD) : o17 m c = (dat10 (atRefs (U16 m)) c).arrAt 3 cfg10.N := rfl
def U17 (c : Dev nD) : Valuation τ sig (Elt F) := Function.update (U16 m c) main_v72 (o17 m c)
theorem U17_out (c : Dev nD) : U17 m c main_v72 = o17 m c := Function.update_self ..
def U18 (c : Dev nD) : Valuation τ sig (Elt F) := StableHlo.after hostOps11 (U17 m c)
theorem U18_def (c : Dev nD) : U18 m c = StableHlo.after hostOps11 (U17 m c) := rfl
def o19 (c : Dev nD) : Buf (Elt F) ((c : Thread nD τ).loc main_v83) := (dat11 (atRefs (U18 m)) c).arrAt 4 cfg11.N
theorem o19_def (c : Dev nD) : o19 m c = (dat11 (atRefs (U18 m)) c).arrAt 4 cfg11.N := rfl
def U19 (c : Dev nD) : Valuation τ sig (Elt F) := Function.update (U18 m c) main_v83 (o19 m c)
theorem U19_out (c : Dev nD) : U19 m c main_v83 = o19 m c := Function.update_self ..
def o20 (c : Dev nD) : Buf (Elt F) ((c : Thread nD τ).loc main_v84) := (dat12 (atRefs (U19 m)) c).arrAt 3 cfg12.N
theorem o20_def (c : Dev nD) : o20 m c = (dat12 (atRefs (U19 m)) c).arrAt 3 cfg12.N := rfl
def U20 (c : Dev nD) : Valuation τ sig (Elt F) := Function.update (U19 m c) main_v84 (o20 m c)
theorem U20_out (c : Dev nD) : U20 m c main_v84 = o20 m c := Function.update_self ..
def U21 (c : Dev nD) : Valuation τ sig (Elt F) := StableHlo.after hostOps13 (U20 m c)
theorem U21_def (c : Dev nD) : U21 m c = StableHlo.after hostOps13 (U20 m c) := rfl
def o22 (c : Dev nD) : Buf (Elt F) ((c : Thread nD τ).loc main_v95) := (dat13 (atRefs (U21 m)) c).arrAt 4 cfg13.N
theorem o22_def (c : Dev nD) : o22 m c = (dat13 (atRefs (U21 m)) c).arrAt 4 cfg13.N := rfl
def U22 (c : Dev nD) : Valuation τ sig (Elt F) := Function.update (U21 m c) main_v95 (o22 m c)
theorem U22_out (c : Dev nD) : U22 m c main_v95 = o22 m c := Function.update_self ..
def U23 (c : Dev nD) : Valuation τ sig (Elt F) := StableHlo.after hostOps14 (U22 m c)
theorem U23_def (c : Dev nD) : U23 m c = StableHlo.after hostOps14 (U22 m c) := rfl
def o24 (c : Dev nD) : Buf (Elt F) ((c : Thread nD τ).loc main_v97) := (dat14 (atRefs (U23 m)) c).arrAt 2 cfg14.N
theorem o24_def (c : Dev nD) : o24 m c = (dat14 (atRefs (U23 m)) c).arrAt 2 cfg14.N := rfl
def U24 (c : Dev nD) : Valuation τ sig (Elt F) := Function.update (U23 m c) main_v97 (o24 m c)
theorem U24_out (c : Dev nD) : U24 m c main_v97 = o24 m c := Function.update_self ..

def outs : Outs (F := F) := fun J r c => match J with
  | 2 => U2 m c r
  | 4 => U4 m c r
  | 5 => U5 m c r
  | 7 => U7 m c r
  | 8 => U8 m c r
  | 10 => U10 m c r
  | 11 => U11 m c r
  | 13 => U13 m c r
  | 14 => U14 m c r
  | 16 => U16 m c r
  | 17 => U17 m c r
  | 19 => U19 m c r
  | 20 => U20 m c r
  | 22 => U22 m c r
  | 24 => U24 m c r
  | _ => m ((c : Thread nD τ).loc r)

theorem V1_eq (c : Dev nD) : Gen.V1 m c = U1 m c := rfl
theorem V2_eq (c : Dev nD) : Gen.V2 m (outs m) c = U2 m c := upd_eq (V1_eq m c)
theorem V3_eq (c : Dev nD) : Gen.V3 m (outs m) c = U3 m c := congrArg (StableHlo.after hostOps1) (V2_eq m c)
theorem V4_eq (c : Dev nD) : Gen.V4 m (outs m) c = U4 m c := upd_eq (V3_eq m c)
theorem V5_eq (c : Dev nD) : Gen.V5 m (outs m) c = U5 m c := upd_eq (V4_eq m c)
theorem V6_eq (c : Dev nD) : Gen.V6 m (outs m) c = U6 m c := congrArg (StableHlo.after hostOps3) (V5_eq m c)
theorem V7_eq (c : Dev nD) : Gen.V7 m (outs m) c = U7 m c := upd_eq (V6_eq m c)
theorem V8_eq (c : Dev nD) : Gen.V8 m (outs m) c = U8 m c := upd_eq (V7_eq m c)
theorem V9_eq (c : Dev nD) : Gen.V9 m (outs m) c = U9 m c := congrArg (StableHlo.after hostOps5) (V8_eq m c)
theorem V10_eq (c : Dev nD) : Gen.V10 m (outs m) c = U10 m c := upd_eq (V9_eq m c)
theorem V11_eq (c : Dev nD) : Gen.V11 m (outs m) c = U11 m c := upd_eq (V10_eq m c)
theorem V12_eq (c : Dev nD) : Gen.V12 m (outs m) c = U12 m c := congrArg (StableHlo.after hostOps7) (V11_eq m c)
theorem V13_eq (c : Dev nD) : Gen.V13 m (outs m) c = U13 m c := upd_eq (V12_eq m c)
theorem V14_eq (c : Dev nD) : Gen.V14 m (outs m) c = U14 m c := upd_eq (V13_eq m c)
theorem V15_eq (c : Dev nD) : Gen.V15 m (outs m) c = U15 m c := congrArg (StableHlo.after hostOps9) (V14_eq m c)
theorem V16_eq (c : Dev nD) : Gen.V16 m (outs m) c = U16 m c := upd_eq (V15_eq m c)
theorem V17_eq (c : Dev nD) : Gen.V17 m (outs m) c = U17 m c := upd_eq (V16_eq m c)
theorem V18_eq (c : Dev nD) : Gen.V18 m (outs m) c = U18 m c := congrArg (StableHlo.after hostOps11) (V17_eq m c)
theorem V19_eq (c : Dev nD) : Gen.V19 m (outs m) c = U19 m c := upd_eq (V18_eq m c)
theorem V20_eq (c : Dev nD) : Gen.V20 m (outs m) c = U20 m c := upd_eq (V19_eq m c)
theorem V21_eq (c : Dev nD) : Gen.V21 m (outs m) c = U21 m c := congrArg (StableHlo.after hostOps13) (V20_eq m c)
theorem V22_eq (c : Dev nD) : Gen.V22 m (outs m) c = U22 m c := upd_eq (V21_eq m c)
theorem V23_eq (c : Dev nD) : Gen.V23 m (outs m) c = U23 m c := congrArg (StableHlo.after hostOps14) (V22_eq m c)
theorem V24_eq (c : Dev nD) : Gen.V24 m (outs m) c = U24 m c := upd_eq (V23_eq m c)

theorem U1_of (c : Dev nD) (r : Ref sig .tc) (h : r ∉ hostOps0_W) : U1 m c r = m ((c : Thread nD τ).loc r) := Gen.V1_of m c r h
theorem U2_of (c : Dev nD) (r : Ref sig .tc) (h : r ∉ ([main_v12] : List (Ref sig .tc))) : U2 m c r = U1 m c r := upd_of r h
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ∉ ([main_v23] : List (Ref sig .tc))) : U4 m c r = U3 m c r := upd_of r h
theorem U5_of (c : Dev nD) (r : Ref sig .tc) (h : r ∉ ([main_v24] : List (Ref sig .tc))) : U5 m c r = U4 m c r := upd_of r h
theorem U6_of (c : Dev nD) (r : Ref sig .tc) (h : r ∉ hostOps3_W) : U6 m c r = U5 m c r :=
  StableHlo.after_of_writes_sub hostOps3 _ hostOps3_writes h
theorem U7_of (c : Dev nD) (r : Ref sig .tc) (h : r ∉ ([main_v35] : List (Ref sig .tc))) : U7 m c r = U6 m c r := upd_of r h
theorem U8_of (c : Dev nD) (r : Ref sig .tc) (h : r ∉ ([main_v36] : List (Ref sig .tc))) : U8 m c r = U7 m c r := upd_of r h
theorem U9_of (c : Dev nD) (r : Ref sig .tc) (h : r ∉ hostOps5_W) : U9 m c r = U8 m c r :=
  StableHlo.after_of_writes_sub hostOps5 _ hostOps5_writes h
theorem U10_of (c : Dev nD) (r : Ref sig .tc) (h : r ∉ ([main_v47] : List (Ref sig .tc))) : U10 m c r = U9 m c r := upd_of r h
theorem U11_of (c : Dev nD) (r : Ref sig .tc) (h : r ∉ ([main_v48] : List (Ref sig .tc))) : U11 m c r = U10 m c r := upd_of r h
theorem U12_of (c : Dev nD) (r : Ref sig .tc) (h : r ∉ hostOps7_W) : U12 m c r = U11 m c r :=
  StableHlo.after_of_writes_sub hostOps7 _ hostOps7_writes h
theorem U13_of (c : Dev nD) (r : Ref sig .tc) (h : r ∉ ([main_v59] : List (Ref sig .tc))) : U13 m c r = U12 m c r := upd_of r h
theorem U14_of (c : Dev nD) (r : Ref sig .tc) (h : r ∉ ([main_v60] : List (Ref sig .tc))) : U14 m c r = U13 m c r := upd_of r h
theorem U15_of (c : Dev nD) (r : Ref sig .tc) (h : r ∉ hostOps9_W) : U15 m c r = U14 m c r :=
  StableHlo.after_of_writes_sub hostOps9 _ hostOps9_writes h
theorem U16_of (c : Dev nD) (r : Ref sig .tc) (h : r ∉ ([main_v71] : List (Ref sig .tc))) : U16 m c r = U15 m c r := upd_of r h
theorem U17_of (c : Dev nD) (r : Ref sig .tc) (h : r ∉ ([main_v72] : List (Ref sig .tc))) : U17 m c r = U16 m c r := upd_of r h
theorem U18_of (c : Dev nD) (r : Ref sig .tc) (h : r ∉ hostOps11_W) : U18 m c r = U17 m c r :=
  StableHlo.after_of_writes_sub hostOps11 _ hostOps11_writes h
theorem U19_of (c : Dev nD) (r : Ref sig .tc) (h : r ∉ ([main_v83] : List (Ref sig .tc))) : U19 m c r = U18 m c r := upd_of r h
theorem U20_of (c : Dev nD) (r : Ref sig .tc) (h : r ∉ ([main_v84] : List (Ref sig .tc))) : U20 m c r = U19 m c r := upd_of r h
theorem U21_of (c : Dev nD) (r : Ref sig .tc) (h : r ∉ hostOps13_W) : U21 m c r = U20 m c r :=
  StableHlo.after_of_writes_sub hostOps13 _ hostOps13_writes h
theorem U22_of (c : Dev nD) (r : Ref sig .tc) (h : r ∉ ([main_v95] : List (Ref sig .tc))) : U22 m c r = U21 m c r := upd_of r h
theorem U23_of (c : Dev nD) (r : Ref sig .tc) (h : r ∉ hostOps14_W) : U23 m c r = U22 m c r :=
  StableHlo.after_of_writes_sub hostOps14 _ hostOps14_writes h
theorem U24_of (c : Dev nD) (r : Ref sig .tc) (h : r ∉ ([main_v97] : List (Ref sig .tc))) : U24 m c r = U23 m c r := upd_of r h

attribute [irreducible] U1 U2 U3 U4 U5 U6 U7 U8 U9 U10 U11 U12 U13 U14 U15 U16 U17 U18 U19 U20 U21 U22 U23 U24 o2 o4 o5 o7 o8 o10 o11 o13 o14 o16 o17 o19 o20 o22 o24

def pdats : (p : Fin 15) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U4 m)) c
  | ⟨3, _⟩ => fun c => dat3 (atRefs (U6 m)) c
  | ⟨4, _⟩ => fun c => dat4 (atRefs (U7 m)) c
  | ⟨5, _⟩ => fun c => dat5 (atRefs (U9 m)) c
  | ⟨6, _⟩ => fun c => dat6 (atRefs (U10 m)) c
  | ⟨7, _⟩ => fun c => dat7 (atRefs (U12 m)) c
  | ⟨8, _⟩ => fun c => dat8 (atRefs (U13 m)) c
  | ⟨9, _⟩ => fun c => dat9 (atRefs (U15 m)) c
  | ⟨10, _⟩ => fun c => dat10 (atRefs (U16 m)) c
  | ⟨11, _⟩ => fun c => dat11 (atRefs (U18 m)) c
  | ⟨12, _⟩ => fun c => dat12 (atRefs (U19 m)) c
  | ⟨13, _⟩ => fun c => dat13 (atRefs (U21 m)) c
  | ⟨14, _⟩ => fun c => dat14 (atRefs (U23 m)) c

def reg0 : RegionSeg (pcfgs (F := F)) adm (pdats m) () defs₀ 𝒱₀ L lv 0 :=
  regOf _ launch0 (U1 m) (U2 m) 3 (by decide) (fun _ _ => rfl) (fun _ _ => rfl) (fun _ _ => rfl) (fun _ _ => trivial) (fun _ => .rfl) (fun _ => .rfl)
    (body_obligation0 (atRefs (U1 m))) (fun c => (U2_out m c).trans (o2_def m c)) (U2_of m)
def reg1 : RegionSeg (pcfgs (F := F)) adm (pdats m) () defs₀ 𝒱₀ L lv 1 :=
  regOf _ launch1 (U3 m) (U4 m) 4 (by decide) (fun _ _ => rfl) (fun _ _ => rfl) (fun _ _ => rfl) (fun _ _ => trivial) (fun _ => .rfl) (fun _ => .rfl)
    (body_obligation1 (atRefs (U3 m))) (fun c => (U4_out m c).trans (o4_def m c)) (U4_of m)
def reg2 : RegionSeg (pcfgs (F := F)) adm (pdats m) () defs₀ 𝒱₀ L lv 2 :=
  regOf _ launch2 (U4 m) (U5 m) 3 (by decide) (fun _ _ => rfl) (fun _ _ => rfl) (fun _ _ => rfl) (fun _ _ => trivial) (fun _ => .rfl) (fun _ => .rfl)
    (body_obligation2 (atRefs (U4 m))) (fun c => (U5_out m c).trans (o5_def m c)) (U5_of m)
def reg3 : RegionSeg (pcfgs (F := F)) adm (pdats m) () defs₀ 𝒱₀ L lv 3 :=
  regOf _ launch3 (U6 m) (U7 m) 4 (by decide) (fun _ _ => rfl) (fun _ _ => rfl) (fun _ _ => rfl) (fun _ _ => trivial) (fun _ => .rfl) (fun _ => .rfl)
    (body_obligation3 (atRefs (U6 m))) (fun c => (U7_out m c).trans (o7_def m c)) (U7_of m)
def reg4 : RegionSeg (pcfgs (F := F)) adm (pdats m) () defs₀ 𝒱₀ L lv 4 :=
  regOf _ launch4 (U7 m) (U8 m) 3 (by decide) (fun _ _ => rfl) (fun _ _ => rfl) (fun _ _ => rfl) (fun _ _ => trivial) (fun _ => .rfl) (fun _ => .rfl)
    (body_obligation4 (atRefs (U7 m))) (fun c => (U8_out m c).trans (o8_def m c)) (U8_of m)
def reg5 : RegionSeg (pcfgs (F := F)) adm (pdats m) () defs₀ 𝒱₀ L lv 5 :=
  regOf _ launch5 (U9 m) (U10 m) 4 (by decide) (fun _ _ => rfl) (fun _ _ => rfl) (fun _ _ => rfl) (fun _ _ => trivial) (fun _ => .rfl) (fun _ => .rfl)
    (body_obligation5 (atRefs (U9 m))) (fun c => (U10_out m c).trans (o10_def m c)) (U10_of m)
def reg6 : RegionSeg (pcfgs (F := F)) adm (pdats m) () defs₀ 𝒱₀ L lv 6 :=
  regOf _ launch6 (U10 m) (U11 m) 3 (by decide) (fun _ _ => rfl) (fun _ _ => rfl) (fun _ _ => rfl) (fun _ _ => trivial) (fun _ => .rfl) (fun _ => .rfl)
    (body_obligation6 (atRefs (U10 m))) (fun c => (U11_out m c).trans (o11_def m c)) (U11_of m)
def reg7 : RegionSeg (pcfgs (F := F)) adm (pdats m) () defs₀ 𝒱₀ L lv 7 :=
  regOf _ launch7 (U12 m) (U13 m) 4 (by decide) (fun _ _ => rfl) (fun _ _ => rfl) (fun _ _ => rfl) (fun _ _ => trivial) (fun _ => .rfl) (fun _ => .rfl)
    (body_obligation7 (atRefs (U12 m))) (fun c => (U13_out m c).trans (o13_def m c)) (U13_of m)
def reg8 : RegionSeg (pcfgs (F := F)) adm (pdats m) () defs₀ 𝒱₀ L lv 8 :=
  regOf _ launch8 (U13 m) (U14 m) 3 (by decide) (fun _ _ => rfl) (fun _ _ => rfl) (fun _ _ => rfl) (fun _ _ => trivial) (fun _ => .rfl) (fun _ => .rfl)
    (body_obligation8 (atRefs (U13 m))) (fun c => (U14_out m c).trans (o14_def m c)) (U14_of m)
def reg9 : RegionSeg (pcfgs (F := F)) adm (pdats m) () defs₀ 𝒱₀ L lv 9 :=
  regOf _ launch9 (U15 m) (U16 m) 4 (by decide) (fun _ _ => rfl) (fun _ _ => rfl) (fun _ _ => rfl) (fun _ _ => trivial) (fun _ => .rfl) (fun _ => .rfl)
    (body_obligation9 (atRefs (U15 m))) (fun c => (U16_out m c).trans (o16_def m c)) (U16_of m)
def reg10 : RegionSeg (pcfgs (F := F)) adm (pdats m) () defs₀ 𝒱₀ L lv 10 :=
  regOf _ launch10 (U16 m) (U17 m) 3 (by decide) (fun _ _ => rfl) (fun _ _ => rfl) (fun _ _ => rfl) (fun _ _ => trivial) (fun _ => .rfl) (fun _ => .rfl)
    (body_obligation10 (atRefs (U16 m))) (fun c => (U17_out m c).trans (o17_def m c)) (U17_of m)
def reg11 : RegionSeg (pcfgs (F := F)) adm (pdats m) () defs₀ 𝒱₀ L lv 11 :=
  regOf _ launch11 (U18 m) (U19 m) 4 (by decide) (fun _ _ => rfl) (fun _ _ => rfl) (fun _ _ => rfl) (fun _ _ => trivial) (fun _ => .rfl) (fun _ => .rfl)
    (body_obligation11 (atRefs (U18 m))) (fun c => (U19_out m c).trans (o19_def m c)) (U19_of m)
def reg12 : RegionSeg (pcfgs (F := F)) adm (pdats m) () defs₀ 𝒱₀ L lv 12 :=
  regOf _ launch12 (U19 m) (U20 m) 3 (by decide) (fun _ _ => rfl) (fun _ _ => rfl) (fun _ _ => rfl) (fun _ _ => trivial) (fun _ => .rfl) (fun _ => .rfl)
    (body_obligation12 (atRefs (U19 m))) (fun c => (U20_out m c).trans (o20_def m c)) (U20_of m)
def reg13 : RegionSeg (pcfgs (F := F)) adm (pdats m) () defs₀ 𝒱₀ L lv 13 :=
  regOf _ launch13 (U21 m) (U22 m) 4 (by decide) (fun _ _ => rfl) (fun _ _ => rfl) (fun _ _ => rfl) (fun _ _ => trivial) (fun _ => .rfl) (fun _ => .rfl)
    (body_obligation13 (atRefs (U21 m))) (fun c => (U22_out m c).trans (o22_def m c)) (U22_of m)
def reg14 : RegionSeg (pcfgs (F := F)) adm (pdats m) () defs₀ 𝒱₀ L lv 14 :=
  regOf _ launch14 (U23 m) (U24 m) 2 (by decide) (fun _ _ => rfl) (fun _ _ => rfl) (fun _ _ => rfl) (fun _ _ => trivial) (fun _ => .rfl) (Phi14_last (atRefs (U23 m)))
    (body_obligation14 (atRefs (U23 m))) (fun c => (U24_out m c).trans (o24_def m c)) (U24_of m)

end Cert.Kernel.Regions

end
-- ==== Proof.Kernel.RunMain.lean ====
import proofs.«415844_j33432025432092_2_alg».proof.Proof.Kernel.Run

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every unscoped buffer ends at the last valuation: each call is entered from, and left at, the chain's thread state. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V24 m (outs m) c b) :=
  Gen.run_all (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE15 := fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V10_eq]; exact .rfl) (fun c => by rw [V11_eq]; exact .rfl)
    (reg7 m) (fun c => by rw [V12_eq]; exact .rfl) (fun c => by rw [V13_eq]; exact .rfl)
    (reg8 m) (fun c => by rw [V13_eq]; exact .rfl) (fun c => by rw [V14_eq]; exact .rfl)
    (reg9 m) (fun c => by rw [V15_eq]; exact .rfl) (fun c => by rw [V16_eq]; exact .rfl)
    (reg10 m) (fun c => by rw [V16_eq]; exact .rfl) (fun c => by rw [V17_eq]; exact .rfl)
    (reg11 m) (fun c => by rw [V18_eq]; exact .rfl) (fun c => by rw [V19_eq]; exact .rfl)
    (reg12 m) (fun c => by rw [V19_eq]; exact .rfl) (fun c => by rw [V20_eq]; exact .rfl)
    (reg13 m) (fun c => by rw [V21_eq]; exact .rfl) (fun c => by rw [V22_eq]; exact .rfl)
    (reg14 m) (fun c => by rw [V23_eq]; exact .rfl) (fun c => by rw [V24_eq]; exact .rfl)

theorem run_result : θ_run defs (onTc (τ := τ) (main (F := F))) ⟨m, fun _ => 0, ρ⟩ (fun r => ∀ c : Dev nD,
      r.2.mem ((c.tc : Thread nD τ).loc main_v97) = o24 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have a {b : Ref sig .tc} (hb) {x} (e : Gen.V24 m (outs m) c b = x) : r.2.mem ((c.tc : Thread nD τ).loc b) = x :=
      (h c _ (mem_uc b hb)).trans e
    ⟨a (by decide) ((congrFun (V24_eq m c) _).trans (U24_out m c)),
     a (by decide) (Gen.V24_main_arg0 m (outs m) c),
     a (by decide) (Gen.V24_main_arg1 m (outs m) c),
     a (by decide) (Gen.V24_main_arg2 m (outs m) c),
     a (by decide) (Gen.V24_main_arg3 m (outs m) c),
     a (by decide) (Gen.V24_main_arg4 m (outs m) c),
     a (by decide) (Gen.V24_main_arg5 m (outs m) c),
     a (by decide) (Gen.V24_main_arg6 m (outs m) c),
     a (by decide) (Gen.V24_main_arg7 m (outs m) c),
     a (by decide) (Gen.V24_main_arg8 m (outs m) c),
     a (by decide) (Gen.V24_main_arg9 m (outs m) c),
     a (by decide) (Gen.V24_main_arg10 m (outs m) c),
     a (by decide) (Gen.V24_main_arg11 m (outs m) c),
     a (by decide) (Gen.V24_main_arg12 m (outs m) c),
     a (by decide) (Gen.V24_main_arg13 m (outs m) c),
     a (by decide) (Gen.V24_main_arg14 m (outs m) c),
     a (by decide) (Gen.V24_main_arg15 m (outs m) c),
     a (by decide) (Gen.V24_main_arg16 m (outs m) c)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Cert.Kernel.Regions

end
-- ==== Proof.KernelIdeal.Reg0.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import proofs.«415844_j33432025432092_2_alg».proof.Proof.RegLib

set_option maxRecDepth 16384

noncomputable section

namespace Cert.KernelIdeal.Regions

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x6 := Rect.unit (s := S128x6) ![0, 0] S128x6.size inb_S128x6_S128x6_0_0
abbrev r0_d : Rect S5000x1 := Rect.unit (s := S5000x1) ![0, 0] S5000x1.size inb_S5000x1_S5000x1_0_0
abbrev r0_o : Rect S5000x6 := Rect.unit (s := S5000x6) ![0, 0] S5000x6.size inb_S5000x6_S5000x6_0_0

/-- What the body's one store leaves in the output's buffer. -/
noncomputable def out0_3 (x0 : Vec F S5000x128 .f32) (x1 : Vec F S128x6 .f32) (x2 : Vec F S5000x1 .f32) : Vec F S5000x6 .f32 :=
  View.canon [⟨r0_o, k0_pay1 (View.ld x0 r0_x) (View.ld x1 r0_w) (View.ld x2 r0_d)⟩]

set_option maxHeartbeats 4000000 in
/-- The body keeps its inputs, and its one store covers the output's buffer. -/
theorem sound_kernel0 (c : Dev nD) (E : Set ℕ) (i : grid0.Coords)
    (arg1 : Memref sig .tc .vmem S5000x128 .f32) (harg1 : arg1.IsWhole) (arg2 : Memref sig .tc .vmem S128x6 .f32) (harg2 : arg2.IsWhole)
    (arg3 : Memref sig .tc .vmem S5000x1 .f32) (harg3 : arg3.IsWhole) (arg4 : Memref sig .tc .vmem S5000x6 .f32) (harg4 : arg4.IsWhole)
    (x0 : Vec F S5000x128 .f32) (x1 : Vec F S128x6 .f32) (x2 : Vec F S5000x1 .f32) (d : Vec F S5000x6 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc0__linear_scaled_kernel i arg1 harg1 arg2 harg2 arg3 harg3 arg4 harg4) fun _ =>
        iprop(owns c arg1 fullShare x0 ∗ owns c arg2 fullShare x1 ∗ owns c arg3 fullShare x2 ∗ owns c arg4 fullShare (out0_3 x0 x1 x2)) := by
  simp only [cc0__linear_scaled_kernel_eq_skeleton]; unfold cc0__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x6.size (by rfl))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by
  dsimp only [dat0]

theorem body_obligation0 (c : Dev nD) : BodyObligation (dat0 (F := F) V c) (defs₀ (F := F)) Variants.none () Set.univ := fun t => by
  rw [bigSep_W0, bigSep_W0]
  refine wp_ex4 (p := bodyAt0 t) _ _ _ fun d0 d1 d2 d3 => ?_
  rw [(dat0 V c).before_in_eq_fetched 0 rfl (fun _ => rfl) (fun _ _ _ => rfl) fun _ => by dsimp only [dat0]; rfl,
    (dat0 V c).before_in_eq_fetched 1 rfl (fun _ => rfl) (fun _ _ _ => rfl) fun _ => by dsimp only [dat0]; rfl,
    (dat0 V c).before_in_eq_fetched 2 rfl (fun _ => rfl) (fun _ _ _ => rfl) fun _ => by dsimp only [dat0]; rfl]
  dsimp only [dat0]
  exact sound_kernel0 c Set.univ _ _ _ _ _ _ _ _ _ _ _ _ _

end Cert.KernelIdeal.Regions

end
-- ==== Proof.KernelIdeal.Reg1.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import proofs.«415844_j33432025432092_2_alg».proof.Proof.RegLib

set_option maxRecDepth 16384

noncomputable section

namespace Cert.KernelIdeal.Regions

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S5000x6 := Rect.unit (s := S5000x6) ![0, 0] S5000x6.size inb_S5000x6_S5000x6_0_0
abbrev r1_d : Rect S5000x1 := Rect.unit (s := S5000x1) ![0, 0] S5000x1.size inb_S5000x1_S5000x1_0_0
abbrev r1_b : Rect S6 := Rect.unit (s := S6) ![0] S6.size inb_S6_S6_0

/-- What the body's one store leaves in the output's buffer. -/
noncomputable def out1_4 (x0 : Vec F S5000x6 .f32) (x1 : Vec F S5000x6 .f32) (x2 : Vec F S5000x1 .f32) (x3 : Vec F S6 .f32) : Vec F S5000x6 .f32 :=
  View.canon [⟨r1_a, k1_pay1 (View.ld x0 r1_a) (View.ld x1 r1_a) (View.ld x2 r1_d) (View.ld x3 r1_b)⟩]

set_option maxHeartbeats 4000000 in
/-- The body keeps its inputs, and its one store covers the output's buffer. -/
theorem sound_kernel1 (c : Dev nD) (E : Set ℕ) (i : grid1.Coords)
    (arg1 : Memref sig .tc .vmem S5000x6 .f32) (harg1 : arg1.IsWhole) (arg2 : Memref sig .tc .vmem S5000x6 .f32) (harg2 : arg2.IsWhole)
    (arg3 : Memref sig .tc .vmem S5000x1 .f32) (harg3 : arg3.IsWhole) (arg4 : Memref sig .tc .vmem S6 .f32) (harg4 : arg4.IsWhole)
    (arg5 : Memref sig .tc .vmem S5000x6 .f32) (harg5 : arg5.IsWhole)
    (x0 : Vec F S5000x6 .f32) (x1 : Vec F S5000x6 .f32) (x2 : Vec F S5000x1 .f32) (x3 : Vec F S6 .f32) (d : Vec F S5000x6 .f32) :
    (iprop(owns c arg1 fullShare x0 ∗ owns c arg2 fullShare x1 ∗ owns c arg3 fullShare x2 ∗ owns c arg4 fullShare x3 ∗ owns c arg5 fullShare d)
        : sProp (MT nD τ sig Unit (Elt F) ℕ (UR sig nD τ) ℕ))
      ⊢ wp frame (wpE (defs₀ (F := F)) Variants.none c none) E
          (cc1__postscale_bias_relu_kernel i arg1 harg1 arg2 harg2 arg3 harg3 arg4 harg4 arg5 harg5) fun _ =>
        iprop(owns c arg1 fullShare x0 ∗ owns c arg2 fullShare x1 ∗ owns c arg3 fullShare x2 ∗ owns c arg4 fullShare x3
          ∗ owns c arg5 fullShare (out1_4 x0 x1 x2 x3)) := by
  simp only [cc1__postscale_bias_relu_kernel_eq_skeleton]; unfold cc1__postscale_bias_relu_kernel_skel owns
  iintro ⟨⟨%f0, %hf0, H0⟩, ⟨%f1, %hf1, H1⟩, ⟨%f2, %hf2, H2⟩, ⟨%f3, %hf3, H3⟩, ⟨%f4, -, H4⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x6.size (by rfl))

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := rfl

theorem after1_4 (c : Dev nD) (t : Fin cfg1.N) : (dat1 V c).after 4 t = out1_4 (iblk1 V c 0 t) (iblk1 V c 1 t) (iblk1 V c 2 t) (iblk1 V c 3 t) := by
  dsimp only [dat1]

theorem body_obligation1 (c : Dev nD) : BodyObligation (dat1 (F := F) V c) (defs₀ (F := F)) Variants.none () Set.univ := fun t => by
  rw [bigSep_W1, bigSep_W1]
  refine wp_ex5 (p := bodyAt1 t) _ _ _ fun d0 d1 d2 d3 d4 => ?_
  rw [(dat1 V c).before_in_eq_fetched 0 rfl (fun _ => rfl) (fun _ _ _ => rfl) fun _ => by dsimp only [dat1]; rfl,
    (dat1 V c).before_in_eq_fetched 1 rfl (fun _ => rfl) (fun _ _ _ => rfl) fun _ => by dsimp only [dat1]; rfl,
    (dat1 V c).before_in_eq_fetched 2 rfl (fun _ => rfl) (fun _ _ _ => rfl) fun _ => by dsimp only [dat1]; rfl,
    (dat1 V c).before_in_eq_fetched 3 rfl (fun _ => rfl) (fun _ _ _ => rfl) fun _ => by dsimp only [dat1]; rfl]
  dsimp only [dat1]
  exact sound_kernel1 c Set.univ _ _ _ _ _ _ _ _ _ _ _ _ _ _ _ _

end Cert.KernelIdeal.Regions

end
-- ==== Proof.KernelIdeal.Reg2.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import proofs.«415844_j33432025432092_2_alg».proof.Proof.RegLib

set_option maxRecDepth 16384

noncomputable section

namespace Cert.KernelIdeal.Regions

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x6 := Rect.unit (s := S5000x6) ![0, 0] S5000x6.size inb_S5000x6_S5000x6_0_0
abbrev r2_w : Rect S6x6 := Rect.unit (s := S6x6) ![0, 0] S6x6.size inb_S6x6_S6x6_0_0
abbrev r2_d : Rect S5000x1 := Rect.unit (s := S5000x1) ![0, 0] S5000x1.size inb_S5000x1_S5000x1_0_0
abbrev r2_o : Rect S5000x6 := Rect.unit (s := S5000x6) ![0, 0] S5000x6.size inb_S5000x6_S5000x6_0_0

/-- What the body's one store leaves in the output's buffer. -/
noncomputable def out2_3 (x0 : Vec F S5000x6 .f32) (x1 : Vec F S6x6 .f32) (x2 : Vec F S5000x1 .f32) : Vec F S5000x6 .f32 :=
  View.canon [⟨r2_o, k2_pay1 (View.ld x0 r2_x) (View.ld x1 r2_w) (View.ld x2 r2_d)⟩]

set_option maxHeartbeats 4000000 in
/-- The body keeps its inputs, and its one store covers the output's buffer. -/
theorem sound_kernel2 (c : Dev nD) (E : Set ℕ) (i : grid2.Coords)
    (arg1 : Memref sig .tc .vmem S5000x6 .f32) (harg1 : arg1.IsWhole) (arg2 : Memref sig .tc .vmem S6x6 .f32) (harg2 : arg2.IsWhole)
    (arg3 : Memref sig .tc .vmem S5000x1 .f32) (harg3 : arg3.IsWhole) (arg4 : Memref sig .tc .vmem S5000x6 .f32) (harg4 : arg4.IsWhole)
    (x0 : Vec F S5000x6 .f32) (x1 : Vec F S6x6 .f32) (x2 : Vec F S5000x1 .f32) (d : Vec F S5000x6 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc2__linear_scaled_kernel i arg1 harg1 arg2 harg2 arg3 harg3 arg4 harg4) fun _ =>
        iprop(owns c arg1 fullShare x0 ∗ owns c arg2 fullShare x1 ∗ owns c arg3 fullShare x2 ∗ owns c arg4 fullShare (out2_3 x0 x1 x2)) := by
  simp only [cc2__linear_scaled_kernel_eq_skeleton]; unfold cc2__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x6.size (by rfl))

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = out2_3 (iblk2 V c 0 t) (iblk2 V c 1 t) (iblk2 V c 2 t) := by
  dsimp only [dat2]

theorem body_obligation2 (c : Dev nD) : BodyObligation (dat2 (F := F) V c) (defs₀ (F := F)) Variants.none () Set.univ := fun t => by
  rw [bigSep_W2, bigSep_W2]
  refine wp_ex4 (p := bodyAt2 t) _ _ _ fun d0 d1 d2 d3 => ?_
  rw [(dat2 V c).before_in_eq_fetched 0 rfl (fun _ => rfl) (fun _ _ _ => rfl) fun _ => by dsimp only [dat2]; rfl,
    (dat2 V c).before_in_eq_fetched 1 rfl (fun _ => rfl) (fun _ _ _ => rfl) fun _ => by dsimp only [dat2]; rfl,
    (dat2 V c).before_in_eq_fetched 2 rfl (fun _ => rfl) (fun _ _ _ => rfl) fun _ => by dsimp only [dat2]; rfl]
  dsimp only [dat2]
  exact sound_kernel2 c Set.univ _ _ _ _ _ _ _ _ _ _ _ _ _

end Cert.KernelIdeal.Regions

end
-- ==== Proof.KernelIdeal.Reg3.lean ====
import proofs.«415844_j33432025432092_2_alg».proof.Proof.KernelIdeal.Reg1

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body's one store leaves in the output's buffer. -/
noncomputable def out3_4 (x0 : Vec F S5000x6 .f32) (x1 : Vec F S5000x6 .f32) (x2 : Vec F S5000x1 .f32) (x3 : Vec F S6 .f32) : Vec F S5000x6 .f32 :=
  View.canon [⟨r1_a, k3_pay1 (View.ld x0 r1_a) (View.ld x1 r1_a) (View.ld x2 r1_d) (View.ld x3 r1_b)⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := rfl

theorem after3_4 (c : Dev nD) (t : Fin cfg3.N) : (dat3 V c).after 4 t = out3_4 (iblk3 V c 0 t) (iblk3 V c 1 t) (iblk3 V c 2 t) (iblk3 V c 3 t) := by
  dsimp only [dat3]

theorem body_obligation3 (c : Dev nD) : BodyObligation (dat3 (F := F) V c) (defs₀ (F := F)) Variants.none () Set.univ := fun t => by
  rw [bigSep_W3, bigSep_W3]
  refine wp_ex5 (p := bodyAt3 t) _ _ _ fun d0 d1 d2 d3 d4 => ?_
  rw [(dat3 V c).before_in_eq_fetched 0 rfl (fun _ => rfl) (fun _ _ _ => rfl) fun _ => by dsimp only [dat3]; rfl,
    (dat3 V c).before_in_eq_fetched 1 rfl (fun _ => rfl) (fun _ _ _ => rfl) fun _ => by dsimp only [dat3]; rfl,
    (dat3 V c).before_in_eq_fetched 2 rfl (fun _ => rfl) (fun _ _ _ => rfl) fun _ => by dsimp only [dat3]; rfl,
    (dat3 V c).before_in_eq_fetched 3 rfl (fun _ => rfl) (fun _ _ _ => rfl) fun _ => by dsimp only [dat3]; rfl]
  dsimp only [dat3]
  exact sound_kernel1 c Set.univ (grid3.coords t) _ (hstage3_0 _) _ (hstage3_1 _) _ (hstage3_2 _) _ (hstage3_3 _) _ (hstage3_4 _) _ _ _ _ _

end Cert.KernelIdeal.Regions

end
-- ==== Proof.KernelIdeal.Reg4.lean ====
import proofs.«415844_j33432025432092_2_alg».proof.Proof.KernelIdeal.Reg2

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What the body's one store leaves in the output's buffer. -/
noncomputable def out4_3 (x0 : Vec F S5000x6 .f32) (x1 : Vec F S6x6 .f32) (x2 : Vec F S5000x1 .f32) : Vec F S5000x6 .f32 :=
  View.canon [⟨r2_o, k4_pay1 (View.ld x0 r2_x) (View.ld x1 r2_w) (View.ld x2 r2_d)⟩]

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = out4_3 (iblk4 V c 0 t) (iblk4 V c 1 t) (iblk4 V c 2 t) := by
  dsimp only [dat4]

theorem body_obligation4 (c : Dev nD) : BodyObligation (dat4 (F := F) V c) (defs₀ (F := F)) Variants.none () Set.univ := fun t => by
  rw [bigSep_W4, bigSep_W4]
  refine wp_ex4 (p := bodyAt4 t) _ _ _ fun d0 d1 d2 d3 => ?_
  rw [(dat4 V c).before_in_eq_fetched 0 rfl (fun _ => rfl) (fun _ _ _ => rfl) fun _ => by dsimp only [dat4]; rfl,
    (dat4 V c).before_in_eq_fetched 1 rfl (fun _ => rfl) (fun _ _ _ => rfl) fun _ => by dsimp only [dat4]; rfl,
    (dat4 V c).before_in_eq_fetched 2 rfl (fun _ => rfl) (fun _ _ _ => rfl) fun _ => by dsimp only [dat4]; rfl]
  dsimp only [dat4]
  exact sound_kernel2 c Set.univ (grid4.coords t) _ (hstage4_0 _) _ (hstage4_1 _) _ (hstage4_2 _) _ (hstage4_3 _) _ _ _ _

end Cert.KernelIdeal.Regions

end
-- ==== Proof.KernelIdeal.Reg5.lean ====
import proofs.«415844_j33432025432092_2_alg».proof.Proof.KernelIdeal.Reg1

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body's one store leaves in the output's buffer. -/
noncomputable def out5_4 (x0 : Vec F S5000x6 .f32) (x1 : Vec F S5000x6 .f32) (x2 : Vec F S5000x1 .f32) (x3 : Vec F S6 .f32) : Vec F S5000x6 .f32 :=
  View.canon [⟨r1_a, k5_pay1 (View.ld x0 r1_a) (View.ld x1 r1_a) (View.ld x2 r1_d) (View.ld x3 r1_b)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := rfl

theorem after5_4 (c : Dev nD) (t : Fin cfg5.N) : (dat5 V c).after 4 t = out5_4 (iblk5 V c 0 t) (iblk5 V c 1 t) (iblk5 V c 2 t) (iblk5 V c 3 t) := by
  dsimp only [dat5]

theorem body_obligation5 (c : Dev nD) : BodyObligation (dat5 (F := F) V c) (defs₀ (F := F)) Variants.none () Set.univ := fun t => by
  rw [bigSep_W5, bigSep_W5]
  refine wp_ex5 (p := bodyAt5 t) _ _ _ fun d0 d1 d2 d3 d4 => ?_
  rw [(dat5 V c).before_in_eq_fetched 0 rfl (fun _ => rfl) (fun _ _ _ => rfl) fun _ => by dsimp only [dat5]; rfl,
    (dat5 V c).before_in_eq_fetched 1 rfl (fun _ => rfl) (fun _ _ _ => rfl) fun _ => by dsimp only [dat5]; rfl,
    (dat5 V c).before_in_eq_fetched 2 rfl (fun _ => rfl) (fun _ _ _ => rfl) fun _ => by dsimp only [dat5]; rfl,
    (dat5 V c).before_in_eq_fetched 3 rfl (fun _ => rfl) (fun _ _ _ => rfl) fun _ => by dsimp only [dat5]; rfl]
  dsimp only [dat5]
  exact sound_kernel1 c Set.univ (grid5.coords t) _ (hstage5_0 _) _ (hstage5_1 _) _ (hstage5_2 _) _ (hstage5_3 _) _ (hstage5_4 _) _ _ _ _ _

end Cert.KernelIdeal.Regions

end
-- ==== Proof.KernelIdeal.Reg6.lean ====
import proofs.«415844_j33432025432092_2_alg».proof.Proof.KernelIdeal.Reg2

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What the body's one store leaves in the output's buffer. -/
noncomputable def out6_3 (x0 : Vec F S5000x6 .f32) (x1 : Vec F S6x6 .f32) (x2 : Vec F S5000x1 .f32) : Vec F S5000x6 .f32 :=
  View.canon [⟨r2_o, k6_pay1 (View.ld x0 r2_x) (View.ld x1 r2_w) (View.ld x2 r2_d)⟩]

noncomputable def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) : (dat6 V c).after 3 t = out6_3 (iblk6 V c 0 t) (iblk6 V c 1 t) (iblk6 V c 2 t) := by
  dsimp only [dat6]

theorem body_obligation6 (c : Dev nD) : BodyObligation (dat6 (F := F) V c) (defs₀ (F := F)) Variants.none () Set.univ := fun t => by
  rw [bigSep_W6, bigSep_W6]
  refine wp_ex4 (p := bodyAt6 t) _ _ _ fun d0 d1 d2 d3 => ?_
  rw [(dat6 V c).before_in_eq_fetched 0 rfl (fun _ => rfl) (fun _ _ _ => rfl) fun _ => by dsimp only [dat6]; rfl,
    (dat6 V c).before_in_eq_fetched 1 rfl (fun _ => rfl) (fun _ _ _ => rfl) fun _ => by dsimp only [dat6]; rfl,
    (dat6 V c).before_in_eq_fetched 2 rfl (fun _ => rfl) (fun _ _ _ => rfl) fun _ => by dsimp only [dat6]; rfl]
  dsimp only [dat6]
  exact sound_kernel2 c Set.univ (grid6.coords t) _ (hstage6_0 _) _ (hstage6_1 _) _ (hstage6_2 _) _ (hstage6_3 _) _ _ _ _

end Cert.KernelIdeal.Regions

end
-- ==== Proof.KernelIdeal.Reg7.lean ====
import proofs.«415844_j33432025432092_2_alg».proof.Proof.KernelIdeal.Reg1

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- What the body's one store leaves in the output's buffer. -/
noncomputable def out7_4 (x0 : Vec F S5000x6 .f32) (x1 : Vec F S5000x6 .f32) (x2 : Vec F S5000x1 .f32) (x3 : Vec F S6 .f32) : Vec F S5000x6 .f32 :=
  View.canon [⟨r1_a, k7_pay1 (View.ld x0 r1_a) (View.ld x1 r1_a) (View.ld x2 r1_d) (View.ld x3 r1_b)⟩]

noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := rfl

theorem after7_4 (c : Dev nD) (t : Fin cfg7.N) : (dat7 V c).after 4 t = out7_4 (iblk7 V c 0 t) (iblk7 V c 1 t) (iblk7 V c 2 t) (iblk7 V c 3 t) := by
  dsimp only [dat7]

theorem body_obligation7 (c : Dev nD) : BodyObligation (dat7 (F := F) V c) (defs₀ (F := F)) Variants.none () Set.univ := fun t => by
  rw [bigSep_W7, bigSep_W7]
  refine wp_ex5 (p := bodyAt7 t) _ _ _ fun d0 d1 d2 d3 d4 => ?_
  rw [(dat7 V c).before_in_eq_fetched 0 rfl (fun _ => rfl) (fun _ _ _ => rfl) fun _ => by dsimp only [dat7]; rfl,
    (dat7 V c).before_in_eq_fetched 1 rfl (fun _ => rfl) (fun _ _ _ => rfl) fun _ => by dsimp only [dat7]; rfl,
    (dat7 V c).before_in_eq_fetched 2 rfl (fun _ => rfl) (fun _ _ _ => rfl) fun _ => by dsimp only [dat7]; rfl,
    (dat7 V c).before_in_eq_fetched 3 rfl (fun _ => rfl) (fun _ _ _ => rfl) fun _ => by dsimp only [dat7]; rfl]
  dsimp only [dat7]
  exact sound_kernel1 c Set.univ (grid7.coords t) _ (hstage7_0 _) _ (hstage7_1 _) _ (hstage7_2 _) _ (hstage7_3 _) _ (hstage7_4 _) _ _ _ _ _

end Cert.KernelIdeal.Regions

end
-- ==== Proof.KernelIdeal.Reg8.lean ====
import proofs.«415844_j33432025432092_2_alg».proof.Proof.KernelIdeal.Reg2

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- What the body's one store leaves in the output's buffer. -/
noncomputable def out8_3 (x0 : Vec F S5000x6 .f32) (x1 : Vec F S6x6 .f32) (x2 : Vec F S5000x1 .f32) : Vec F S5000x6 .f32 :=
  View.canon [⟨r2_o, k8_pay1 (View.ld x0 r2_x) (View.ld x1 r2_w) (View.ld x2 r2_d)⟩]

noncomputable def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := rfl

theorem after8_3 (c : Dev nD) (t : Fin cfg8.N) : (dat8 V c).after 3 t = out8_3 (iblk8 V c 0 t) (iblk8 V c 1 t) (iblk8 V c 2 t) := by
  dsimp only [dat8]

theorem body_obligation8 (c : Dev nD) : BodyObligation (dat8 (F := F) V c) (defs₀ (F := F)) Variants.none () Set.univ := fun t => by
  rw [bigSep_W8, bigSep_W8]
  refine wp_ex4 (p := bodyAt8 t) _ _ _ fun d0 d1 d2 d3 => ?_
  rw [(dat8 V c).before_in_eq_fetched 0 rfl (fun _ => rfl) (fun _ _ _ => rfl) fun _ => by dsimp only [dat8]; rfl,
    (dat8 V c).before_in_eq_fetched 1 rfl (fun _ => rfl) (fun _ _ _ => rfl) fun _ => by dsimp only [dat8]; rfl,
    (dat8 V c).before_in_eq_fetched 2 rfl (fun _ => rfl) (fun _ _ _ => rfl) fun _ => by dsimp only [dat8]; rfl]
  dsimp only [dat8]
  exact sound_kernel2 c Set.univ (grid8.coords t) _ (hstage8_0 _) _ (hstage8_1 _) _ (hstage8_2 _) _ (hstage8_3 _) _ _ _ _

end Cert.KernelIdeal.Regions

end
-- ==== Proof.KernelIdeal.Reg9.lean ====
import proofs.«415844_j33432025432092_2_alg».proof.Proof.KernelIdeal.Reg1

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- What the body's one store leaves in the output's buffer. -/
noncomputable def out9_4 (x0 : Vec F S5000x6 .f32) (x1 : Vec F S5000x6 .f32) (x2 : Vec F S5000x1 .f32) (x3 : Vec F S6 .f32) : Vec F S5000x6 .f32 :=
  View.canon [⟨r1_a, k9_pay1 (View.ld x0 r1_a) (View.ld x1 r1_a) (View.ld x2 r1_d) (View.ld x3 r1_b)⟩]

noncomputable def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := rfl

theorem after9_4 (c : Dev nD) (t : Fin cfg9.N) : (dat9 V c).after 4 t = out9_4 (iblk9 V c 0 t) (iblk9 V c 1 t) (iblk9 V c 2 t) (iblk9 V c 3 t) := by
  dsimp only [dat9]

theorem body_obligation9 (c : Dev nD) : BodyObligation (dat9 (F := F) V c) (defs₀ (F := F)) Variants.none () Set.univ := fun t => by
  rw [bigSep_W9, bigSep_W9]
  refine wp_ex5 (p := bodyAt9 t) _ _ _ fun d0 d1 d2 d3 d4 => ?_
  rw [(dat9 V c).before_in_eq_fetched 0 rfl (fun _ => rfl) (fun _ _ _ => rfl) fun _ => by dsimp only [dat9]; rfl,
    (dat9 V c).before_in_eq_fetched 1 rfl (fun _ => rfl) (fun _ _ _ => rfl) fun _ => by dsimp only [dat9]; rfl,
    (dat9 V c).before_in_eq_fetched 2 rfl (fun _ => rfl) (fun _ _ _ => rfl) fun _ => by dsimp only [dat9]; rfl,
    (dat9 V c).before_in_eq_fetched 3 rfl (fun _ => rfl) (fun _ _ _ => rfl) fun _ => by dsimp only [dat9]; rfl]
  dsimp only [dat9]
  exact sound_kernel1 c Set.univ (grid9.coords t) _ (hstage9_0 _) _ (hstage9_1 _) _ (hstage9_2 _) _ (hstage9_3 _) _ (hstage9_4 _) _ _ _ _ _

end Cert.KernelIdeal.Regions

end
-- ==== Proof.KernelIdeal.Reg10.lean ====
import proofs.«415844_j33432025432092_2_alg».proof.Proof.KernelIdeal.Reg2

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What the body's one store leaves in the output's buffer. -/
noncomputable def out10_3 (x0 : Vec F S5000x6 .f32) (x1 : Vec F S6x6 .f32) (x2 : Vec F S5000x1 .f32) : Vec F S5000x6 .f32 :=
  View.canon [⟨r2_o, k10_pay1 (View.ld x0 r2_x) (View.ld x1 r2_w) (View.ld x2 r2_d)⟩]

noncomputable def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := rfl

theorem after10_3 (c : Dev nD) (t : Fin cfg10.N) : (dat10 V c).after 3 t = out10_3 (iblk10 V c 0 t) (iblk10 V c 1 t) (iblk10 V c 2 t) := by
  dsimp only [dat10]

theorem body_obligation10 (c : Dev nD) : BodyObligation (dat10 (F := F) V c) (defs₀ (F := F)) Variants.none () Set.univ := fun t => by
  rw [bigSep_W10, bigSep_W10]
  refine wp_ex4 (p := bodyAt10 t) _ _ _ fun d0 d1 d2 d3 => ?_
  rw [(dat10 V c).before_in_eq_fetched 0 rfl (fun _ => rfl) (fun _ _ _ => rfl) fun _ => by dsimp only [dat10]; rfl,
    (dat10 V c).before_in_eq_fetched 1 rfl (fun _ => rfl) (fun _ _ _ => rfl) fun _ => by dsimp only [dat10]; rfl,
    (dat10 V c).before_in_eq_fetched 2 rfl (fun _ => rfl) (fun _ _ _ => rfl) fun _ => by dsimp only [dat10]; rfl]
  dsimp only [dat10]
  exact sound_kernel2 c Set.univ (grid10.coords t) _ (hstage10_0 _) _ (hstage10_1 _) _ (hstage10_2 _) _ (hstage10_3 _) _ _ _ _

end Cert.KernelIdeal.Regions

end
-- ==== Proof.KernelIdeal.Reg11.lean ====
import proofs.«415844_j33432025432092_2_alg».proof.Proof.KernelIdeal.Reg1

set_option maxRecDepth 16384

noncomputable section

namespace Cert.KernelIdeal.Regions

open Cert.KernelIdeal Cert.KernelIdeal.Gen Cert.RegLib
open Idealize.ShloMosaic Idealize.ShloMosaic.TcCoe
open Idealize.SL Idealize.SL.RA
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- What the body's one store leaves in the output's buffer. -/
noncomputable def out11_4 (x0 : Vec F S5000x6 .f32) (x1 : Vec F S5000x6 .f32) (x2 : Vec F S5000x1 .f32) (x3 : Vec F S6 .f32) : Vec F S5000x6 .f32 :=
  View.canon [⟨r1_a, k11_pay1 (View.ld x0 r1_a) (View.ld x1 r1_a) (View.ld x2 r1_d) (View.ld x3 r1_b)⟩]

noncomputable def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := rfl

theorem after11_4 (c : Dev nD) (t : Fin cfg11.N) : (dat11 V c).after 4 t = out11_4 (iblk11 V c 0 t) (iblk11 V c 1 t) (iblk11 V c 2 t) (iblk11 V c 3 t) := by
  dsimp only [dat11]

theorem body_obligation11 (c : Dev nD) : BodyObligation (dat11 (F := F) V c) (defs₀ (F := F)) Variants.none () Set.univ := fun t => by
  rw [bigSep_W11, bigSep_W11]
  refine wp_ex5 (p := bodyAt11 t) _ _ _ fun d0 d1 d2 d3 d4 => ?_
  rw [(dat11 V c).before_in_eq_fetched 0 rfl (fun _ => rfl) (fun _ _ _ => rfl) fun _ => by dsimp only [dat11]; rfl,
    (dat11 V c).before_in_eq_fetched 1 rfl (fun _ => rfl) (fun _ _ _ => rfl) fun _ => by dsimp only [dat11]; rfl,
    (dat11 V c).before_in_eq_fetched 2 rfl (fun _ => rfl) (fun _ _ _ => rfl) fun _ => by dsimp only [dat11]; rfl,
    (dat11 V c).before_in_eq_fetched 3 rfl (fun _ => rfl) (fun _ _ _ => rfl) fun _ => by dsimp only [dat11]; rfl]
  dsimp only [dat11]
  exact sound_kernel1 c Set.univ (grid11.coords t) _ (hstage11_0 _) _ (hstage11_1 _) _ (hstage11_2 _) _ (hstage11_3 _) _ (hstage11_4 _) _ _ _ _ _

end Cert.KernelIdeal.Regions

end
-- ==== Proof.KernelIdeal.Reg12.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import proofs.«415844_j33432025432092_2_alg».proof.Proof.RegLib

set_option maxRecDepth 16384

noncomputable section

namespace Cert.KernelIdeal.Regions

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_x : Rect S5000x6 := Rect.unit (s := S5000x6) ![0, 0] S5000x6.size inb_S5000x6_S5000x6_0_0
abbrev r12_w : Rect S6x10 := Rect.unit (s := S6x10) ![0, 0] S6x10.size inb_S6x10_S6x10_0_0
abbrev r12_d : Rect S5000x1 := Rect.unit (s := S5000x1) ![0, 0] S5000x1.size inb_S5000x1_S5000x1_0_0
abbrev r12_o : Rect S5000x10 := Rect.unit (s := S5000x10) ![0, 0] S5000x10.size inb_S5000x10_S5000x10_0_0

/-- What the body's one store leaves in the output's buffer. -/
noncomputable def out12_3 (x0 : Vec F S5000x6 .f32) (x1 : Vec F S6x10 .f32) (x2 : Vec F S5000x1 .f32) : Vec F S5000x10 .f32 :=
  View.canon [⟨r12_o, k12_pay1 (View.ld x0 r12_x) (View.ld x1 r12_w) (View.ld x2 r12_d)⟩]

set_option maxHeartbeats 4000000 in
/-- The body keeps its inputs, and its one store covers the output's buffer. -/
theorem sound_kernel12 (c : Dev nD) (E : Set ℕ) (i : grid12.Coords)
    (arg1 : Memref sig .tc .vmem S5000x6 .f32) (harg1 : arg1.IsWhole) (arg2 : Memref sig .tc .vmem S6x10 .f32) (harg2 : arg2.IsWhole)
    (arg3 : Memref sig .tc .vmem S5000x1 .f32) (harg3 : arg3.IsWhole) (arg4 : Memref sig .tc .vmem S5000x10 .f32) (harg4 : arg4.IsWhole)
    (x0 : Vec F S5000x6 .f32) (x1 : Vec F S6x10 .f32) (x2 : Vec F S5000x1 .f32) (d : Vec F S5000x10 .f32) :
    (iprop(owns c arg1 fullShare x0 ∗ owns c arg2 fullShare x1 ∗ owns c arg3 fullShare x2 ∗ owns c arg4 fullShare d)
        : sProp (MT nD τ sig Unit (Elt F) ℕ (UR sig nD τ) ℕ))
      ⊢ wp frame (wpE (defs₀ (F := F)) Variants.none c none) E (cc12__linear_scaled_kernel i arg1 harg1 arg2 harg2 arg3 harg3 arg4 harg4) fun _ =>
        iprop(owns c arg1 fullShare x0 ∗ owns c arg2 fullShare x1 ∗ owns c arg3 fullShare x2 ∗ owns c arg4 fullShare (out12_3 x0 x1 x2)) := by
  simp only [cc12__linear_scaled_kernel_eq_skeleton]; unfold cc12__linear_scaled_kernel_skel owns
  iintro ⟨⟨%f0, %hf0, H0⟩, ⟨%f1, %hf1, H1⟩, ⟨%f2, %hf2, H2⟩, ⟨%f3, -, H3⟩⟩
  subst hf0 hf1 hf2
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x10.size (by rfl))

noncomputable def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := rfl

theorem after12_3 (c : Dev nD) (t : Fin cfg12.N) : (dat12 V c).after 3 t = out12_3 (iblk12 V c 0 t) (iblk12 V c 1 t) (iblk12 V c 2 t) := by
  dsimp only [dat12]

theorem body_obligation12 (c : Dev nD) : BodyObligation (dat12 (F := F) V c) (defs₀ (F := F)) Variants.none () Set.univ := fun t => by
  rw [bigSep_W12, bigSep_W12]
  refine wp_ex4 (p := bodyAt12 t) _ _ _ fun d0 d1 d2 d3 => ?_
  rw [(dat12 V c).before_in_eq_fetched 0 rfl (fun _ => rfl) (fun _ _ _ => rfl) fun _ => by dsimp only [dat12]; rfl,
    (dat12 V c).before_in_eq_fetched 1 rfl (fun _ => rfl) (fun _ _ _ => rfl) fun _ => by dsimp only [dat12]; rfl,
    (dat12 V c).before_in_eq_fetched 2 rfl (fun _ => rfl) (fun _ _ _ => rfl) fun _ => by dsimp only [dat12]; rfl]
  dsimp only [dat12]
  exact sound_kernel12 c Set.univ _ _ _ _ _ _ _ _ _ _ _ _ _

end Cert.KernelIdeal.Regions

end
-- ==== Proof.KernelIdeal.Reg13.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import proofs.«415844_j33432025432092_2_alg».proof.Proof.RegLib

set_option maxRecDepth 16384

noncomputable section

namespace Cert.KernelIdeal.Regions

open Cert.KernelIdeal Cert.KernelIdeal.Gen Cert.RegLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
variable (V : (c : Dev nD) → (b : Ref sig .tc) → Buf (Elt F) ((c : Thread nD τ).loc b))

/-- Window w's block at grid point t of its array as the call finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_a : Rect S5000x10 := Rect.unit (s := S5000x10) ![0, 0] S5000x10.size inb_S5000x10_S5000x10_0_0
abbrev r13_d : Rect S5000x1 := Rect.unit (s := S5000x1) ![0, 0] S5000x1.size inb_S5000x1_S5000x1_0_0
abbrev r13_b : Rect S10 := Rect.unit (s := S10) ![0] S10.size inb_S10_S10_0

/-- What the body's one store leaves in the output's buffer. -/
noncomputable def out13_4 (x0 : Vec F S5000x10 .f32) (x1 : Vec F S5000x10 .f32) (x2 : Vec F S5000x1 .f32) (x3 : Vec F S10 .f32) : Vec F S5000x10 .f32 :=
  View.canon [⟨r13_a, k13_pay1 (View.ld x0 r13_a) (View.ld x1 r13_a) (View.ld x2 r13_d) (View.ld x3 r13_b)⟩]

set_option maxHeartbeats 4000000 in
/-- The body keeps its inputs, and its one store covers the output's buffer. -/
theorem sound_kernel13 (c : Dev nD) (E : Set ℕ) (i : grid13.Coords)
    (arg1 : Memref sig .tc .vmem S5000x10 .f32) (harg1 : arg1.IsWhole) (arg2 : Memref sig .tc .vmem S5000x10 .f32) (harg2 : arg2.IsWhole)
    (arg3 : Memref sig .tc .vmem S5000x1 .f32) (harg3 : arg3.IsWhole) (arg4 : Memref sig .tc .vmem S10 .f32) (harg4 : arg4.IsWhole)
    (arg5 : Memref sig .tc .vmem S5000x10 .f32) (harg5 : arg5.IsWhole)
    (x0 : Vec F S5000x10 .f32) (x1 : Vec F S5000x10 .f32) (x2 : Vec F S5000x1 .f32) (x3 : Vec F S10 .f32) (d : Vec F S5000x10 .f32) :
    (iprop(owns c arg1 fullShare x0 ∗ owns c arg2 fullShare x1 ∗ owns c arg3 fullShare x2 ∗ owns c arg4 fullShare x3 ∗ owns c arg5 fullShare d)
        : sProp (MT nD τ sig Unit (Elt F) ℕ (UR sig nD τ) ℕ))
      ⊢ wp frame (wpE (defs₀ (F := F)) Variants.none c none) E
          (cc13__postscale_bias_relu_kernel i arg1 harg1 arg2 harg2 arg3 harg3 arg4 harg4 arg5 harg5) fun _ =>
        iprop(owns c arg1 fullShare x0 ∗ owns c arg2 fullShare x1 ∗ owns c arg3 fullShare x2 ∗ owns c arg4 fullShare x3
          ∗ owns c arg5 fullShare (out13_4 x0 x1 x2 x3)) := by
  simp only [cc13__postscale_bias_relu_kernel_eq_skeleton]; unfold cc13__postscale_bias_relu_kernel_skel owns
  iintro ⟨⟨%f0, %hf0, H0⟩, ⟨%f1, %hf1, H1⟩, ⟨%f2, %hf2, H2⟩, ⟨%f3, %hf3, H3⟩, ⟨%f4, -, H4⟩⟩
  subst hf0 hf1 hf2 hf3
  sl_exec
  sl_step
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S5000x10.size (by rfl))

noncomputable def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => out13_4 (iblk13 V c 0 t) (iblk13 V c 1 t) (iblk13 V c 2 t) (iblk13 V c 3 t)
  Φ _ := Pipeline.ΦA spec13 c
  q _ := fullShare
  owed _ := 0

theorem A_eq13 (c : Dev nD) (w : Fin cfg13.W) : (dat13 V c).A w = V c (Pipeline.arrRef spec13 w) := rfl

theorem after13_4 (c : Dev nD) (t : Fin cfg13.N) : (dat13 V c).after 4 t = out13_4 (iblk13 V c 0 t) (iblk13 V c 1 t) (iblk13 V c 2 t) (iblk13 V c 3 t) := by
  dsimp only [dat13]

theorem body_obligation13 (c : Dev nD) : BodyObligation (dat13 (F := F) V c) (defs₀ (F := F)) Variants.none () Set.univ := fun t => by
  rw [bigSep_W13, bigSep_W13]
  refine wp_ex5 (p := bodyAt13 t) _ _ _ fun d0 d1 d2 d3 d4 => ?_
  rw [(dat13 V c).before_in_eq_fetched 0 rfl (fun _ => rfl) (fun _ _ _ => rfl) fun _ => by dsimp only [dat13]; rfl,
    (dat13 V c).before_in_eq_fetched 1 rfl (fun _ => rfl) (fun _ _ _ => rfl) fun _ => by dsimp only [dat13]; rfl,
    (dat13 V c).before_in_eq_fetched 2 rfl (fun _ => rfl) (fun _ _ _ => rfl) fun _ => by dsimp only [dat13]; rfl,
    (dat13 V c).before_in_eq_fetched 3 rfl (fun _ => rfl) (fun _ _ _ => rfl) fun _ => by dsimp only [dat13]; rfl]
  dsimp only [dat13]
  exact sound_kernel13 c Set.univ _ _ _ _ _ _ _ _ _ _ _ _ _ _ _ _

end Cert.KernelIdeal.Regions

end
-- ==== Proof.KernelIdeal.Reg14.lean ====
import proofs.«415844_j33432025432092_2_alg».proof.Proof.Gen.KernelIdeal.Launch
import proofs.«415844_j33432025432092_2_alg».proof.Proof.Gen.KernelIdeal.Skeleton
import proofs.«415844_j33432025432092_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_a : Rect S64x10 := Rect.unit (s := S64x10) ![0, 0] S64x10.size inb_S64x10_S64x10_0_0
abbrev r14_b : Rect S64x1 := Rect.unit (s := S64x1) ![0, 0] S64x1.size inb_S64x1_S64x1_0_0
abbrev r14_x : Rect S10000x10 := Rect.unit (s := S10000x10) ![0, 0] S10000x10.size inb_S10000x10_S10000x10_0_0
abbrev r14_w : Rect S10000x1 := Rect.unit (s := S10000x1) ![0, 0] S10000x1.size inb_S10000x1_S10000x1_0_0

noncomputable def zero14_s : Vec F S64x10 .f32 := View.canon [⟨r14_a, k14_pay2 (F := F)⟩]
noncomputable def zero14_c : Vec F S64x1 .f32 := View.canon [⟨r14_b, k14_pay3 (F := F)⟩]

noncomputable def acc14_s (i : grid14.Coords) (x : Vec F S10000x10 .f32) (w : Vec F S10000x1 .i32) (S : Vec F S64x10 .f32) : Vec F S64x10 .f32 :=
  View.canon [⟨r14_a, k14_pay5 i (View.ld w r14_w) (View.ld S r14_a) (View.ld x r14_x)⟩]

noncomputable def acc14_c (i : grid14.Coords) (w : Vec F S10000x1 .i32) (C : Vec F S64x1 .f32) : Vec F S64x1 .f32 :=
  View.canon [⟨r14_b, k14_pay6 i (View.ld w r14_w) (View.ld C r14_b)⟩]

noncomputable def fin14 (S : Vec F S64x10 .f32) (C : Vec F S64x1 .f32) : Vec F S64x10 .f32 :=
  View.canon [⟨r14_a, k14_pay1 (View.ld S r14_a) (View.ld C r14_b)⟩]

noncomputable def pt14 (n : ℕ) : Fin cfg14.N := ⟨n % 10, (Nat.mod_lt n (by decide)).trans_eq N_14.symm⟩

theorem pt14_val (t : Fin cfg14.N) : pt14 t.val = t :=
  Fin.ext (Nat.mod_eq_of_lt (t.isLt.trans_eq N_14))

noncomputable def sum14 (c : Dev nD) : ℕ → Vec F S64x10 .f32
  | 0 => acc14_s (grid14.coords (pt14 0)) (iblk14 V c 0 (pt14 0)) (iblk14 V c 1 (pt14 0)) zero14_s
  | n + 1 => acc14_s (grid14.coords (pt14 (n + 1))) (iblk14 V c 0 (pt14 (n + 1))) (iblk14 V c 1 (pt14 (n + 1))) (sum14 c n)

noncomputable def cnt14 (c : Dev nD) : ℕ → Vec F S64x1 .f32
  | 0 => acc14_c (grid14.coords (pt14 0)) (iblk14 V c 1 (pt14 0)) zero14_c
  | n + 1 => acc14_c (grid14.coords (pt14 (n + 1))) (iblk14 V c 1 (pt14 (n + 1))) (cnt14 c n)

theorem sum14_zero (c : Dev nD) :
    sum14 V c 0 = acc14_s (grid14.coords (pt14 0)) (iblk14 V c 0 (pt14 0)) (iblk14 V c 1 (pt14 0)) zero14_s := rfl
theorem sum14_succ (c : Dev nD) (n : ℕ) :
    sum14 V c (n + 1) = acc14_s (grid14.coords (pt14 (n + 1))) (iblk14 V c 0 (pt14 (n + 1))) (iblk14 V c 1 (pt14 (n + 1))) (sum14 V c n) := rfl
theorem cnt14_zero (c : Dev nD) :
    cnt14 V c 0 = acc14_c (grid14.coords (pt14 0)) (iblk14 V c 1 (pt14 0)) zero14_c := rfl
theorem cnt14_succ (c : Dev nD) (n : ℕ) :
    cnt14 V c (n + 1) = acc14_c (grid14.coords (pt14 (n + 1))) (iblk14 V c 1 (pt14 (n + 1))) (cnt14 V c n) := rfl

noncomputable def out14_2 (c : Dev nD) : Vec F S64x10 .f32 := fin14 (sum14 V c 9) (cnt14 V c 9)

noncomputable def Phi14 (c : Dev nD) : ℕ → sProp 𝕄
  | 0 => Pipeline.ΦA spec14 c
  | n + 1 => iprop(owns (c : Thread nD τ) (Memref.whole cc14_scratch0) fullShare (sum14 V c n)
      ∗ owns (c : Thread nD τ) (Memref.whole cc14_scratch1) fullShare (cnt14 V c n)
      ∗ Pipeline.scopedRestBut (Ix := Unit) (Name := ℕ) (U := UR sig nD τ) (Lvl := ℕ) (Val := Elt F) spec14 c [cc14_scratch0, cc14_scratch1]
      ∗ ∃ r, prngReg c r)

noncomputable def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 V c
  Φ t := Phi14 V c t.val
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 V c := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

theorem Phi14_first (c : Dev nD) : (dat14 V c).Φ 0 = Pipeline.ΦA spec14 c := rfl

abbrev cond14_0 (i : grid14.Coords) : Prop :=
  Scalar.cmpi .ne (Scalar.extui (Scalar.cmpi .eq (BitVec.ofNat 32 (i 0).val) 0#32) : BitVec 32) 0#32 = 1#1

theorem hcond14_0 : ∀ t : Fin cfg14.N, cond14_0 (grid14.coords t) ↔ t.val = 0 :=
  (by decide +kernel : ∀ t : Fin grid14.N, cond14_0 (grid14.coords t) ↔ t.val = 0)

theorem hcond14_1 : ∀ t : Fin cfg14.N, k14_cond2 (grid14.coords t) = 1#1 ↔ t.val = 9 :=
  (by decide +kernel : ∀ t : Fin grid14.N, k14_cond2 (grid14.coords t) = 1#1 ↔ t.val = 9)

theorem liveAt14_0 : ∀ t : Fin cfg14.N, cfg14.idle 0 (grid14.coords t) = false := by decide +kernel
theorem liveAt14_1 : ∀ t : Fin cfg14.N, cfg14.idle 1 (grid14.coords t) = false := by decide +kernel
theorem idleAt14_2 : ∀ t : Fin cfg14.N, t.val ≠ 9 → cfg14.idle 2 (grid14.coords t) = true :=
  (by decide +kernel : ∀ t : Fin grid14.N, t.val ≠ 9 → cfg14.idle 2 (grid14.coords t) = true)
theorem noFlush14_2 : ∀ t : Fin cfg14.N, t.val ≠ 9 → (cfg14.win 2).flush t = false :=
  (by decide +kernel : ∀ t : Fin grid14.N, t.val ≠ 9 → win14_2.flush t = false)
theorem liveAt14_2 : ∀ t : Fin cfg14.N, t.val = 9 → cfg14.idle 2 (grid14.coords t) = false :=
  (by decide +kernel : ∀ t : Fin grid14.N, t.val = 9 → cfg14.idle 2 (grid14.coords t) = false)

theorem cover14_a (p0 : Vec F S64x10 .f32) (y : S64x10.Idx) :
    ∃ pc ∈ ([⟨r14_a, p0⟩] : List (View.Piece (Elt F) S64x10 .f32)), y ∈ pc.1.set :=
  View.cover_of_tiled [⟨r14_a, p0⟩] S64x10.size (by rfl) y
theorem cover14_b (p0 : Vec F S64x1 .f32) (y : S64x1.Idx) :
    ∃ pc ∈ ([⟨r14_b, p0⟩] : List (View.Piece (Elt F) S64x1 .f32)), y ∈ pc.1.set :=
  View.cover_of_tiled [⟨r14_b, p0⟩] S64x1.size (by rfl) y

theorem whole14_a (p0 : Vec F S64x10 .f32) (y : S64x10.Idx) : y ∈ (⟨r14_a, p0⟩ : View.Piece (Elt F) S64x10 .f32).1.set := by
  obtain ⟨pc, hm, hy⟩ := cover14_a p0 y
  rw [List.mem_singleton] at hm; subst hm; exact hy
theorem whole14_b (p0 : Vec F S64x1 .f32) (y : S64x1.Idx) : y ∈ (⟨r14_b, p0⟩ : View.Piece (Elt F) S64x1 .f32).1.set := by
  obtain ⟨pc, hm, hy⟩ := cover14_b p0 y
  rw [List.mem_singleton] at hm; subst hm; exact hy

set_option maxHeartbeats 4000000 in

theorem sound_kernel14_first (c : Dev nD) (E : Set ℕ) (i : grid14.Coords) (h1 : cond14_0 i) (h2 : ¬ k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (K : PUnit → sProp 𝕄) :
    iprop(owns (c : Thread nD τ) arg1 fullShare x ∗ owns (c : Thread nD τ) arg2 fullShare w
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w
            ∗ owns (c : Thread nD τ) arg4 fullShare (acc14_s i x w zero14_s) ∗ owns (c : Thread nD τ) arg5 fullShare (acc14_c i w zero14_c)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.readCov_eq_canon']
    exact (View.read_writes_of_cover_last arg4.view f4 arg4.view f4 _ _ [] (whole14_a _)).trans (View.read_writes_eq_canon arg4.view f4 _ (cover14_a _))
  iexists _; isplitr
  swap; · iexact H5
  ipureintro
  sl_unfold_words
  rw [View.readCov_eq_canon']
  exact (View.read_writes_of_cover_last arg5.view f5 arg5.view f5 _ _ [] (whole14_b _)).trans (View.read_writes_eq_canon arg5.view f5 _ (cover14_b _))

set_option maxHeartbeats 4000000 in

theorem sound_kernel14_mid (c : Dev nD) (E : Set ℕ) (i : grid14.Coords) (h1 : ¬ cond14_0 i) (h2 : ¬ k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (S : Vec F S64x10 .f32) (C : Vec F S64x1 .f32) (K : PUnit → sProp 𝕄) :
    iprop(owns (c : Thread nD τ) arg1 fullShare x ∗ owns (c : Thread nD τ) arg2 fullShare w
        ∗ owns (c : Thread nD τ) arg4 fullShare S ∗ owns (c : Thread nD τ) arg5 fullShare C
        ∗ (iprop(owns (c : Thread nD τ) arg1 fullShare x ∗ owns (c : Thread nD τ) arg2 fullShare w
            ∗ owns (c : Thread nD τ) arg4 fullShare (acc14_s i x w S) ∗ owns (c : Thread nD τ) arg5 fullShare (acc14_c i w C)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact View.read_writes_eq_canon _ _ _ (cover14_a _)
  iexists _; isplitr
  swap; · iexact H5
  ipureintro
  exact View.read_writes_eq_canon _ _ _ (cover14_b _)

set_option maxHeartbeats 4000000 in

theorem sound_kernel14_last (c : Dev nD) (E : Set ℕ) (i : grid14.Coords) (h1 : ¬ cond14_0 i) (h2 : k14_cond2 i = 1#1)
    (arg1 : Memref sig .tc .vmem S10000x10 .f32) (harg1 : arg1.IsWhole) (arg2 : Memref sig .tc .vmem S10000x1 .i32) (harg2 : arg2.IsWhole)
    (arg3 : Memref sig .tc .vmem S64x10 .f32) (harg3 : arg3.IsWhole) (arg4 : Memref sig .tc .vmem S64x10 .f32) (harg4 : arg4.IsWhole)
    (arg5 : Memref sig .tc .vmem S64x1 .f32) (harg5 : arg5.IsWhole)
    (x : Vec F S10000x10 .f32) (w : Vec F S10000x1 .i32) (S : Vec F S64x10 .f32) (C : Vec F S64x1 .f32) (K : PUnit → sProp 𝕄) :
    iprop(owns (c : Thread nD τ) arg1 fullShare x ∗ owns (c : Thread nD τ) arg2 fullShare w ∗ (∃ d, owns (c : Thread nD τ) arg3 fullShare d)
        ∗ owns (c : Thread nD τ) arg4 fullShare S ∗ owns (c : Thread nD τ) arg5 fullShare C
        ∗ (iprop(owns (c : Thread nD τ) arg1 fullShare x ∗ owns (c : Thread nD τ) arg2 fullShare w
            ∗ owns (c : Thread nD τ) arg3 fullShare (fin14 (acc14_s i x w S) (acc14_c i w C))
            ∗ owns (c : Thread nD τ) arg4 fullShare (acc14_s i x w S) ∗ owns (c : Thread nD τ) arg5 fullShare (acc14_c i w C)) -∗ K ⟨⟩))
      ⊢ wp frame (wpE (defs₀ (F := F)) Variants.none c none) E (cc14__pool_logsoftmax_kernel i arg1 harg1 arg2 harg2 arg3 harg3 arg4 harg4 arg5 harg5) K := by
  simp only [cc14__pool_logsoftmax_kernel_eq_skeleton]; unfold cc14__pool_logsoftmax_kernel_skel
  unfold owns
  iintro ⟨⟨%f0, %hf0, H0⟩, ⟨%f1, %hf1, H1⟩, ⟨%d3, %f3, -, H3⟩, ⟨%f4, %hf4, H4⟩, ⟨%f5, %hf5, H5⟩, Hk⟩
  subst hf0; subst hf1; subst hf4; subst hf5
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    rw [View.readCov_eq_canon', View.readCov_eq_canon']
    exact View.read_writes_eq_canon _ _ _ (cover14_a _)
  isplitl [H4]
  · iexists _; isplitr
    swap; · iexact H4
    ipureintro
    exact View.read_writes_eq_canon _ _ _ (cover14_a _)
  iexists _; isplitr
  swap; · iexact H5
  ipureintro
  exact View.read_writes_eq_canon _ _ _ (cover14_b _)

theorem sum14_first (c : Dev nD) (t : Fin cfg14.N) (hz : t.val = 0) :
    sum14 V c t.val = acc14_s (grid14.coords t) (iblk14 V c 0 t) (iblk14 V c 1 t) zero14_s := by
  obtain ⟨n, hn⟩ := t
  cases n with
  | zero => rw [sum14_zero, show pt14 0 = ⟨0, hn⟩ from pt14_val ⟨0, hn⟩]
  | succ n => exact absurd hz (Nat.succ_ne_zero n)
theorem cnt14_first (c : Dev nD) (t : Fin cfg14.N) (hz : t.val = 0) :
    cnt14 V c t.val = acc14_c (grid14.coords t) (iblk14 V c 1 t) zero14_c := by
  obtain ⟨n, hn⟩ := t
  cases n with
  | zero => rw [cnt14_zero, show pt14 0 = ⟨0, hn⟩ from pt14_val ⟨0, hn⟩]
  | succ n => exact absurd hz (Nat.succ_ne_zero n)
theorem sum14_pos (c : Dev nD) (t : Fin cfg14.N) (hz : t.val ≠ 0) :
    sum14 V c t.val = acc14_s (grid14.coords t) (iblk14 V c 0 t) (iblk14 V c 1 t) (sum14 V c (t.val - 1)) := by
  obtain ⟨n, hn⟩ := t
  cases n with
  | zero => exact absurd rfl hz
  | succ n => rw [sum14_succ, show pt14 (n + 1) = ⟨n + 1, hn⟩ from pt14_val ⟨n + 1, hn⟩]; rfl
theorem cnt14_pos (c : Dev nD) (t : Fin cfg14.N) (hz : t.val ≠ 0) :
    cnt14 V c t.val = acc14_c (grid14.coords t) (iblk14 V c 1 t) (cnt14 V c (t.val - 1)) := by
  obtain ⟨n, hn⟩ := t
  cases n with
  | zero => exact absurd rfl hz
  | succ n => rw [cnt14_succ, show pt14 (n + 1) = ⟨n + 1, hn⟩ from pt14_val ⟨n + 1, hn⟩]; rfl

theorem Phi14_zero (c : Dev nD) (n : ℕ) (hz : n = 0) : Phi14 V c n = Pipeline.ΦA spec14 c := by
  subst hz; rfl
theorem Phi14_succ (c : Dev nD) (n : ℕ) :
    Phi14 V c (n + 1) = iprop(owns (c : Thread nD τ) (Memref.whole cc14_scratch0) fullShare (sum14 V c n)
      ∗ owns (c : Thread nD τ) (Memref.whole cc14_scratch1) fullShare (cnt14 V c n)
      ∗ Pipeline.scopedRestBut (Ix := Unit) (Name := ℕ) (U := UR sig nD τ) (Lvl := ℕ) (Val := Elt F) spec14 c [cc14_scratch0, cc14_scratch1]
      ∗ ∃ r, prngReg c r) := rfl
theorem Phi14_pos (c : Dev nD) (n : ℕ) (hz : n ≠ 0) :
    Phi14 V c n = iprop(owns (c : Thread nD τ) (Memref.whole cc14_scratch0) fullShare (sum14 V c (n - 1))
      ∗ owns (c : Thread nD τ) (Memref.whole cc14_scratch1) fullShare (cnt14 V c (n - 1))
      ∗ Pipeline.scopedRestBut (Ix := Unit) (Name := ℕ) (U := UR sig nD τ) (Lvl := ℕ) (Val := Elt F) spec14 c [cc14_scratch0, cc14_scratch1]
      ∗ ∃ r, prngReg c r) := by
  cases n with
  | zero => exact absurd rfl hz
  | succ n => rfl

theorem PhiA14_eq (c : Dev nD) :
    (Pipeline.ΦA spec14 c : sProp 𝕄)
      = iprop(iprop(iprop((∃ d, owns (c : Thread nD τ) (Memref.whole cc14_scratch0) fullShare d)
            ∗ (∃ d, owns (c : Thread nD τ) (Memref.whole cc14_scratch1) fullShare d))
          ∗ Pipeline.scopedRestBut (Ix := Unit) (Name := ℕ) (U := UR sig nD τ) (Lvl := ℕ) (Val := Elt F) spec14 c [cc14_scratch0, cc14_scratch1])
        ∗ ∃ r, prngReg c r) := by
  unfold Pipeline.ΦA; rw [scopedRest14_split]; simp only [owns_whole]; try rfl

theorem Phi14_out (c : Dev nD) (n : ℕ) (hz : n ≠ 0) : Phi14 V c n ⊢ Pipeline.ΦA spec14 c := by
  rw [Phi14_pos V c n hz, PhiA14_eq]
  iintro ⟨HS, HC, HR, Hg⟩
  isplitl [HS HC HR]
  · isplitl [HS HC]
    · isplitl [HS]
      · iexists _; iexact HS
      iexists _; iexact HC
    iexact HR
  iexact Hg

theorem Phi14_last (c : Dev nD) : (dat14 V c).Φ (Fin.last _) ⊢ Pipeline.ΦA spec14 c := by
  rw [show (dat14 V c).Φ (Fin.last _) = Phi14 V c (Fin.last cfg14.N).val from rfl]
  exact Phi14_out V c _ (by rw [Fin.val_last]; have : cfg14.N = 10 := N_14; omega)

noncomputable def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

noncomputable def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t)

set_option maxHeartbeats 4000000 in

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).owesAt () t.succ = (dat14 V c).owesAt () t.castSucc from rfl]
  rw [show (dat14 V c).Φ t.succ = Phi14 V c (t.val + 1) from rfl, Phi14_succ]
  rw [show (dat14 V c).Φ t.castSucc = Phi14 V c t.val from rfl]
  rw [show (dat14 V c).leavesExact 0 t = owns (c : Thread nD τ) (st14_0 t) fullShare ((dat14 V c).after 0 t) from by
    unfold Dat.leavesExact; rw [liveAt14_0 t], after14_0]
  rw [show (dat14 V c).leavesExact 1 t = owns (c : Thread nD τ) (st14_1 t) fullShare ((dat14 V c).after 1 t) from by
    unfold Dat.leavesExact; rw [liveAt14_1 t], after14_1]
  have hN : t.val < 10 := t.isLt.trans_eq N_14
  by_cases h9 : t.val = 9
  · have hz : t.val ≠ 0 := by omega
    rw [show (dat14 V c).leavesExact 2 t = owns (c : Thread nD τ) (st14_2 t) fullShare ((dat14 V c).after 2 t) from by
      unfold Dat.leavesExact; rw [liveAt14_2 t h9], after14_2]
    rw [show out14_2 V c = fin14 (sum14 V c t.val) (cnt14 V c t.val) from by rw [h9]; rfl]
    rw [Phi14_pos V c _ hz, sum14_pos V c t hz, cnt14_pos V c t hz]
    iintro ⟨⟨HS, HC, HR, Hg⟩, Ho, ⟨%d0, H0⟩, ⟨%d1, H1⟩, ⟨%d2, H2⟩⟩
    iapply (sound_kernel14_last c Set.univ _ (fun h => hz ((hcond14_0 t).mp h)) ((hcond14_1 t).mpr h9) _ _ _ _ _ _ _ _ _ _
      (iblk14 V c 0 t) (iblk14 V c 1 t) (sum14 V c (t.val - 1)) (cnt14 V c (t.val - 1)) _)
    isplitl [H0]; · iexact H0
    isplitl [H1]; · iexact H1
    isplitl [H2]; · iexists _; iexact H2
    isplitl [HS]; · iexact HS
    isplitl [HC]; · iexact HC
    iintro ⟨H0, H1, H2, HS, HC⟩
    isplitl [HS HC HR Hg]
    · isplitl [HS]; · iexact HS
      isplitl [HC]; · iexact HC
      isplitl [HR]; · iexact HR
      iexact Hg
    isplitl [Ho]; · iexact Ho
    isplitl [H0]; · iexact H0
    isplitl [H1]; · iexact H1
    iexact H2
  · rw [Dat.leavesExact_idle (dat14 V c) 2 t (idleAt14_2 t h9) (noFlush14_2 t h9)]
    by_cases hz : t.val = 0
    · rw [Phi14_zero V c _ hz, PhiA14_eq, sum14_first V c t hz, cnt14_first V c t hz]
      iintro ⟨⟨⟨⟨HS, HC⟩, HR⟩, Hg⟩, Ho, ⟨%d0, H0⟩, ⟨%d1, H1⟩, ⟨%d2, H2⟩⟩
      iapply (sound_kernel14_first c Set.univ _ ((hcond14_0 t).mpr hz) (fun h => h9 ((hcond14_1 t).mp h)) _ _ _ _ _ _ _ _ _ _
        (iblk14 V c 0 t) (iblk14 V c 1 t) _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2
    · rw [Phi14_pos V c _ hz, sum14_pos V c t hz, cnt14_pos V c t hz]
      iintro ⟨⟨HS, HC, HR, Hg⟩, Ho, ⟨%d0, H0⟩, ⟨%d1, H1⟩, ⟨%d2, H2⟩⟩
      iapply (sound_kernel14_mid c Set.univ _ (fun h => hz ((hcond14_0 t).mp h)) (fun h => h9 ((hcond14_1 t).mp h)) _ _ _ _ _ _ _ _ _ _
        (iblk14 V c 0 t) (iblk14 V c 1 t) (sum14 V c (t.val - 1)) (cnt14 V c (t.val - 1)) _)
      isplitl [H0]; · iexact H0
      isplitl [H1]; · iexact H1
      isplitl [HS]; · iexact HS
      isplitl [HC]; · iexact HC
      iintro ⟨H0, H1, HS, HC⟩
      isplitl [HS HC HR Hg]
      · isplitl [HS]; · iexact HS
        isplitl [HC]; · iexact HC
        isplitl [HR]; · iexact HR
        iexact Hg
      isplitl [Ho]; · iexact Ho
      isplitl [H0]; · iexact H0
      isplitl [H1]; · iexact H1
      iexists _; iexact H2

theorem body_obligation14 (c : Dev nD) : BodyObligation (dat14 (F := F) V c) (defs₀ (F := F)) Variants.none () Set.univ := fun t => by
  rw [bigSep_W14, bigSep_W14]
  exact sound_body14 V c t

end Cert.KernelIdeal.Regions

end
-- ==== Proof.KernelIdeal.Run.lean ====
import proofs.«415844_j33432025432092_2_alg».proof.Proof.KernelIdeal.RunAll
import proofs.«415844_j33432025432092_2_alg».proof.Proof.KernelIdeal.Reg0
import proofs.«415844_j33432025432092_2_alg».proof.Proof.KernelIdeal.Reg1
import proofs.«415844_j33432025432092_2_alg».proof.Proof.KernelIdeal.Reg2
import proofs.«415844_j33432025432092_2_alg».proof.Proof.KernelIdeal.Reg3
import proofs.«415844_j33432025432092_2_alg».proof.Proof.KernelIdeal.Reg4
import proofs.«415844_j33432025432092_2_alg».proof.Proof.KernelIdeal.Reg5
import proofs.«415844_j33432025432092_2_alg».proof.Proof.KernelIdeal.Reg6
import proofs.«415844_j33432025432092_2_alg».proof.Proof.KernelIdeal.Reg7
import proofs.«415844_j33432025432092_2_alg».proof.Proof.KernelIdeal.Reg8
import proofs.«415844_j33432025432092_2_alg».proof.Proof.KernelIdeal.Reg9
import proofs.«415844_j33432025432092_2_alg».proof.Proof.KernelIdeal.Reg10
import proofs.«415844_j33432025432092_2_alg».proof.Proof.KernelIdeal.Reg11
import proofs.«415844_j33432025432092_2_alg».proof.Proof.KernelIdeal.Reg12
import proofs.«415844_j33432025432092_2_alg».proof.Proof.KernelIdeal.Reg13
import proofs.«415844_j33432025432092_2_alg».proof.Proof.KernelIdeal.Reg14

noncomputable section

namespace Cert.KernelIdeal.Regions

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (Dat RegionSeg)

variable {F : FTy → Type} [FloatOps F]

abbrev atRefs (U : Dev nD → Valuation τ sig (Elt F)) : (c : Dev nD) → (b : Ref sig .tc) → Buf (Elt F) ((c : Thread nD τ).loc b) :=
  fun c b => U c b

abbrev 𝒱₀ : Variants := Variants.none
abbrev L : GSem nD τ sig → Finset Unit := fun _ => ∅
abbrev lv : GSem nD τ sig → Unit → ℕ := fun _ _ => 0
abbrev R (c : Dev nD) : sProp (MT nD τ sig Unit (Elt F) ℕ (UR sig nD τ) ℕ) := iprop((∃ r, prngReg c r) ∗ ∃ W, owes (c : Thread nD τ) (0 : CellTallies nD τ sig Unit) W)

/-- An update at one reference is not seen at another. -/
theorem upd_of {V : Valuation τ sig (Elt F)} {b : Ref sig .tc} {x : (Proc.devRef (τ := τ) .tc b).ty.Contents (Elt F)} (r : Ref sig .tc)
    (h : r ∉ [b]) : Function.update V b x r = V r :=
  Function.update_of_ne (StableHlo.devRef_ne_of_ne (List.ne_of_not_mem_cons h)) _ _

/-- Updating at a reference with what the target valuation holds there reaches the target, if the two agree before. -/
theorem upd_eq {V W : Valuation τ sig (Elt F)} {b : DevRef τ sig} {x : b.ty.Contents (Elt F)} (h : V = W) :
    Function.update V b (Function.update W b x b) = Function.update W b x := by
  rw [h, Function.update_self]

def regOf (pdats : (p : Fin 15) → (c : Dev nD) → Dat τ (Elt F) Unit ℕ (UR sig nD τ) ℕ (cfgs p) c) {p : Fin 15}
    (lf : Pipeline.LaunchFacts (nD := nD) (τ := τ) cfgs p) (V V' : Dev nD → Valuation τ sig (Elt F)) (o : Fin (cfgs p).W)
    (hio : ∀ w, w ≠ o → ((cfgs p).win w).isOut = false)
    (hq : ∀ c w, (pdats p c).q w = fullShare)
    (hA : ∀ c w, (pdats p c).A w = V c (Pipeline.arrRef (cfgs p).spec w))
    (howed : ∀ c t, (pdats p c).owed t = 0)
    (hrec : ∀ c x, x ∈ (pdats p c).recorded 0)
    (hΦ0 : ∀ c, Pipeline.ΦA (cfgs p).spec c ⊢ (pdats p c).Φ 0)
    (hΦN : ∀ c, (pdats p c).Φ (Fin.last _) ⊢ Pipeline.ΦA (cfgs p).spec c)
    (hbody : ∀ c, Pipeline.BodyObligation (pdats p c) (defs₀ (F := F)) Variants.none () Set.univ)
    (hout : ∀ c, V' c (Pipeline.arrRef (cfgs p).spec o) = (pdats p c).arrAt o (cfgs p).N)
    (hne : ∀ c (b : Ref sig .tc), b ∉ [Pipeline.arrRef (cfgs p).spec o] → V' c b = V c b) :
    RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    have hsplit := Pipeline.arrays_of_unscopedBufs (p := p) (pcfgs (F := F)) adm pdats lf.win lf.arr_whole c
      ((pdats p c).share_full (hq c)) (atRefs V c) (hA c)
    rw [Pipeline.unscopedBufs_held] at hsplit
    rw [Pipeline.ownSems0_none]
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine .trans ?_ (hΦ0 c); unfold Pipeline.ΦA
    iintro ⟨Hp, -, Hr⟩
    isplitl [Hr]; · iexact Hr
    iexact Hp
  hout c := by
    rw [Pipeline.ownSems0_none]
    refine (hΦN c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c)) (atRefs V c) (atRefs V' c) ((pdats p c).arrAt · (cfgs p).N)
      (fun w => by
        by_cases h : w = o
        · subst h; exact (hout c).symm
        · exact ((pdats p c).arrAt_in w (hio w h) _).trans
            ((hA c w).trans (hne c _ fun hm => h (lf.win.arr_inj (List.mem_singleton.mp hm))).symm))
      fun b hb => hne c b fun hm => hb (Finset.mem_image.mpr ⟨o, Finset.mem_univ _, (List.mem_singleton.mp hm).symm⟩)
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

variable (m : (ℓ : Loc nD τ sig) → Buf (Elt F) ℓ)

def U1 (c : Dev nD) : Valuation τ sig (Elt F) := Gen.V1 m c
theorem U1_def (c : Dev nD) : U1 m c = StableHlo.after hostOps0 (Gen.V0 m c) := rfl
def o2 (c : Dev nD) : Buf (Elt F) ((c : Thread nD τ).loc main_v12) := (dat0 (atRefs (U1 m)) c).arrAt 3 cfg0.N
theorem o2_def (c : Dev nD) : o2 m c = (dat0 (atRefs (U1 m)) c).arrAt 3 cfg0.N := rfl
def U2 (c : Dev nD) : Valuation τ sig (Elt F) := Function.update (U1 m c) main_v12 (o2 m c)
theorem U2_out (c : Dev nD) : U2 m c main_v12 = o2 m c := Function.update_self ..
def U3 (c : Dev nD) : Valuation τ sig (Elt F) := StableHlo.after hostOps1 (U2 m c)
theorem U3_def (c : Dev nD) : U3 m c = StableHlo.after hostOps1 (U2 m c) := rfl
def o4 (c : Dev nD) : Buf (Elt F) ((c : Thread nD τ).loc main_v23) := (dat1 (atRefs (U3 m)) c).arrAt 4 cfg1.N
theorem o4_def (c : Dev nD) : o4 m c = (dat1 (atRefs (U3 m)) c).arrAt 4 cfg1.N := rfl
def U4 (c : Dev nD) : Valuation τ sig (Elt F) := Function.update (U3 m c) main_v23 (o4 m c)
theorem U4_out (c : Dev nD) : U4 m c main_v23 = o4 m c := Function.update_self ..
def o5 (c : Dev nD) : Buf (Elt F) ((c : Thread nD τ).loc main_v24) := (dat2 (atRefs (U4 m)) c).arrAt 3 cfg2.N
theorem o5_def (c : Dev nD) : o5 m c = (dat2 (atRefs (U4 m)) c).arrAt 3 cfg2.N := rfl
def U5 (c : Dev nD) : Valuation τ sig (Elt F) := Function.update (U4 m c) main_v24 (o5 m c)
theorem U5_out (c : Dev nD) : U5 m c main_v24 = o5 m c := Function.update_self ..
def U6 (c : Dev nD) : Valuation τ sig (Elt F) := StableHlo.after hostOps3 (U5 m c)
theorem U6_def (c : Dev nD) : U6 m c = StableHlo.after hostOps3 (U5 m c) := rfl
def o7 (c : Dev nD) : Buf (Elt F) ((c : Thread nD τ).loc main_v35) := (dat3 (atRefs (U6 m)) c).arrAt 4 cfg3.N
theorem o7_def (c : Dev nD) : o7 m c = (dat3 (atRefs (U6 m)) c).arrAt 4 cfg3.N := rfl
def U7 (c : Dev nD) : Valuation τ sig (Elt F) := Function.update (U6 m c) main_v35 (o7 m c)
theorem U7_out (c : Dev nD) : U7 m c main_v35 = o7 m c := Function.update_self ..
def o8 (c : Dev nD) : Buf (Elt F) ((c : Thread nD τ).loc main_v36) := (dat4 (atRefs (U7 m)) c).arrAt 3 cfg4.N
theorem o8_def (c : Dev nD) : o8 m c = (dat4 (atRefs (U7 m)) c).arrAt 3 cfg4.N := rfl
def U8 (c : Dev nD) : Valuation τ sig (Elt F) := Function.update (U7 m c) main_v36 (o8 m c)
theorem U8_out (c : Dev nD) : U8 m c main_v36 = o8 m c := Function.update_self ..
def U9 (c : Dev nD) : Valuation τ sig (Elt F) := StableHlo.after hostOps5 (U8 m c)
theorem U9_def (c : Dev nD) : U9 m c = StableHlo.after hostOps5 (U8 m c) := rfl
def o10 (c : Dev nD) : Buf (Elt F) ((c : Thread nD τ).loc main_v47) := (dat5 (atRefs (U9 m)) c).arrAt 4 cfg5.N
theorem o10_def (c : Dev nD) : o10 m c = (dat5 (atRefs (U9 m)) c).arrAt 4 cfg5.N := rfl
def U10 (c : Dev nD) : Valuation τ sig (Elt F) := Function.update (U9 m c) main_v47 (o10 m c)
theorem U10_out (c : Dev nD) : U10 m c main_v47 = o10 m c := Function.update_self ..
def o11 (c : Dev nD) : Buf (Elt F) ((c : Thread nD τ).loc main_v48) := (dat6 (atRefs (U10 m)) c).arrAt 3 cfg6.N
theorem o11_def (c : Dev nD) : o11 m c = (dat6 (atRefs (U10 m)) c).arrAt 3 cfg6.N := rfl
def U11 (c : Dev nD) : Valuation τ sig (Elt F) := Function.update (U10 m c) main_v48 (o11 m c)
theorem U11_out (c : Dev nD) : U11 m c main_v48 = o11 m c := Function.update_self ..
def U12 (c : Dev nD) : Valuation τ sig (Elt F) := StableHlo.after hostOps7 (U11 m c)
theorem U12_def (c : Dev nD) : U12 m c = StableHlo.after hostOps7 (U11 m c) := rfl
def o13 (c : Dev nD) : Buf (Elt F) ((c : Thread nD τ).loc main_v59) := (dat7 (atRefs (U12 m)) c).arrAt 4 cfg7.N
theorem o13_def (c : Dev nD) : o13 m c = (dat7 (atRefs (U12 m)) c).arrAt 4 cfg7.N := rfl
def U13 (c : Dev nD) : Valuation τ sig (Elt F) := Function.update (U12 m c) main_v59 (o13 m c)
theorem U13_out (c : Dev nD) : U13 m c main_v59 = o13 m c := Function.update_self ..
def o14 (c : Dev nD) : Buf (Elt F) ((c : Thread nD τ).loc main_v60) := (dat8 (atRefs (U13 m)) c).arrAt 3 cfg8.N
theorem o14_def (c : Dev nD) : o14 m c = (dat8 (atRefs (U13 m)) c).arrAt 3 cfg8.N := rfl
def U14 (c : Dev nD) : Valuation τ sig (Elt F) := Function.update (U13 m c) main_v60 (o14 m c)
theorem U14_out (c : Dev nD) : U14 m c main_v60 = o14 m c := Function.update_self ..
def U15 (c : Dev nD) : Valuation τ sig (Elt F) := StableHlo.after hostOps9 (U14 m c)
theorem U15_def (c : Dev nD) : U15 m c = StableHlo.after hostOps9 (U14 m c) := rfl
def o16 (c : Dev nD) : Buf (Elt F) ((c : Thread nD τ).loc main_v71) := (dat9 (atRefs (U15 m)) c).arrAt 4 cfg9.N
theorem o16_def (c : Dev nD) : o16 m c = (dat9 (atRefs (U15 m)) c).arrAt 4 cfg9.N := rfl
def U16 (c : Dev nD) : Valuation τ sig (Elt F) := Function.update (U15 m c) main_v71 (o16 m c)
theorem U16_out (c : Dev nD) : U16 m c main_v71 = o16 m c := Function.update_self ..
def o17 (c : Dev nD) : Buf (Elt F) ((c : Thread nD τ).loc main_v72) := (dat10 (atRefs (U16 m)) c).arrAt 3 cfg10.N
theorem o17_def (c : Dev nD) : o17 m c = (dat10 (atRefs (U16 m)) c).arrAt 3 cfg10.N := rfl
def U17 (c : Dev nD) : Valuation τ sig (Elt F) := Function.update (U16 m c) main_v72 (o17 m c)
theorem U17_out (c : Dev nD) : U17 m c main_v72 = o17 m c := Function.update_self ..
def U18 (c : Dev nD) : Valuation τ sig (Elt F) := StableHlo.after hostOps11 (U17 m c)
theorem U18_def (c : Dev nD) : U18 m c = StableHlo.after hostOps11 (U17 m c) := rfl
def o19 (c : Dev nD) : Buf (Elt F) ((c : Thread nD τ).loc main_v83) := (dat11 (atRefs (U18 m)) c).arrAt 4 cfg11.N
theorem o19_def (c : Dev nD) : o19 m c = (dat11 (atRefs (U18 m)) c).arrAt 4 cfg11.N := rfl
def U19 (c : Dev nD) : Valuation τ sig (Elt F) := Function.update (U18 m c) main_v83 (o19 m c)
theorem U19_out (c : Dev nD) : U19 m c main_v83 = o19 m c := Function.update_self ..
def o20 (c : Dev nD) : Buf (Elt F) ((c : Thread nD τ).loc main_v84) := (dat12 (atRefs (U19 m)) c).arrAt 3 cfg12.N
theorem o20_def (c : Dev nD) : o20 m c = (dat12 (atRefs (U19 m)) c).arrAt 3 cfg12.N := rfl
def U20 (c : Dev nD) : Valuation τ sig (Elt F) := Function.update (U19 m c) main_v84 (o20 m c)
theorem U20_out (c : Dev nD) : U20 m c main_v84 = o20 m c := Function.update_self ..
def U21 (c : Dev nD) : Valuation τ sig (Elt F) := StableHlo.after hostOps13 (U20 m c)
theorem U21_def (c : Dev nD) : U21 m c = StableHlo.after hostOps13 (U20 m c) := rfl
def o22 (c : Dev nD) : Buf (Elt F) ((c : Thread nD τ).loc main_v95) := (dat13 (atRefs (U21 m)) c).arrAt 4 cfg13.N
theorem o22_def (c : Dev nD) : o22 m c = (dat13 (atRefs (U21 m)) c).arrAt 4 cfg13.N := rfl
def U22 (c : Dev nD) : Valuation τ sig (Elt F) := Function.update (U21 m c) main_v95 (o22 m c)
theorem U22_out (c : Dev nD) : U22 m c main_v95 = o22 m c := Function.update_self ..
def U23 (c : Dev nD) : Valuation τ sig (Elt F) := StableHlo.after hostOps14 (U22 m c)
theorem U23_def (c : Dev nD) : U23 m c = StableHlo.after hostOps14 (U22 m c) := rfl
def o24 (c : Dev nD) : Buf (Elt F) ((c : Thread nD τ).loc main_v97) := (dat14 (atRefs (U23 m)) c).arrAt 2 cfg14.N
theorem o24_def (c : Dev nD) : o24 m c = (dat14 (atRefs (U23 m)) c).arrAt 2 cfg14.N := rfl
def U24 (c : Dev nD) : Valuation τ sig (Elt F) := Function.update (U23 m c) main_v97 (o24 m c)
theorem U24_out (c : Dev nD) : U24 m c main_v97 = o24 m c := Function.update_self ..

def outs : Outs (F := F) := fun J r c => match J with
  | 2 => U2 m c r
  | 4 => U4 m c r
  | 5 => U5 m c r
  | 7 => U7 m c r
  | 8 => U8 m c r
  | 10 => U10 m c r
  | 11 => U11 m c r
  | 13 => U13 m c r
  | 14 => U14 m c r
  | 16 => U16 m c r
  | 17 => U17 m c r
  | 19 => U19 m c r
  | 20 => U20 m c r
  | 22 => U22 m c r
  | 24 => U24 m c r
  | _ => m ((c : Thread nD τ).loc r)

theorem V1_eq (c : Dev nD) : Gen.V1 m c = U1 m c := rfl
theorem V2_eq (c : Dev nD) : Gen.V2 m (outs m) c = U2 m c := upd_eq (V1_eq m c)
theorem V3_eq (c : Dev nD) : Gen.V3 m (outs m) c = U3 m c := congrArg (StableHlo.after hostOps1) (V2_eq m c)
theorem V4_eq (c : Dev nD) : Gen.V4 m (outs m) c = U4 m c := upd_eq (V3_eq m c)
theorem V5_eq (c : Dev nD) : Gen.V5 m (outs m) c = U5 m c := upd_eq (V4_eq m c)
theorem V6_eq (c : Dev nD) : Gen.V6 m (outs m) c = U6 m c := congrArg (StableHlo.after hostOps3) (V5_eq m c)
theorem V7_eq (c : Dev nD) : Gen.V7 m (outs m) c = U7 m c := upd_eq (V6_eq m c)
theorem V8_eq (c : Dev nD) : Gen.V8 m (outs m) c = U8 m c := upd_eq (V7_eq m c)
theorem V9_eq (c : Dev nD) : Gen.V9 m (outs m) c = U9 m c := congrArg (StableHlo.after hostOps5) (V8_eq m c)
theorem V10_eq (c : Dev nD) : Gen.V10 m (outs m) c = U10 m c := upd_eq (V9_eq m c)
theorem V11_eq (c : Dev nD) : Gen.V11 m (outs m) c = U11 m c := upd_eq (V10_eq m c)
theorem V12_eq (c : Dev nD) : Gen.V12 m (outs m) c = U12 m c := congrArg (StableHlo.after hostOps7) (V11_eq m c)
theorem V13_eq (c : Dev nD) : Gen.V13 m (outs m) c = U13 m c := upd_eq (V12_eq m c)
theorem V14_eq (c : Dev nD) : Gen.V14 m (outs m) c = U14 m c := upd_eq (V13_eq m c)
theorem V15_eq (c : Dev nD) : Gen.V15 m (outs m) c = U15 m c := congrArg (StableHlo.after hostOps9) (V14_eq m c)
theorem V16_eq (c : Dev nD) : Gen.V16 m (outs m) c = U16 m c := upd_eq (V15_eq m c)
theorem V17_eq (c : Dev nD) : Gen.V17 m (outs m) c = U17 m c := upd_eq (V16_eq m c)
theorem V18_eq (c : Dev nD) : Gen.V18 m (outs m) c = U18 m c := congrArg (StableHlo.after hostOps11) (V17_eq m c)
theorem V19_eq (c : Dev nD) : Gen.V19 m (outs m) c = U19 m c := upd_eq (V18_eq m c)
theorem V20_eq (c : Dev nD) : Gen.V20 m (outs m) c = U20 m c := upd_eq (V19_eq m c)
theorem V21_eq (c : Dev nD) : Gen.V21 m (outs m) c = U21 m c := congrArg (StableHlo.after hostOps13) (V20_eq m c)
theorem V22_eq (c : Dev nD) : Gen.V22 m (outs m) c = U22 m c := upd_eq (V21_eq m c)
theorem V23_eq (c : Dev nD) : Gen.V23 m (outs m) c = U23 m c := congrArg (StableHlo.after hostOps14) (V22_eq m c)
theorem V24_eq (c : Dev nD) : Gen.V24 m (outs m) c = U24 m c := upd_eq (V23_eq m c)

theorem U1_of (c : Dev nD) (r : Ref sig .tc) (h : r ∉ hostOps0_W) : U1 m c r = m ((c : Thread nD τ).loc r) := Gen.V1_of m c r h
theorem U2_of (c : Dev nD) (r : Ref sig .tc) (h : r ∉ ([main_v12] : List (Ref sig .tc))) : U2 m c r = U1 m c r := upd_of r h
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ∉ ([main_v23] : List (Ref sig .tc))) : U4 m c r = U3 m c r := upd_of r h
theorem U5_of (c : Dev nD) (r : Ref sig .tc) (h : r ∉ ([main_v24] : List (Ref sig .tc))) : U5 m c r = U4 m c r := upd_of r h
theorem U6_of (c : Dev nD) (r : Ref sig .tc) (h : r ∉ hostOps3_W) : U6 m c r = U5 m c r :=
  StableHlo.after_of_writes_sub hostOps3 _ hostOps3_writes h
theorem U7_of (c : Dev nD) (r : Ref sig .tc) (h : r ∉ ([main_v35] : List (Ref sig .tc))) : U7 m c r = U6 m c r := upd_of r h
theorem U8_of (c : Dev nD) (r : Ref sig .tc) (h : r ∉ ([main_v36] : List (Ref sig .tc))) : U8 m c r = U7 m c r := upd_of r h
theorem U9_of (c : Dev nD) (r : Ref sig .tc) (h : r ∉ hostOps5_W) : U9 m c r = U8 m c r :=
  StableHlo.after_of_writes_sub hostOps5 _ hostOps5_writes h
theorem U10_of (c : Dev nD) (r : Ref sig .tc) (h : r ∉ ([main_v47] : List (Ref sig .tc))) : U10 m c r = U9 m c r := upd_of r h
theorem U11_of (c : Dev nD) (r : Ref sig .tc) (h : r ∉ ([main_v48] : List (Ref sig .tc))) : U11 m c r = U10 m c r := upd_of r h
theorem U12_of (c : Dev nD) (r : Ref sig .tc) (h : r ∉ hostOps7_W) : U12 m c r = U11 m c r :=
  StableHlo.after_of_writes_sub hostOps7 _ hostOps7_writes h
theorem U13_of (c : Dev nD) (r : Ref sig .tc) (h : r ∉ ([main_v59] : List (Ref sig .tc))) : U13 m c r = U12 m c r := upd_of r h
theorem U14_of (c : Dev nD) (r : Ref sig .tc) (h : r ∉ ([main_v60] : List (Ref sig .tc))) : U14 m c r = U13 m c r := upd_of r h
theorem U15_of (c : Dev nD) (r : Ref sig .tc) (h : r ∉ hostOps9_W) : U15 m c r = U14 m c r :=
  StableHlo.after_of_writes_sub hostOps9 _ hostOps9_writes h
theorem U16_of (c : Dev nD) (r : Ref sig .tc) (h : r ∉ ([main_v71] : List (Ref sig .tc))) : U16 m c r = U15 m c r := upd_of r h
theorem U17_of (c : Dev nD) (r : Ref sig .tc) (h : r ∉ ([main_v72] : List (Ref sig .tc))) : U17 m c r = U16 m c r := upd_of r h
theorem U18_of (c : Dev nD) (r : Ref sig .tc) (h : r ∉ hostOps11_W) : U18 m c r = U17 m c r :=
  StableHlo.after_of_writes_sub hostOps11 _ hostOps11_writes h
theorem U19_of (c : Dev nD) (r : Ref sig .tc) (h : r ∉ ([main_v83] : List (Ref sig .tc))) : U19 m c r = U18 m c r := upd_of r h
theorem U20_of (c : Dev nD) (r : Ref sig .tc) (h : r ∉ ([main_v84] : List (Ref sig .tc))) : U20 m c r = U19 m c r := upd_of r h
theorem U21_of (c : Dev nD) (r : Ref sig .tc) (h : r ∉ hostOps13_W) : U21 m c r = U20 m c r :=
  StableHlo.after_of_writes_sub hostOps13 _ hostOps13_writes h
theorem U22_of (c : Dev nD) (r : Ref sig .tc) (h : r ∉ ([main_v95] : List (Ref sig .tc))) : U22 m c r = U21 m c r := upd_of r h
theorem U23_of (c : Dev nD) (r : Ref sig .tc) (h : r ∉ hostOps14_W) : U23 m c r = U22 m c r :=
  StableHlo.after_of_writes_sub hostOps14 _ hostOps14_writes h
theorem U24_of (c : Dev nD) (r : Ref sig .tc) (h : r ∉ ([main_v97] : List (Ref sig .tc))) : U24 m c r = U23 m c r := upd_of r h

attribute [irreducible] U1 U2 U3 U4 U5 U6 U7 U8 U9 U10 U11 U12 U13 U14 U15 U16 U17 U18 U19 U20 U21 U22 U23 U24 o2 o4 o5 o7 o8 o10 o11 o13 o14 o16 o17 o19 o20 o22 o24

def pdats : (p : Fin 15) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U4 m)) c
  | ⟨3, _⟩ => fun c => dat3 (atRefs (U6 m)) c
  | ⟨4, _⟩ => fun c => dat4 (atRefs (U7 m)) c
  | ⟨5, _⟩ => fun c => dat5 (atRefs (U9 m)) c
  | ⟨6, _⟩ => fun c => dat6 (atRefs (U10 m)) c
  | ⟨7, _⟩ => fun c => dat7 (atRefs (U12 m)) c
  | ⟨8, _⟩ => fun c => dat8 (atRefs (U13 m)) c
  | ⟨9, _⟩ => fun c => dat9 (atRefs (U15 m)) c
  | ⟨10, _⟩ => fun c => dat10 (atRefs (U16 m)) c
  | ⟨11, _⟩ => fun c => dat11 (atRefs (U18 m)) c
  | ⟨12, _⟩ => fun c => dat12 (atRefs (U19 m)) c
  | ⟨13, _⟩ => fun c => dat13 (atRefs (U21 m)) c
  | ⟨14, _⟩ => fun c => dat14 (atRefs (U23 m)) c

def reg0 : RegionSeg (pcfgs (F := F)) adm (pdats m) () defs₀ 𝒱₀ L lv 0 :=
  regOf _ launch0 (U1 m) (U2 m) 3 (by decide) (fun _ _ => rfl) (fun _ _ => rfl) (fun _ _ => rfl) (fun _ _ => trivial) (fun _ => .rfl) (fun _ => .rfl)
    (body_obligation0 (atRefs (U1 m))) (fun c => (U2_out m c).trans (o2_def m c)) (U2_of m)
def reg1 : RegionSeg (pcfgs (F := F)) adm (pdats m) () defs₀ 𝒱₀ L lv 1 :=
  regOf _ launch1 (U3 m) (U4 m) 4 (by decide) (fun _ _ => rfl) (fun _ _ => rfl) (fun _ _ => rfl) (fun _ _ => trivial) (fun _ => .rfl) (fun _ => .rfl)
    (body_obligation1 (atRefs (U3 m))) (fun c => (U4_out m c).trans (o4_def m c)) (U4_of m)
def reg2 : RegionSeg (pcfgs (F := F)) adm (pdats m) () defs₀ 𝒱₀ L lv 2 :=
  regOf _ launch2 (U4 m) (U5 m) 3 (by decide) (fun _ _ => rfl) (fun _ _ => rfl) (fun _ _ => rfl) (fun _ _ => trivial) (fun _ => .rfl) (fun _ => .rfl)
    (body_obligation2 (atRefs (U4 m))) (fun c => (U5_out m c).trans (o5_def m c)) (U5_of m)
def reg3 : RegionSeg (pcfgs (F := F)) adm (pdats m) () defs₀ 𝒱₀ L lv 3 :=
  regOf _ launch3 (U6 m) (U7 m) 4 (by decide) (fun _ _ => rfl) (fun _ _ => rfl) (fun _ _ => rfl) (fun _ _ => trivial) (fun _ => .rfl) (fun _ => .rfl)
    (body_obligation3 (atRefs (U6 m))) (fun c => (U7_out m c).trans (o7_def m c)) (U7_of m)
def reg4 : RegionSeg (pcfgs (F := F)) adm (pdats m) () defs₀ 𝒱₀ L lv 4 :=
  regOf _ launch4 (U7 m) (U8 m) 3 (by decide) (fun _ _ => rfl) (fun _ _ => rfl) (fun _ _ => rfl) (fun _ _ => trivial) (fun _ => .rfl) (fun _ => .rfl)
    (body_obligation4 (atRefs (U7 m))) (fun c => (U8_out m c).trans (o8_def m c)) (U8_of m)
def reg5 : RegionSeg (pcfgs (F := F)) adm (pdats m) () defs₀ 𝒱₀ L lv 5 :=
  regOf _ launch5 (U9 m) (U10 m) 4 (by decide) (fun _ _ => rfl) (fun _ _ => rfl) (fun _ _ => rfl) (fun _ _ => trivial) (fun _ => .rfl) (fun _ => .rfl)
    (body_obligation5 (atRefs (U9 m))) (fun c => (U10_out m c).trans (o10_def m c)) (U10_of m)
def reg6 : RegionSeg (pcfgs (F := F)) adm (pdats m) () defs₀ 𝒱₀ L lv 6 :=
  regOf _ launch6 (U10 m) (U11 m) 3 (by decide) (fun _ _ => rfl) (fun _ _ => rfl) (fun _ _ => rfl) (fun _ _ => trivial) (fun _ => .rfl) (fun _ => .rfl)
    (body_obligation6 (atRefs (U10 m))) (fun c => (U11_out m c).trans (o11_def m c)) (U11_of m)
def reg7 : RegionSeg (pcfgs (F := F)) adm (pdats m) () defs₀ 𝒱₀ L lv 7 :=
  regOf _ launch7 (U12 m) (U13 m) 4 (by decide) (fun _ _ => rfl) (fun _ _ => rfl) (fun _ _ => rfl) (fun _ _ => trivial) (fun _ => .rfl) (fun _ => .rfl)
    (body_obligation7 (atRefs (U12 m))) (fun c => (U13_out m c).trans (o13_def m c)) (U13_of m)
def reg8 : RegionSeg (pcfgs (F := F)) adm (pdats m) () defs₀ 𝒱₀ L lv 8 :=
  regOf _ launch8 (U13 m) (U14 m) 3 (by decide) (fun _ _ => rfl) (fun _ _ => rfl) (fun _ _ => rfl) (fun _ _ => trivial) (fun _ => .rfl) (fun _ => .rfl)
    (body_obligation8 (atRefs (U13 m))) (fun c => (U14_out m c).trans (o14_def m c)) (U14_of m)
def reg9 : RegionSeg (pcfgs (F := F)) adm (pdats m) () defs₀ 𝒱₀ L lv 9 :=
  regOf _ launch9 (U15 m) (U16 m) 4 (by decide) (fun _ _ => rfl) (fun _ _ => rfl) (fun _ _ => rfl) (fun _ _ => trivial) (fun _ => .rfl) (fun _ => .rfl)
    (body_obligation9 (atRefs (U15 m))) (fun c => (U16_out m c).trans (o16_def m c)) (U16_of m)
def reg10 : RegionSeg (pcfgs (F := F)) adm (pdats m) () defs₀ 𝒱₀ L lv 10 :=
  regOf _ launch10 (U16 m) (U17 m) 3 (by decide) (fun _ _ => rfl) (fun _ _ => rfl) (fun _ _ => rfl) (fun _ _ => trivial) (fun _ => .rfl) (fun _ => .rfl)
    (body_obligation10 (atRefs (U16 m))) (fun c => (U17_out m c).trans (o17_def m c)) (U17_of m)
def reg11 : RegionSeg (pcfgs (F := F)) adm (pdats m) () defs₀ 𝒱₀ L lv 11 :=
  regOf _ launch11 (U18 m) (U19 m) 4 (by decide) (fun _ _ => rfl) (fun _ _ => rfl) (fun _ _ => rfl) (fun _ _ => trivial) (fun _ => .rfl) (fun _ => .rfl)
    (body_obligation11 (atRefs (U18 m))) (fun c => (U19_out m c).trans (o19_def m c)) (U19_of m)
def reg12 : RegionSeg (pcfgs (F := F)) adm (pdats m) () defs₀ 𝒱₀ L lv 12 :=
  regOf _ launch12 (U19 m) (U20 m) 3 (by decide) (fun _ _ => rfl) (fun _ _ => rfl) (fun _ _ => rfl) (fun _ _ => trivial) (fun _ => .rfl) (fun _ => .rfl)
    (body_obligation12 (atRefs (U19 m))) (fun c => (U20_out m c).trans (o20_def m c)) (U20_of m)
def reg13 : RegionSeg (pcfgs (F := F)) adm (pdats m) () defs₀ 𝒱₀ L lv 13 :=
  regOf _ launch13 (U21 m) (U22 m) 4 (by decide) (fun _ _ => rfl) (fun _ _ => rfl) (fun _ _ => rfl) (fun _ _ => trivial) (fun _ => .rfl) (fun _ => .rfl)
    (body_obligation13 (atRefs (U21 m))) (fun c => (U22_out m c).trans (o22_def m c)) (U22_of m)
def reg14 : RegionSeg (pcfgs (F := F)) adm (pdats m) () defs₀ 𝒱₀ L lv 14 :=
  regOf _ launch14 (U23 m) (U24 m) 2 (by decide) (fun _ _ => rfl) (fun _ _ => rfl) (fun _ _ => rfl) (fun _ _ => trivial) (fun _ => .rfl) (Phi14_last (atRefs (U23 m)))
    (body_obligation14 (atRefs (U23 m))) (fun c => (U24_out m c).trans (o24_def m c)) (U24_of m)

end Cert.KernelIdeal.Regions

end
-- ==== Proof.KernelIdeal.RunMain.lean ====
import proofs.«415844_j33432025432092_2_alg».proof.Proof.KernelIdeal.Run

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every unscoped buffer ends at the last valuation: each call is entered from, and left at, the chain's thread state. -/
theorem run : θ_run defs (onTc (τ := τ) (main (F := F))) ⟨m, fun _ => 0, ρ⟩ (fun r => ∀ c : Dev nD,
      ∀ b ∈ Pipeline.ucRefs τ sig, r.2.mem (((c : Thread nD τ)).1, b) = Gen.V24 m (outs m) c b) :=
  Gen.run_all (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE15 := fun c => by
      iintro ⟨-, HO⟩
      iexact HO)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V10_eq]; exact .rfl) (fun c => by rw [V11_eq]; exact .rfl)
    (reg7 m) (fun c => by rw [V12_eq]; exact .rfl) (fun c => by rw [V13_eq]; exact .rfl)
    (reg8 m) (fun c => by rw [V13_eq]; exact .rfl) (fun c => by rw [V14_eq]; exact .rfl)
    (reg9 m) (fun c => by rw [V15_eq]; exact .rfl) (fun c => by rw [V16_eq]; exact .rfl)
    (reg10 m) (fun c => by rw [V16_eq]; exact .rfl) (fun c => by rw [V17_eq]; exact .rfl)
    (reg11 m) (fun c => by rw [V18_eq]; exact .rfl) (fun c => by rw [V19_eq]; exact .rfl)
    (reg12 m) (fun c => by rw [V19_eq]; exact .rfl) (fun c => by rw [V20_eq]; exact .rfl)
    (reg13 m) (fun c => by rw [V21_eq]; exact .rfl) (fun c => by rw [V22_eq]; exact .rfl)
    (reg14 m) (fun c => by rw [V23_eq]; exact .rfl) (fun c => by rw [V24_eq]; exact .rfl)

theorem run_result : θ_run defs (onTc (τ := τ) (main (F := F))) ⟨m, fun _ => 0, ρ⟩ (fun r => ∀ c : Dev nD,
      r.2.mem ((c.tc : Thread nD τ).loc main_v97) = o24 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have a {b : Ref sig .tc} (hb) {x} (e : Gen.V24 m (outs m) c b = x) : r.2.mem ((c.tc : Thread nD τ).loc b) = x :=
      (h c _ (mem_uc b hb)).trans e
    ⟨a (by decide) ((congrFun (V24_eq m c) _).trans (U24_out m c)),
     a (by decide) (Gen.V24_main_arg0 m (outs m) c),
     a (by decide) (Gen.V24_main_arg1 m (outs m) c),
     a (by decide) (Gen.V24_main_arg2 m (outs m) c),
     a (by decide) (Gen.V24_main_arg3 m (outs m) c),
     a (by decide) (Gen.V24_main_arg4 m (outs m) c),
     a (by decide) (Gen.V24_main_arg5 m (outs m) c),
     a (by decide) (Gen.V24_main_arg6 m (outs m) c),
     a (by decide) (Gen.V24_main_arg7 m (outs m) c),
     a (by decide) (Gen.V24_main_arg8 m (outs m) c),
     a (by decide) (Gen.V24_main_arg9 m (outs m) c),
     a (by decide) (Gen.V24_main_arg10 m (outs m) c),
     a (by decide) (Gen.V24_main_arg11 m (outs m) c),
     a (by decide) (Gen.V24_main_arg12 m (outs m) c),
     a (by decide) (Gen.V24_main_arg13 m (outs m) c),
     a (by decide) (Gen.V24_main_arg14 m (outs m) c),
     a (by decide) (Gen.V24_main_arg15 m (outs m) c),
     a (by decide) (Gen.V24_main_arg16 m (outs m) c)⟩) (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => (h c).2) (run_result m ρ)

end Cert.KernelIdeal.Regions

end
-- ==== Proof.KernelIdeal.ValLib.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Regions

open Idealize.ShloMosaic Idealize.ShloMosaic.ValueIdx

theorem zero_off2 : (![0, 0] : Fin 2 → Nat) = fun _ => 0 := funext fun a => by fin_cases a <;> rfl
theorem zero_off1 : (![0] : Fin 1 → Nat) = fun _ => 0 := funext fun a => by fin_cases a; rfl

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rank-two shape [a, b] and the rank-one shape [a]. -/
abbrev Sh (a b : ℕ) : Shape := ⟨2, ![a, b]⟩
abbrev Sh1 (a : ℕ) : Shape := ⟨1, ![a]⟩

variable {R M K N t : ℕ}

/-- Entry (p, q) of an [M, K] by [K, N] product accumulated onto zero is the sum over the contracted axis. -/
theorem matmul_plain_apply (x0 : FVec Ideal (Sh M K) .f32) (x1 : FVec Ideal (Sh K N) .f32) (p : Fin M) (q : Fin N) :
    matmul (DotDims.plain M K N) none x0 x1 (constant (F := Ideal) (Sh M N) .f32 0x00000000#32) (ix2 p q)
      = ∑ k : Fin K, x0 (ix2 p k) * x1 (ix2 k q) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  exact congrArg₂ (fun a b => x0 a * x1 b)
    (Shape.idx_ext₂ rfl ((DotDims.lhsIdx_val_of_single _ rfl _ _).trans hk))
    (Shape.idx_ext₂ ((DotDims.rhsIdx_val_of_single _ rfl _ _).trans hk) rfl)

/-- A block times the weights, row p then scaled by the column's entry p, read at (p, q). -/
theorem lin_apply (hc : (Sh M 1).ShapeCasts (Sh M 1)) (hb : (Sh M 1).Broadcasts (Sh M N)) (x0 : FVec Ideal (Sh M K) .f32)
    (x1 : FVec Ideal (Sh K N) .f32) (x2 : FVec Ideal (Sh M 1) .f32) (p : Fin M) (q : Fin N) :
    mulf (F := Ideal) (matmul (DotDims.plain M K N) none x0 x1 (constant (Sh M N) .f32 0x00000000#32))
        (broadcastTo (Sh M N) (shapeCast (Sh M 1) x2 hc) hb) (ix2 p q)
      = (∑ k : Fin K, x0 (ix2 p k) * x1 (ix2 k q)) * x2 (ix2 p (0 : Fin 1)) :=
  congrArg₂ (· * ·) (matmul_plain_apply x0 x1 p q)
    ((broadcastTo_a1_ab_apply _ hb p q).trans (congrFun (shapeCast_self x2 hc) _))

theorem lin_apply_cast (h0 : (Sh M K).ShapeCasts (Sh M K)) (hc : (Sh M 1).ShapeCasts (Sh M 1)) (hb : (Sh M 1).Broadcasts (Sh M N))
    (x0 : FVec Ideal (Sh M K) .f32) (x1 : FVec Ideal (Sh K N) .f32) (x2 : FVec Ideal (Sh M 1) .f32) (p : Fin M) (q : Fin N) :
    mulf (F := Ideal) (matmul (DotDims.plain M K N) none (shapeCast (Sh M K) x0 h0) x1 (constant (Sh M N) .f32 0x00000000#32))
        (broadcastTo (Sh M N) (shapeCast (Sh M 1) x2 hc) hb) (ix2 p q)
      = (∑ k : Fin K, x0 (ix2 p k) * x1 (ix2 k q)) * x2 (ix2 p (0 : Fin 1)) := by
  rw [shapeCast_self x0 h0]; exact lin_apply hc hb x0 x1 x2 p q

/-- Row p's scale times the sum of two blocks' entries, plus the bias of column q, cut below at zero, read at (p, q). -/
theorem post_apply (h0 : (Sh M N).ShapeCasts (Sh M N)) (h2 : (Sh M 1).ShapeCasts (Sh M 1)) (b2 : (Sh M 1).Broadcasts (Sh M N))
    (h3 : (Sh1 N).ShapeCasts (Sh 1 N)) (b3 : (Sh 1 N).Broadcasts (Sh M N)) (x0 x1 : FVec Ideal (Sh M N) .f32)
    (x2 : FVec Ideal (Sh M 1) .f32) (x3 : FVec Ideal (Sh1 N) .f32) (p : Fin M) (q : Fin N) :
    maximumf (F := Ideal) (addf (mulf (broadcastTo (Sh M N) (shapeCast (Sh M 1) x2 h2) b2)
          (addf (shapeCast (Sh M N) x0 h0) (shapeCast (Sh M N) x1 h0)))
        (broadcastTo (Sh M N) (shapeCast (Sh 1 N) x3 h3) b3))
      (broadcast (Sh M N) (Scalar.ofBits (F := Ideal) .f32 0x00000000#32)) (ix2 p q)
      = max (x2 (ix2 p (0 : Fin 1)) * (x0 (ix2 p q) + x1 (ix2 p q)) + x3 (ix1 q)) 0 :=
  congrArg₂ max
    (congrArg₂ (· + ·)
      (congrArg₂ (· * ·) ((broadcastTo_a1_ab_apply _ b2 p q).trans (congrFun (shapeCast_self x2 h2) _))
        (congrArg₂ (· + ·) (congrFun (shapeCast_self x0 h0) _) (congrFun (shapeCast_self x1 h0) _)))
      ((broadcastTo_1b_ab_apply _ b3 p q).trans (shapeCast_a_1a_apply x3 h3 (0 : Fin 1) q)))
    Ideal.ofBits_zero_f32

/-- e puts a block of sizes B at block index ix: on each axis the image's coordinate is ix times the size plus the block's. -/
def Places {r : ℕ} {S B : Fin r → ℕ} (e : (⟨r, B⟩ : Shape).Idx → (⟨r, S⟩ : Shape).Idx) (ix : Fin r → ℕ) : Prop :=
  ∀ y a, (e y a).val = ix a * B a + 1 * (y a).val

/-- A rank-two block index that is row block t, all columns. -/
abbrev RowIdx (ix : Fin 2 → ℕ) (t : ℕ) : Prop := ix 0 = t ∧ ix 1 = 0

theorem Places.row {e : (Sh M K).Idx → (Sh R K).Idx} {ix : Fin 2 → ℕ} (h : Places e ix) (hi : RowIdx ix t) (y : (Sh M K).Idx) :
    (e y 0).val = t * M + (y 0).val ∧ (e y 1).val = (y 1).val := by
  have h0 : (e y 0).val = ix 0 * M + 1 * (y 0).val := h y 0
  have h1 : (e y 1).val = ix 1 * K + 1 * (y 1).val := h y 1
  rw [hi.1] at h0; rw [hi.2] at h1
  omega

theorem Places.whole {e : (Sh M K).Idx → (Sh M K).Idx} {ix : Fin 2 → ℕ} (h : Places e ix) (hi : RowIdx ix 0) (y : (Sh M K).Idx) :
    e y = y :=
  Shape.idx_ext₂ (by have := (h.row hi y).1; omega) (h.row hi y).2

/-- Row i of the input against column j of the weights, times row i's scale. -/
abbrev linG (a0 : (Sh R K).Idx → EReal) (a1 : (Sh K N).Idx → EReal) (a2 : (Sh R 1).Idx → EReal) : (Sh R N).Idx → EReal :=
  fun i => (∑ k : Fin K, a0 (ix2 (i 0) k) * a1 (ix2 k (i 1))) * a2 (ix2 (i 0) (0 : Fin 1))

/-- Row i's scale times the sum of the two arrays' entries, plus the bias of column j, cut below at zero. -/
abbrev postG (a0 a1 : (Sh R N).Idx → EReal) (a2 : (Sh R 1).Idx → EReal) (a3 : (Sh1 N).Idx → EReal) : (Sh R N).Idx → EReal :=
  fun i => max (a2 (ix2 (i 0) (0 : Fin 1)) * (a0 i + a1 i) + a3 (ix1 (i 1))) 0

/-- If f at (p, q) is row p against column q, scaled, then f of row block t of a0 and a2 and of all of a1 is row block t of linG. -/
theorem lin_blk (f : Vec Ideal (Sh M K) .f32 → Vec Ideal (Sh K N) .f32 → Vec Ideal (Sh M 1) .f32 → FVec Ideal (Sh M N) .f32)
    (hf : ∀ x0 x1 x2 p q, f x0 x1 x2 (ix2 p q) = (∑ k : Fin K, x0 (ix2 p k) * x1 (ix2 k q)) * x2 (ix2 p (0 : Fin 1)))
    (a0 : (Sh R K).Idx → EReal) (a1 : (Sh K N).Idx → EReal) (a2 : (Sh R 1).Idx → EReal)
    (e0 : (Sh M K).Idx → (Sh R K).Idx) (e1 : (Sh K N).Idx → (Sh K N).Idx) (e2 : (Sh M 1).Idx → (Sh R 1).Idx)
    (e3 : (Sh M N).Idx → (Sh R N).Idx) {i0 i1 i2 i3 : Fin 2 → ℕ}
    (hi : RowIdx i0 t ∧ RowIdx i1 0 ∧ RowIdx i2 t ∧ RowIdx i3 t)
    (h0 : Places e0 i0) (h1 : Places e1 i1) (h2 : Places e2 i2) (h3 : Places e3 i3)
    {n0 : ∀ a, (![0, 0] : Fin 2 → ℕ) a + (Sh M K).size a ≤ (Sh M K).size a}
    {n1 : ∀ a, (![0, 0] : Fin 2 → ℕ) a + (Sh K N).size a ≤ (Sh K N).size a}
    {n2 : ∀ a, (![0, 0] : Fin 2 → ℕ) a + (Sh M 1).size a ≤ (Sh M 1).size a}
    {n3 : ∀ a, (![0, 0] : Fin 2 → ℕ) a + (Sh M N).size a ≤ (Sh M N).size a} :
    View.canon (Val := Elt Ideal) (e := .f32) [⟨Rect.unit (s := Sh M N) ![0, 0] (Sh M N).size n3,
        f (View.ld (fun y => a0 (e0 y)) (Rect.unit (s := Sh M K) ![0, 0] (Sh M K).size n0))
          (View.ld (fun y => a1 (e1 y)) (Rect.unit (s := Sh K N) ![0, 0] (Sh K N).size n1))
          (View.ld (fun y => a2 (e2 y)) (Rect.unit (s := Sh M 1) ![0, 0] (Sh M 1).size n2))⟩]
      = fun y => linG a0 a1 a2 (e3 y) := by
  rw [View.canon_unit_zero zero_off2, View.ld_unit_zero (S := Sh M K) zero_off2, View.ld_unit_zero (S := Sh K N) zero_off2,
    View.ld_unit_zero (S := Sh M 1) zero_off2]
  funext y
  obtain ⟨p, q, rfl⟩ : ∃ (p : Fin M) (q : Fin N), y = ix2 p q := ⟨y 0, y 1, eq_ix2 y⟩
  have r3 := h3.row hi.2.2.2 (ix2 p q)
  exact (hf _ _ _ p q).trans (congrArg₂ (· * ·)
    (Finset.sum_congr rfl fun k _ => congrArg₂ (· * ·)
      (congrArg a0 (Shape.idx_ext₂ ((h0.row hi.1 _).1.trans r3.1.symm) (h0.row hi.1 _).2))
      (congrArg a1 ((h1.whole hi.2.1 _).trans (Shape.idx_ext₂ rfl r3.2.symm))))
    (congrArg a2 (Shape.idx_ext₂ ((h2.row hi.2.2.1 _).1.trans r3.1.symm) (h2.row hi.2.2.1 _).2)))

/-- If f at (p, q) is the scaled sum plus bias cut at zero, then f of row block t of a0, a1, a2 and of all of a3 is row block t of postG. -/
theorem post_blk
    (f : Vec Ideal (Sh M N) .f32 → Vec Ideal (Sh M N) .f32 → Vec Ideal (Sh M 1) .f32 → Vec Ideal (Sh1 N) .f32 → FVec Ideal (Sh M N) .f32)
    (hf : ∀ x0 x1 x2 x3 p q, f x0 x1 x2 x3 (ix2 p q) = max (x2 (ix2 p (0 : Fin 1)) * (x0 (ix2 p q) + x1 (ix2 p q)) + x3 (ix1 q)) 0)
    (a0 a1 : (Sh R N).Idx → EReal) (a2 : (Sh R 1).Idx → EReal) (a3 : (Sh1 N).Idx → EReal)
    (e0 e1 : (Sh M N).Idx → (Sh R N).Idx) (e2 : (Sh M 1).Idx → (Sh R 1).Idx) (e3 : (Sh1 N).Idx → (Sh1 N).Idx)
    (e4 : (Sh M N).Idx → (Sh R N).Idx) {i0 i1 i2 i4 : Fin 2 → ℕ} {i3 : Fin 1 → ℕ}
    (hi : RowIdx i0 t ∧ RowIdx i1 t ∧ RowIdx i2 t ∧ i3 0 = 0 ∧ RowIdx i4 t)
    (h0 : Places e0 i0) (h1 : Places e1 i1) (h2 : Places e2 i2) (h3 : Places e3 i3) (h4 : Places e4 i4)
    {n0 n1 n4 : ∀ a, (![0, 0] : Fin 2 → ℕ) a + (Sh M N).size a ≤ (Sh M N).size a}
    {n2 : ∀ a, (![0, 0] : Fin 2 → ℕ) a + (Sh M 1).size a ≤ (Sh M 1).size a}
    {n3 : ∀ a, (![0] : Fin 1 → ℕ) a + (Sh1 N).size a ≤ (Sh1 N).size a} :
    View.canon (Val := Elt Ideal) (e := .f32) [⟨Rect.unit (s := Sh M N) ![0, 0] (Sh M N).size n4,
        f (View.ld (fun y => a0 (e0 y)) (Rect.unit (s := Sh M N) ![0, 0] (Sh M N).size n0))
          (View.ld (fun y => a1 (e1 y)) (Rect.unit (s := Sh M N) ![0, 0] (Sh M N).size n1))
          (View.ld (fun y => a2 (e2 y)) (Rect.unit (s := Sh M 1) ![0, 0] (Sh M 1).size n2))
          (View.ld (fun y => a3 (e3 y)) (Rect.unit (s := Sh1 N) ![0] (Sh1 N).size n3))⟩]
      = fun y => postG a0 a1 a2 a3 (e4 y) := by
  rw [View.canon_unit_zero zero_off2, View.ld_unit_zero (S := Sh M N) zero_off2, View.ld_unit_zero (S := Sh M N) zero_off2,
    View.ld_unit_zero (S := Sh M 1) zero_off2, View.ld_unit_zero (S := Sh1 N) zero_off1]
  funext y
  obtain ⟨p, q, rfl⟩ : ∃ (p : Fin M) (q : Fin N), y = ix2 p q := ⟨y 0, y 1, eq_ix2 y⟩
  have r4 : (e4 (ix2 p q) 0).val = t * M + p.val ∧ (e4 (ix2 p q) 1).val = q.val := h4.row hi.2.2.2.2 _
  have r3 : (e3 (ix1 q) 0).val = i3 0 * N + 1 * q.val := h3 (ix1 q) 0
  rw [hi.2.2.2.1] at r3
  have E : ∀ {e : (Sh M N).Idx → (Sh R N).Idx} {ix : Fin 2 → ℕ}, Places e ix → RowIdx ix t → e (ix2 p q) = e4 (ix2 p q) :=
    fun h h' => Shape.idx_ext₂ ((h.row h' _).1.trans r4.1.symm) ((h.row h' _).2.trans r4.2.symm)
  exact (hf _ _ _ _ p q).trans (congrArg₂ max (congrArg₂ (· + ·)
    (congrArg₂ (· * ·) (congrArg a2 (Shape.idx_ext₂ ((h2.row hi.2.2.1 _).1.trans r4.1.symm) (h2.row hi.2.2.1 _).2))
      (congrArg₂ (· + ·) (congrArg a0 (E h0 hi.1)) (congrArg a1 (E h1 hi.2.1))))
    (congrArg a3 (funext fun a => Fin.ext (match a with
      | ⟨0, _⟩ => by show (e3 (ix1 q) 0).val = (e4 (ix2 p q) 1).val; omega)))) rfl)

/-- n row blocks of M rows tile n M rows: row i lies in block i / M. -/
theorem rows_cover {n : ℕ} (hn : n * M = R) {P : Fin n → Prop} (hP : ∀ t, P t) {S : Fin n → Finset (Sh R N).Idx}
    {e : Fin n → (Sh M N).Idx → (Sh R N).Idx} (hS : ∀ t y, e t y ∈ S t) {ix : Fin n → Fin 2 → ℕ}
    (hi : ∀ t : Fin n, RowIdx (ix t) t.val) (h : ∀ t, Places (e t) (ix t)) (i : (Sh R N).Idx) : ∃ t, P t ∧ i ∈ S t := by
  have hi0 : (i 0).val < M * n := by rw [Nat.mul_comm, hn]; exact (i 0).isLt
  have hM : 0 < M := Nat.pos_of_ne_zero fun h0 => by rw [h0, Nat.zero_mul] at hi0; exact absurd hi0 (Nat.not_lt_zero _)
  obtain ⟨t, ht⟩ : ∃ t : Fin n, t.val = (i 0).val / M := ⟨⟨_, Nat.div_lt_of_lt_mul hi0⟩, rfl⟩
  have r := (h t).row (hi t) (ix2 ⟨(i 0).val % M, Nat.mod_lt _ hM⟩ (i 1))
  exact ⟨t, hP t, (Shape.idx_ext₂ (r.1.trans (by
    show t.val * M + (i 0).val % M = _; rw [ht, Nat.mul_comm]; exact Nat.div_add_mod _ _)) r.2 : e t _ = i) ▸ hS t _⟩

end Cert.KernelIdeal.Regions

end
-- ==== Proof.KernelIdeal.Val0.lean ====
import proofs.«415844_j33432025432092_2_alg».proof.Proof.KernelIdeal.Reg0
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts0 : ∀ t : Fin cfg0.N, RowIdx (win0_0.index t) t ∧ RowIdx (win0_1.index t) 0 ∧ RowIdx (win0_2.index t) t
    ∧ RowIdx (win0_3.index t) t :=
  (by decide +kernel : ∀ t : Fin grid0.N, _)

theorem final0 (c : Dev nD) (i : Fin 100000) (j : Fin 6) :
    (dat0 (F := Ideal) V c).arrAt 3 cfg0.N (ix2 i j)
      = (∑ k : Fin 128, (by exact V c main_arg0 : S100000x128.Idx → EReal) (ix2 i k) * (by exact V c main_arg3 : S128x6.Idx → EReal) (ix2 k j))
          * (by exact V c main_v11 : S100000x1.Idx → EReal) (ix2 i (0 : Fin 1)) :=
  congrFun ((dat0 (F := Ideal) V c).arrAt_eq_of_cover 3 (linG (V c main_arg0) (V c main_arg3) (V c main_v11))
    (fun t _ => (congrArg ((cfg0.win 3).cut (grid0.coords t)) (after0_3 V c t)).trans
      (lin_blk k0_pay1 (lin_apply _ _) _ _ _ ((cfg0.win 0).blk t).view.emb ((cfg0.win 1).blk t).view.emb
        ((cfg0.win 2).blk t).view.emb ((cfg0.win 3).blk t).view.emb (idx_facts0 t)
        (fun _ _ => rfl) (fun _ _ => rfl) (fun _ _ => rfl) (fun _ _ => rfl)))
    (rows_cover (congrArg (· * 5000) N_0) flush0_3 (fun _ => View.emb_mem_set _) (fun t => (idx_facts0 t).2.2.2)
      fun _ _ _ => rfl)) (ix2 i j)

end Cert.KernelIdeal.Regions

end
-- ==== Proof.KernelIdeal.Val1.lean ====
import proofs.«415844_j33432025432092_2_alg».proof.Proof.KernelIdeal.Reg1
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts1 : ∀ t : Fin cfg1.N, RowIdx (win1_0.index t) t ∧ RowIdx (win1_1.index t) t ∧ RowIdx (win1_2.index t) t
    ∧ win1_3.index t 0 = 0 ∧ RowIdx (win1_4.index t) t :=
  (by decide +kernel : ∀ t : Fin grid1.N, _)

theorem final1 (c : Dev nD) (i : Fin 100000) (j : Fin 6) :
    (dat1 (F := Ideal) V c).arrAt 4 cfg1.N (ix2 i j)
      = max ((by exact V c main_v11 : S100000x1.Idx → EReal) (ix2 i (0 : Fin 1))
            * ((by exact V c main_v22 : S100000x6.Idx → EReal) (ix2 i j) + (by exact V c main_v12 : S100000x6.Idx → EReal) (ix2 i j))
          + (by exact V c main_arg4 : S6.Idx → EReal) (ix1 j)) 0 :=
  congrFun ((dat1 (F := Ideal) V c).arrAt_eq_of_cover 4 (postG (V c main_v22) (V c main_v12) (V c main_v11) (V c main_arg4))
    (fun t _ => (congrArg ((cfg1.win 4).cut (grid1.coords t)) (after1_4 V c t)).trans
      (post_blk k1_pay1 (post_apply _ _ _ _ _) _ _ _ _ ((cfg1.win 0).blk t).view.emb ((cfg1.win 1).blk t).view.emb
        ((cfg1.win 2).blk t).view.emb ((cfg1.win 3).blk t).view.emb ((cfg1.win 4).blk t).view.emb (idx_facts1 t)
        (fun _ _ => rfl) (fun _ _ => rfl) (fun _ _ => rfl) (fun _ _ => rfl) (fun _ _ => rfl)))
    (rows_cover (congrArg (· * 5000) N_1) flush1_4 (fun _ => View.emb_mem_set _) (fun t => (idx_facts1 t).2.2.2.2)
      fun _ _ _ => rfl)) (ix2 i j)

end Cert.KernelIdeal.Regions

end
-- ==== Proof.KernelIdeal.Val2.lean ====
import proofs.«415844_j33432025432092_2_alg».proof.Proof.KernelIdeal.Reg2
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts2 : ∀ t : Fin cfg2.N, RowIdx (win2_0.index t) t ∧ RowIdx (win2_1.index t) 0 ∧ RowIdx (win2_2.index t) t
    ∧ RowIdx (win2_3.index t) t :=
  (by decide +kernel : ∀ t : Fin grid2.N, _)

theorem final2 (c : Dev nD) (i : Fin 100000) (j : Fin 6) :
    (dat2 (F := Ideal) V c).arrAt 3 cfg2.N (ix2 i j)
      = (∑ k : Fin 6, (by exact V c main_v23 : S100000x6.Idx → EReal) (ix2 i k) * (by exact V c main_arg5 : S6x6.Idx → EReal) (ix2 k j))
          * (by exact V c main_v11 : S100000x1.Idx → EReal) (ix2 i (0 : Fin 1)) :=
  congrFun ((dat2 (F := Ideal) V c).arrAt_eq_of_cover 3 (linG (V c main_v23) (V c main_arg5) (V c main_v11))
    (fun t _ => (congrArg ((cfg2.win 3).cut (grid2.coords t)) (after2_3 V c t)).trans
      (lin_blk k2_pay1 (lin_apply_cast _ _ _) _ _ _ ((cfg2.win 0).blk t).view.emb ((cfg2.win 1).blk t).view.emb
        ((cfg2.win 2).blk t).view.emb ((cfg2.win 3).blk t).view.emb (idx_facts2 t)
        (fun _ _ => rfl) (fun _ _ => rfl) (fun _ _ => rfl) (fun _ _ => rfl)))
    (rows_cover (congrArg (· * 5000) N_2) flush2_3 (fun _ => View.emb_mem_set _) (fun t => (idx_facts2 t).2.2.2)
      fun _ _ _ => rfl)) (ix2 i j)

end Cert.KernelIdeal.Regions

end
-- ==== Proof.KernelIdeal.Val3.lean ====
import proofs.«415844_j33432025432092_2_alg».proof.Proof.KernelIdeal.Reg3
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts3 : ∀ t : Fin cfg3.N, RowIdx (win3_0.index t) t ∧ RowIdx (win3_1.index t) t ∧ RowIdx (win3_2.index t) t
    ∧ win3_3.index t 0 = 0 ∧ RowIdx (win3_4.index t) t :=
  (by decide +kernel : ∀ t : Fin grid3.N, _)

theorem final3 (c : Dev nD) (i : Fin 100000) (j : Fin 6) :
    (dat3 (F := Ideal) V c).arrAt 4 cfg3.N (ix2 i j)
      = max ((by exact V c main_v11 : S100000x1.Idx → EReal) (ix2 i (0 : Fin 1))
            * ((by exact V c main_v34 : S100000x6.Idx → EReal) (ix2 i j) + (by exact V c main_v24 : S100000x6.Idx → EReal) (ix2 i j))
          + (by exact V c main_arg6 : S6.Idx → EReal) (ix1 j)) 0 :=
  congrFun ((dat3 (F := Ideal) V c).arrAt_eq_of_cover 4 (postG (V c main_v34) (V c main_v24) (V c main_v11) (V c main_arg6))
    (fun t _ => (congrArg ((cfg3.win 4).cut (grid3.coords t)) (after3_4 V c t)).trans
      (post_blk k3_pay1 (post_apply _ _ _ _ _) _ _ _ _ ((cfg3.win 0).blk t).view.emb ((cfg3.win 1).blk t).view.emb
        ((cfg3.win 2).blk t).view.emb ((cfg3.win 3).blk t).view.emb ((cfg3.win 4).blk t).view.emb (idx_facts3 t)
        (fun _ _ => rfl) (fun _ _ => rfl) (fun _ _ => rfl) (fun _ _ => rfl) (fun _ _ => rfl)))
    (rows_cover (congrArg (· * 5000) N_3) flush3_4 (fun _ => View.emb_mem_set _) (fun t => (idx_facts3 t).2.2.2.2)
      fun _ _ _ => rfl)) (ix2 i j)

end Cert.KernelIdeal.Regions

end
-- ==== Proof.KernelIdeal.Val4.lean ====
import proofs.«415844_j33432025432092_2_alg».proof.Proof.KernelIdeal.Reg4
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts4 : ∀ t : Fin cfg4.N, RowIdx (win4_0.index t) t ∧ RowIdx (win4_1.index t) 0 ∧ RowIdx (win4_2.index t) t
    ∧ RowIdx (win4_3.index t) t :=
  (by decide +kernel : ∀ t : Fin grid4.N, _)

theorem final4 (c : Dev nD) (i : Fin 100000) (j : Fin 6) :
    (dat4 (F := Ideal) V c).arrAt 3 cfg4.N (ix2 i j)
      = (∑ k : Fin 6, (by exact V c main_v35 : S100000x6.Idx → EReal) (ix2 i k) * (by exact V c main_arg7 : S6x6.Idx → EReal) (ix2 k j))
          * (by exact V c main_v11 : S100000x1.Idx → EReal) (ix2 i (0 : Fin 1)) :=
  congrFun ((dat4 (F := Ideal) V c).arrAt_eq_of_cover 3 (linG (V c main_v35) (V c main_arg7) (V c main_v11))
    (fun t _ => (congrArg ((cfg4.win 3).cut (grid4.coords t)) (after4_3 V c t)).trans
      (lin_blk k4_pay1 (lin_apply_cast _ _ _) _ _ _ ((cfg4.win 0).blk t).view.emb ((cfg4.win 1).blk t).view.emb
        ((cfg4.win 2).blk t).view.emb ((cfg4.win 3).blk t).view.emb (idx_facts4 t)
        (fun _ _ => rfl) (fun _ _ => rfl) (fun _ _ => rfl) (fun _ _ => rfl)))
    (rows_cover (congrArg (· * 5000) N_4) flush4_3 (fun _ => View.emb_mem_set _) (fun t => (idx_facts4 t).2.2.2)
      fun _ _ _ => rfl)) (ix2 i j)

end Cert.KernelIdeal.Regions

end
-- ==== Proof.KernelIdeal.Val5.lean ====
import proofs.«415844_j33432025432092_2_alg».proof.Proof.KernelIdeal.Reg5
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts5 : ∀ t : Fin cfg5.N, RowIdx (win5_0.index t) t ∧ RowIdx (win5_1.index t) t ∧ RowIdx (win5_2.index t) t
    ∧ win5_3.index t 0 = 0 ∧ RowIdx (win5_4.index t) t :=
  (by decide +kernel : ∀ t : Fin grid5.N, _)

theorem final5 (c : Dev nD) (i : Fin 100000) (j : Fin 6) :
    (dat5 (F := Ideal) V c).arrAt 4 cfg5.N (ix2 i j)
      = max ((by exact V c main_v11 : S100000x1.Idx → EReal) (ix2 i (0 : Fin 1))
            * ((by exact V c main_v46 : S100000x6.Idx → EReal) (ix2 i j) + (by exact V c main_v36 : S100000x6.Idx → EReal) (ix2 i j))
          + (by exact V c main_arg8 : S6.Idx → EReal) (ix1 j)) 0 :=
  congrFun ((dat5 (F := Ideal) V c).arrAt_eq_of_cover 4 (postG (V c main_v46) (V c main_v36) (V c main_v11) (V c main_arg8))
    (fun t _ => (congrArg ((cfg5.win 4).cut (grid5.coords t)) (after5_4 V c t)).trans
      (post_blk k5_pay1 (post_apply _ _ _ _ _) _ _ _ _ ((cfg5.win 0).blk t).view.emb ((cfg5.win 1).blk t).view.emb
        ((cfg5.win 2).blk t).view.emb ((cfg5.win 3).blk t).view.emb ((cfg5.win 4).blk t).view.emb (idx_facts5 t)
        (fun _ _ => rfl) (fun _ _ => rfl) (fun _ _ => rfl) (fun _ _ => rfl) (fun _ _ => rfl)))
    (rows_cover (congrArg (· * 5000) N_5) flush5_4 (fun _ => View.emb_mem_set _) (fun t => (idx_facts5 t).2.2.2.2)
      fun _ _ _ => rfl)) (ix2 i j)

end Cert.KernelIdeal.Regions

end
-- ==== Proof.KernelIdeal.Val6.lean ====
import proofs.«415844_j33432025432092_2_alg».proof.Proof.KernelIdeal.Reg6
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts6 : ∀ t : Fin cfg6.N, RowIdx (win6_0.index t) t ∧ RowIdx (win6_1.index t) 0 ∧ RowIdx (win6_2.index t) t
    ∧ RowIdx (win6_3.index t) t :=
  (by decide +kernel : ∀ t : Fin grid6.N, _)

theorem final6 (c : Dev nD) (i : Fin 100000) (j : Fin 6) :
    (dat6 (F := Ideal) V c).arrAt 3 cfg6.N (ix2 i j)
      = (∑ k : Fin 6, (by exact V c main_v47 : S100000x6.Idx → EReal) (ix2 i k) * (by exact V c main_arg9 : S6x6.Idx → EReal) (ix2 k j))
          * (by exact V c main_v11 : S100000x1.Idx → EReal) (ix2 i (0 : Fin 1)) :=
  congrFun ((dat6 (F := Ideal) V c).arrAt_eq_of_cover 3 (linG (V c main_v47) (V c main_arg9) (V c main_v11))
    (fun t _ => (congrArg ((cfg6.win 3).cut (grid6.coords t)) (after6_3 V c t)).trans
      (lin_blk k6_pay1 (lin_apply_cast _ _ _) _ _ _ ((cfg6.win 0).blk t).view.emb ((cfg6.win 1).blk t).view.emb
        ((cfg6.win 2).blk t).view.emb ((cfg6.win 3).blk t).view.emb (idx_facts6 t)
        (fun _ _ => rfl) (fun _ _ => rfl) (fun _ _ => rfl) (fun _ _ => rfl)))
    (rows_cover (congrArg (· * 5000) N_6) flush6_3 (fun _ => View.emb_mem_set _) (fun t => (idx_facts6 t).2.2.2)
      fun _ _ _ => rfl)) (ix2 i j)

end Cert.KernelIdeal.Regions

end
-- ==== Proof.KernelIdeal.Val7.lean ====
import proofs.«415844_j33432025432092_2_alg».proof.Proof.KernelIdeal.Reg7
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts7 : ∀ t : Fin cfg7.N, RowIdx (win7_0.index t) t ∧ RowIdx (win7_1.index t) t ∧ RowIdx (win7_2.index t) t
    ∧ win7_3.index t 0 = 0 ∧ RowIdx (win7_4.index t) t :=
  (by decide +kernel : ∀ t : Fin grid7.N, _)

theorem final7 (c : Dev nD) (i : Fin 100000) (j : Fin 6) :
    (dat7 (F := Ideal) V c).arrAt 4 cfg7.N (ix2 i j)
      = max ((by exact V c main_v11 : S100000x1.Idx → EReal) (ix2 i (0 : Fin 1))
            * ((by exact V c main_v58 : S100000x6.Idx → EReal) (ix2 i j) + (by exact V c main_v48 : S100000x6.Idx → EReal) (ix2 i j))
          + (by exact V c main_arg10 : S6.Idx → EReal) (ix1 j)) 0 :=
  congrFun ((dat7 (F := Ideal) V c).arrAt_eq_of_cover 4 (postG (V c main_v58) (V c main_v48) (V c main_v11) (V c main_arg10))
    (fun t _ => (congrArg ((cfg7.win 4).cut (grid7.coords t)) (after7_4 V c t)).trans
      (post_blk k7_pay1 (post_apply _ _ _ _ _) _ _ _ _ ((cfg7.win 0).blk t).view.emb ((cfg7.win 1).blk t).view.emb
        ((cfg7.win 2).blk t).view.emb ((cfg7.win 3).blk t).view.emb ((cfg7.win 4).blk t).view.emb (idx_facts7 t)
        (fun _ _ => rfl) (fun _ _ => rfl) (fun _ _ => rfl) (fun _ _ => rfl) (fun _ _ => rfl)))
    (rows_cover (congrArg (· * 5000) N_7) flush7_4 (fun _ => View.emb_mem_set _) (fun t => (idx_facts7 t).2.2.2.2)
      fun _ _ _ => rfl)) (ix2 i j)

end Cert.KernelIdeal.Regions

end
-- ==== Proof.KernelIdeal.Val8.lean ====
import proofs.«415844_j33432025432092_2_alg».proof.Proof.KernelIdeal.Reg8
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts8 : ∀ t : Fin cfg8.N, RowIdx (win8_0.index t) t ∧ RowIdx (win8_1.index t) 0 ∧ RowIdx (win8_2.index t) t
    ∧ RowIdx (win8_3.index t) t :=
  (by decide +kernel : ∀ t : Fin grid8.N, _)

theorem final8 (c : Dev nD) (i : Fin 100000) (j : Fin 6) :
    (dat8 (F := Ideal) V c).arrAt 3 cfg8.N (ix2 i j)
      = (∑ k : Fin 6, (by exact V c main_v59 : S100000x6.Idx → EReal) (ix2 i k) * (by exact V c main_arg11 : S6x6.Idx → EReal) (ix2 k j))
          * (by exact V c main_v11 : S100000x1.Idx → EReal) (ix2 i (0 : Fin 1)) :=
  congrFun ((dat8 (F := Ideal) V c).arrAt_eq_of_cover 3 (linG (V c main_v59) (V c main_arg11) (V c main_v11))
    (fun t _ => (congrArg ((cfg8.win 3).cut (grid8.coords t)) (after8_3 V c t)).trans
      (lin_blk k8_pay1 (lin_apply_cast _ _ _) _ _ _ ((cfg8.win 0).blk t).view.emb ((cfg8.win 1).blk t).view.emb
        ((cfg8.win 2).blk t).view.emb ((cfg8.win 3).blk t).view.emb (idx_facts8 t)
        (fun _ _ => rfl) (fun _ _ => rfl) (fun _ _ => rfl) (fun _ _ => rfl)))
    (rows_cover (congrArg (· * 5000) N_8) flush8_3 (fun _ => View.emb_mem_set _) (fun t => (idx_facts8 t).2.2.2)
      fun _ _ _ => rfl)) (ix2 i j)

end Cert.KernelIdeal.Regions

end
-- ==== Proof.KernelIdeal.Val9.lean ====
import proofs.«415844_j33432025432092_2_alg».proof.Proof.KernelIdeal.Reg9
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts9 : ∀ t : Fin cfg9.N, RowIdx (win9_0.index t) t ∧ RowIdx (win9_1.index t) t ∧ RowIdx (win9_2.index t) t
    ∧ win9_3.index t 0 = 0 ∧ RowIdx (win9_4.index t) t :=
  (by decide +kernel : ∀ t : Fin grid9.N, _)

theorem final9 (c : Dev nD) (i : Fin 100000) (j : Fin 6) :
    (dat9 (F := Ideal) V c).arrAt 4 cfg9.N (ix2 i j)
      = max ((by exact V c main_v11 : S100000x1.Idx → EReal) (ix2 i (0 : Fin 1))
            * ((by exact V c main_v70 : S100000x6.Idx → EReal) (ix2 i j) + (by exact V c main_v60 : S100000x6.Idx → EReal) (ix2 i j))
          + (by exact V c main_arg12 : S6.Idx → EReal) (ix1 j)) 0 :=
  congrFun ((dat9 (F := Ideal) V c).arrAt_eq_of_cover 4 (postG (V c main_v70) (V c main_v60) (V c main_v11) (V c main_arg12))
    (fun t _ => (congrArg ((cfg9.win 4).cut (grid9.coords t)) (after9_4 V c t)).trans
      (post_blk k9_pay1 (post_apply _ _ _ _ _) _ _ _ _ ((cfg9.win 0).blk t).view.emb ((cfg9.win 1).blk t).view.emb
        ((cfg9.win 2).blk t).view.emb ((cfg9.win 3).blk t).view.emb ((cfg9.win 4).blk t).view.emb (idx_facts9 t)
        (fun _ _ => rfl) (fun _ _ => rfl) (fun _ _ => rfl) (fun _ _ => rfl) (fun _ _ => rfl)))
    (rows_cover (congrArg (· * 5000) N_9) flush9_4 (fun _ => View.emb_mem_set _) (fun t => (idx_facts9 t).2.2.2.2)
      fun _ _ _ => rfl)) (ix2 i j)

end Cert.KernelIdeal.Regions

end
-- ==== Proof.KernelIdeal.Val10.lean ====
import proofs.«415844_j33432025432092_2_alg».proof.Proof.KernelIdeal.Reg10
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts10 : ∀ t : Fin cfg10.N, RowIdx (win10_0.index t) t ∧ RowIdx (win10_1.index t) 0 ∧ RowIdx (win10_2.index t) t
    ∧ RowIdx (win10_3.index t) t :=
  (by decide +kernel : ∀ t : Fin grid10.N, _)

theorem final10 (c : Dev nD) (i : Fin 100000) (j : Fin 6) :
    (dat10 (F := Ideal) V c).arrAt 3 cfg10.N (ix2 i j)
      = (∑ k : Fin 6, (by exact V c main_v71 : S100000x6.Idx → EReal) (ix2 i k) * (by exact V c main_arg13 : S6x6.Idx → EReal) (ix2 k j))
          * (by exact V c main_v11 : S100000x1.Idx → EReal) (ix2 i (0 : Fin 1)) :=
  congrFun ((dat10 (F := Ideal) V c).arrAt_eq_of_cover 3 (linG (V c main_v71) (V c main_arg13) (V c main_v11))
    (fun t _ => (congrArg ((cfg10.win 3).cut (grid10.coords t)) (after10_3 V c t)).trans
      (lin_blk k10_pay1 (lin_apply_cast _ _ _) _ _ _ ((cfg10.win 0).blk t).view.emb ((cfg10.win 1).blk t).view.emb
        ((cfg10.win 2).blk t).view.emb ((cfg10.win 3).blk t).view.emb (idx_facts10 t)
        (fun _ _ => rfl) (fun _ _ => rfl) (fun _ _ => rfl) (fun _ _ => rfl)))
    (rows_cover (congrArg (· * 5000) N_10) flush10_3 (fun _ => View.emb_mem_set _) (fun t => (idx_facts10 t).2.2.2)
      fun _ _ _ => rfl)) (ix2 i j)

end Cert.KernelIdeal.Regions

end
-- ==== Proof.KernelIdeal.Val11.lean ====
import proofs.«415844_j33432025432092_2_alg».proof.Proof.KernelIdeal.Reg11
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts11 : ∀ t : Fin cfg11.N, RowIdx (win11_0.index t) t ∧ RowIdx (win11_1.index t) t ∧ RowIdx (win11_2.index t) t
    ∧ win11_3.index t 0 = 0 ∧ RowIdx (win11_4.index t) t :=
  (by decide +kernel : ∀ t : Fin grid11.N, _)

theorem final11 (c : Dev nD) (i : Fin 100000) (j : Fin 6) :
    (dat11 (F := Ideal) V c).arrAt 4 cfg11.N (ix2 i j)
      = max ((by exact V c main_v11 : S100000x1.Idx → EReal) (ix2 i (0 : Fin 1))
            * ((by exact V c main_v82 : S100000x6.Idx → EReal) (ix2 i j) + (by exact V c main_v72 : S100000x6.Idx → EReal) (ix2 i j))
          + (by exact V c main_arg14 : S6.Idx → EReal) (ix1 j)) 0 :=
  congrFun ((dat11 (F := Ideal) V c).arrAt_eq_of_cover 4 (postG (V c main_v82) (V c main_v72) (V c main_v11) (V c main_arg14))
    (fun t _ => (congrArg ((cfg11.win 4).cut (grid11.coords t)) (after11_4 V c t)).trans
      (post_blk k11_pay1 (post_apply _ _ _ _ _) _ _ _ _ ((cfg11.win 0).blk t).view.emb ((cfg11.win 1).blk t).view.emb
        ((cfg11.win 2).blk t).view.emb ((cfg11.win 3).blk t).view.emb ((cfg11.win 4).blk t).view.emb (idx_facts11 t)
        (fun _ _ => rfl) (fun _ _ => rfl) (fun _ _ => rfl) (fun _ _ => rfl) (fun _ _ => rfl)))
    (rows_cover (congrArg (· * 5000) N_11) flush11_4 (fun _ => View.emb_mem_set _) (fun t => (idx_facts11 t).2.2.2.2)
      fun _ _ _ => rfl)) (ix2 i j)

end Cert.KernelIdeal.Regions

end
-- ==== Proof.KernelIdeal.Val12.lean ====
import proofs.«415844_j33432025432092_2_alg».proof.Proof.KernelIdeal.Reg12
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts12 : ∀ t : Fin cfg12.N, RowIdx (win12_0.index t) t ∧ RowIdx (win12_1.index t) 0 ∧ RowIdx (win12_2.index t) t
    ∧ RowIdx (win12_3.index t) t :=
  (by decide +kernel : ∀ t : Fin grid12.N, _)

theorem final12 (c : Dev nD) (i : Fin 100000) (j : Fin 10) :
    (dat12 (F := Ideal) V c).arrAt 3 cfg12.N (ix2 i j)
      = (∑ k : Fin 6, (by exact V c main_v83 : S100000x6.Idx → EReal) (ix2 i k) * (by exact V c main_arg15 : S6x10.Idx → EReal) (ix2 k j))
          * (by exact V c main_v11 : S100000x1.Idx → EReal) (ix2 i (0 : Fin 1)) :=
  congrFun ((dat12 (F := Ideal) V c).arrAt_eq_of_cover 3 (linG (V c main_v83) (V c main_arg15) (V c main_v11))
    (fun t _ => (congrArg ((cfg12.win 3).cut (grid12.coords t)) (after12_3 V c t)).trans
      (lin_blk k12_pay1 (lin_apply_cast _ _ _) _ _ _ ((cfg12.win 0).blk t).view.emb ((cfg12.win 1).blk t).view.emb
        ((cfg12.win 2).blk t).view.emb ((cfg12.win 3).blk t).view.emb (idx_facts12 t)
        (fun _ _ => rfl) (fun _ _ => rfl) (fun _ _ => rfl) (fun _ _ => rfl)))
    (rows_cover (congrArg (· * 5000) N_12) flush12_3 (fun _ => View.emb_mem_set _) (fun t => (idx_facts12 t).2.2.2)
      fun _ _ _ => rfl)) (ix2 i j)

end Cert.KernelIdeal.Regions

end
-- ==== Proof.KernelIdeal.Val13.lean ====
import proofs.«415844_j33432025432092_2_alg».proof.Proof.KernelIdeal.Reg13
import proofs.«415844_j33432025432092_2_alg».proof.Proof.KernelIdeal.ValLib

noncomputable section

namespace Cert.KernelIdeal.Regions

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem idx_facts13 : ∀ t : Fin cfg13.N, RowIdx (win13_0.index t) t ∧ RowIdx (win13_1.index t) t ∧ RowIdx (win13_2.index t) t
    ∧ win13_3.index t 0 = 0 ∧ RowIdx (win13_4.index t) t :=
  (by decide +kernel : ∀ t : Fin grid13.N, _)

theorem final13 (c : Dev nD) (i : Fin 100000) (j : Fin 10) :
    (dat13 (F := Ideal) V c).arrAt 4 cfg13.N (ix2 i j)
      = max ((by exact V c main_v11 : S100000x1.Idx → EReal) (ix2 i (0 : Fin 1))
            * ((by exact V c main_v94 : S100000x10.Idx → EReal) (ix2 i j) + (by exact V c main_v84 : S100000x10.Idx → EReal) (ix2 i j))
          + (by exact V c main_arg16 : S10.Idx → EReal) (ix1 j)) 0 :=
  congrFun ((dat13 (F := Ideal) V c).arrAt_eq_of_cover 4 (postG (V c main_v94) (V c main_v84) (V c main_v11) (V c main_arg16))
    (fun t _ => (congrArg ((cfg13.win 4).cut (grid13.coords t)) (after13_4 V c t)).trans
      (post_blk k13_pay1 (post_apply _ _ _ _ _) _ _ _ _ ((cfg13.win 0).blk t).view.emb ((cfg13.win 1).blk t).view.emb
        ((cfg13.win 2).blk t).view.emb ((cfg13.win 3).blk t).view.emb ((cfg13.win 4).blk t).view.emb (idx_facts13 t)
        (fun _ _ => rfl) (fun _ _ => rfl) (fun _ _ => rfl) (fun _ _ => rfl) (fun _ _ => rfl)))
    (rows_cover (congrArg (· * 5000) N_13) flush13_4 (fun _ => View.emb_mem_set _) (fun t => (idx_facts13 t).2.2.2.2)
      fun _ _ _ => rfl)) (ix2 i j)

end Cert.KernelIdeal.Regions

end
-- ==== Proof.Spec.lean ====
import Idealize.ShloMosaic.PureOps.Ideal
import Mathlib.Algebra.BigOperators.Fin
import Mathlib.Data.EReal.Basic

open scoped BigOperators

noncomputable section

namespace Cert.Spec

open Idealize.ShloMosaic

/-- E edges over N nodes: each edge's source node, and the node it lands on. -/
structure Graph (N E : ℕ) where
  srcRow : Fin E → Fin N
  lands : Fin E → Fin N → Prop
  dec : ∀ e i, Decidable (lands e i)

attribute [instance] Graph.dec

/-- An edge list that already holds one self loop per node, with both end nodes of each edge. -/
structure LGraph (N M : ℕ) where
  srcRow : Fin M → Fin N
  dstRow : Fin M → Fin N
  lands : Fin M → Fin N → Prop
  dec : ∀ e i, Decidable (lands e i)

attribute [instance] LGraph.dec

section Factored

variable {N E : ℕ} (G : Graph N E)

/-- The in-degree of a node, plus one for its self loop. -/
def deg (i : Fin N) : EReal := (0 + ∑ e ∈ Finset.univ.filter (fun e => G.lands e i), (1 : EReal)) + 1

def dinv (i : Fin N) : EReal := Ideal.rsqrt (deg G i)

def lin {K D : ℕ} (h : Fin N → Fin K → EReal) (W : Fin K → Fin D → EReal) (i : Fin N) (j : Fin D) : EReal :=
  (∑ k, h i k * W k j) * dinv G i

def agg {D : ℕ} (hm : Fin N → Fin D → EReal) (i : Fin N) (j : Fin D) : EReal :=
  0 + ∑ e ∈ Finset.univ.filter (fun e => G.lands e i), hm (G.srcRow e) j

def post {D : ℕ} (ag hm : Fin N → Fin D → EReal) (b : Fin D → EReal) (i : Fin N) (j : Fin D) : EReal :=
  max (dinv G i * (ag i j + hm i j) + b j) 0

/-- One layer: relu (d⁻¹ᐟ² · (Σ over incoming edges and the self loop of (h W) d⁻¹ᐟ²) + b). -/
def layer {K D : ℕ} (h : Fin N → Fin K → EReal) (W : Fin K → Fin D → EReal) (b : Fin D → EReal) : Fin N → Fin D → EReal :=
  post G (agg G (lin G h W)) (lin G h W) b

end Factored

section Listed

variable {N M : ℕ} (L : LGraph N M)

def degL (i : Fin N) : EReal := 0 + ∑ e ∈ Finset.univ.filter (fun e => L.lands e i), (1 : EReal)

def dinvL (i : Fin N) : EReal := if 0 < degL L i then Ideal.rsqrt (degL L i) else 0

def norm (e : Fin M) : EReal := dinvL L (L.srcRow e) * dinvL L (L.dstRow e)

/-- The same layer with each edge weighted by the product of its two end nodes' d⁻¹ᐟ². -/
def layerL {K D : ℕ} (h : Fin N → Fin K → EReal) (W : Fin K → Fin D → EReal) (b : Fin D → EReal) (i : Fin N) (j : Fin D) : EReal :=
  max ((0 + ∑ e ∈ Finset.univ.filter (fun e => L.lands e i), (∑ k, h (L.srcRow e) k * W k j) * norm L e) + b j) 0

end Listed

section Pool

variable {N C D : ℕ}

def poolSum (inG : Fin N → Fin C → Prop) [∀ n g, Decidable (inG n g)] (h : Fin N → Fin D → EReal) (g : Fin C) (j : Fin D) : EReal :=
  0 + ∑ n ∈ Finset.univ.filter (fun n => inG n g), h n j

def poolCnt (inG : Fin N → Fin C → Prop) [∀ n g, Decidable (inG n g)] (g : Fin C) : EReal :=
  0 + ∑ n ∈ Finset.univ.filter (fun n => inG n g), (1 : EReal)

def poolMean (inG : Fin N → Fin C → Prop) [∀ n g, Decidable (inG n g)] (h : Fin N → Fin D → EReal) (g : Fin C) (j : Fin D) : EReal :=
  Ideal.div (poolSum inG h g j) (max (poolCnt (N := N) inG g) 1)

def rowMax (p : Fin C → Fin D → EReal) (g : Fin C) : EReal := max ⊥ (Finset.univ.fold max ⊥ (fun j => p g j))

def logSoftmax (p : Fin C → Fin D → EReal) (g : Fin C) (j : Fin D) : EReal :=
  (p g j - rowMax p g) - Ideal.log (0 + ∑ j', Ideal.exp (p g j' - rowMax p g))

end Pool

section Words

def rowOf (N : ℕ) (hN : 0 < N) (w : BitVec 32) : Fin N :=
  ⟨min ((if w.slt 0#32 then w + BitVec.ofNat 32 N else w).toInt.toNat) (N - 1), by omega⟩

def kerGraph (N E : ℕ) (hN : 0 < N) (sw dw : Fin E → BitVec 32) : Graph N E where
  srcRow e := rowOf N hN (sw e)
  lands e i := (dw e).toInt = (i.val : Int)
  dec _ _ := inferInstance

def withLoops {N E : ℕ} (w : Fin E → BitVec 32) : Fin (E + N) → BitVec 32 :=
  Fin.addCases w (fun n => BitVec.ofNat 32 n.val)

def refGraph (N E : ℕ) (hN : 0 < N) (sw dw : Fin E → BitVec 32) : LGraph N (E + N) where
  srcRow e := rowOf N hN (withLoops (N := N) sw e)
  dstRow e := rowOf N hN (withLoops (N := N) dw e)
  lands e i := (withLoops (N := N) dw e).toInt = (i.val : Int)
  dec _ _ := inferInstance

def inGraph {N C : ℕ} (bw : Fin N → BitVec 32) (n : Fin N) (g : Fin C) : Prop := (bw n).toInt = (g.val : Int)

instance {N C : ℕ} (bw : Fin N → BitVec 32) (n : Fin N) (g : Fin C) : Decidable (inGraph bw n g) := by
  unfold inGraph; infer_instance

end Words

section Whole

variable {N E C : ℕ}

/-- Seven layers, the mean over each group's nodes, then log-softmax along the classes. -/
def outK (G : Graph N E) (inG : Fin N → Fin C → Prop) [∀ n g, Decidable (inG n g)]
    (x : Fin N → Fin 128 → EReal) (W1 : Fin 128 → Fin 6 → EReal) (b1 : Fin 6 → EReal)
    (W2 : Fin 6 → Fin 6 → EReal) (b2 : Fin 6 → EReal) (W3 : Fin 6 → Fin 6 → EReal) (b3 : Fin 6 → EReal)
    (W4 : Fin 6 → Fin 6 → EReal) (b4 : Fin 6 → EReal) (W5 : Fin 6 → Fin 6 → EReal) (b5 : Fin 6 → EReal)
    (W6 : Fin 6 → Fin 6 → EReal) (b6 : Fin 6 → EReal) (Wf : Fin 6 → Fin 10 → EReal) (bf : Fin 10 → EReal) :
    Fin C → Fin 10 → EReal :=
  logSoftmax (poolMean inG
    (layer G (layer G (layer G (layer G (layer G (layer G (layer G x W1 b1) W2 b2) W3 b3) W4 b4) W5 b5) W6 b6) Wf bf))

def outL {M : ℕ} (L : LGraph N M) (inG : Fin N → Fin C → Prop) [∀ n g, Decidable (inG n g)]
    (x : Fin N → Fin 128 → EReal) (W1 : Fin 128 → Fin 6 → EReal) (b1 : Fin 6 → EReal)
    (W2 : Fin 6 → Fin 6 → EReal) (b2 : Fin 6 → EReal) (W3 : Fin 6 → Fin 6 → EReal) (b3 : Fin 6 → EReal)
    (W4 : Fin 6 → Fin 6 → EReal) (b4 : Fin 6 → EReal) (W5 : Fin 6 → Fin 6 → EReal) (b5 : Fin 6 → EReal)
    (W6 : Fin 6 → Fin 6 → EReal) (b6 : Fin 6 → EReal) (Wf : Fin 6 → Fin 10 → EReal) (bf : Fin 10 → EReal) :
    Fin C → Fin 10 → EReal :=
  logSoftmax (poolMean inG
    (layerL L (layerL L (layerL L (layerL L (layerL L (layerL L (layerL L x W1 b1) W2 b2) W3 b3) W4 b4) W5 b5) W6 b6) Wf bf))

end Whole

end Cert.Spec

end
-- ==== Proof.LibGatherScatter.lean ====
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

def clampRow {n w : Nat} (N : Nat) (hN : 0 < N) (idx : IVec ⟨2, ![n, 1]⟩ w) (e : Fin n) : Fin N :=
  ⟨min (idx (ixP e)).toInt.toNat (N - 1), by omega⟩

def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

private theorem getElem_singleton_of_eq {β : Type} {l : List β} {b : β} (h : l = [b]) (k : Nat) (hk : k < l.length) :
    l[k] = b :=
  List.mem_singleton.1 (h ▸ List.getElem_mem hk)

theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil

  have hbd : d.batchDims = [0] := by
    show Shape.kept _ d.offsetDims = [0]
    rw [hoff]
    show (List.finRange 2).filter (fun a : Fin 2 => a ∉ [(1 : Fin 2)]) = [0]
    decide

  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp

  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

theorem ofFin_eq_ix1 {n : Nat} (p : Fin n) : Shape.Idx.ofFin p = ix1 p := by
  funext a
  match a with
  | ⟨0, _⟩ => rfl

theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by

  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]

  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]

  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by

  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.KernelIdeal.HostRead.lean ====
import proofs.«415844_j33432025432092_2_alg».proof.Proof.Spec
import proofs.«415844_j33432025432092_2_alg».proof.Proof.LibGatherScatter
import Idealize.ShloMosaic.Lib.IdealHost
import Idealize.ShloMosaic.Lib.ValueIdx
import Idealize.ShloMosaic.Lib.Pipeline.Value
import Idealize.ShloMosaic.Lib.StableHlo.Predicate

open scoped BigOperators

noncomputable section

namespace Cert.KernelIdeal.HostRead

open Idealize.ShloMosaic Idealize.ShloMosaic.ValueIdx
open Idealize.ShloMosaic.StableHlo.Predicate Idealize.ShloMosaic.RowOps

abbrev SE : Shape := ⟨1, ![3200000]⟩
abbrev SE1 : Shape := ⟨2, ![3200000, 1]⟩
abbrev SN : Shape := ⟨1, ![100000]⟩
abbrev SN1 : Shape := ⟨2, ![100000, 1]⟩
abbrev S0 : Shape := ⟨0, ![]⟩

/-- A row of the edge array, cut out and flattened, reads the array at that row. -/
theorem edgeRow_apply {α : Type} (X : (⟨2, ![2, 3200000]⟩ : Shape).Idx → α) (o : Nat)
    (hs : (⟨2, ![2, 3200000]⟩ : Shape).Slices ![o, 0] ⟨2, ![1, 3200000]⟩)
    (hc : (⟨2, ![1, 3200000]⟩ : Shape).ShapeCasts SE) (r : Fin 2) (hr : r.val = o) (e : Fin 3200000) :
    shapeCast SE (extractStridedSlice ⟨2, ![1, 3200000]⟩ ![o, 0] X hs) hc (ix1 e) = X (ix2 r e) := by
  refine (shapeCast_apply _ hc (ix1 e) (ix2 (0 : Fin 1) e) ?_).trans ?_
  · rw [Shape.rowMajor_val_two, Shape.rowMajor_val_one]
    show 0 * 3200000 + e.val = e.val
    omega
  · exact extractStridedSlice_apply _ X hs _ (ix2 r e) (fun a => by
      match a with
      | ⟨0, _⟩ => show r.val = o + 0; omega
      | ⟨1, _⟩ => exact (Nat.zero_add _).symm)

/-- A vector as a one-column matrix. -/
theorem col_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ixP e) = v (ix1 e) := by
  rw [bcast_col1]
  exact congrArg v (ofFin_eq_ix1 e)

/-- Compare with zero, add the node count, select: the wrap of a negative word. -/
theorem select_wrap (w : BitVec 32) :
    Scalar.select (IntOp.cmpi .slt w 0#32) (IntOp.addi w 100000#32) w
      = (if w.slt 0#32 then w + BitVec.ofNat 32 100000 else w) := by
  show (if BitVec.ofBool (w.slt 0#32) = 1 then w + 100000#32 else w) = _
  cases w.slt 0#32 <;> simp

/-- The wrapped source word, clamped, is the row the specification reads. -/
theorem srcRow_eq (hcol : SE.BroadcastsInDim SE1 ![0]) (hsp : S0.BroadcastsInDim SE ![]) (sw : SE.Idx → BitVec 32)
    (e : Fin 3200000) :
    clampRow 100000 (by norm_num)
        (broadcastInDim SE1 ![0] hcol
          (select (cmpi .slt sw (broadcastInDim SE ![] hsp (constantI S0 32 0#32)))
            (addi sw (broadcastInDim SE ![] hsp (constantI S0 32 100000#32))) sw)) e
      = Spec.rowOf 100000 (by norm_num) (sw (ix1 e)) := by
  have hw : broadcastInDim SE1 ![0] hcol
          (select (cmpi .slt sw (broadcastInDim SE ![] hsp (constantI S0 32 0#32)))
            (addi sw (broadcastInDim SE ![] hsp (constantI S0 32 100000#32))) sw) (ixP e)
      = (if (sw (ix1 e)).slt 0#32 then sw (ix1 e) + BitVec.ofNat 32 100000 else sw (ix1 e)) := by
    rw [col_apply]
    exact select_wrap (sw (ix1 e))
  exact congrArg (fun w : BitVec 32 => (⟨min w.toInt.toNat (100000 - 1), by omega⟩ : Fin 100000)) hw

/-- An edge lands where its destination word, read signed, says. -/
theorem lands_col (hcol : SE.BroadcastsInDim SE1 ![0]) (dw : SE.Idx → BitVec 32) (e : Fin 3200000) (i : Nat) :
    lands (broadcastInDim SE1 ![0] hcol dw) e i ↔ (dw (ix1 e)).toInt = (i : Int) := by
  unfold lands
  rw [col_apply]

theorem hostRsqrt_apply {s : Shape} (v : FVec Ideal s .f32) (j : s.Idx) : Host.rsqrt v j = Ideal.rsqrt (v j) := rfl

theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

theorem zeros_apply {t : Shape} (h : S0.BroadcastsInDim t ![]) (j : t.Idx) :
    broadcastInDim t ![] h (constant (F := Ideal) S0 .f32 0x00000000#32) j = 0 := Ideal.ofBits_zero_f32

theorem ones_apply {t : Shape} (h : S0.BroadcastsInDim t ![]) (j : t.Idx) :
    broadcastInDim t ![] h (constant (F := Ideal) S0 .f32 0x3F800000#32) j = 1 := Ideal.ofBits_one_f32

theorem dinv_of_sum {N E : ℕ} (G : Spec.Graph N E) (i : Fin N) (s : EReal)
    (hs : s = ∑ e ∈ Finset.univ.filter (fun e => G.lands e i), (1 : EReal)) :
    Ideal.rsqrt (0 + s + 1) = Spec.dinv G i := by
  subst hs; rfl

theorem agg_of_sum {N E D : ℕ} (G : Spec.Graph N E) (hm : Fin N → Fin D → EReal) (i : Fin N) (j : Fin D) (s : EReal)
    (hs : s = ∑ e ∈ Finset.univ.filter (fun e => G.lands e i), hm (G.srcRow e) j) :
    0 + s = Spec.agg G hm i j := by
  subst hs; rfl

/-- Ones scatter-added at the destination words count the landing edges; add one, take the inverse square root. -/
theorem dinv_apply (sd : ScatterDims SN SE1 SE)
    (huw : sd.updateWindowDims = []) (hiw : sd.insertedWindowDims = [0]) (hsd : sd.scatterDimsToOperandDims = [0])
    (hivd : sd.indexVectorDim = 1)
    (hzN : S0.BroadcastsInDim SN ![]) (hoE : S0.BroadcastsInDim SE ![]) (hcol : SE.BroadcastsInDim SE1 ![0])
    (hcolN : SN.BroadcastsInDim SN1 ![0]) (dw : SE.Idx → BitVec 32)
    (swf dwf : Fin 3200000 → BitVec 32) (hd : ∀ e, dw (ix1 e) = dwf e) (i : Fin 100000) :
    broadcastInDim SN1 ![0] hcolN
        (Host.rsqrt
          (addf
            (Host.scatterAdd sd (broadcastInDim SN ![] hzN (constant (F := Ideal) S0 .f32 0x00000000#32))
              (broadcastInDim SE1 ![0] hcol dw) (broadcastInDim SE ![] hoE (constant (F := Ideal) S0 .f32 0x3F800000#32)))
            (broadcastInDim SN ![] hzN (constant (F := Ideal) S0 .f32 0x3F800000#32)))) (ix2 i (0 : Fin 1))
      = Spec.dinv (Spec.kerGraph 100000 3200000 (by norm_num) swf dwf) i := by
  refine (broadcastInDim_apply _ hcolN _ (ix2 i (0 : Fin 1)) (ix1 i) (fun a => by
    match a with
    | ⟨0, _⟩ => rfl)).trans ?_
  rw [hostRsqrt_apply, addf_apply, hostScatterAdd_eq, scatterAdd_row1 sd huw hiw hsd hivd, zeros_apply, ones_apply]
  refine dinv_of_sum _ i _ ?_
  exact Finset.sum_congr
    (Finset.filter_congr fun e _ => (lands_col hcol dw e i.val).trans (by rw [hd e]; exact Iff.rfl))
    (fun e _ => ones_apply hoE (ix1 e))

/-- Source rows scatter-added into zeros at the destination words: the sum over the landing edges. -/
theorem agg_apply {D : Nat} (gd : GatherDims ⟨2, ![100000, D]⟩ SE1 ⟨2, ![3200000, D]⟩)
    (hoff : gd.offsetDims = [1]) (hcoll : gd.collapsedSliceDims = [0]) (hob : gd.operandBatchingDims = [])
    (hsim : gd.startIndexMap = [0]) (hgivd : gd.indexVectorDim = 1) (hss : gd.sliceSizes = ![1, D])
    (sd : ScatterDims ⟨2, ![100000, D]⟩ SE1 ⟨2, ![3200000, D]⟩)
    (huw : sd.updateWindowDims = [1]) (hiw : sd.insertedWindowDims = [0]) (hsd : sd.scatterDimsToOperandDims = [0])
    (hivd : sd.indexVectorDim = 1)
    (hz : S0.BroadcastsInDim ⟨2, ![100000, D]⟩ ![]) (hsp : S0.BroadcastsInDim SE ![]) (hcol : SE.BroadcastsInDim SE1 ![0])
    (sw dw : SE.Idx → BitVec 32) (hm : (⟨2, ![100000, D]⟩ : Shape).Idx → EReal) (i : Fin 100000) (j : Fin D) :
    Host.scatterAdd (F := Ideal) (φ := .f32) sd
        (broadcastInDim ⟨2, ![100000, D]⟩ ![] hz (constant (F := Ideal) S0 .f32 0x00000000#32))
        (broadcastInDim SE1 ![0] hcol dw)
        (Host.gather gd hm
          (broadcastInDim SE1 ![0] hcol
            (select (cmpi .slt sw (broadcastInDim SE ![] hsp (constantI S0 32 0#32)))
              (addi sw (broadcastInDim SE ![] hsp (constantI S0 32 100000#32))) sw))) (ix2 i j)
      = Spec.agg (Spec.kerGraph 100000 3200000 (by norm_num) (fun e => sw (ix1 e)) (fun e => dw (ix1 e)))
          (fun a b => hm (ix2 a b)) i j := by
  rw [hostScatterAdd_eq, scatterAdd_rows sd huw hiw hsd hivd, zeros_apply]
  refine agg_of_sum _ _ i j _ (Finset.sum_congr (Finset.filter_congr fun e _ => lands_col hcol dw e i.val) fun e _ => ?_)
  exact (gather_rows gd hoff hcoll hob hsim hgivd hss hm _ e j (by norm_num)).trans
    (congrArg (fun r => hm (ix2 r j)) (srcRow_eq hcol hsp sw e))

end Cert.KernelIdeal.HostRead

end
-- ==== Proof.Access.lean ====
import Idealize.ShloMosaic.Lib.ValueIdx

namespace Cert.Access

open Idealize.ShloMosaic Idealize.ShloMosaic.ValueIdx

def mat {α : Type} {A B : ℕ} (x : (⟨2, ![A, B]⟩ : Shape).Idx → α) (i : Fin A) (j : Fin B) : α := x (ix2 i j)

def vec {α : Type} {A : ℕ} (x : (⟨1, ![A]⟩ : Shape).Idx → α) (i : Fin A) : α := x (ix1 i)

end Cert.Access
-- ==== Proof.KernelIdeal.HostEdge1.lean ====
import proofs.«415844_j33432025432092_2_alg».proof.Proof.Gen.KernelIdeal.Launch
import proofs.«415844_j33432025432092_2_alg».proof.Proof.KernelIdeal.HostRead
import proofs.«415844_j33432025432092_2_alg».proof.Proof.Access

noncomputable section

namespace Cert.KernelIdeal.Regions

open Cert.KernelIdeal Cert.KernelIdeal.Gen
open Idealize.ShloMosaic Idealize.ShloMosaic.TcCoe Idealize.ShloMosaic.ValueIdx

/-- Entry (i, j) sums column j of the source's row over the listed edges landing on node i. -/
theorem host1_agg (W : Valuation τ sig (Elt Ideal)) (i : Fin 100000) (j : Fin 6) :
    (StableHlo.after (hostOps1 (F := Ideal)) W (Proc.devRef .tc main_v22) : S100000x6.Idx → EReal) (ix2 i j)
      = Spec.agg (Spec.kerGraph 100000 3200000 (by norm_num)
          (fun e => (W (Proc.devRef .tc main_v1) : S3200000.Idx → BitVec 32) (ix1 e))
          (fun e => (W (Proc.devRef .tc main_v3) : S3200000.Idx → BitVec 32) (ix1 e)))
        (Cert.Access.mat (W (Proc.devRef .tc main_v12) : S100000x6.Idx → EReal)) i j := by
  after_results_simp
  exact HostRead.agg_apply _ rfl rfl rfl rfl rfl rfl _ rfl rfl rfl rfl _ _ _ _ _ _ i j

end Cert.KernelIdeal.Regions

end
-- ==== Proof.KernelIdeal.Val14.lean ====
import proofs.«415844_j33432025432092_2_alg».proof.Proof.KernelIdeal.Reg14
import proofs.«415844_j33432025432092_2_alg».proof.Proof.KernelIdeal.ValLib
import proofs.«415844_j33432025432092_2_alg».proof.Proof.Spec
import proofs.«415844_j33432025432092_2_alg».proof.Proof.Access
import Idealize.ShloMosaic.Lib.IdealHost

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL.Sem
open Idealize.ShloMosaic.Pipeline (Dat)

theorem ofBits_neg_inf_f32 : Ideal.ofBits .f32 0xFF800000#32 = ⊥ := by simp [Ideal.ofBits, Ideal.ieee]

theorem shapeCast_64_64x1_apply {α : Type} (v : S64.Idx → α) (g : Fin 64) :
    shapeCast S64x1 v shapeCasts_S64_S64x1 (ix2 g (0 : Fin 1)) = v (ix1 g) := by
  refine shapeCast_apply v shapeCasts_S64_S64x1 (ix2 g (0 : Fin 1)) (ix1 g) ?_
  rw [Shape.rowMajor_val_one, Shape.rowMajor_val_two]
  show g.val = g.val * 1 + 0
  omega

theorem lift_64x10 (g : Fin 64) (k : Fin 10) : reduces_S64x10_S64.lift (ix1 g) k = ix2 g k :=
  funext fun a => Fin.ext (by match a with | ⟨0, _⟩ => rfl | ⟨1, _⟩ => rfl)

theorem rowMax_64x10_apply (x : FVec Ideal S64x10 .f32) (g : Fin 64) :
    multiReduction .maximumf [1] S64 x 0xFF800000#32 reduces_S64x10_S64 (.inl rfl) rfl (ix1 g)
      = Finset.univ.fold max ⊥ (fun j : Fin 10 => x (ix2 g j)) := by
  refine (Ideal.multiReduction_maximumf_single x 0xFF800000#32 reduces_S64x10_S64 (.inl rfl) rfl (ix1 g)).trans ?_
  have e : (x ∘ reduces_S64x10_S64.lift (ix1 g)) = fun j : Fin 10 => x (ix2 g j) :=
    funext fun k => congrArg x (lift_64x10 g k)
  rw [e]
  exact congrArg (fun b => Finset.univ.fold max b (fun j : Fin 10 => x (ix2 g j))) ofBits_neg_inf_f32

theorem rowSum_64x10_apply (x : FVec Ideal S64x10 .f32) (g : Fin 64) :
    multiReduction .add [1] S64 x 0x00000000#32 reduces_S64x10_S64 (.inl rfl) rfl (ix1 g)
      = ∑ j : Fin 10, x (ix2 g j) := by
  refine (Ideal.multiReduction_add_single x 0x00000000#32 reduces_S64x10_S64 (.inl rfl) rfl (ix1 g)).trans ?_
  exact Finset.sum_congr rfl fun k _ => congrArg x (lift_64x10 g k)

theorem softmax_tail_apply (x : FVec Ideal S64x10 .f32) (g : Fin 64) (j : Fin 10) :
    subf
      (subf x (broadcastTo S64x10 (shapeCast S64x1
        (maximumf (broadcast S64 (Scalar.ofBits (F := Ideal) .f32 0xFF800000#32))
          (multiReduction .maximumf [1] S64 x 0xFF800000#32 reduces_S64x10_S64 (.inl rfl) rfl)) shapeCasts_S64_S64x1)
        broadcasts_S64x1_S64x10))
      (broadcastTo S64x10 (log (shapeCast S64x1
        (multiReduction .add [1] S64
          (exp (subf x (broadcastTo S64x10 (shapeCast S64x1
            (maximumf (broadcast S64 (Scalar.ofBits (F := Ideal) .f32 0xFF800000#32))
              (multiReduction .maximumf [1] S64 x 0xFF800000#32 reduces_S64x10_S64 (.inl rfl) rfl)) shapeCasts_S64_S64x1)
            broadcasts_S64x1_S64x10)))
          0x00000000#32 reduces_S64x10_S64 (.inl rfl) rfl) shapeCasts_S64_S64x1)) broadcasts_S64x1_S64x10)
      (ix2 g j)
      = Cert.Spec.logSoftmax (fun g j => x (ix2 g j)) g j := by

  have hm : ∀ g' : Fin 64, (maximumf (broadcast S64 (Scalar.ofBits (F := Ideal) .f32 0xFF800000#32))
      (multiReduction .maximumf [1] S64 x 0xFF800000#32 reduces_S64x10_S64 (.inl rfl) rfl)) (ix1 g')
        = Cert.Spec.rowMax (fun g j => x (ix2 g j)) g' := fun g' =>
    congrArg₂ max ofBits_neg_inf_f32 (rowMax_64x10_apply x g')
  have hsh : ∀ (g' : Fin 64) (j' : Fin 10), (subf x (broadcastTo S64x10 (shapeCast S64x1
        (maximumf (broadcast S64 (Scalar.ofBits (F := Ideal) .f32 0xFF800000#32))
          (multiReduction .maximumf [1] S64 x 0xFF800000#32 reduces_S64x10_S64 (.inl rfl) rfl)) shapeCasts_S64_S64x1)
        broadcasts_S64x1_S64x10)) (ix2 g' j') = x (ix2 g' j') - Cert.Spec.rowMax (fun g j => x (ix2 g j)) g' := fun g' j' =>
    congrArg (fun m => x (ix2 g' j') - m)
      ((broadcastTo_a1_ab_apply _ broadcasts_S64x1_S64x10 g' j').trans ((shapeCast_64_64x1_apply _ g').trans (hm g')))
  unfold Cert.Spec.logSoftmax
  refine congrArg₂ (· - ·) (hsh g j) ?_
  refine (broadcastTo_a1_ab_apply _ broadcasts_S64x1_S64x10 g j).trans ?_
  refine congrArg Ideal.log ?_
  refine (shapeCast_64_64x1_apply _ g).trans ?_
  refine (rowSum_64x10_apply _ g).trans ?_
  refine (Finset.sum_congr rfl fun j' _ => congrArg Ideal.exp (hsh g j')).trans ?_
  exact (zero_add _).symm

theorem pay14_1_apply (S : Vec Ideal S64x10 .f32) (C : Vec Ideal S64x1 .f32) (g : Fin 64) (j : Fin 10) :
    k14_pay1 S C (ix2 g j)
      = Cert.Spec.logSoftmax (fun g j => Ideal.div (S (ix2 g j)) (max (C (ix2 g (0 : Fin 1))) 1)) g j := by
  have hq : ∀ (g' : Fin 64) (j' : Fin 10),
      (divf S (broadcastTo S64x10 (maximumf C (broadcast S64x1 (Scalar.ofBits (F := Ideal) .f32 0x3F800000#32)))
        broadcasts_S64x1_S64x10)) (ix2 g' j') = Ideal.div (S (ix2 g' j')) (max (C (ix2 g' (0 : Fin 1))) 1) := fun g' j' =>
    congrArg (Ideal.div (S (ix2 g' j')))
      ((broadcastTo_a1_ab_apply _ broadcasts_S64x1_S64x10 g' j').trans
        (congrArg (max (C (ix2 g' (0 : Fin 1)))) Ideal.ofBits_one_f32))
  unfold k14_pay1
  refine (softmax_tail_apply _ g j).trans ?_
  exact congrArg (fun p => Cert.Spec.logSoftmax p g j) (funext fun g' => funext fun j' => hq g' j')

theorem fin14_apply (S : Vec Ideal S64x10 .f32) (C : Vec Ideal S64x1 .f32) (g : Fin 64) (j : Fin 10) :
    fin14 (F := Ideal) S C (ix2 g j)
      = Cert.Spec.logSoftmax (fun g j => Ideal.div (S (ix2 g j)) (max (C (ix2 g (0 : Fin 1))) 1)) g j := by
  unfold fin14
  rw [View.canon_unit_zero zero_off2]
  simp only [View.ld_unit_zero (S := S64x10) zero_off2, View.ld_unit_zero (S := S64x1) zero_off2]
  exact pay14_1_apply S C g j

variable (V : (c : Dev nD) → (b : Ref sig .tc) → Buf (Elt Ideal) ((c : Thread nD τ).loc b))

abbrev G14 (a0 : S100000x10.Idx → Elt Ideal .f32) (a1 : S100000x1.Idx → Elt Ideal .i32) : S64x10.Idx → Elt Ideal .f32 :=
  fun i => Cert.Spec.logSoftmax (Cert.Spec.poolMean (Cert.Spec.inGraph fun n : Fin 100000 => a1 (ix2 n (0 : Fin 1)))
    (Cert.Access.mat a0)) (i 0) (i 1)

theorem idx_facts14 : ∀ t : Fin cfg14.N, win14_2.index t (0 : Fin 2) = 0 ∧ win14_2.index t (1 : Fin 2) = 0 :=
  (by decide +kernel : ∀ t : Fin grid14.N, _)

theorem flushed14_eq (c : Dev nD)
    (hS : ∀ (g : Fin 64) (j : Fin 10), sum14 (F := Ideal) V c 9 (ix2 g j)
      = Cert.Spec.poolSum (Cert.Spec.inGraph fun n : Fin 100000 => (V c main_v96) (ix2 n (0 : Fin 1))) (Cert.Access.mat (V c main_v95)) g j)
    (hC : ∀ g : Fin 64, cnt14 (F := Ideal) V c 9 (ix2 g (0 : Fin 1))
      = Cert.Spec.poolCnt (Cert.Spec.inGraph fun n : Fin 100000 => (V c main_v96) (ix2 n (0 : Fin 1))) g)
    (t : Fin cfg14.N) :
    (dat14 (F := Ideal) V c).flushed 2 t
      = ((cfg14.win 2).blk t).view.read (Elt Ideal) (G14 (V c main_v95) (V c main_v96)) := by
  show (cfg14.win 2).cut (grid14.coords t) ((dat14 (F := Ideal) V c).after 2 t) = _
  rw [after14_2]
  unfold out14_2
  obtain ⟨e0, e1⟩ := idx_facts14 t
  show fin14 (F := Ideal) (sum14 (F := Ideal) V c 9) (cnt14 (F := Ideal) V c 9)
    = fun y => G14 (V c main_v95) (V c main_v96) (((cfg14.win 2).blk t).view.emb y)
  funext y
  obtain ⟨p, q, rfl⟩ : ∃ (p : Fin 64) (q : Fin 10), y = ix2 p q := ⟨y 0, y 1, eq_ix2 y⟩
  refine (fin14_apply _ _ p q).trans ?_
  have hmean : (fun (g : Fin 64) (j : Fin 10) => Ideal.div (sum14 (F := Ideal) V c 9 (ix2 g j)) (max (cnt14 (F := Ideal) V c 9 (ix2 g (0 : Fin 1))) 1))
      = Cert.Spec.poolMean (Cert.Spec.inGraph fun n : Fin 100000 => (V c main_v96) (ix2 n (0 : Fin 1))) (Cert.Access.mat (V c main_v95)) :=
    funext fun g => funext fun j => by unfold Cert.Spec.poolMean; rw [hS g j, hC g]
  rw [hmean]
  have hp : (((cfg14.win 2).blk t).view.emb (ix2 p q)) 0 = p := Fin.ext (by
    show win14_2.index t (0 : Fin 2) * 64 + 1 * p.val = p.val; omega)
  have hq : (((cfg14.win 2).blk t).view.emb (ix2 p q)) 1 = q := Fin.ext (by
    show win14_2.index t (1 : Fin 2) * 10 + 1 * q.val = q.val; omega)
  show _ = Cert.Spec.logSoftmax _ ((((cfg14.win 2).blk t).view.emb (ix2 p q)) 0) ((((cfg14.win 2).blk t).view.emb (ix2 p q)) 1)
  rw [hp, hq]
  rfl

theorem mem_blk14 (t : Fin cfg14.N) (i : S64x10.Idx) :
    i ∈ ((cfg14.win 2).blk t).view.set ↔ ∀ a : Fin 2, win14_2.index t a * S64x10.size a ≤ (i a).val ∧ (i a).val < win14_2.index t a * S64x10.size a + S64x10.size a := by
  show i ∈ ((View.whole main_v97).slice (win14_2.rect t)).set ↔ _
  rw [View.set_slice_whole, Rect.mem_set_unit]
  exact Iff.rfl

theorem cover14 (i : S64x10.Idx) :
    ∃ t : Fin cfg14.N, (cfg14.win 2).flush t = true ∧ i ∈ ((cfg14.win 2).blk t).view.set := by
  have hi0 : (i 0).val < 64 := (i 0).isLt
  have hi1 : (i 1).val < 10 := (i 1).isLt
  obtain ⟨e0, e1⟩ := idx_facts14 t14_9
  refine ⟨t14_9, (flush14_2 t14_9).mpr rfl, ?_⟩
  rw [mem_blk14]
  intro a
  match a with
  | ⟨0, _⟩ => show win14_2.index t14_9 (0 : Fin 2) * 64 ≤ (i 0).val ∧ (i 0).val < win14_2.index t14_9 (0 : Fin 2) * 64 + 64; omega
  | ⟨1, _⟩ => show win14_2.index t14_9 (1 : Fin 2) * 10 ≤ (i 1).val ∧ (i 1).val < win14_2.index t14_9 (1 : Fin 2) * 10 + 10; omega

theorem arr14_eq (c : Dev nD)
    (hS : ∀ (g : Fin 64) (j : Fin 10), sum14 (F := Ideal) V c 9 (ix2 g j)
      = Cert.Spec.poolSum (Cert.Spec.inGraph fun n : Fin 100000 => (V c main_v96) (ix2 n (0 : Fin 1))) (Cert.Access.mat (V c main_v95)) g j)
    (hC : ∀ g : Fin 64, cnt14 (F := Ideal) V c 9 (ix2 g (0 : Fin 1))
      = Cert.Spec.poolCnt (Cert.Spec.inGraph fun n : Fin 100000 => (V c main_v96) (ix2 n (0 : Fin 1))) g) :
    (dat14 (F := Ideal) V c).arrAt 2 cfg14.N = G14 (V c main_v95) (V c main_v96) :=
  (dat14 (F := Ideal) V c).arrAt_eq_of_cover 2 (G14 (V c main_v95) (V c main_v96))
    (fun t _ => flushed14_eq V c hS hC t) cover14

theorem final14 (c : Dev nD)
    (hS : ∀ (g : Fin 64) (j : Fin 10), sum14 (F := Ideal) V c 9 (ix2 g j)
      = Cert.Spec.poolSum (Cert.Spec.inGraph fun n : Fin 100000 => (V c main_v96) (ix2 n (0 : Fin 1))) (Cert.Access.mat (V c main_v95)) g j)
    (hC : ∀ g : Fin 64, cnt14 (F := Ideal) V c 9 (ix2 g (0 : Fin 1))
      = Cert.Spec.poolCnt (Cert.Spec.inGraph fun n : Fin 100000 => (V c main_v96) (ix2 n (0 : Fin 1))) g)
    (g : Fin 64) (j : Fin 10) :
    (dat14 (F := Ideal) V c).arrAt 2 cfg14.N (ix2 g j)
      = Cert.Spec.logSoftmax (Cert.Spec.poolMean (Cert.Spec.inGraph fun n : Fin 100000 => (V c main_v96) (ix2 n (0 : Fin 1)))
          (Cert.Access.mat (V c main_v95))) g j :=
  congrFun (arr14_eq V c hS hC) (ix2 g j)

end Cert.KernelIdeal.Regions

end
-- ==== Proof.KernelIdeal.Val14Sum.lean ====
import proofs.«415844_j33432025432092_2_alg».proof.Proof.KernelIdeal.Reg14
import proofs.«415844_j33432025432092_2_alg».proof.Proof.KernelIdeal.ValLib
import proofs.«415844_j33432025432092_2_alg».proof.Proof.Spec
import proofs.«415844_j33432025432092_2_alg».proof.Proof.Access
import Mathlib.Algebra.BigOperators.Fin
import Mathlib.Data.EReal.Basic

set_option maxRecDepth 16384

noncomputable section

namespace Cert.KernelIdeal.Regions

open Cert.KernelIdeal Cert.KernelIdeal.Gen
open Idealize.ShloMosaic Idealize.ShloMosaic.ValueIdx Idealize.ShloMosaic.TcCoe
open scoped BigOperators

theorem onehot_word (b : BitVec 32) (g : Fin 64) :
    (((IntOp.cmpi .eq b (BitVec.ofNat 32 g.val)).setWidth 32).toInt) = if b.toInt = (g.val : Int) then 1 else 0 := by
  have hg := g.isLt
  have hgi : (BitVec.ofNat 32 g.val).toInt = (g.val : Int) := by
    rw [BitVec.toInt_eq_toNat_of_lt (by rw [BitVec.toNat_ofNat]; omega), BitVec.toNat_ofNat]
    omega
  unfold IntOp.cmpi
  by_cases h : b = BitVec.ofNat 32 g.val
  · subst h
    rw [if_pos hgi]
    simp
  · have h' : ¬ b.toInt = (g.val : Int) := fun e => h (BitVec.toInt_inj.mp (e.trans hgi.symm))
    have hb : (b == BitVec.ofNat 32 g.val) = false := by simpa using h
    rw [if_neg h']
    show ((BitVec.ofBool (b == BitVec.ofNat 32 g.val)).setWidth 32).toInt = 0
    rw [hb]
    rfl

theorem inrange_word (t : Fin 10) (r : Fin 10000) :
    (((IntOp.cmpi .slt (IntOp.addi (IntOp.muli (BitVec.ofNat 32 t.val) 10000#32) (BitVec.ofNat 32 r.val)) 100000#32).setWidth 32).toInt) = 1 := by
  have ht := t.isLt
  have hr := r.isLt
  have hn : (IntOp.addi (IntOp.muli (BitVec.ofNat 32 t.val) 10000#32) (BitVec.ofNat 32 r.val)).toNat = t.val * 10000 + r.val := by
    unfold IntOp.addi IntOp.muli
    rw [BitVec.toNat_add, BitVec.toNat_mul, BitVec.toNat_ofNat, BitVec.toNat_ofNat]
    show (t.val % 4294967296 * 10000 % 4294967296 + r.val % 4294967296) % 4294967296 = _
    omega
  have hi : (IntOp.addi (IntOp.muli (BitVec.ofNat 32 t.val) 10000#32) (BitVec.ofNat 32 r.val)).toInt = ((t.val * 10000 + r.val : Nat) : Int) := by
    rw [BitVec.toInt_eq_toNat_of_lt (by rw [hn]; omega), hn]
  have hs : BitVec.slt (IntOp.addi (IntOp.muli (BitVec.ofNat 32 t.val) 10000#32) (BitVec.ofNat 32 r.val)) 100000#32 = true := by
    unfold BitVec.slt
    rw [hi]
    have : (100000#32 : BitVec 32).toInt = 100000 := by decide
    rw [this]
    simp only [decide_eq_true_eq]
    omega
  unfold IntOp.cmpi
  show ((BitVec.ofBool (BitVec.slt _ _)).setWidth 32).toInt = 1
  rw [hs]
  rfl

theorem pool_pay4_apply (i : grid14.Coords) (w : Vec Ideal S10000x1 .i32) (r : Fin 10000) (g : Fin 64) :
    k14_pay4 (F := Ideal) i w (ix2 r g) = if (w (ix2 r (0 : Fin 1))).toInt = (g.val : Int) then (1 : EReal) else 0 := by
  unfold k14_pay4
  dsimp only
  refine (mulf_apply _ _ _).trans ?_
  have e1 : (sitofp (F := Ideal) .f32 (extui 32 (cmpi .eq (broadcastTo S10000x64 (shapeCast S10000x1 w shapeCasts_S10000x1_S10000x1) broadcasts_S10000x1_S10000x64) (iota .tc S10000x64 32 [1] iota_S10000x64_d1_w32)) natLt_1_32)) (ix2 r g)
      = (((if (w (ix2 r (0 : Fin 1))).toInt = (g.val : Int) then 1 else 0 : Int) : ℝ) : EReal) := by
    show ((((IntOp.cmpi .eq (broadcastTo S10000x64 (shapeCast S10000x1 w shapeCasts_S10000x1_S10000x1) broadcasts_S10000x1_S10000x64 (ix2 r g)) (iota .tc S10000x64 32 [1] iota_S10000x64_d1_w32 (ix2 r g))).setWidth 32).toInt : ℝ) : EReal) = _
    rw [broadcastTo_a1_ab_apply, shapeCast_self, iota_single_apply]
    exact congrArg (fun z : Int => ((z : ℝ) : EReal)) (onehot_word (w (ix2 r (0 : Fin 1))) g)
  have e2 : (broadcastTo S10000x64 (sitofp (F := Ideal) .f32 (extui 32 (cmpi .slt (addi (broadcast S10000x1 (Scalar.muli (BitVec.ofNat 32 (i 0).val) 10000#32)) (iota .tc S10000x1 32 [0] iota_S10000x1_d0_w32)) (broadcast S10000x1 100000#32)) natLt_1_32)) broadcasts_S10000x1_S10000x64) (ix2 r g)
      = (1 : EReal) := by
    rw [broadcastTo_a1_ab_apply]
    show ((((IntOp.cmpi .slt (IntOp.addi (IntOp.muli (BitVec.ofNat 32 (i 0).val) 10000#32) (iota .tc S10000x1 32 [0] iota_S10000x1_d0_w32 (ix2 r (0 : Fin 1)))) 100000#32).setWidth 32).toInt : ℝ) : EReal) = _
    rw [iota_single_apply]
    refine (congrArg (fun z : Int => ((z : ℝ) : EReal)) (inrange_word (i 0) r)).trans ?_
    simp
  rw [e1, e2, mul_one]
  split <;> simp

theorem lhs_pool_0 (i : S64x10.Idx) (q : dot_S10000x64_S10000x10_S64x10_0_0_1_1_n_n.contr.Idx) :
    (dot_S10000x64_S10000x10_S64x10_0_0_1_1_n_n.lhsIdx i q 0).val = (q ⟨0, by decide⟩).val :=
  dot_S10000x64_S10000x10_S64x10_0_0_1_1_n_n.lhsIdx_val_of_single rfl i q
theorem lhs_pool_1 (i : S64x10.Idx) (q : dot_S10000x64_S10000x10_S64x10_0_0_1_1_n_n.contr.Idx) :
    (dot_S10000x64_S10000x10_S64x10_0_0_1_1_n_n.lhsIdx i q 1).val = (i 0).val := by
  unfold DotDims.lhsIdx
  rw [dif_neg (show ¬(1 : Fin S10000x64.rank) ∈ dot_S10000x64_S10000x10_S64x10_0_0_1_1_n_n.lhsBatch by decide), dif_pos (show (1 : Fin S10000x64.rank) ∈ dot_S10000x64_S10000x10_S64x10_0_0_1_1_n_n.lhsNonContracting by decide)]
  rfl
theorem rhs_pool_0 (i : S64x10.Idx) (q : dot_S10000x64_S10000x10_S64x10_0_0_1_1_n_n.contr.Idx) :
    (dot_S10000x64_S10000x10_S64x10_0_0_1_1_n_n.rhsIdx i q 0).val = (q ⟨0, by decide⟩).val :=
  dot_S10000x64_S10000x10_S64x10_0_0_1_1_n_n.rhsIdx_val_of_single rfl i q
theorem rhs_pool_1 (i : S64x10.Idx) (q : dot_S10000x64_S10000x10_S64x10_0_0_1_1_n_n.contr.Idx) :
    (dot_S10000x64_S10000x10_S64x10_0_0_1_1_n_n.rhsIdx i q 1).val = (i 1).val := by
  unfold DotDims.rhsIdx
  rw [dif_neg (show ¬(1 : Fin S10000x10.rank) ∈ dot_S10000x64_S10000x10_S64x10_0_0_1_1_n_n.rhsBatch by decide), dif_pos (show (1 : Fin S10000x10.rank) ∈ dot_S10000x64_S10000x10_S64x10_0_0_1_1_n_n.rhsNonContracting by decide)]
  rfl

theorem matmul_pool_apply (x0 : FVec Ideal S10000x64 .f32) (x1 : FVec Ideal S10000x10 .f32) (g : Fin 64) (j : Fin 10) :
    matmul dot_S10000x64_S10000x10_S64x10_0_0_1_1_n_n none x0 x1 (constant (F := Ideal) S64x10 .f32 0x00000000#32) (ix2 g j)
      = ∑ r : Fin 10000, x0 (ix2 r g) * x1 (ix2 r j) := by
  simp only [matmul]
  rw [Ideal.matmul_constant_zero_apply, ← Equiv.sum_comp (ValueIdx.contrEquiv1 dot_S10000x64_S10000x10_S64x10_0_0_1_1_n_n 10000 rfl rfl).symm]
  refine Finset.sum_congr rfl fun k _ => ?_
  have hk := ValueIdx.contrEquiv1_symm_val dot_S10000x64_S10000x10_S64x10_0_0_1_1_n_n 10000 rfl rfl k
  have el : dot_S10000x64_S10000x10_S64x10_0_0_1_1_n_n.lhsIdx (ix2 g j) ((ValueIdx.contrEquiv1 dot_S10000x64_S10000x10_S64x10_0_0_1_1_n_n 10000 rfl rfl).symm k) = ix2 k g := funext fun a => Fin.ext (by
    match a with
    | ⟨0, _⟩ => exact (lhs_pool_0 _ _).trans hk
    | ⟨1, _⟩ => exact lhs_pool_1 _ _)
  have er : dot_S10000x64_S10000x10_S64x10_0_0_1_1_n_n.rhsIdx (ix2 g j) ((ValueIdx.contrEquiv1 dot_S10000x64_S10000x10_S64x10_0_0_1_1_n_n 10000 rfl rfl).symm k) = ix2 k j := funext fun a => Fin.ext (by
    match a with
    | ⟨0, _⟩ => exact (rhs_pool_0 _ _).trans hk
    | ⟨1, _⟩ => exact rhs_pool_1 _ _)
  rw [el, er]

theorem pool_pay5_apply (i : grid14.Coords) (w : Vec Ideal S10000x1 .i32) (S : Vec Ideal S64x10 .f32) (x : Vec Ideal S10000x10 .f32)
    (g : Fin 64) (j : Fin 10) :
    k14_pay5 (F := Ideal) i w S x (ix2 g j)
      = S (ix2 g j) + ∑ r : Fin 10000, k14_pay4 (F := Ideal) i w (ix2 r g) * x (ix2 r j) := by
  unfold k14_pay5
  refine (congrFun (shapeCast_self _ _) _).trans ?_
  refine (addf_apply _ _ _).trans ?_
  refine congrArg (S (ix2 g j) + ·) ?_
  refine (matmul_pool_apply _ _ g j).trans ?_
  refine Finset.sum_congr rfl fun r _ => ?_
  exact congrArg (k14_pay4 (F := Ideal) i w (ix2 r g) * ·) (congrFun (shapeCast_self _ _) _)

theorem shapeCast_a_a1_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

theorem pool_pay6_apply (i : grid14.Coords) (w : Vec Ideal S10000x1 .i32) (C : Vec Ideal S64x1 .f32) (g : Fin 64) :
    k14_pay6 (F := Ideal) i w C (ix2 g (0 : Fin 1))
      = C (ix2 g (0 : Fin 1)) + ∑ r : Fin 10000, k14_pay4 (F := Ideal) i w (ix2 r g) := by
  unfold k14_pay6
  refine (congrFun (shapeCast_self _ _) _).trans ?_
  refine (addf_apply _ _ _).trans ?_
  refine congrArg (C (ix2 g (0 : Fin 1)) + ·) ?_
  refine (shapeCast_a_a1_apply _ _ g).trans ?_
  refine (Ideal.multiReduction_add_single (k14_pay4 (F := Ideal) i w) 0x00000000#32 reduces_S10000x64_S64 (.inl rfl) rfl (ix1 g)).trans ?_
  refine Finset.sum_congr rfl fun r _ => ?_
  exact congrArg (k14_pay4 (F := Ideal) i w) (funext fun a => Fin.ext (by
    match a with
    | ⟨0, _⟩ => rfl
    | ⟨1, _⟩ => rfl))

variable (V : (c : Dev nD) → (b : Ref sig .tc) → Buf (Elt Ideal) ((c : Thread nD τ).loc b))

theorem zero14_s_apply (g : Fin 64) (j : Fin 10) : zero14_s (F := Ideal) (ix2 g j) = 0 := by
  unfold zero14_s
  rw [View.canon_unit_zero zero_off2]
  unfold k14_pay2
  refine (congrFun (shapeCast_self _ _) _).trans ?_
  exact Ideal.ofBits_zero_f32

theorem zero14_c_apply (g : Fin 64) : zero14_c (F := Ideal) (ix2 g (0 : Fin 1)) = 0 := by
  unfold zero14_c
  rw [View.canon_unit_zero zero_off2]
  unfold k14_pay3
  refine (congrFun (shapeCast_self _ _) _).trans ?_
  exact Ideal.ofBits_zero_f32

theorem acc14_s_apply (i : grid14.Coords) (x : Vec Ideal S10000x10 .f32) (w : Vec Ideal S10000x1 .i32) (S : Vec Ideal S64x10 .f32)
    (g : Fin 64) (j : Fin 10) :
    acc14_s (F := Ideal) i x w S (ix2 g j)
      = S (ix2 g j) + ∑ r : Fin 10000, (if (w (ix2 r (0 : Fin 1))).toInt = (g.val : Int) then (1 : EReal) else 0) * x (ix2 r j) := by
  unfold acc14_s
  rw [View.canon_unit_zero zero_off2]
  simp only [View.ld_unit_zero (S := S10000x1) zero_off2, View.ld_unit_zero (S := S64x10) zero_off2, View.ld_unit_zero (S := S10000x10) zero_off2]
  refine (pool_pay5_apply i w S x g j).trans ?_
  refine congrArg (S (ix2 g j) + ·) (Finset.sum_congr rfl fun r _ => ?_)
  exact congrArg (· * x (ix2 r j)) (pool_pay4_apply i w r g)

theorem acc14_c_apply (i : grid14.Coords) (w : Vec Ideal S10000x1 .i32) (C : Vec Ideal S64x1 .f32) (g : Fin 64) :
    acc14_c (F := Ideal) i w C (ix2 g (0 : Fin 1))
      = C (ix2 g (0 : Fin 1)) + ∑ r : Fin 10000, (if (w (ix2 r (0 : Fin 1))).toInt = (g.val : Int) then (1 : EReal) else 0) := by
  unfold acc14_c
  rw [View.canon_unit_zero zero_off2]
  simp only [View.ld_unit_zero (S := S10000x1) zero_off2, View.ld_unit_zero (S := S64x1) zero_off2]
  refine (pool_pay6_apply i w C g).trans ?_
  exact congrArg (C (ix2 g (0 : Fin 1)) + ·) (Finset.sum_congr rfl fun r _ => pool_pay4_apply i w r g)

def node14 (n : ℕ) (r : Fin 10000) : Fin 100000 :=
  ⟨10000 * (n % 10) + r.val, by have := r.isLt; have := Nat.mod_lt n (by decide : 0 < 10); omega⟩

abbrev feat14 (c : Dev nD) : Fin 100000 → Fin 10 → EReal :=
  Cert.Access.mat (A := 100000) (B := 10) (V c main_v95)

abbrev bw14 (c : Dev nD) (n : Fin 100000) : BitVec 32 := (V c main_v96) (ix2 n (0 : Fin 1))

theorem idx_facts14_in : ∀ t : Fin cfg14.N, win14_0.index t (0 : Fin 2) = t.val ∧ win14_0.index t (1 : Fin 2) = 0
    ∧ win14_1.index t (0 : Fin 2) = t.val ∧ win14_1.index t (1 : Fin 2) = 0 :=
  (by decide +kernel : ∀ t : Fin grid14.N, _)

theorem iblk14_0_apply (c : Dev nD) (n : ℕ) (r : Fin 10000) (j : Fin 10) :
    (iblk14 V c 0 (pt14 n) : Vec Ideal S10000x10 .f32) (ix2 r j) = feat14 V c (node14 n r) j := by
  obtain ⟨e0, e1, -, -⟩ := idx_facts14_in (pt14 n)
  unfold iblk14
  show V c main_v95 (((cfg14.win 0).blk (pt14 n)).view.emb (ix2 r j)) = V c main_v95 (ix2 (node14 n r) j)
  refine congrArg (V c main_v95) (funext fun a => Fin.ext ?_)
  match a with
  | ⟨0, _⟩ =>
    show win14_0.index (pt14 n) (0 : Fin 2) * 10000 + 1 * r.val = 10000 * (n % 10) + r.val
    rw [e0]; show (n % 10) * 10000 + 1 * r.val = _; omega
  | ⟨1, _⟩ =>
    show win14_0.index (pt14 n) (1 : Fin 2) * 10 + 1 * j.val = j.val
    rw [e1]; omega

theorem iblk14_1_apply (c : Dev nD) (n : ℕ) (r : Fin 10000) :
    (iblk14 V c 1 (pt14 n) : Vec Ideal S10000x1 .i32) (ix2 r (0 : Fin 1)) = bw14 V c (node14 n r) := by
  obtain ⟨-, -, e0, e1⟩ := idx_facts14_in (pt14 n)
  unfold iblk14
  show V c main_v96 (((cfg14.win 1).blk (pt14 n)).view.emb (ix2 r (0 : Fin 1))) = V c main_v96 (ix2 (node14 n r) (0 : Fin 1))
  refine congrArg (V c main_v96) (funext fun a => Fin.ext ?_)
  match a with
  | ⟨0, _⟩ =>
    show win14_1.index (pt14 n) (0 : Fin 2) * 10000 + 1 * r.val = 10000 * (n % 10) + r.val
    rw [e0]; show (n % 10) * 10000 + 1 * r.val = _; omega
  | ⟨1, _⟩ =>
    show win14_1.index (pt14 n) (1 : Fin 2) * 1 + 1 * 0 = 0
    rw [e1]

theorem sum_blocks14 (f : Fin 100000 → EReal) :
    ∑ t ∈ Finset.range 10, ∑ r : Fin 10000, f (node14 t r) = ∑ m : Fin 100000, f m := by
  rw [Finset.sum_range (fun t => ∑ r : Fin 10000, f (node14 t r))]
  rw [← Equiv.sum_comp ((finProdFinEquiv (m := 10) (n := 10000)).trans (finCongr (by norm_num : 10 * 10000 = 100000))) f]
  rw [Fintype.sum_prod_type]
  refine Finset.sum_congr rfl fun t _ => Finset.sum_congr rfl fun r _ => ?_
  refine congrArg f (Fin.ext ?_)
  show 10000 * (t.val % 10) + r.val = r.val + 10000 * t.val
  have := t.isLt; omega

def blockSum14 (c : Dev nD) (g : Fin 64) (j : Fin 10) (n : ℕ) : EReal :=
  ∑ r : Fin 10000, if (bw14 V c (node14 n r)).toInt = (g.val : Int) then feat14 V c (node14 n r) j else 0

def blockCnt14 (c : Dev nD) (g : Fin 64) (n : ℕ) : EReal :=
  ∑ r : Fin 10000, if (bw14 V c (node14 n r)).toInt = (g.val : Int) then (1 : EReal) else 0

theorem step14_s (c : Dev nD) (n : ℕ) (S : Vec Ideal S64x10 .f32) (g : Fin 64) (j : Fin 10) :
    acc14_s (F := Ideal) (grid14.coords (pt14 n)) (iblk14 V c 0 (pt14 n)) (iblk14 V c 1 (pt14 n)) S (ix2 g j)
      = S (ix2 g j) + blockSum14 V c g j n := by
  refine (acc14_s_apply (grid14.coords (pt14 n)) (iblk14 V c 0 (pt14 n)) (iblk14 V c 1 (pt14 n)) S g j).trans ?_
  refine congrArg (S (ix2 g j) + ·) (Finset.sum_congr rfl fun r _ => ?_)
  refine (congrArg₂ (fun (b : BitVec 32) (y : EReal) => (if b.toInt = (g.val : Int) then (1 : EReal) else 0) * y)
    (iblk14_1_apply V c n r) (iblk14_0_apply V c n r j)).trans ?_
  by_cases hb : (bw14 V c (node14 n r)).toInt = (g.val : Int)
  · rw [if_pos hb, if_pos hb, one_mul]
  · rw [if_neg hb, if_neg hb, zero_mul]

theorem step14_c (c : Dev nD) (n : ℕ) (C : Vec Ideal S64x1 .f32) (g : Fin 64) :
    acc14_c (F := Ideal) (grid14.coords (pt14 n)) (iblk14 V c 1 (pt14 n)) C (ix2 g (0 : Fin 1))
      = C (ix2 g (0 : Fin 1)) + blockCnt14 V c g n := by
  refine (acc14_c_apply (grid14.coords (pt14 n)) (iblk14 V c 1 (pt14 n)) C g).trans ?_
  refine congrArg (C (ix2 g (0 : Fin 1)) + ·) (Finset.sum_congr rfl fun r _ => ?_)
  exact congrArg (fun b : BitVec 32 => if b.toInt = (g.val : Int) then (1 : EReal) else 0) (iblk14_1_apply V c n r)

theorem sum14_upto (c : Dev nD) (g : Fin 64) (j : Fin 10) (n : ℕ) :
    sum14 (F := Ideal) V c n (ix2 g j) = 0 + ∑ t ∈ Finset.range (n + 1), blockSum14 V c g j t := by
  induction n with
  | zero =>
    rw [sum14_zero]
    refine (step14_s V c 0 (zero14_s (F := Ideal)) g j).trans ?_
    rw [zero14_s_apply, Finset.sum_range_one]
  | succ n ih =>
    rw [sum14_succ]
    refine (step14_s V c (n + 1) (sum14 (F := Ideal) V c n) g j).trans ?_
    rw [ih, Finset.sum_range_succ _ (n + 1), add_assoc]

theorem cnt14_upto (c : Dev nD) (g : Fin 64) (n : ℕ) :
    cnt14 (F := Ideal) V c n (ix2 g (0 : Fin 1)) = 0 + ∑ t ∈ Finset.range (n + 1), blockCnt14 V c g t := by
  induction n with
  | zero =>
    rw [cnt14_zero]
    refine (step14_c V c 0 (zero14_c (F := Ideal)) g).trans ?_
    rw [zero14_c_apply, Finset.sum_range_one]
  | succ n ih =>
    rw [cnt14_succ]
    refine (step14_c V c (n + 1) (cnt14 (F := Ideal) V c n) g).trans ?_
    rw [ih, Finset.sum_range_succ _ (n + 1), add_assoc]

theorem sum14_last (c : Dev nD) (g : Fin 64) (j : Fin 10) :
    sum14 (F := Ideal) V c 9 (ix2 g j) = Cert.Spec.poolSum (Cert.Spec.inGraph (bw14 V c)) (feat14 V c) g j := by
  rw [sum14_upto V c g j 9]
  unfold Cert.Spec.poolSum
  refine congrArg ((0 : EReal) + ·) ?_
  rw [Finset.sum_filter]
  refine (sum_blocks14 (fun m => if (bw14 V c m).toInt = (g.val : Int) then feat14 V c m j else 0)).trans ?_
  exact Finset.sum_congr rfl fun m _ => if_congr Iff.rfl rfl rfl

theorem cnt14_last (c : Dev nD) (g : Fin 64) :
    cnt14 (F := Ideal) V c 9 (ix2 g (0 : Fin 1)) = Cert.Spec.poolCnt (Cert.Spec.inGraph (bw14 V c)) g := by
  rw [cnt14_upto V c g 9]
  unfold Cert.Spec.poolCnt
  refine congrArg ((0 : EReal) + ·) ?_
  rw [Finset.sum_filter]
  refine (sum_blocks14 (fun m => if (bw14 V c m).toInt = (g.val : Int) then (1 : EReal) else 0)).trans ?_
  exact Finset.sum_congr rfl fun m _ => if_congr Iff.rfl rfl rfl

end Cert.KernelIdeal.Regions

end
-- ==== Proof.KernelIdeal.Host0.lean ====
import proofs.«415844_j33432025432092_2_alg».proof.Proof.Gen.KernelIdeal.Launch
import proofs.«415844_j33432025432092_2_alg».proof.Proof.KernelIdeal.HostRead

noncomputable section

namespace Cert.KernelIdeal.Regions

open Cert.KernelIdeal Cert.KernelIdeal.Gen
open Idealize.ShloMosaic Idealize.ShloMosaic.TcCoe Idealize.ShloMosaic.ValueIdx

/-- The source words are row 0 of the edge array, cut out and flattened. -/
theorem host0_src (W : Valuation τ sig (Elt Ideal)) (e : Fin 3200000) :
    (StableHlo.after (hostOps0 (F := Ideal)) W (Proc.devRef .tc main_v1) : S3200000.Idx → BitVec 32) (ix1 e)
      = (W (Proc.devRef .tc main_arg1) : S2x3200000.Idx → BitVec 32) (ix2 0 e) := by
  after_results
  exact HostRead.edgeRow_apply _ 0 _ _ 0 rfl e

/-- The destination words are row 1. -/
theorem host0_dst (W : Valuation τ sig (Elt Ideal)) (e : Fin 3200000) :
    (StableHlo.after (hostOps0 (F := Ideal)) W (Proc.devRef .tc main_v3) : S3200000.Idx → BitVec 32) (ix1 e)
      = (W (Proc.devRef .tc main_arg1) : S2x3200000.Idx → BitVec 32) (ix2 1 e) := by
  after_results
  exact HostRead.edgeRow_apply _ 1 _ _ 1 rfl e

/-- Ones scatter-added at the destination words count the edges landing on a node. -/
theorem host0_dinv (W : Valuation τ sig (Elt Ideal)) (i : Fin 100000) :
    (StableHlo.after (hostOps0 (F := Ideal)) W (Proc.devRef .tc main_v11) : S100000x1.Idx → EReal) (ix2 i 0)
      = Spec.dinv (Spec.kerGraph 100000 3200000 (by norm_num)
          (fun e => (W (Proc.devRef .tc main_arg1) : S2x3200000.Idx → BitVec 32) (ix2 0 e))
          (fun e => (W (Proc.devRef .tc main_arg1) : S2x3200000.Idx → BitVec 32) (ix2 1 e))) i := by
  after_results
  exact HostRead.dinv_apply scatter_S100000_S3200000x1_S3200000_n_0_0_1 rfl rfl rfl rfl _ _ _ _ _ _ _
    (fun e => HostRead.edgeRow_apply _ 1 _ _ 1 rfl e) i

end Cert.KernelIdeal.Regions

end
-- ==== Proof.KernelIdeal.Host14.lean ====
import proofs.«415844_j33432025432092_2_alg».proof.Proof.Gen.KernelIdeal.Launch
import Idealize.ShloMosaic.Lib.ValueIdx
import Idealize.ShloMosaic.Lib.Pipeline.Value

noncomputable section

namespace Cert.KernelIdeal.Regions

open Cert.KernelIdeal Cert.KernelIdeal.Gen
open Idealize.ShloMosaic Idealize.ShloMosaic.TcCoe Idealize.ShloMosaic.ValueIdx

/-- The batch words laid out as a column: row n holds word n. -/
theorem host14_batch (W : Valuation τ sig (Elt Ideal)) (n : Fin 100000) :
    (StableHlo.after (hostOps14 (F := Ideal)) W (Proc.devRef .tc main_v96) : S100000x1.Idx → BitVec 32) (ix2 n 0)
      = (W (Proc.devRef .tc main_arg2) : S100000.Idx → BitVec 32) (ix1 n) := by
  after_results
  exact broadcastInDim_apply _ _ _ _ _ (fun a => by
    match a with
    | ⟨0, _⟩ => rfl)

end Cert.KernelIdeal.Regions

end
-- ==== Proof.KernelIdeal.Compose.lean ====
import proofs.«415844_j33432025432092_2_alg».proof.Proof.KernelIdeal.RunMain
import proofs.«415844_j33432025432092_2_alg».proof.Proof.KernelIdeal.Val0
import proofs.«415844_j33432025432092_2_alg».proof.Proof.KernelIdeal.Val1
import proofs.«415844_j33432025432092_2_alg».proof.Proof.KernelIdeal.Val2
import proofs.«415844_j33432025432092_2_alg».proof.Proof.KernelIdeal.Val3
import proofs.«415844_j33432025432092_2_alg».proof.Proof.KernelIdeal.Val4
import proofs.«415844_j33432025432092_2_alg».proof.Proof.KernelIdeal.Val5
import proofs.«415844_j33432025432092_2_alg».proof.Proof.KernelIdeal.Val6
import proofs.«415844_j33432025432092_2_alg».proof.Proof.KernelIdeal.Val7
import proofs.«415844_j33432025432092_2_alg».proof.Proof.KernelIdeal.Val8
import proofs.«415844_j33432025432092_2_alg».proof.Proof.KernelIdeal.Val9
import proofs.«415844_j33432025432092_2_alg».proof.Proof.KernelIdeal.Val10
import proofs.«415844_j33432025432092_2_alg».proof.Proof.KernelIdeal.Val11
import proofs.«415844_j33432025432092_2_alg».proof.Proof.KernelIdeal.Val12
import proofs.«415844_j33432025432092_2_alg».proof.Proof.KernelIdeal.Val13
import proofs.«415844_j33432025432092_2_alg».proof.Proof.KernelIdeal.HostEdge1
import proofs.«415844_j33432025432092_2_alg».proof.Proof.KernelIdeal.HostEdge3
import proofs.«415844_j33432025432092_2_alg».proof.Proof.KernelIdeal.HostEdge5
import proofs.«415844_j33432025432092_2_alg».proof.Proof.KernelIdeal.HostEdge7
import proofs.«415844_j33432025432092_2_alg».proof.Proof.KernelIdeal.HostEdge9
import proofs.«415844_j33432025432092_2_alg».proof.Proof.KernelIdeal.HostEdge11
import proofs.«415844_j33432025432092_2_alg».proof.Proof.KernelIdeal.HostEdge13
import proofs.«415844_j33432025432092_2_alg».proof.Proof.KernelIdeal.Val14
import proofs.«415844_j33432025432092_2_alg».proof.Proof.KernelIdeal.Val14Sum
import proofs.«415844_j33432025432092_2_alg».proof.Proof.KernelIdeal.Host0
import proofs.«415844_j33432025432092_2_alg».proof.Proof.KernelIdeal.Host14

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Cert.Access

variable (m : (ℓ : Loc nD τ sig) → Buf (Elt Ideal) ℓ) (c : Dev nD)

noncomputable def sw (e : Fin 3200000) : BitVec 32 := (m ((c : Thread nD τ).loc main_arg1) : S2x3200000.Idx → BitVec 32) (ix2 0 e)
noncomputable def dw (e : Fin 3200000) : BitVec 32 := (m ((c : Thread nD τ).loc main_arg1) : S2x3200000.Idx → BitVec 32) (ix2 1 e)
noncomputable def bw (n : Fin 100000) : BitVec 32 := (m ((c : Thread nD τ).loc main_arg2) : S100000.Idx → BitVec 32) (ix1 n)

abbrev G : Cert.Spec.Graph 100000 3200000 := Cert.Spec.kerGraph 100000 3200000 (by norm_num) (sw m c) (dw m c)

theorem U1_src (e : Fin 3200000) : (U1 m c main_v1 : S3200000.Idx → BitVec 32) (ix1 e) = sw m c e := by
  rw [U1_def]; exact host0_src (Gen.V0 m c) e
theorem U1_dst (e : Fin 3200000) : (U1 m c main_v3 : S3200000.Idx → BitVec 32) (ix1 e) = dw m c e := by
  rw [U1_def]; exact host0_dst (Gen.V0 m c) e
theorem U1_dinv (i : Fin 100000) : (U1 m c main_v11 : S100000x1.Idx → EReal) (ix2 i 0) = Spec.dinv (G m c) i := by
  rw [U1_def]; exact host0_dinv (Gen.V0 m c) i

/-- What the items after the first host stretch write, item by item. -/
noncomputable def writes : List (List (Ref sig .tc)) :=
  [[main_v12], hostOps1_W, [main_v23], [main_v24], hostOps3_W, [main_v35], [main_v36], hostOps5_W, [main_v47],
   [main_v48], hostOps7_W, [main_v59], [main_v60], hostOps9_W, [main_v71], [main_v72], hostOps11_W, [main_v83],
   [main_v84], hostOps13_W, [main_v95]]

abbrev Kept (r : Ref sig .tc) : Prop := ∀ l ∈ writes, r ∉ l

/-- A valuation that still holds, at every reference those items leave alone, what the first host stretch left. -/
noncomputable def Same (W : Valuation τ sig (Elt Ideal)) : Prop := ∀ r, Kept r → W r = U1 m c r

variable {m c} in
theorem Same.step {A B : Valuation τ sig (Elt Ideal)} {l : List (Ref sig .tc)} (hA : Same m c A)
    (hB : ∀ r, r ∉ l → B r = A r) (hl : l ∈ writes := by decide) : Same m c B :=
  fun r h => (hB r (h l hl)).trans (hA r h)

theorem same1 : Same m c (U1 m c) := fun _ _ => rfl
theorem same2 : Same m c (U2 m c) := (same1 m c).step (U2_of m c)
theorem same3 : Same m c (U3 m c) := (same2 m c).step (U3_of m c)
theorem same4 : Same m c (U4 m c) := (same3 m c).step (U4_of m c)
theorem same5 : Same m c (U5 m c) := (same4 m c).step (U5_of m c)
theorem same6 : Same m c (U6 m c) := (same5 m c).step (U6_of m c)
theorem same7 : Same m c (U7 m c) := (same6 m c).step (U7_of m c)
theorem same8 : Same m c (U8 m c) := (same7 m c).step (U8_of m c)
theorem same9 : Same m c (U9 m c) := (same8 m c).step (U9_of m c)
theorem same10 : Same m c (U10 m c) := (same9 m c).step (U10_of m c)
theorem same11 : Same m c (U11 m c) := (same10 m c).step (U11_of m c)
theorem same12 : Same m c (U12 m c) := (same11 m c).step (U12_of m c)
theorem same13 : Same m c (U13 m c) := (same12 m c).step (U13_of m c)
theorem same14 : Same m c (U14 m c) := (same13 m c).step (U14_of m c)
theorem same15 : Same m c (U15 m c) := (same14 m c).step (U15_of m c)
theorem same16 : Same m c (U16 m c) := (same15 m c).step (U16_of m c)
theorem same17 : Same m c (U17 m c) := (same16 m c).step (U17_of m c)
theorem same18 : Same m c (U18 m c) := (same17 m c).step (U18_of m c)
theorem same19 : Same m c (U19 m c) := (same18 m c).step (U19_of m c)
theorem same20 : Same m c (U20 m c) := (same19 m c).step (U20_of m c)
theorem same21 : Same m c (U21 m c) := (same20 m c).step (U21_of m c)
theorem same22 : Same m c (U22 m c) := (same21 m c).step (U22_of m c)

section
variable {m c} {W : Valuation τ sig (Elt Ideal)} (h : Same m c W)
include h

theorem Same.src : (fun e : Fin 3200000 => (W main_v1 : S3200000.Idx → BitVec 32) (ix1 e)) = sw m c :=
  funext fun e => (congrFun (h main_v1 (by decide)) _).trans (U1_src m c e)
theorem Same.dst : (fun e : Fin 3200000 => (W main_v3 : S3200000.Idx → BitVec 32) (ix1 e)) = dw m c :=
  funext fun e => (congrFun (h main_v3 (by decide)) _).trans (U1_dst m c e)
theorem Same.dinv (i : Fin 100000) : (W main_v11 : S100000x1.Idx → EReal) (ix2 i 0) = Spec.dinv (G m c) i :=
  (congrFun (h main_v11 (by decide)) _).trans (U1_dinv m c i)
/-- An argument array, which the first host stretch does not write either, is as launched. -/
theorem Same.arg (r : Ref sig .tc) (hr : Kept r ∧ r ∉ hostOps0_W := by decide) : W r = m ((c : Thread nD τ).loc r) :=
  (h r hr.1).trans (U1_of m c r hr.2)

end

/-- One layer from its three items, each read where the degrees and edge words are still the first stretch's. -/
theorem layer_of {K D : ℕ} {Wa Wb Wc : Valuation τ sig (Elt Ideal)} (ha : Same m c Wa) (hb : Same m c Wb) (hc : Same m c Wc)
    {X' X : (⟨2, ![100000, K]⟩ : Shape).Idx → EReal} {Wt' Wt : (⟨2, ![K, D]⟩ : Shape).Idx → EReal}
    {b' b : (⟨1, ![D]⟩ : Shape).Idx → EReal} {L L' A O P Q R : (⟨2, ![100000, D]⟩ : Shape).Idx → EReal}
    (hP : L = P) (hL : ∀ i j, P (ix2 i j) = (∑ k, X' (ix2 i k) * Wt' (ix2 k j)) * (Wa main_v11 : S100000x1.Idx → EReal) (ix2 i 0))
    (hX : X' = X) (hW : Wt' = Wt)
    (hQ : A = Q) (hA : ∀ i j, Q (ix2 i j) = Spec.agg (Spec.kerGraph 100000 3200000 (by norm_num)
      (fun e => (Wb main_v1 : S3200000.Idx → BitVec 32) (ix1 e)) (fun e => (Wb main_v3 : S3200000.Idx → BitVec 32) (ix1 e))) (mat L) i j)
    (hR : O = R) (hO : ∀ i j, R (ix2 i j) = max ((by exact Wc main_v11 : S100000x1.Idx → EReal) (ix2 i 0) * (A (ix2 i j) + L' (ix2 i j)) + b' (ix1 j)) 0)
    (hL' : L' = L) (hb' : b' = b) :
    mat O = Spec.layer (G m c) (mat X) (mat Wt) (vec b) := by
  subst hX hW hL' hb' hP hQ hR
  have hl : ∀ i j, L' (ix2 i j) = Spec.lin (G m c) (mat X') (mat Wt') i j := fun i j => (hL i j).trans (by rw [ha.dinv]; rfl)
  funext i j
  rw [mat, hO, hc.dinv, hA, hb.src, hb.dst, hl, (funext fun i => funext fun j => hl i j : mat L' = _)]
  rfl

theorem layer_0 :
    mat (U4 m c main_v23 : S100000x6.Idx → EReal)
      = Spec.layer (G m c) (mat (m ((c : Thread nD τ).loc main_arg0) : S100000x128.Idx → EReal)) (mat (m ((c : Thread nD τ).loc main_arg3) : S128x6.Idx → EReal)) (vec (m ((c : Thread nD τ).loc main_arg4) : S6.Idx → EReal)) :=
  layer_of m c (same1 m c) (same2 m c) (same3 m c)
    ((U2_out m c).trans (o2_def m c)) (final0 (atRefs (U1 m)) c)
    (U1_of m c main_arg0 (by decide)) (U1_of m c main_arg3 (by decide))
    (congrFun (U3_def m c) _) (host1_agg (U2 m c))
    ((U4_out m c).trans (o4_def m c)) (final1 (atRefs (U3 m)) c)
    (U3_of m c main_v12 (by decide)) ((same3 m c).arg main_arg4)

theorem layer_1 :
    mat (U7 m c main_v35 : S100000x6.Idx → EReal)
      = Spec.layer (G m c) (mat (U4 m c main_v23 : S100000x6.Idx → EReal)) (mat (m ((c : Thread nD τ).loc main_arg5) : S6x6.Idx → EReal)) (vec (m ((c : Thread nD τ).loc main_arg6) : S6.Idx → EReal)) :=
  layer_of m c (same4 m c) (same5 m c) (same6 m c)
    ((U5_out m c).trans (o5_def m c)) (final2 (atRefs (U4 m)) c)
    rfl ((same4 m c).arg main_arg5)
    (congrFun (U6_def m c) _) (host3_agg (U5 m c))
    ((U7_out m c).trans (o7_def m c)) (final3 (atRefs (U6 m)) c)
    (U6_of m c main_v24 (by decide)) ((same6 m c).arg main_arg6)

theorem layer_2 :
    mat (U10 m c main_v47 : S100000x6.Idx → EReal)
      = Spec.layer (G m c) (mat (U7 m c main_v35 : S100000x6.Idx → EReal)) (mat (m ((c : Thread nD τ).loc main_arg7) : S6x6.Idx → EReal)) (vec (m ((c : Thread nD τ).loc main_arg8) : S6.Idx → EReal)) :=
  layer_of m c (same7 m c) (same8 m c) (same9 m c)
    ((U8_out m c).trans (o8_def m c)) (final4 (atRefs (U7 m)) c)
    rfl ((same7 m c).arg main_arg7)
    (congrFun (U9_def m c) _) (host5_agg (U8 m c))
    ((U10_out m c).trans (o10_def m c)) (final5 (atRefs (U9 m)) c)
    (U9_of m c main_v36 (by decide)) ((same9 m c).arg main_arg8)

theorem layer_3 :
    mat (U13 m c main_v59 : S100000x6.Idx → EReal)
      = Spec.layer (G m c) (mat (U10 m c main_v47 : S100000x6.Idx → EReal)) (mat (m ((c : Thread nD τ).loc main_arg9) : S6x6.Idx → EReal)) (vec (m ((c : Thread nD τ).loc main_arg10) : S6.Idx → EReal)) :=
  layer_of m c (same10 m c) (same11 m c) (same12 m c)
    ((U11_out m c).trans (o11_def m c)) (final6 (atRefs (U10 m)) c)
    rfl ((same10 m c).arg main_arg9)
    (congrFun (U12_def m c) _) (host7_agg (U11 m c))
    ((U13_out m c).trans (o13_def m c)) (final7 (atRefs (U12 m)) c)
    (U12_of m c main_v48 (by decide)) ((same12 m c).arg main_arg10)

theorem layer_4 :
    mat (U16 m c main_v71 : S100000x6.Idx → EReal)
      = Spec.layer (G m c) (mat (U13 m c main_v59 : S100000x6.Idx → EReal)) (mat (m ((c : Thread nD τ).loc main_arg11) : S6x6.Idx → EReal)) (vec (m ((c : Thread nD τ).loc main_arg12) : S6.Idx → EReal)) :=
  layer_of m c (same13 m c) (same14 m c) (same15 m c)
    ((U14_out m c).trans (o14_def m c)) (final8 (atRefs (U13 m)) c)
    rfl ((same13 m c).arg main_arg11)
    (congrFun (U15_def m c) _) (host9_agg (U14 m c))
    ((U16_out m c).trans (o16_def m c)) (final9 (atRefs (U15 m)) c)
    (U15_of m c main_v60 (by decide)) ((same15 m c).arg main_arg12)

theorem layer_5 :
    mat (U19 m c main_v83 : S100000x6.Idx → EReal)
      = Spec.layer (G m c) (mat (U16 m c main_v71 : S100000x6.Idx → EReal)) (mat (m ((c : Thread nD τ).loc main_arg13) : S6x6.Idx → EReal)) (vec (m ((c : Thread nD τ).loc main_arg14) : S6.Idx → EReal)) :=
  layer_of m c (same16 m c) (same17 m c) (same18 m c)
    ((U17_out m c).trans (o17_def m c)) (final10 (atRefs (U16 m)) c)
    rfl ((same16 m c).arg main_arg13)
    (congrFun (U18_def m c) _) (host11_agg (U17 m c))
    ((U19_out m c).trans (o19_def m c)) (final11 (atRefs (U18 m)) c)
    (U18_of m c main_v72 (by decide)) ((same18 m c).arg main_arg14)

theorem layer_6 :
    mat (U22 m c main_v95 : S100000x10.Idx → EReal)
      = Spec.layer (G m c) (mat (U19 m c main_v83 : S100000x6.Idx → EReal)) (mat (m ((c : Thread nD τ).loc main_arg15) : S6x10.Idx → EReal)) (vec (m ((c : Thread nD τ).loc main_arg16) : S10.Idx → EReal)) :=
  layer_of m c (same19 m c) (same20 m c) (same21 m c)
    ((U20_out m c).trans (o20_def m c)) (final12 (atRefs (U19 m)) c)
    rfl ((same19 m c).arg main_arg15)
    (congrFun (U21_def m c) _) (host13_agg (U20 m c))
    ((U22_out m c).trans (o22_def m c)) (final13 (atRefs (U21 m)) c)
    (U21_of m c main_v84 (by decide)) ((same21 m c).arg main_arg16)

theorem kernel_result :
    (o24 (F := Ideal) m c : S64x10.Idx → EReal) = fun idx => Cert.Spec.outK (G m c) (Cert.Spec.inGraph (bw m c))
      (mat (m ((c : Thread nD τ).loc main_arg0) : S100000x128.Idx → EReal))
      (mat (m ((c : Thread nD τ).loc main_arg3) : S128x6.Idx → EReal)) (vec (m ((c : Thread nD τ).loc main_arg4) : S6.Idx → EReal)) (mat (m ((c : Thread nD τ).loc main_arg5) : S6x6.Idx → EReal)) (vec (m ((c : Thread nD τ).loc main_arg6) : S6.Idx → EReal)) (mat (m ((c : Thread nD τ).loc main_arg7) : S6x6.Idx → EReal)) (vec (m ((c : Thread nD τ).loc main_arg8) : S6.Idx → EReal)) (mat (m ((c : Thread nD τ).loc main_arg9) : S6x6.Idx → EReal)) (vec (m ((c : Thread nD τ).loc main_arg10) : S6.Idx → EReal)) (mat (m ((c : Thread nD τ).loc main_arg11) : S6x6.Idx → EReal)) (vec (m ((c : Thread nD τ).loc main_arg12) : S6.Idx → EReal)) (mat (m ((c : Thread nD τ).loc main_arg13) : S6x6.Idx → EReal)) (vec (m ((c : Thread nD τ).loc main_arg14) : S6.Idx → EReal)) (mat (m ((c : Thread nD τ).loc main_arg15) : S6x10.Idx → EReal)) (vec (m ((c : Thread nD τ).loc main_arg16) : S10.Idx → EReal)) (idx 0) (idx 1) := by
  funext idx
  obtain ⟨g, j, rfl⟩ : ∃ (g : Fin 64) (j : Fin 10), idx = ix2 g j := ⟨idx 0, idx 1, eq_ix2 idx⟩
  rw [o24_def, final14 (atRefs (U23 m)) c (sum14_last (atRefs (U23 m)) c) (cnt14_last (atRefs (U23 m)) c) g j]
  have hb : (fun n : Fin 100000 => (atRefs (U23 m) c main_v96 : S100000x1.Idx → BitVec 32) (ix2 n (0 : Fin 1))) = bw m c :=
    funext fun n => by
      have h := host14_batch (U22 m c) n
      rw [← U23_def] at h
      exact h.trans (congrFun ((same22 m c).arg main_arg2) (ix1 n))
  have hf : mat (atRefs (U23 m) c main_v95 : S100000x10.Idx → EReal) = _ :=
    (congrArg mat (U23_of m c main_v95 (by decide))).trans (layer_6 m c)
  rw [hb, hf, layer_5, layer_4, layer_3, layer_2, layer_1, layer_0]
  rfl

end Cert.KernelIdeal.Regions

end
-- ==== Proof.Ref.ReadP.lean ====
import proofs.«415844_j33432025432092_2_alg».proof.Proof.Ref.RunP
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x128, .f32⟩ : BufTy).Contents (Elt F)) (x1 : (⟨S2x3200000, .i32⟩ : BufTy).Contents (Elt F)) (x2 : (⟨S100000, .i32⟩ : BufTy).Contents (Elt F)) (x3 : (⟨S128x6, .f32⟩ : BufTy).Contents (Elt F)) (x4 : (⟨S6, .f32⟩ : BufTy).Contents (Elt F)) (x5 : (⟨S6x6, .f32⟩ : BufTy).Contents (Elt F)) (x6 : (⟨S6, .f32⟩ : BufTy).Contents (Elt F)) (x7 : (⟨S6x6, .f32⟩ : BufTy).Contents (Elt F)) (x8 : (⟨S6, .f32⟩ : BufTy).Contents (Elt F)) (x9 : (⟨S6x6, .f32⟩ : BufTy).Contents (Elt F)) (x10 : (⟨S6, .f32⟩ : BufTy).Contents (Elt F)) (x11 : (⟨S6x6, .f32⟩ : BufTy).Contents (Elt F)) (x12 : (⟨S6, .f32⟩ : BufTy).Contents (Elt F)) (x13 : (⟨S6x6, .f32⟩ : BufTy).Contents (Elt F)) (x14 : (⟨S6, .f32⟩ : BufTy).Contents (Elt F)) (x15 : (⟨S6x10, .f32⟩ : BufTy).Contents (Elt F)) (x16 : (⟨S10, .f32⟩ : BufTy).Contents (Elt F))

def val_main_v0 : (⟨S100000, .i32⟩ : BufTy).Contents (Elt F) :=
  iotaInDim S100000 32 0

def val_main_v1 : (⟨S1x3200000, .i32⟩ : BufTy).Contents (Elt F) :=
  extractStridedSlice S1x3200000 ![0, 0] (x1) slices_S2x3200000_S1x3200000_0_0
abbrev idx_main_v1 (i : S1x3200000.Idx) : S2x3200000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v1_apply (i : S1x3200000.Idx) :
    val_main_v1 (F := F) x1 i = x1 (idx_main_v1 i) := by
  unfold val_main_v1
  exact extractStridedSlice_apply ![0, 0] x1 slices_S2x3200000_S1x3200000_0_0 i (idx_main_v1 i) (fun a => match a with
    | ⟨0, _⟩ => by show (i 0).val = 0 + (i 0).val; omega
    | ⟨1, _⟩ => by show (i 1).val = 0 + (i 1).val; omega)

def val_main_v2 : (⟨S3200000, .i32⟩ : BufTy).Contents (Elt F) :=
  shapeCast _ (val_main_v1 (F := F) x1) shapeCasts_S1x3200000_S3200000
abbrev idx_main_v2 (i : S3200000.Idx) : S1x3200000.Idx := fun a => match a with
  | ⟨0, _⟩ => ⟨0, Nat.one_pos⟩
  | ⟨1, _⟩ => ⟨((i 0).val) % 3200000, by have h0 : (i 0).val < 3200000 := (i 0).isLt; show ((i 0).val) % 3200000 < 3200000; omega⟩
theorem val_main_v2_apply (i : S3200000.Idx) :
    val_main_v2 (F := F) x1 i = val_main_v1 (F := F) x1 (idx_main_v2 i) := by
  unfold val_main_v2
  generalize val_main_v1 (F := F) x1 = y
  exact shapeCast_apply y shapeCasts_S1x3200000_S3200000 i (idx_main_v2 i)
    (by rewrite [Shape.rowMajor_val_two, Shape.rowMajor_val_one]; have h0 : (i 0).val < 3200000 := (i 0).isLt; show 0 * 3200000 + ((i 0).val) % 3200000 = (i 0).val; omega)

def val_main_v3 : (⟨S3300000, .i32⟩ : BufTy).Contents (Elt F) :=
  concatenate S3300000 0 [⟨S3200000, (val_main_v2 (F := F) x1)⟩, ⟨S100000, (val_main_v0 (F := F))⟩] concatenates_S3200000_S100000_S3300000_d0

def val_main_v4 : (⟨S1x3200000, .i32⟩ : BufTy).Contents (Elt F) :=
  extractStridedSlice S1x3200000 ![1, 0] (x1) slices_S2x3200000_S1x3200000_1_0
abbrev idx_main_v4 (i : S1x3200000.Idx) : S2x3200000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v4_apply (i : S1x3200000.Idx) :
    val_main_v4 (F := F) x1 i = x1 (idx_main_v4 i) := by
  unfold val_main_v4
  exact extractStridedSlice_apply ![1, 0] x1 slices_S2x3200000_S1x3200000_1_0 i (idx_main_v4 i) (fun a => match a with
    | ⟨0, _⟩ => by show 1 + (i 0).val = 1 + (i 0).val; omega
    | ⟨1, _⟩ => by show (i 1).val = 0 + (i 1).val; omega)

def val_main_v5 : (⟨S3200000, .i32⟩ : BufTy).Contents (Elt F) :=
  shapeCast _ (val_main_v4 (F := F) x1) shapeCasts_S1x3200000_S3200000
abbrev idx_main_v5 (i : S3200000.Idx) : S1x3200000.Idx := fun a => match a with
  | ⟨0, _⟩ => ⟨0, Nat.one_pos⟩
  | ⟨1, _⟩ => ⟨((i 0).val) % 3200000, by have h0 : (i 0).val < 3200000 := (i 0).isLt; show ((i 0).val) % 3200000 < 3200000; omega⟩
theorem val_main_v5_apply (i : S3200000.Idx) :
    val_main_v5 (F := F) x1 i = val_main_v4 (F := F) x1 (idx_main_v5 i) := by
  unfold val_main_v5
  generalize val_main_v4 (F := F) x1 = y
  exact shapeCast_apply y shapeCasts_S1x3200000_S3200000 i (idx_main_v5 i)
    (by rewrite [Shape.rowMajor_val_two, Shape.rowMajor_val_one]; have h0 : (i 0).val < 3200000 := (i 0).isLt; show 0 * 3200000 + ((i 0).val) % 3200000 = (i 0).val; omega)

def val_main_v6 : (⟨S3300000, .i32⟩ : BufTy).Contents (Elt F) :=
  concatenate S3300000 0 [⟨S3200000, (val_main_v5 (F := F) x1)⟩, ⟨S100000, (val_main_v0 (F := F))⟩] concatenates_S3200000_S100000_S3300000_d0

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v7 : (⟨S3300000, .f32⟩ : BufTy).Contents (Elt F) :=
  broadcastInDim S3300000 ![] bcast_S_S3300000 (val_main_cst (F := F))
abbrev idx_main_v7 (i : S3300000.Idx) : S_.Idx := fun a => a.elim0
theorem val_main_v7_apply (i : S3300000.Idx) :
    val_main_v7 (F := F) i = val_main_cst (F := F) (idx_main_v7 i) := by
  unfold val_main_v7
  generalize val_main_cst (F := F) = y
  exact broadcastInDim_apply _ bcast_S_S3300000 y i (idx_main_v7 i) (fun a => a.elim0)

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v8 : (⟨S100000, .f32⟩ : BufTy).Contents (Elt F) :=
  broadcastInDim S100000 ![] bcast_S_S100000 (val_main_cst_0 (F := F))
abbrev idx_main_v8 (i : S100000.Idx) : S_.Idx := fun a => a.elim0
theorem val_main_v8_apply (i : S100000.Idx) :
    val_main_v8 (F := F) i = val_main_cst_0 (F := F) (idx_main_v8 i) := by
  unfold val_main_v8
  generalize val_main_cst_0 (F := F) = y
  exact broadcastInDim_apply _ bcast_S_S100000 y i (idx_main_v8 i) (fun a => a.elim0)

def val_main_v9 : (⟨S3300000x1, .i32⟩ : BufTy).Contents (Elt F) :=
  broadcastInDim S3300000x1 ![0] bcast_S3300000_S3300000x1_0 (val_main_v6 (F := F) x1)
abbrev idx_main_v9 (i : S3300000x1.Idx) : S3300000.Idx := fun a => match a with
  | ⟨0, _⟩ => ⟨(i 0).val, (i 0).isLt⟩
theorem val_main_v9_apply (i : S3300000x1.Idx) :
    val_main_v9 (F := F) x1 i = val_main_v6 (F := F) x1 (idx_main_v9 i) := by
  unfold val_main_v9
  generalize val_main_v6 (F := F) x1 = y
  exact broadcastInDim_apply _ bcast_S3300000_S3300000x1_0 y i (idx_main_v9 i) (fun a => match a with
    | ⟨0, _⟩ => by show (i 0).val = if (3300000 : Nat) = 1 then 0 else (i 0).val; rw [if_neg (by decide)])

def val_main_v10 : (⟨S100000, .f32⟩ : BufTy).Contents (Elt F) :=
  Host.scatterAdd scatter_S100000_S3300000x1_S3300000_n_0_0_1 (val_main_v8 (F := F)) (val_main_v9 (F := F) x1) (val_main_v7 (F := F))

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v11 : (⟨S100000, .f32⟩ : BufTy).Contents (Elt F) :=
  broadcastInDim S100000 ![] bcast_S_S100000 (val_main_cst_1 (F := F))
abbrev idx_main_v11 (i : S100000.Idx) : S_.Idx := fun a => a.elim0
theorem val_main_v11_apply (i : S100000.Idx) :
    val_main_v11 (F := F) i = val_main_cst_1 (F := F) (idx_main_v11 i) := by
  unfold val_main_v11
  generalize val_main_cst_1 (F := F) = y
  exact broadcastInDim_apply _ bcast_S_S100000 y i (idx_main_v11 i) (fun a => a.elim0)

def val_main_v12 : (⟨S100000, .i1⟩ : BufTy).Contents (Elt F) :=
  cmpf .ogt (val_main_v10 (F := F) x1) (val_main_v11 (F := F))

def val_main_v13 : (⟨S100000, .f32⟩ : BufTy).Contents (Elt F) :=
  Host.rsqrt (val_main_v10 (F := F) x1)

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

def val_main_call0_v1 : (⟨S100000, .f32⟩ : BufTy).Contents (Elt F) :=
  broadcastInDim S100000 ![] bcast_S_S100000 (val_main_call0_v0 (F := F))
abbrev idx_main_call0_v1 (i : S100000.Idx) : S_.Idx := fun a => a.elim0
theorem val_main_call0_v1_apply (i : S100000.Idx) :
    val_main_call0_v1 (F := F) i = val_main_call0_v0 (F := F) (idx_main_call0_v1 i) := by
  unfold val_main_call0_v1
  generalize val_main_call0_v0 (F := F) = y
  exact broadcastInDim_apply _ bcast_S_S100000 y i (idx_main_call0_v1 i) (fun a => a.elim0)

def val_main_v14 : (⟨S100000, .f32⟩ : BufTy).Contents (Elt F) :=
  select (val_main_v12 (F := F) x1) (val_main_v13 (F := F) x1) (val_main_call0_v1 (F := F))

def val_main_c : (⟨S_, .i32⟩ : BufTy).Contents (Elt F) :=
  constantI S_ 32 0#32
theorem val_main_c_apply (i : S_.Idx) :
    val_main_c (F := F) i = 0#32 := rfl

def val_main_v15 : (⟨S3300000, .i32⟩ : BufTy).Contents (Elt F) :=
  broadcastInDim S3300000 ![] bcast_S_S3300000 (val_main_c (F := F))
abbrev idx_main_v15 (i : S3300000.Idx) : S_.Idx := fun a => a.elim0
theorem val_main_v15_apply (i : S3300000.Idx) :
    val_main_v15 (F := F) i = val_main_c (F := F) (idx_main_v15 i) := by
  unfold val_main_v15
  generalize val_main_c (F := F) = y
  exact broadcastInDim_apply _ bcast_S_S3300000 y i (idx_main_v15 i) (fun a => a.elim0)

def val_main_v16 : (⟨S3300000, .i1⟩ : BufTy).Contents (Elt F) :=
  cmpi .slt (val_main_v3 (F := F) x1) (val_main_v15 (F := F))

def val_main_c_3 : (⟨S_, .i32⟩ : BufTy).Contents (Elt F) :=
  constantI S_ 32 100000#32
theorem val_main_c_3_apply (i : S_.Idx) :
    val_main_c_3 (F := F) i = 100000#32 := rfl

def val_main_v17 : (⟨S3300000, .i32⟩ : BufTy).Contents (Elt F) :=
  broadcastInDim S3300000 ![] bcast_S_S3300000 (val_main_c_3 (F := F))
abbrev idx_main_v17 (i : S3300000.Idx) : S_.Idx := fun a => a.elim0
theorem val_main_v17_apply (i : S3300000.Idx) :
    val_main_v17 (F := F) i = val_main_c_3 (F := F) (idx_main_v17 i) := by
  unfold val_main_v17
  generalize val_main_c_3 (F := F) = y
  exact broadcastInDim_apply _ bcast_S_S3300000 y i (idx_main_v17 i) (fun a => a.elim0)

def val_main_v18 : (⟨S3300000, .i32⟩ : BufTy).Contents (Elt F) :=
  addi (val_main_v3 (F := F) x1) (val_main_v17 (F := F))

def val_main_v19 : (⟨S3300000, .i32⟩ : BufTy).Contents (Elt F) :=
  select (val_main_v16 (F := F) x1) (val_main_v18 (F := F) x1) (val_main_v3 (F := F) x1)

def val_main_v20 : (⟨S3300000x1, .i32⟩ : BufTy).Contents (Elt F) :=
  broadcastInDim S3300000x1 ![0] bcast_S3300000_S3300000x1_0 (val_main_v19 (F := F) x1)
abbrev idx_main_v20 (i : S3300000x1.Idx) : S3300000.Idx := fun a => match a with
  | ⟨0, _⟩ => ⟨(i 0).val, (i 0).isLt⟩
theorem val_main_v20_apply (i : S3300000x1.Idx) :
    val_main_v20 (F := F) x1 i = val_main_v19 (F := F) x1 (idx_main_v20 i) := by
  unfold val_main_v20
  generalize val_main_v19 (F := F) x1 = y
  exact broadcastInDim_apply _ bcast_S3300000_S3300000x1_0 y i (idx_main_v20 i) (fun a => match a with
    | ⟨0, _⟩ => by show (i 0).val = if (3300000 : Nat) = 1 then 0 else (i 0).val; rw [if_neg (by decide)])

def val_main_v21 : (⟨S3300000, .f32⟩ : BufTy).Contents (Elt F) :=
  Host.gather gather_S100000_S3300000x1_S3300000_n_0_n_n_0_1_1 (val_main_v14 (F := F) x1) (val_main_v20 (F := F) x1)

def val_main_c_4 : (⟨S_, .i32⟩ : BufTy).Contents (Elt F) :=
  constantI S_ 32 0#32
theorem val_main_c_4_apply (i : S_.Idx) :
    val_main_c_4 (F := F) i = 0#32 := rfl

def val_main_v22 : (⟨S3300000, .i32⟩ : BufTy).Contents (Elt F) :=
  broadcastInDim S3300000 ![] bcast_S_S3300000 (val_main_c_4 (F := F))
abbrev idx_main_v22 (i : S3300000.Idx) : S_.Idx := fun a => a.elim0
theorem val_main_v22_apply (i : S3300000.Idx) :
    val_main_v22 (F := F) i = val_main_c_4 (F := F) (idx_main_v22 i) := by
  unfold val_main_v22
  generalize val_main_c_4 (F := F) = y
  exact broadcastInDim_apply _ bcast_S_S3300000 y i (idx_main_v22 i) (fun a => a.elim0)

def val_main_v23 : (⟨S3300000, .i1⟩ : BufTy).Contents (Elt F) :=
  cmpi .slt (val_main_v6 (F := F) x1) (val_main_v22 (F := F))

def val_main_c_5 : (⟨S_, .i32⟩ : BufTy).Contents (Elt F) :=
  constantI S_ 32 100000#32
theorem val_main_c_5_apply (i : S_.Idx) :
    val_main_c_5 (F := F) i = 100000#32 := rfl

def val_main_v24 : (⟨S3300000, .i32⟩ : BufTy).Contents (Elt F) :=
  broadcastInDim S3300000 ![] bcast_S_S3300000 (val_main_c_5 (F := F))
abbrev idx_main_v24 (i : S3300000.Idx) : S_.Idx := fun a => a.elim0
theorem val_main_v24_apply (i : S3300000.Idx) :
    val_main_v24 (F := F) i = val_main_c_5 (F := F) (idx_main_v24 i) := by
  unfold val_main_v24
  generalize val_main_c_5 (F := F) = y
  exact broadcastInDim_apply _ bcast_S_S3300000 y i (idx_main_v24 i) (fun a => a.elim0)

def val_main_v25 : (⟨S3300000, .i32⟩ : BufTy).Contents (Elt F) :=
  addi (val_main_v6 (F := F) x1) (val_main_v24 (F := F))

def val_main_v26 : (⟨S3300000, .i32⟩ : BufTy).Contents (Elt F) :=
  select (val_main_v23 (F := F) x1) (val_main_v25 (F := F) x1) (val_main_v6 (F := F) x1)

def val_main_v27 : (⟨S3300000x1, .i32⟩ : BufTy).Contents (Elt F) :=
  broadcastInDim S3300000x1 ![0] bcast_S3300000_S3300000x1_0 (val_main_v26 (F := F) x1)
abbrev idx_main_v27 (i : S3300000x1.Idx) : S3300000.Idx := fun a => match a with
  | ⟨0, _⟩ => ⟨(i 0).val, (i 0).isLt⟩
theorem val_main_v27_apply (i : S3300000x1.Idx) :
    val_main_v27 (F := F) x1 i = val_main_v26 (F := F) x1 (idx_main_v27 i) := by
  unfold val_main_v27
  generalize val_main_v26 (F := F) x1 = y
  exact broadcastInDim_apply _ bcast_S3300000_S3300000x1_0 y i (idx_main_v27 i) (fun a => match a with
    | ⟨0, _⟩ => by show (i 0).val = if (3300000 : Nat) = 1 then 0 else (i 0).val; rw [if_neg (by decide)])

def val_main_v28 : (⟨S3300000, .f32⟩ : BufTy).Contents (Elt F) :=
  Host.gather gather_S100000_S3300000x1_S3300000_n_0_n_n_0_1_1 (val_main_v14 (F := F) x1) (val_main_v27 (F := F) x1)

def val_main_v29 : (⟨S3300000, .f32⟩ : BufTy).Contents (Elt F) :=
  mulf (val_main_v21 (F := F) x1) (val_main_v28 (F := F) x1)

def val_main_v30 : (⟨S100000x6, .f32⟩ : BufTy).Contents (Elt F) :=
  Host.dotGeneral dot_S100000x128_S128x6_S100000x6_1_0_0_1_n_n none (x0) (x3)
theorem lhs_main_v30_0 (i : S100000x6.Idx) (q : dot_S100000x128_S128x6_S100000x6_1_0_0_1_n_n.contr.Idx) :
    (dot_S100000x128_S128x6_S100000x6_1_0_0_1_n_n.lhsIdx i q 0).val = (i 0).val := by
  unfold DotDims.lhsIdx
  rw [dif_neg (show ¬(0 : Fin S100000x128.rank) ∈ dot_S100000x128_S128x6_S100000x6_1_0_0_1_n_n.lhsBatch by decide), dif_pos (show (0 : Fin S100000x128.rank) ∈ dot_S100000x128_S128x6_S100000x6_1_0_0_1_n_n.lhsNonContracting by decide)]
  rfl
theorem lhs_main_v30_1 (i : S100000x6.Idx) (q : dot_S100000x128_S128x6_S100000x6_1_0_0_1_n_n.contr.Idx) :
    (dot_S100000x128_S128x6_S100000x6_1_0_0_1_n_n.lhsIdx i q 1).val = (q ⟨0, by decide⟩).val :=
  dot_S100000x128_S128x6_S100000x6_1_0_0_1_n_n.lhsIdx_val_of_single rfl i q
theorem rhs_main_v30_0 (i : S100000x6.Idx) (q : dot_S100000x128_S128x6_S100000x6_1_0_0_1_n_n.contr.Idx) :
    (dot_S100000x128_S128x6_S100000x6_1_0_0_1_n_n.rhsIdx i q 0).val = (q ⟨0, by decide⟩).val :=
  dot_S100000x128_S128x6_S100000x6_1_0_0_1_n_n.rhsIdx_val_of_single rfl i q
theorem rhs_main_v30_1 (i : S100000x6.Idx) (q : dot_S100000x128_S128x6_S100000x6_1_0_0_1_n_n.contr.Idx) :
    (dot_S100000x128_S128x6_S100000x6_1_0_0_1_n_n.rhsIdx i q 1).val = (i 1).val := by
  unfold DotDims.rhsIdx
  rw [dif_neg (show ¬(1 : Fin S128x6.rank) ∈ dot_S100000x128_S128x6_S100000x6_1_0_0_1_n_n.rhsBatch by decide), dif_pos (show (1 : Fin S128x6.rank) ∈ dot_S100000x128_S128x6_S100000x6_1_0_0_1_n_n.rhsNonContracting by decide)]
  rfl
abbrev lidx_main_v30 (i : S100000x6.Idx) (k : Fin 128) : S100000x128.Idx := fun a => match a with
  | ⟨0, _⟩ => ⟨(i 0).val, (i 0).isLt⟩
  | ⟨1, _⟩ => ⟨k.val, k.isLt⟩
abbrev ridx_main_v30 (i : S100000x6.Idx) (k : Fin 128) : S128x6.Idx := fun a => match a with
  | ⟨0, _⟩ => ⟨k.val, k.isLt⟩
  | ⟨1, _⟩ => ⟨(i 1).val, (i 1).isLt⟩
theorem val_main_v30_apply (x0 : (⟨S100000x128, .f32⟩ : BufTy).Contents (Elt Ideal)) (x3 : (⟨S128x6, .f32⟩ : BufTy).Contents (Elt Ideal)) (i : S100000x6.Idx) :
    val_main_v30 (F := Ideal) x0 x3 i = ∑ k : Fin 128, x0 (lidx_main_v30 i k) * x3 (ridx_main_v30 i k) := by
  unfold val_main_v30
  simp only [Host.dotGeneral]
  rw [Ideal.dotGeneral_apply, ← Equiv.sum_comp (ValueIdx.contrEquiv1 dot_S100000x128_S128x6_S100000x6_1_0_0_1_n_n 128 rfl rfl).symm]
  refine Finset.sum_congr rfl fun k _ => ?_
  have hk := ValueIdx.contrEquiv1_symm_val dot_S100000x128_S128x6_S100000x6_1_0_0_1_n_n 128 rfl rfl k
  have el : dot_S100000x128_S128x6_S100000x6_1_0_0_1_n_n.lhsIdx i ((ValueIdx.contrEquiv1 dot_S100000x128_S128x6_S100000x6_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x128_S128x6_S100000x6_1_0_0_1_n_n.rhsIdx i ((ValueIdx.contrEquiv1 dot_S100000x128_S128x6_S100000x6_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32
theorem val_main_c_6_apply (i : S_.Idx) :
    val_main_c_6 (F := F) i = 0#32 := rfl

def val_main_v31 : (⟨S3300000, .i32⟩ : BufTy).Contents (Elt F) :=
  broadcastInDim S3300000 ![] bcast_S_S3300000 (val_main_c_6 (F := F))
abbrev idx_main_v31 (i : S3300000.Idx) : S_.Idx := fun a => a.elim0
theorem val_main_v31_apply (i : S3300000.Idx) :
    val_main_v31 (F := F) i = val_main_c_6 (F := F) (idx_main_v31 i) := by
  unfold val_main_v31
  generalize val_main_c_6 (F := F) = y
  exact broadcastInDim_apply _ bcast_S_S3300000 y i (idx_main_v31 i) (fun a => a.elim0)

def val_main_v32 : (⟨S3300000, .i1⟩ : BufTy).Contents (Elt F) :=
  cmpi .slt (val_main_v3 (F := F) x1) (val_main_v31 (F := F))

def val_main_c_7 : (⟨S_, .i32⟩ : BufTy).Contents (Elt F) :=
  constantI S_ 32 100000#32
theorem val_main_c_7_apply (i : S_.Idx) :
    val_main_c_7 (F := F) i = 100000#32 := rfl

def val_main_v33 : (⟨S3300000, .i32⟩ : BufTy).Contents (Elt F) :=
  broadcastInDim S3300000 ![] bcast_S_S3300000 (val_main_c_7 (F := F))
abbrev idx_main_v33 (i : S3300000.Idx) : S_.Idx := fun a => a.elim0
theorem val_main_v33_apply (i : S3300000.Idx) :
    val_main_v33 (F := F) i = val_main_c_7 (F := F) (idx_main_v33 i) := by
  unfold val_main_v33
  generalize val_main_c_7 (F := F) = y
  exact broadcastInDim_apply _ bcast_S_S3300000 y i (idx_main_v33 i) (fun a => a.elim0)

def val_main_v34 : (⟨S3300000, .i32⟩ : BufTy).Contents (Elt F) :=
  addi (val_main_v3 (F := F) x1) (val_main_v33 (F := F))

def val_main_v35 : (⟨S3300000, .i32⟩ : BufTy).Contents (Elt F) :=
  select (val_main_v32 (F := F) x1) (val_main_v34 (F := F) x1) (val_main_v3 (F := F) x1)

def val_main_v36 : (⟨S3300000x1, .i32⟩ : BufTy).Contents (Elt F) :=
  broadcastInDim S3300000x1 ![0] bcast_S3300000_S3300000x1_0 (val_main_v35 (F := F) x1)
abbrev idx_main_v36 (i : S3300000x1.Idx) : S3300000.Idx := fun a => match a with
  | ⟨0, _⟩ => ⟨(i 0).val, (i 0).isLt⟩
theorem val_main_v36_apply (i : S3300000x1.Idx) :
    val_main_v36 (F := F) x1 i = val_main_v35 (F := F) x1 (idx_main_v36 i) := by
  unfold val_main_v36
  generalize val_main_v35 (F := F) x1 = y
  exact broadcastInDim_apply _ bcast_S3300000_S3300000x1_0 y i (idx_main_v36 i) (fun a => match a with
    | ⟨0, _⟩ => by show (i 0).val = if (3300000 : Nat) = 1 then 0 else (i 0).val; rw [if_neg (by decide)])

def val_main_v37 : (⟨S3300000x6, .f32⟩ : BufTy).Contents (Elt F) :=
  Host.gather gather_S100000x6_S3300000x1_S3300000x6_1_0_n_n_0_1_16 (val_main_v30 (F := F) x0 x3) (val_main_v36 (F := F) x1)

def val_main_v38 : (⟨S3300000x1, .f32⟩ : BufTy).Contents (Elt F) :=
  broadcastInDim S3300000x1 ![0] bcast_S3300000_S3300000x1_0 (val_main_v29 (F := F) x1)
abbrev idx_main_v38 (i : S3300000x1.Idx) : S3300000.Idx := fun a => match a with
  | ⟨0, _⟩ => ⟨(i 0).val, (i 0).isLt⟩
theorem val_main_v38_apply (i : S3300000x1.Idx) :
    val_main_v38 (F := F) x1 i = val_main_v29 (F := F) x1 (idx_main_v38 i) := by
  unfold val_main_v38
  generalize val_main_v29 (F := F) x1 = y
  exact broadcastInDim_apply _ bcast_S3300000_S3300000x1_0 y i (idx_main_v38 i) (fun a => match a with
    | ⟨0, _⟩ => by show (i 0).val = if (3300000 : Nat) = 1 then 0 else (i 0).val; rw [if_neg (by decide)])

def val_main_v39 : (⟨S3300000x6, .f32⟩ : BufTy).Contents (Elt F) :=
  broadcastInDim S3300000x6 ![0, 1] bcast_S3300000x1_S3300000x6_0_1 (val_main_v38 (F := F) x1)
abbrev idx_main_v39 (i : S3300000x6.Idx) : S3300000x1.Idx := fun a => match a with
  | ⟨0, _⟩ => ⟨(i 0).val, (i 0).isLt⟩
  | ⟨1, _⟩ => ⟨0, Nat.one_pos⟩
theorem val_main_v39_apply (i : S3300000x6.Idx) :
    val_main_v39 (F := F) x1 i = val_main_v38 (F := F) x1 (idx_main_v39 i) := by
  unfold val_main_v39
  generalize val_main_v38 (F := F) x1 = y
  exact broadcastInDim_apply _ bcast_S3300000x1_S3300000x6_0_1 y i (idx_main_v39 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v40 : (⟨S3300000x6, .f32⟩ : BufTy).Contents (Elt F) :=
  mulf (val_main_v37 (F := F) x0 x1 x3) (val_main_v39 (F := F) x1)

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v41 : (⟨S100000x6, .f32⟩ : BufTy).Contents (Elt F) :=
  broadcastInDim S100000x6 ![] bcast_S_S100000x6 (val_main_cst_8 (F := F))
abbrev idx_main_v41 (i : S100000x6.Idx) : S_.Idx := fun a => a.elim0
theorem val_main_v41_apply (i : S100000x6.Idx) :
    val_main_v41 (F := F) i = val_main_cst_8 (F := F) (idx_main_v41 i) := by
  unfold val_main_v41
  generalize val_main_cst_8 (F := F) = y
  exact broadcastInDim_apply _ bcast_S_S100000x6 y i (idx_main_v41 i) (fun a => a.elim0)

def val_main_v42 : (⟨S3300000x1, .i32⟩ : BufTy).Contents (Elt F) :=
  broadcastInDim S3300000x1 ![0] bcast_S3300000_S3300000x1_0 (val_main_v6 (F := F) x1)
abbrev idx_main_v42 (i : S3300000x1.Idx) : S3300000.Idx := fun a => match a with
  | ⟨0, _⟩ => ⟨(i 0).val, (i 0).isLt⟩
theorem val_main_v42_apply (i : S3300000x1.Idx) :
    val_main_v42 (F := F) x1 i = val_main_v6 (F := F) x1 (idx_main_v42 i) := by
  unfold val_main_v42
  generalize val_main_v6 (F := F) x1 = y
  exact broadcastInDim_apply _ bcast_S3300000_S3300000x1_0 y i (idx_main_v42 i) (fun a => match a with
    | ⟨0, _⟩ => by show (i 0).val = if (3300000 : Nat) = 1 then 0 else (i 0).val; rw [if_neg (by decide)])

def val_main_v43 : (⟨S100000x6, .f32⟩ : BufTy).Contents (Elt F) :=
  Host.scatterAdd scatter_S100000x6_S3300000x1_S3300000x6_1_0_0_1 (val_main_v41 (F := F)) (val_main_v42 (F := F) x1) (val_main_v40 (F := F) x0 x1 x3)

def val_main_v44 : (⟨S1x6, .f32⟩ : BufTy).Contents (Elt F) :=
  broadcastInDim S1x6 ![1] bcast_S6_S1x6_1 (x4)
abbrev idx_main_v44 (i : S1x6.Idx) : S6.Idx := fun a => match a with
  | ⟨0, _⟩ => ⟨(i 1).val, (i 1).isLt⟩
theorem val_main_v44_apply (i : S1x6.Idx) :
    val_main_v44 (F := F) x4 i = x4 (idx_main_v44 i) := by
  unfold val_main_v44
  exact broadcastInDim_apply _ bcast_S6_S1x6_1 x4 i (idx_main_v44 i) (fun a => match a with
    | ⟨0, _⟩ => by show (i 1).val = if (6 : Nat) = 1 then 0 else (i 1).val; rw [if_neg (by decide)])

def val_main_v45 : (⟨S100000x6, .f32⟩ : BufTy).Contents (Elt F) :=
  broadcastInDim S100000x6 ![0, 1] bcast_S1x6_S100000x6_0_1 (val_main_v44 (F := F) x4)
abbrev idx_main_v45 (i : S100000x6.Idx) : S1x6.Idx := fun a => match a with
  | ⟨0, _⟩ => ⟨0, Nat.one_pos⟩
  | ⟨1, _⟩ => ⟨(i 1).val, (i 1).isLt⟩
theorem val_main_v45_apply (i : S100000x6.Idx) :
    val_main_v45 (F := F) x4 i = val_main_v44 (F := F) x4 (idx_main_v45 i) := by
  unfold val_main_v45
  generalize val_main_v44 (F := F) x4 = y
  exact broadcastInDim_apply _ bcast_S1x6_S100000x6_0_1 y i (idx_main_v45 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v46 : (⟨S100000x6, .f32⟩ : BufTy).Contents (Elt F) :=
  addf (val_main_v43 (F := F) x0 x1 x3) (val_main_v45 (F := F) x4)

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S100000x6, .f32⟩ : BufTy).Contents (Elt F) :=
  broadcastInDim S100000x6 ![] bcast_S_S100000x6 (val_main_call1_cst (F := F))
abbrev idx_main_call1_v0 (i : S100000x6.Idx) : S_.Idx := fun a => a.elim0
theorem val_main_call1_v0_apply (i : S100000x6.Idx) :
    val_main_call1_v0 (F := F) i = val_main_call1_cst (F := F) (idx_main_call1_v0 i) := by
  unfold val_main_call1_v0
  generalize val_main_call1_cst (F := F) = y
  exact broadcastInDim_apply _ bcast_S_S100000x6 y i (idx_main_call1_v0 i) (fun a => a.elim0)

def val_main_v47 : (⟨S100000x6, .f32⟩ : BufTy).Contents (Elt F) :=
  maximumf (val_main_v46 (F := F) x0 x1 x3 x4) (val_main_call1_v0 (F := F))

def val_main_v48 : (⟨S100000x6, .f32⟩ : BufTy).Contents (Elt F) :=
  Host.dotGeneral dot_S100000x6_S6x6_S100000x6_1_0_0_1_n_n none (val_main_v47 (F := F) x0 x1 x3 x4) (x5)
theorem lhs_main_v48_0 (i : S100000x6.Idx) (q : dot_S100000x6_S6x6_S100000x6_1_0_0_1_n_n.contr.Idx) :
    (dot_S100000x6_S6x6_S100000x6_1_0_0_1_n_n.lhsIdx i q 0).val = (i 0).val := by
  unfold DotDims.lhsIdx
  rw [dif_neg (show ¬(0 : Fin S100000x6.rank) ∈ dot_S100000x6_S6x6_S100000x6_1_0_0_1_n_n.lhsBatch by decide), dif_pos (show (0 : Fin S100000x6.rank) ∈ dot_S100000x6_S6x6_S100000x6_1_0_0_1_n_n.lhsNonContracting by decide)]
  rfl
theorem lhs_main_v48_1 (i : S100000x6.Idx) (q : dot_S100000x6_S6x6_S100000x6_1_0_0_1_n_n.contr.Idx) :
    (dot_S100000x6_S6x6_S100000x6_1_0_0_1_n_n.lhsIdx i q 1).val = (q ⟨0, by decide⟩).val :=
  dot_S100000x6_S6x6_S100000x6_1_0_0_1_n_n.lhsIdx_val_of_single rfl i q
theorem rhs_main_v48_0 (i : S100000x6.Idx) (q : dot_S100000x6_S6x6_S100000x6_1_0_0_1_n_n.contr.Idx) :
    (dot_S100000x6_S6x6_S100000x6_1_0_0_1_n_n.rhsIdx i q 0).val = (q ⟨0, by decide⟩).val :=
  dot_S100000x6_S6x6_S100000x6_1_0_0_1_n_n.rhsIdx_val_of_single rfl i q
theorem rhs_main_v48_1 (i : S100000x6.Idx) (q : dot_S100000x6_S6x6_S100000x6_1_0_0_1_n_n.contr.Idx) :
    (dot_S100000x6_S6x6_S100000x6_1_0_0_1_n_n.rhsIdx i q 1).val = (i 1).val := by
  unfold DotDims.rhsIdx
  rw [dif_neg (show ¬(1 : Fin S6x6.rank) ∈ dot_S100000x6_S6x6_S100000x6_1_0_0_1_n_n.rhsBatch by decide), dif_pos (show (1 : Fin S6x6.rank) ∈ dot_S100000x6_S6x6_S100000x6_1_0_0_1_n_n.rhsNonContracting by decide)]
  rfl
abbrev lidx_main_v48 (i : S100000x6.Idx) (k : Fin 6) : S100000x6.Idx := fun a => match a with
  | ⟨0, _⟩ => ⟨(i 0).val, (i 0).isLt⟩
  | ⟨1, _⟩ => ⟨k.val, k.isLt⟩
abbrev ridx_main_v48 (i : S100000x6.Idx) (k : Fin 6) : S6x6.Idx := fun a => match a with
  | ⟨0, _⟩ => ⟨k.val, k.isLt⟩
  | ⟨1, _⟩ => ⟨(i 1).val, (i 1).isLt⟩
theorem val_main_v48_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (i : S100000x6.Idx) :
    val_main_v48 (F := Ideal) x0 x1 x3 x4 x5 i = ∑ k : Fin 6, (val_main_v47 (F := Ideal) x0 x1 x3 x4) (lidx_main_v48 i k) * x5 (ridx_main_v48 i k) := by
  unfold val_main_v48
  generalize val_main_v47 (F := Ideal) x0 x1 x3 x4 = y0
  simp only [Host.dotGeneral]
  rw [Ideal.dotGeneral_apply, ← Equiv.sum_comp (ValueIdx.contrEquiv1 dot_S100000x6_S6x6_S100000x6_1_0_0_1_n_n 6 rfl rfl).symm]
  refine Finset.sum_congr rfl fun k _ => ?_
  have hk := ValueIdx.contrEquiv1_symm_val dot_S100000x6_S6x6_S100000x6_1_0_0_1_n_n 6 rfl rfl k
  have el : dot_S100000x6_S6x6_S100000x6_1_0_0_1_n_n.lhsIdx i ((ValueIdx.contrEquiv1 dot_S100000x6_S6x6_S100000x6_1_0_0_1_n_n 6 rfl rfl).symm k) = lidx_main_v48 i k := funext fun a => Fin.ext (by
    match a with
    | ⟨0, _⟩ => exact lhs_main_v48_0 _ _
    | ⟨1, _⟩ => exact (lhs_main_v48_1 _ _).trans hk)
  have er : dot_S100000x6_S6x6_S100000x6_1_0_0_1_n_n.rhsIdx i ((ValueIdx.contrEquiv1 dot_S100000x6_S6x6_S100000x6_1_0_0_1_n_n 6 rfl rfl).symm k) = ridx_main_v48 i k := funext fun a => Fin.ext (by
    match a with
    | ⟨0, _⟩ => exact (rhs_main_v48_0 _ _).trans hk
    | ⟨1, _⟩ => exact rhs_main_v48_1 _ _)
  rw [el, er]

def val_main_c_9 : (⟨S_, .i32⟩ : BufTy).Contents (Elt F) :=
  constantI S_ 32 0#32
theorem val_main_c_9_apply (i : S_.Idx) :
    val_main_c_9 (F := F) i = 0#32 := rfl

def val_main_v49 : (⟨S3300000, .i32⟩ : BufTy).Contents (Elt F) :=
  broadcastInDim S3300000 ![] bcast_S_S3300000 (val_main_c_9 (F := F))
abbrev idx_main_v49 (i : S3300000.Idx) : S_.Idx := fun a => a.elim0
theorem val_main_v49_apply (i : S3300000.Idx) :
    val_main_v49 (F := F) i = val_main_c_9 (F := F) (idx_main_v49 i) := by
  unfold val_main_v49
  generalize val_main_c_9 (F := F) = y
  exact broadcastInDim_apply _ bcast_S_S3300000 y i (idx_main_v49 i) (fun a => a.elim0)

def val_main_v50 : (⟨S3300000, .i1⟩ : BufTy).Contents (Elt F) :=
  cmpi .slt (val_main_v3 (F := F) x1) (val_main_v49 (F := F))

def val_main_c_10 : (⟨S_, .i32⟩ : BufTy).Contents (Elt F) :=
  constantI S_ 32 100000#32
theorem val_main_c_10_apply (i : S_.Idx) :
    val_main_c_10 (F := F) i = 100000#32 := rfl

def val_main_v51 : (⟨S3300000, .i32⟩ : BufTy).Contents (Elt F) :=
  broadcastInDim S3300000 ![] bcast_S_S3300000 (val_main_c_10 (F := F))
abbrev idx_main_v51 (i : S3300000.Idx) : S_.Idx := fun a => a.elim0
theorem val_main_v51_apply (i : S3300000.Idx) :
    val_main_v51 (F := F) i = val_main_c_10 (F := F) (idx_main_v51 i) := by
  unfold val_main_v51
  generalize val_main_c_10 (F := F) = y
  exact broadcastInDim_apply _ bcast_S_S3300000 y i (idx_main_v51 i) (fun a => a.elim0)

def val_main_v52 : (⟨S3300000, .i32⟩ : BufTy).Contents (Elt F) :=
  addi (val_main_v3 (F := F) x1) (val_main_v51 (F := F))

def val_main_v53 : (⟨S3300000, .i32⟩ : BufTy).Contents (Elt F) :=
  select (val_main_v50 (F := F) x1) (val_main_v52 (F := F) x1) (val_main_v3 (F := F) x1)

def val_main_v54 : (⟨S3300000x1, .i32⟩ : BufTy).Contents (Elt F) :=
  broadcastInDim S3300000x1 ![0] bcast_S3300000_S3300000x1_0 (val_main_v53 (F := F) x1)
abbrev idx_main_v54 (i : S3300000x1.Idx) : S3300000.Idx := fun a => match a with
  | ⟨0, _⟩ => ⟨(i 0).val, (i 0).isLt⟩
theorem val_main_v54_apply (i : S3300000x1.Idx) :
    val_main_v54 (F := F) x1 i = val_main_v53 (F := F) x1 (idx_main_v54 i) := by
  unfold val_main_v54
  generalize val_main_v53 (F := F) x1 = y
  exact broadcastInDim_apply _ bcast_S3300000_S3300000x1_0 y i (idx_main_v54 i) (fun a => match a with
    | ⟨0, _⟩ => by show (i 0).val = if (3300000 : Nat) = 1 then 0 else (i 0).val; rw [if_neg (by decide)])

def val_main_v55 : (⟨S3300000x6, .f32⟩ : BufTy).Contents (Elt F) :=
  Host.gather gather_S100000x6_S3300000x1_S3300000x6_1_0_n_n_0_1_16 (val_main_v48 (F := F) x0 x1 x3 x4 x5) (val_main_v54 (F := F) x1)

def val_main_v56 : (⟨S3300000x1, .f32⟩ : BufTy).Contents (Elt F) :=
  broadcastInDim S3300000x1 ![0] bcast_S3300000_S3300000x1_0 (val_main_v29 (F := F) x1)
abbrev idx_main_v56 (i : S3300000x1.Idx) : S3300000.Idx := fun a => match a with
  | ⟨0, _⟩ => ⟨(i 0).val, (i 0).isLt⟩
theorem val_main_v56_apply (i : S3300000x1.Idx) :
    val_main_v56 (F := F) x1 i = val_main_v29 (F := F) x1 (idx_main_v56 i) := by
  unfold val_main_v56
  generalize val_main_v29 (F := F) x1 = y
  exact broadcastInDim_apply _ bcast_S3300000_S3300000x1_0 y i (idx_main_v56 i) (fun a => match a with
    | ⟨0, _⟩ => by show (i 0).val = if (3300000 : Nat) = 1 then 0 else (i 0).val; rw [if_neg (by decide)])

def val_main_v57 : (⟨S3300000x6, .f32⟩ : BufTy).Contents (Elt F) :=
  broadcastInDim S3300000x6 ![0, 1] bcast_S3300000x1_S3300000x6_0_1 (val_main_v56 (F := F) x1)
abbrev idx_main_v57 (i : S3300000x6.Idx) : S3300000x1.Idx := fun a => match a with
  | ⟨0, _⟩ => ⟨(i 0).val, (i 0).isLt⟩
  | ⟨1, _⟩ => ⟨0, Nat.one_pos⟩
theorem val_main_v57_apply (i : S3300000x6.Idx) :
    val_main_v57 (F := F) x1 i = val_main_v56 (F := F) x1 (idx_main_v57 i) := by
  unfold val_main_v57
  generalize val_main_v56 (F := F) x1 = y
  exact broadcastInDim_apply _ bcast_S3300000x1_S3300000x6_0_1 y i (idx_main_v57 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v58 : (⟨S3300000x6, .f32⟩ : BufTy).Contents (Elt F) :=
  mulf (val_main_v55 (F := F) x0 x1 x3 x4 x5) (val_main_v57 (F := F) x1)

def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

def val_main_v59 : (⟨S100000x6, .f32⟩ : BufTy).Contents (Elt F) :=
  broadcastInDim S100000x6 ![] bcast_S_S100000x6 (val_main_cst_11 (F := F))
abbrev idx_main_v59 (i : S100000x6.Idx) : S_.Idx := fun a => a.elim0
theorem val_main_v59_apply (i : S100000x6.Idx) :
    val_main_v59 (F := F) i = val_main_cst_11 (F := F) (idx_main_v59 i) := by
  unfold val_main_v59
  generalize val_main_cst_11 (F := F) = y
  exact broadcastInDim_apply _ bcast_S_S100000x6 y i (idx_main_v59 i) (fun a => a.elim0)

def val_main_v60 : (⟨S3300000x1, .i32⟩ : BufTy).Contents (Elt F) :=
  broadcastInDim S3300000x1 ![0] bcast_S3300000_S3300000x1_0 (val_main_v6 (F := F) x1)
abbrev idx_main_v60 (i : S3300000x1.Idx) : S3300000.Idx := fun a => match a with
  | ⟨0, _⟩ => ⟨(i 0).val, (i 0).isLt⟩
theorem val_main_v60_apply (i : S3300000x1.Idx) :
    val_main_v60 (F := F) x1 i = val_main_v6 (F := F) x1 (idx_main_v60 i) := by
  unfold val_main_v60
  generalize val_main_v6 (F := F) x1 = y
  exact broadcastInDim_apply _ bcast_S3300000_S3300000x1_0 y i (idx_main_v60 i) (fun a => match a with
    | ⟨0, _⟩ => by show (i 0).val = if (3300000 : Nat) = 1 then 0 else (i 0).val; rw [if_neg (by decide)])

def val_main_v61 : (⟨S100000x6, .f32⟩ : BufTy).Contents (Elt F) :=
  Host.scatterAdd scatter_S100000x6_S3300000x1_S3300000x6_1_0_0_1 (val_main_v59 (F := F)) (val_main_v60 (F := F) x1) (val_main_v58 (F := F) x0 x1 x3 x4 x5)

def val_main_v62 : (⟨S1x6, .f32⟩ : BufTy).Contents (Elt F) :=
  broadcastInDim S1x6 ![1] bcast_S6_S1x6_1 (x6)
abbrev idx_main_v62 (i : S1x6.Idx) : S6.Idx := fun a => match a with
  | ⟨0, _⟩ => ⟨(i 1).val, (i 1).isLt⟩
theorem val_main_v62_apply (i : S1x6.Idx) :
    val_main_v62 (F := F) x6 i = x6 (idx_main_v62 i) := by
  unfold val_main_v62
  exact broadcastInDim_apply _ bcast_S6_S1x6_1 x6 i (idx_main_v62 i) (fun a => match a with
    | ⟨0, _⟩ => by show (i 1).val = if (6 : Nat) = 1 then 0 else (i 1).val; rw [if_neg (by decide)])

def val_main_v63 : (⟨S100000x6, .f32⟩ : BufTy).Contents (Elt F) :=
  broadcastInDim S100000x6 ![0, 1] bcast_S1x6_S100000x6_0_1 (val_main_v62 (F := F) x6)
abbrev idx_main_v63 (i : S100000x6.Idx) : S1x6.Idx := fun a => match a with
  | ⟨0, _⟩ => ⟨0, Nat.one_pos⟩
  | ⟨1, _⟩ => ⟨(i 1).val, (i 1).isLt⟩
theorem val_main_v63_apply (i : S100000x6.Idx) :
    val_main_v63 (F := F) x6 i = val_main_v62 (F := F) x6 (idx_main_v63 i) := by
  unfold val_main_v63
  generalize val_main_v62 (F := F) x6 = y
  exact broadcastInDim_apply _ bcast_S1x6_S100000x6_0_1 y i (idx_main_v63 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v64 : (⟨S100000x6, .f32⟩ : BufTy).Contents (Elt F) :=
  addf (val_main_v61 (F := F) x0 x1 x3 x4 x5) (val_main_v63 (F := F) x6)

def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl

def val_main_call2_v0 : (⟨S100000x6, .f32⟩ : BufTy).Contents (Elt F) :=
  broadcastInDim S100000x6 ![] bcast_S_S100000x6 (val_main_call2_cst (F := F))
abbrev idx_main_call2_v0 (i : S100000x6.Idx) : S_.Idx := fun a => a.elim0
theorem val_main_call2_v0_apply (i : S100000x6.Idx) :
    val_main_call2_v0 (F := F) i = val_main_call2_cst (F := F) (idx_main_call2_v0 i) := by
  unfold val_main_call2_v0
  generalize val_main_call2_cst (F := F) = y
  exact broadcastInDim_apply _ bcast_S_S100000x6 y i (idx_main_call2_v0 i) (fun a => a.elim0)

def val_main_v65 : (⟨S100000x6, .f32⟩ : BufTy).Contents (Elt F) :=
  maximumf (val_main_v64 (F := F) x0 x1 x3 x4 x5 x6) (val_main_call2_v0 (F := F))

def val_main_v66 : (⟨S100000x6, .f32⟩ : BufTy).Contents (Elt F) :=
  Host.dotGeneral dot_S100000x6_S6x6_S100000x6_1_0_0_1_n_n none (val_main_v65 (F := F) x0 x1 x3 x4 x5 x6) (x7)
theorem lhs_main_v66_0 (i : S100000x6.Idx) (q : dot_S100000x6_S6x6_S100000x6_1_0_0_1_n_n.contr.Idx) :
    (dot_S100000x6_S6x6_S100000x6_1_0_0_1_n_n.lhsIdx i q 0).val = (i 0).val := by
  unfold DotDims.lhsIdx
  rw [dif_neg (show ¬(0 : Fin S100000x6.rank) ∈ dot_S100000x6_S6x6_S100000x6_1_0_0_1_n_n.lhsBatch by decide), dif_pos (show (0 : Fin S100000x6.rank) ∈ dot_S100000x6_S6x6_S100000x6_1_0_0_1_n_n.lhsNonContracting by decide)]
  rfl
theorem lhs_main_v66_1 (i : S100000x6.Idx) (q : dot_S100000x6_S6x6_S100000x6_1_0_0_1_n_n.contr.Idx) :
    (dot_S100000x6_S6x6_S100000x6_1_0_0_1_n_n.lhsIdx i q 1).val = (q ⟨0, by decide⟩).val :=
  dot_S100000x6_S6x6_S100000x6_1_0_0_1_n_n.lhsIdx_val_of_single rfl i q
theorem rhs_main_v66_0 (i : S100000x6.Idx) (q : dot_S100000x6_S6x6_S100000x6_1_0_0_1_n_n.contr.Idx) :
    (dot_S100000x6_S6x6_S100000x6_1_0_0_1_n_n.rhsIdx i q 0).val = (q ⟨0, by decide⟩).val :=
  dot_S100000x6_S6x6_S100000x6_1_0_0_1_n_n.rhsIdx_val_of_single rfl i q
theorem rhs_main_v66_1 (i : S100000x6.Idx) (q : dot_S100000x6_S6x6_S100000x6_1_0_0_1_n_n.contr.Idx) :
    (dot_S100000x6_S6x6_S100000x6_1_0_0_1_n_n.rhsIdx i q 1).val = (i 1).val := by
  unfold DotDims.rhsIdx
  rw [dif_neg (show ¬(1 : Fin S6x6.rank) ∈ dot_S100000x6_S6x6_S100000x6_1_0_0_1_n_n.rhsBatch by decide), dif_pos (show (1 : Fin S6x6.rank) ∈ dot_S100000x6_S6x6_S100000x6_1_0_0_1_n_n.rhsNonContracting by decide)]
  rfl
abbrev lidx_main_v66 (i : S100000x6.Idx) (k : Fin 6) : S100000x6.Idx := fun a => match a with
  | ⟨0, _⟩ => ⟨(i 0).val, (i 0).isLt⟩
  | ⟨1, _⟩ => ⟨k.val, k.isLt⟩
abbrev ridx_main_v66 (i : S100000x6.Idx) (k : Fin 6) : S6x6.Idx := fun a => match a with
  | ⟨0, _⟩ => ⟨k.val, k.isLt⟩
  | ⟨1, _⟩ => ⟨(i 1).val, (i 1).isLt⟩
theorem val_main_v66_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (i : S100000x6.Idx) :
    val_main_v66 (F := Ideal) x0 x1 x3 x4 x5 x6 x7 i = ∑ k : Fin 6, (val_main_v65 (F := Ideal) x0 x1 x3 x4 x5 x6) (lidx_main_v66 i k) * x7 (ridx_main_v66 i k) := by
  unfold val_main_v66
  generalize val_main_v65 (F := Ideal) x0 x1 x3 x4 x5 x6 = y0
  simp only [Host.dotGeneral]
  rw [Ideal.dotGeneral_apply, ← Equiv.sum_comp (ValueIdx.contrEquiv1 dot_S100000x6_S6x6_S100000x6_1_0_0_1_n_n 6 rfl rfl).symm]
  refine Finset.sum_congr rfl fun k _ => ?_
  have hk := ValueIdx.contrEquiv1_symm_val dot_S100000x6_S6x6_S100000x6_1_0_0_1_n_n 6 rfl rfl k
  have el : dot_S100000x6_S6x6_S100000x6_1_0_0_1_n_n.lhsIdx i ((ValueIdx.contrEquiv1 dot_S100000x6_S6x6_S100000x6_1_0_0_1_n_n 6 rfl rfl).symm k) = lidx_main_v66 i k := funext fun a => Fin.ext (by
    match a with
    | ⟨0, _⟩ => exact lhs_main_v66_0 _ _
    | ⟨1, _⟩ => exact (lhs_main_v66_1 _ _).trans hk)
  have er : dot_S100000x6_S6x6_S100000x6_1_0_0_1_n_n.rhsIdx i ((ValueIdx.contrEquiv1 dot_S100000x6_S6x6_S100000x6_1_0_0_1_n_n 6 rfl rfl).symm k) = ridx_main_v66 i k := funext fun a => Fin.ext (by
    match a with
    | ⟨0, _⟩ => exact (rhs_main_v66_0 _ _).trans hk
    | ⟨1, _⟩ => exact rhs_main_v66_1 _ _)
  rw [el, er]

def val_main_c_12 : (⟨S_, .i32⟩ : BufTy).Contents (Elt F) :=
  constantI S_ 32 0#32
theorem val_main_c_12_apply (i : S_.Idx) :
    val_main_c_12 (F := F) i = 0#32 := rfl

def val_main_v67 : (⟨S3300000, .i32⟩ : BufTy).Contents (Elt F) :=
  broadcastInDim S3300000 ![] bcast_S_S3300000 (val_main_c_12 (F := F))
abbrev idx_main_v67 (i : S3300000.Idx) : S_.Idx := fun a => a.elim0
theorem val_main_v67_apply (i : S3300000.Idx) :
    val_main_v67 (F := F) i = val_main_c_12 (F := F) (idx_main_v67 i) := by
  unfold val_main_v67
  generalize val_main_c_12 (F := F) = y
  exact broadcastInDim_apply _ bcast_S_S3300000 y i (idx_main_v67 i) (fun a => a.elim0)

def val_main_v68 : (⟨S3300000, .i1⟩ : BufTy).Contents (Elt F) :=
  cmpi .slt (val_main_v3 (F := F) x1) (val_main_v67 (F := F))

def val_main_c_13 : (⟨S_, .i32⟩ : BufTy).Contents (Elt F) :=
  constantI S_ 32 100000#32
theorem val_main_c_13_apply (i : S_.Idx) :
    val_main_c_13 (F := F) i = 100000#32 := rfl

def val_main_v69 : (⟨S3300000, .i32⟩ : BufTy).Contents (Elt F) :=
  broadcastInDim S3300000 ![] bcast_S_S3300000 (val_main_c_13 (F := F))
abbrev idx_main_v69 (i : S3300000.Idx) : S_.Idx := fun a => a.elim0
theorem val_main_v69_apply (i : S3300000.Idx) :
    val_main_v69 (F := F) i = val_main_c_13 (F := F) (idx_main_v69 i) := by
  unfold val_main_v69
  generalize val_main_c_13 (F := F) = y
  exact broadcastInDim_apply _ bcast_S_S3300000 y i (idx_main_v69 i) (fun a => a.elim0)

def val_main_v70 : (⟨S3300000, .i32⟩ : BufTy).Contents (Elt F) :=
  addi (val_main_v3 (F := F) x1) (val_main_v69 (F := F))

def val_main_v71 : (⟨S3300000, .i32⟩ : BufTy).Contents (Elt F) :=
  select (val_main_v68 (F := F) x1) (val_main_v70 (F := F) x1) (val_main_v3 (F := F) x1)

def val_main_v72 : (⟨S3300000x1, .i32⟩ : BufTy).Contents (Elt F) :=
  broadcastInDim S3300000x1 ![0] bcast_S3300000_S3300000x1_0 (val_main_v71 (F := F) x1)
abbrev idx_main_v72 (i : S3300000x1.Idx) : S3300000.Idx := fun a => match a with
  | ⟨0, _⟩ => ⟨(i 0).val, (i 0).isLt⟩
theorem val_main_v72_apply (i : S3300000x1.Idx) :
    val_main_v72 (F := F) x1 i = val_main_v71 (F := F) x1 (idx_main_v72 i) := by
  unfold val_main_v72
  generalize val_main_v71 (F := F) x1 = y
  exact broadcastInDim_apply _ bcast_S3300000_S3300000x1_0 y i (idx_main_v72 i) (fun a => match a with
    | ⟨0, _⟩ => by show (i 0).val = if (3300000 : Nat) = 1 then 0 else (i 0).val; rw [if_neg (by decide)])

def val_main_v73 : (⟨S3300000x6, .f32⟩ : BufTy).Contents (Elt F) :=
  Host.gather gather_S100000x6_S3300000x1_S3300000x6_1_0_n_n_0_1_16 (val_main_v66 (F := F) x0 x1 x3 x4 x5 x6 x7) (val_main_v72 (F := F) x1)

def val_main_v74 : (⟨S3300000x1, .f32⟩ : BufTy).Contents (Elt F) :=
  broadcastInDim S3300000x1 ![0] bcast_S3300000_S3300000x1_0 (val_main_v29 (F := F) x1)
abbrev idx_main_v74 (i : S3300000x1.Idx) : S3300000.Idx := fun a => match a with
  | ⟨0, _⟩ => ⟨(i 0).val, (i 0).isLt⟩
theorem val_main_v74_apply (i : S3300000x1.Idx) :
    val_main_v74 (F := F) x1 i = val_main_v29 (F := F) x1 (idx_main_v74 i) := by
  unfold val_main_v74
  generalize val_main_v29 (F := F) x1 = y
  exact broadcastInDim_apply _ bcast_S3300000_S3300000x1_0 y i (idx_main_v74 i) (fun a => match a with
    | ⟨0, _⟩ => by show (i 0).val = if (3300000 : Nat) = 1 then 0 else (i 0).val; rw [if_neg (by decide)])

def val_main_v75 : (⟨S3300000x6, .f32⟩ : BufTy).Contents (Elt F) :=
  broadcastInDim S3300000x6 ![0, 1] bcast_S3300000x1_S3300000x6_0_1 (val_main_v74 (F := F) x1)
abbrev idx_main_v75 (i : S3300000x6.Idx) : S3300000x1.Idx := fun a => match a with
  | ⟨0, _⟩ => ⟨(i 0).val, (i 0).isLt⟩
  | ⟨1, _⟩ => ⟨0, Nat.one_pos⟩
theorem val_main_v75_apply (i : S3300000x6.Idx) :
    val_main_v75 (F := F) x1 i = val_main_v74 (F := F) x1 (idx_main_v75 i) := by
  unfold val_main_v75
  generalize val_main_v74 (F := F) x1 = y
  exact broadcastInDim_apply _ bcast_S3300000x1_S3300000x6_0_1 y i (idx_main_v75 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v76 : (⟨S3300000x6, .f32⟩ : BufTy).Contents (Elt F) :=
  mulf (val_main_v73 (F := F) x0 x1 x3 x4 x5 x6 x7) (val_main_v75 (F := F) x1)

def val_main_cst_14 : (⟨S_, .f32⟩ : BufTy).Contents (Elt F) :=
  constant S_ .f32 0x00000000#32
theorem val_main_cst_14_apply (i : S_.Idx) :
    val_main_cst_14 (F := F) i = FloatOps.ofBits .f32 0x00000000#32 := rfl

def val_main_v77 : (⟨S100000x6, .f32⟩ : BufTy).Contents (Elt F) :=
  broadcastInDim S100000x6 ![] bcast_S_S100000x6 (val_main_cst_14 (F := F))
abbrev idx_main_v77 (i : S100000x6.Idx) : S_.Idx := fun a => a.elim0
theorem val_main_v77_apply (i : S100000x6.Idx) :
    val_main_v77 (F := F) i = val_main_cst_14 (F := F) (idx_main_v77 i) := by
  unfold val_main_v77
  generalize val_main_cst_14 (F := F) = y
  exact broadcastInDim_apply _ bcast_S_S100000x6 y i (idx_main_v77 i) (fun a => a.elim0)

def val_main_v78 : (⟨S3300000x1, .i32⟩ : BufTy).Contents (Elt F) :=
  broadcastInDim S3300000x1 ![0] bcast_S3300000_S3300000x1_0 (val_main_v6 (F := F) x1)
abbrev idx_main_v78 (i : S3300000x1.Idx) : S3300000.Idx := fun a => match a with
  | ⟨0, _⟩ => ⟨(i 0).val, (i 0).isLt⟩
theorem val_main_v78_apply (i : S3300000x1.Idx) :
    val_main_v78 (F := F) x1 i = val_main_v6 (F := F) x1 (idx_main_v78 i) := by
  unfold val_main_v78
  generalize val_main_v6 (F := F) x1 = y
  exact broadcastInDim_apply _ bcast_S3300000_S3300000x1_0 y i (idx_main_v78 i) (fun a => match a with
    | ⟨0, _⟩ => by show (i 0).val = if (3300000 : Nat) = 1 then 0 else (i 0).val; rw [if_neg (by decide)])

def val_main_v79 : (⟨S100000x6, .f32⟩ : BufTy).Contents (Elt F) :=
  Host.scatterAdd scatter_S100000x6_S3300000x1_S3300000x6_1_0_0_1 (val_main_v77 (F := F)) (val_main_v78 (F := F) x1) (val_main_v76 (F := F) x0 x1 x3 x4 x5 x6 x7)

def val_main_v80 : (⟨S1x6, .f32⟩ : BufTy).Contents (Elt F) :=
  broadcastInDim S1x6 ![1] bcast_S6_S1x6_1 (x8)
abbrev idx_main_v80 (i : S1x6.Idx) : S6.Idx := fun a => match a with
  | ⟨0, _⟩ => ⟨(i 1).val, (i 1).isLt⟩
theorem val_main_v80_apply (i : S1x6.Idx) :
    val_main_v80 (F := F) x8 i = x8 (idx_main_v80 i) := by
  unfold val_main_v80
  exact broadcastInDim_apply _ bcast_S6_S1x6_1 x8 i (idx_main_v80 i) (fun a => match a with
    | ⟨0, _⟩ => by show (i 1).val = if (6 : Nat) = 1 then 0 else (i 1).val; rw [if_neg (by decide)])

def val_main_v81 : (⟨S100000x6, .f32⟩ : BufTy).Contents (Elt F) :=
  broadcastInDim S100000x6 ![0, 1] bcast_S1x6_S100000x6_0_1 (val_main_v80 (F := F) x8)
abbrev idx_main_v81 (i : S100000x6.Idx) : S1x6.Idx := fun a => match a with
  | ⟨0, _⟩ => ⟨0, Nat.one_pos⟩
  | ⟨1, _⟩ => ⟨(i 1).val, (i 1).isLt⟩
theorem val_main_v81_apply (i : S100000x6.Idx) :
    val_main_v81 (F := F) x8 i = val_main_v80 (F := F) x8 (idx_main_v81 i) := by
  unfold val_main_v81
  generalize val_main_v80 (F := F) x8 = y
  exact broadcastInDim_apply _ bcast_S1x6_S100000x6_0_1 y i (idx_main_v81 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v82 : (⟨S100000x6, .f32⟩ : BufTy).Contents (Elt F) :=
  addf (val_main_v79 (F := F) x0 x1 x3 x4 x5 x6 x7) (val_main_v81 (F := F) x8)

def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl

def val_main_call3_v0 : (⟨S100000x6, .f32⟩ : BufTy).Contents (Elt F) :=
  broadcastInDim S100000x6 ![] bcast_S_S100000x6 (val_main_call3_cst (F := F))
abbrev idx_main_call3_v0 (i : S100000x6.Idx) : S_.Idx := fun a => a.elim0
theorem val_main_call3_v0_apply (i : S100000x6.Idx) :
    val_main_call3_v0 (F := F) i = val_main_call3_cst (F := F) (idx_main_call3_v0 i) := by
  unfold val_main_call3_v0
  generalize val_main_call3_cst (F := F) = y
  exact broadcastInDim_apply _ bcast_S_S100000x6 y i (idx_main_call3_v0 i) (fun a => a.elim0)

def val_main_v83 : (⟨S100000x6, .f32⟩ : BufTy).Contents (Elt F) :=
  maximumf (val_main_v82 (F := F) x0 x1 x3 x4 x5 x6 x7 x8) (val_main_call3_v0 (F := F))

def val_main_v84 : (⟨S100000x6, .f32⟩ : BufTy).Contents (Elt F) :=
  Host.dotGeneral dot_S100000x6_S6x6_S100000x6_1_0_0_1_n_n none (val_main_v83 (F := F) x0 x1 x3 x4 x5 x6 x7 x8) (x9)
theorem lhs_main_v84_0 (i : S100000x6.Idx) (q : dot_S100000x6_S6x6_S100000x6_1_0_0_1_n_n.contr.Idx) :
    (dot_S100000x6_S6x6_S100000x6_1_0_0_1_n_n.lhsIdx i q 0).val = (i 0).val := by
  unfold DotDims.lhsIdx
  rw [dif_neg (show ¬(0 : Fin S100000x6.rank) ∈ dot_S100000x6_S6x6_S100000x6_1_0_0_1_n_n.lhsBatch by decide), dif_pos (show (0 : Fin S100000x6.rank) ∈ dot_S100000x6_S6x6_S100000x6_1_0_0_1_n_n.lhsNonContracting by decide)]
  rfl
theorem lhs_main_v84_1 (i : S100000x6.Idx) (q : dot_S100000x6_S6x6_S100000x6_1_0_0_1_n_n.contr.Idx) :
    (dot_S100000x6_S6x6_S100000x6_1_0_0_1_n_n.lhsIdx i q 1).val = (q ⟨0, by decide⟩).val :=
  dot_S100000x6_S6x6_S100000x6_1_0_0_1_n_n.lhsIdx_val_of_single rfl i q
theorem rhs_main_v84_0 (i : S100000x6.Idx) (q : dot_S100000x6_S6x6_S100000x6_1_0_0_1_n_n.contr.Idx) :
    (dot_S100000x6_S6x6_S100000x6_1_0_0_1_n_n.rhsIdx i q 0).val = (q ⟨0, by decide⟩).val :=
  dot_S100000x6_S6x6_S100000x6_1_0_0_1_n_n.rhsIdx_val_of_single rfl i q
theorem rhs_main_v84_1 (i : S100000x6.Idx) (q : dot_S100000x6_S6x6_S100000x6_1_0_0_1_n_n.contr.Idx) :
    (dot_S100000x6_S6x6_S100000x6_1_0_0_1_n_n.rhsIdx i q 1).val = (i 1).val := by
  unfold DotDims.rhsIdx
  rw [dif_neg (show ¬(1 : Fin S6x6.rank) ∈ dot_S100000x6_S6x6_S100000x6_1_0_0_1_n_n.rhsBatch by decide), dif_pos (show (1 : Fin S6x6.rank) ∈ dot_S100000x6_S6x6_S100000x6_1_0_0_1_n_n.rhsNonContracting by decide)]
  rfl
abbrev lidx_main_v84 (i : S100000x6.Idx) (k : Fin 6) : S100000x6.Idx := fun a => match a with
  | ⟨0, _⟩ => ⟨(i 0).val, (i 0).isLt⟩
  | ⟨1, _⟩ => ⟨k.val, k.isLt⟩
abbrev ridx_main_v84 (i : S100000x6.Idx) (k : Fin 6) : S6x6.Idx := fun a => match a with
  | ⟨0, _⟩ => ⟨k.val, k.isLt⟩
  | ⟨1, _⟩ => ⟨(i 1).val, (i 1).isLt⟩
theorem val_main_v84_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (i : S100000x6.Idx) :
    val_main_v84 (F := Ideal) x0 x1 x3 x4 x5 x6 x7 x8 x9 i = ∑ k : Fin 6, (val_main_v83 (F := Ideal) x0 x1 x3 x4 x5 x6 x7 x8) (lidx_main_v84 i k) * x9 (ridx_main_v84 i k) := by
  unfold val_main_v84
  generalize val_main_v83 (F := Ideal) x0 x1 x3 x4 x5 x6 x7 x8 = y0
  simp only [Host.dotGeneral]
  rw [Ideal.dotGeneral_apply, ← Equiv.sum_comp (ValueIdx.contrEquiv1 dot_S100000x6_S6x6_S100000x6_1_0_0_1_n_n 6 rfl rfl).symm]
  refine Finset.sum_congr rfl fun k _ => ?_
  have hk := ValueIdx.contrEquiv1_symm_val dot_S100000x6_S6x6_S100000x6_1_0_0_1_n_n 6 rfl rfl k
  have el : dot_S100000x6_S6x6_S100000x6_1_0_0_1_n_n.lhsIdx i ((ValueIdx.contrEquiv1 dot_S100000x6_S6x6_S100000x6_1_0_0_1_n_n 6 rfl rfl).symm k) = lidx_main_v84 i k := funext fun a => Fin.ext (by
    match a with
    | ⟨0, _⟩ => exact lhs_main_v84_0 _ _
    | ⟨1, _⟩ => exact (lhs_main_v84_1 _ _).trans hk)
  have er : dot_S100000x6_S6x6_S100000x6_1_0_0_1_n_n.rhsIdx i ((ValueIdx.contrEquiv1 dot_S100000x6_S6x6_S100000x6_1_0_0_1_n_n 6 rfl rfl).symm k) = ridx_main_v84 i k := funext fun a => Fin.ext (by
    match a with
    | ⟨0, _⟩ => exact (rhs_main_v84_0 _ _).trans hk
    | ⟨1, _⟩ => exact rhs_main_v84_1 _ _)
  rw [el, er]

def val_main_c_15 : (⟨S_, .i32⟩ : BufTy).Contents (Elt F) :=
  constantI S_ 32 0#32
theorem val_main_c_15_apply (i : S_.Idx) :
    val_main_c_15 (F := F) i = 0#32 := rfl

def val_main_v85 : (⟨S3300000, .i32⟩ : BufTy).Contents (Elt F) :=
  broadcastInDim S3300000 ![] bcast_S_S3300000 (val_main_c_15 (F := F))
abbrev idx_main_v85 (i : S3300000.Idx) : S_.Idx := fun a => a.elim0
theorem val_main_v85_apply (i : S3300000.Idx) :
    val_main_v85 (F := F) i = val_main_c_15 (F := F) (idx_main_v85 i) := by
  unfold val_main_v85
  generalize val_main_c_15 (F := F) = y
  exact broadcastInDim_apply _ bcast_S_S3300000 y i (idx_main_v85 i) (fun a => a.elim0)

def val_main_v86 : (⟨S3300000, .i1⟩ : BufTy).Contents (Elt F) :=
  cmpi .slt (val_main_v3 (F := F) x1) (val_main_v85 (F := F))

def val_main_c_16 : (⟨S_, .i32⟩ : BufTy).Contents (Elt F) :=
  constantI S_ 32 100000#32
theorem val_main_c_16_apply (i : S_.Idx) :
    val_main_c_16 (F := F) i = 100000#32 := rfl

def val_main_v87 : (⟨S3300000, .i32⟩ : BufTy).Contents (Elt F) :=
  broadcastInDim S3300000 ![] bcast_S_S3300000 (val_main_c_16 (F := F))
abbrev idx_main_v87 (i : S3300000.Idx) : S_.Idx := fun a => a.elim0
theorem val_main_v87_apply (i : S3300000.Idx) :
    val_main_v87 (F := F) i = val_main_c_16 (F := F) (idx_main_v87 i) := by
  unfold val_main_v87
  generalize val_main_c_16 (F := F) = y
  exact broadcastInDim_apply _ bcast_S_S3300000 y i (idx_main_v87 i) (fun a => a.elim0)

def val_main_v88 : (⟨S3300000, .i32⟩ : BufTy).Contents (Elt F) :=
  addi (val_main_v3 (F := F) x1) (val_main_v87 (F := F))

def val_main_v89 : (⟨S3300000, .i32⟩ : BufTy).Contents (Elt F) :=
  select (val_main_v86 (F := F) x1) (val_main_v88 (F := F) x1) (val_main_v3 (F := F) x1)

def val_main_v90 : (⟨S3300000x1, .i32⟩ : BufTy).Contents (Elt F) :=
  broadcastInDim S3300000x1 ![0] bcast_S3300000_S3300000x1_0 (val_main_v89 (F := F) x1)
abbrev idx_main_v90 (i : S3300000x1.Idx) : S3300000.Idx := fun a => match a with
  | ⟨0, _⟩ => ⟨(i 0).val, (i 0).isLt⟩
theorem val_main_v90_apply (i : S3300000x1.Idx) :
    val_main_v90 (F := F) x1 i = val_main_v89 (F := F) x1 (idx_main_v90 i) := by
  unfold val_main_v90
  generalize val_main_v89 (F := F) x1 = y
  exact broadcastInDim_apply _ bcast_S3300000_S3300000x1_0 y i (idx_main_v90 i) (fun a => match a with
    | ⟨0, _⟩ => by show (i 0).val = if (3300000 : Nat) = 1 then 0 else (i 0).val; rw [if_neg (by decide)])

def val_main_v91 : (⟨S3300000x6, .f32⟩ : BufTy).Contents (Elt F) :=
  Host.gather gather_S100000x6_S3300000x1_S3300000x6_1_0_n_n_0_1_16 (val_main_v84 (F := F) x0 x1 x3 x4 x5 x6 x7 x8 x9) (val_main_v90 (F := F) x1)

def val_main_v92 : (⟨S3300000x1, .f32⟩ : BufTy).Contents (Elt F) :=
  broadcastInDim S3300000x1 ![0] bcast_S3300000_S3300000x1_0 (val_main_v29 (F := F) x1)
abbrev idx_main_v92 (i : S3300000x1.Idx) : S3300000.Idx := fun a => match a with
  | ⟨0, _⟩ => ⟨(i 0).val, (i 0).isLt⟩
theorem val_main_v92_apply (i : S3300000x1.Idx) :
    val_main_v92 (F := F) x1 i = val_main_v29 (F := F) x1 (idx_main_v92 i) := by
  unfold val_main_v92
  generalize val_main_v29 (F := F) x1 = y
  exact broadcastInDim_apply _ bcast_S3300000_S3300000x1_0 y i (idx_main_v92 i) (fun a => match a with
    | ⟨0, _⟩ => by show (i 0).val = if (3300000 : Nat) = 1 then 0 else (i 0).val; rw [if_neg (by decide)])

def val_main_v93 : (⟨S3300000x6, .f32⟩ : BufTy).Contents (Elt F) :=
  broadcastInDim S3300000x6 ![0, 1] bcast_S3300000x1_S3300000x6_0_1 (val_main_v92 (F := F) x1)
abbrev idx_main_v93 (i : S3300000x6.Idx) : S3300000x1.Idx := fun a => match a with
  | ⟨0, _⟩ => ⟨(i 0).val, (i 0).isLt⟩
  | ⟨1, _⟩ => ⟨0, Nat.one_pos⟩
theorem val_main_v93_apply (i : S3300000x6.Idx) :
    val_main_v93 (F := F) x1 i = val_main_v92 (F := F) x1 (idx_main_v93 i) := by
  unfold val_main_v93
  generalize val_main_v92 (F := F) x1 = y
  exact broadcastInDim_apply _ bcast_S3300000x1_S3300000x6_0_1 y i (idx_main_v93 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v94 : (⟨S3300000x6, .f32⟩ : BufTy).Contents (Elt F) :=
  mulf (val_main_v91 (F := F) x0 x1 x3 x4 x5 x6 x7 x8 x9) (val_main_v93 (F := F) x1)

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v95 : (⟨S100000x6, .f32⟩ : BufTy).Contents (Elt F) :=
  broadcastInDim S100000x6 ![] bcast_S_S100000x6 (val_main_cst_17 (F := F))
abbrev idx_main_v95 (i : S100000x6.Idx) : S_.Idx := fun a => a.elim0
theorem val_main_v95_apply (i : S100000x6.Idx) :
    val_main_v95 (F := F) i = val_main_cst_17 (F := F) (idx_main_v95 i) := by
  unfold val_main_v95
  generalize val_main_cst_17 (F := F) = y
  exact broadcastInDim_apply _ bcast_S_S100000x6 y i (idx_main_v95 i) (fun a => a.elim0)

def val_main_v96 : (⟨S3300000x1, .i32⟩ : BufTy).Contents (Elt F) :=
  broadcastInDim S3300000x1 ![0] bcast_S3300000_S3300000x1_0 (val_main_v6 (F := F) x1)
abbrev idx_main_v96 (i : S3300000x1.Idx) : S3300000.Idx := fun a => match a with
  | ⟨0, _⟩ => ⟨(i 0).val, (i 0).isLt⟩
theorem val_main_v96_apply (i : S3300000x1.Idx) :
    val_main_v96 (F := F) x1 i = val_main_v6 (F := F) x1 (idx_main_v96 i) := by
  unfold val_main_v96
  generalize val_main_v6 (F := F) x1 = y
  exact broadcastInDim_apply _ bcast_S3300000_S3300000x1_0 y i (idx_main_v96 i) (fun a => match a with
    | ⟨0, _⟩ => by show (i 0).val = if (3300000 : Nat) = 1 then 0 else (i 0).val; rw [if_neg (by decide)])

def val_main_v97 : (⟨S100000x6, .f32⟩ : BufTy).Contents (Elt F) :=
  Host.scatterAdd scatter_S100000x6_S3300000x1_S3300000x6_1_0_0_1 (val_main_v95 (F := F)) (val_main_v96 (F := F) x1) (val_main_v94 (F := F) x0 x1 x3 x4 x5 x6 x7 x8 x9)

def val_main_v98 : (⟨S1x6, .f32⟩ : BufTy).Contents (Elt F) :=
  broadcastInDim S1x6 ![1] bcast_S6_S1x6_1 (x10)
abbrev idx_main_v98 (i : S1x6.Idx) : S6.Idx := fun a => match a with
  | ⟨0, _⟩ => ⟨(i 1).val, (i 1).isLt⟩
theorem val_main_v98_apply (i : S1x6.Idx) :
    val_main_v98 (F := F) x10 i = x10 (idx_main_v98 i) := by
  unfold val_main_v98
  exact broadcastInDim_apply _ bcast_S6_S1x6_1 x10 i (idx_main_v98 i) (fun a => match a with
    | ⟨0, _⟩ => by show (i 1).val = if (6 : Nat) = 1 then 0 else (i 1).val; rw [if_neg (by decide)])

def val_main_v99 : (⟨S100000x6, .f32⟩ : BufTy).Contents (Elt F) :=
  broadcastInDim S100000x6 ![0, 1] bcast_S1x6_S100000x6_0_1 (val_main_v98 (F := F) x10)
abbrev idx_main_v99 (i : S100000x6.Idx) : S1x6.Idx := fun a => match a with
  | ⟨0, _⟩ => ⟨0, Nat.one_pos⟩
  | ⟨1, _⟩ => ⟨(i 1).val, (i 1).isLt⟩
theorem val_main_v99_apply (i : S100000x6.Idx) :
    val_main_v99 (F := F) x10 i = val_main_v98 (F := F) x10 (idx_main_v99 i) := by
  unfold val_main_v99
  generalize val_main_v98 (F := F) x10 = y
  exact broadcastInDim_apply _ bcast_S1x6_S100000x6_0_1 y i (idx_main_v99 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v100 : (⟨S100000x6, .f32⟩ : BufTy).Contents (Elt F) :=
  addf (val_main_v97 (F := F) x0 x1 x3 x4 x5 x6 x7 x8 x9) (val_main_v99 (F := F) x10)

def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl

def val_main_call4_v0 : (⟨S100000x6, .f32⟩ : BufTy).Contents (Elt F) :=
  broadcastInDim S100000x6 ![] bcast_S_S100000x6 (val_main_call4_cst (F := F))
abbrev idx_main_call4_v0 (i : S100000x6.Idx) : S_.Idx := fun a => a.elim0
theorem val_main_call4_v0_apply (i : S100000x6.Idx) :
    val_main_call4_v0 (F := F) i = val_main_call4_cst (F := F) (idx_main_call4_v0 i) := by
  unfold val_main_call4_v0
  generalize val_main_call4_cst (F := F) = y
  exact broadcastInDim_apply _ bcast_S_S100000x6 y i (idx_main_call4_v0 i) (fun a => a.elim0)

def val_main_v101 : (⟨S100000x6, .f32⟩ : BufTy).Contents (Elt F) :=
  maximumf (val_main_v100 (F := F) x0 x1 x3 x4 x5 x6 x7 x8 x9 x10) (val_main_call4_v0 (F := F))

def val_main_v102 : (⟨S100000x6, .f32⟩ : BufTy).Contents (Elt F) :=
  Host.dotGeneral dot_S100000x6_S6x6_S100000x6_1_0_0_1_n_n none (val_main_v101 (F := F) x0 x1 x3 x4 x5 x6 x7 x8 x9 x10) (x11)
theorem lhs_main_v102_0 (i : S100000x6.Idx) (q : dot_S100000x6_S6x6_S100000x6_1_0_0_1_n_n.contr.Idx) :
    (dot_S100000x6_S6x6_S100000x6_1_0_0_1_n_n.lhsIdx i q 0).val = (i 0).val := by
  unfold DotDims.lhsIdx
  rw [dif_neg (show ¬(0 : Fin S100000x6.rank) ∈ dot_S100000x6_S6x6_S100000x6_1_0_0_1_n_n.lhsBatch by decide), dif_pos (show (0 : Fin S100000x6.rank) ∈ dot_S100000x6_S6x6_S100000x6_1_0_0_1_n_n.lhsNonContracting by decide)]
  rfl
theorem lhs_main_v102_1 (i : S100000x6.Idx) (q : dot_S100000x6_S6x6_S100000x6_1_0_0_1_n_n.contr.Idx) :
    (dot_S100000x6_S6x6_S100000x6_1_0_0_1_n_n.lhsIdx i q 1).val = (q ⟨0, by decide⟩).val :=
  dot_S100000x6_S6x6_S100000x6_1_0_0_1_n_n.lhsIdx_val_of_single rfl i q
theorem rhs_main_v102_0 (i : S100000x6.Idx) (q : dot_S100000x6_S6x6_S100000x6_1_0_0_1_n_n.contr.Idx) :
    (dot_S100000x6_S6x6_S100000x6_1_0_0_1_n_n.rhsIdx i q 0).val = (q ⟨0, by decide⟩).val :=
  dot_S100000x6_S6x6_S100000x6_1_0_0_1_n_n.rhsIdx_val_of_single rfl i q
theorem rhs_main_v102_1 (i : S100000x6.Idx) (q : dot_S100000x6_S6x6_S100000x6_1_0_0_1_n_n.contr.Idx) :
    (dot_S100000x6_S6x6_S100000x6_1_0_0_1_n_n.rhsIdx i q 1).val = (i 1).val := by
  unfold DotDims.rhsIdx
  rw [dif_neg (show ¬(1 : Fin S6x6.rank) ∈ dot_S100000x6_S6x6_S100000x6_1_0_0_1_n_n.rhsBatch by decide), dif_pos (show (1 : Fin S6x6.rank) ∈ dot_S100000x6_S6x6_S100000x6_1_0_0_1_n_n.rhsNonContracting by decide)]
  rfl
abbrev lidx_main_v102 (i : S100000x6.Idx) (k : Fin 6) : S100000x6.Idx := fun a => match a with
  | ⟨0, _⟩ => ⟨(i 0).val, (i 0).isLt⟩
  | ⟨1, _⟩ => ⟨k.val, k.isLt⟩
abbrev ridx_main_v102 (i : S100000x6.Idx) (k : Fin 6) : S6x6.Idx := fun a => match a with
  | ⟨0, _⟩ => ⟨k.val, k.isLt⟩
  | ⟨1, _⟩ => ⟨(i 1).val, (i 1).isLt⟩
theorem val_main_v102_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (i : S100000x6.Idx) :
    val_main_v102 (F := Ideal) x0 x1 x3 x4 x5 x6 x7 x8 x9 x10 x11 i = ∑ k : Fin 6, (val_main_v101 (F := Ideal) x0 x1 x3 x4 x5 x6 x7 x8 x9 x10) (lidx_main_v102 i k) * x11 (ridx_main_v102 i k) := by
  unfold val_main_v102
  generalize val_main_v101 (F := Ideal) x0 x1 x3 x4 x5 x6 x7 x8 x9 x10 = y0
  simp only [Host.dotGeneral]
  rw [Ideal.dotGeneral_apply, ← Equiv.sum_comp (ValueIdx.contrEquiv1 dot_S100000x6_S6x6_S100000x6_1_0_0_1_n_n 6 rfl rfl).symm]
  refine Finset.sum_congr rfl fun k _ => ?_
  have hk := ValueIdx.contrEquiv1_symm_val dot_S100000x6_S6x6_S100000x6_1_0_0_1_n_n 6 rfl rfl k
  have el : dot_S100000x6_S6x6_S100000x6_1_0_0_1_n_n.lhsIdx i ((ValueIdx.contrEquiv1 dot_S100000x6_S6x6_S100000x6_1_0_0_1_n_n 6 rfl rfl).symm k) = lidx_main_v102 i k := funext fun a => Fin.ext (by
    match a with
    | ⟨0, _⟩ => exact lhs_main_v102_0 _ _
    | ⟨1, _⟩ => exact (lhs_main_v102_1 _ _).trans hk)
  have er : dot_S100000x6_S6x6_S100000x6_1_0_0_1_n_n.rhsIdx i ((ValueIdx.contrEquiv1 dot_S100000x6_S6x6_S100000x6_1_0_0_1_n_n 6 rfl rfl).symm k) = ridx_main_v102 i k := funext fun a => Fin.ext (by
    match a with
    | ⟨0, _⟩ => exact (rhs_main_v102_0 _ _).trans hk
    | ⟨1, _⟩ => exact rhs_main_v102_1 _ _)
  rw [el, er]

def val_main_c_18 : (⟨S_, .i32⟩ : BufTy).Contents (Elt F) :=
  constantI S_ 32 0#32
theorem val_main_c_18_apply (i : S_.Idx) :
    val_main_c_18 (F := F) i = 0#32 := rfl

def val_main_v103 : (⟨S3300000, .i32⟩ : BufTy).Contents (Elt F) :=
  broadcastInDim S3300000 ![] bcast_S_S3300000 (val_main_c_18 (F := F))
abbrev idx_main_v103 (i : S3300000.Idx) : S_.Idx := fun a => a.elim0
theorem val_main_v103_apply (i : S3300000.Idx) :
    val_main_v103 (F := F) i = val_main_c_18 (F := F) (idx_main_v103 i) := by
  unfold val_main_v103
  generalize val_main_c_18 (F := F) = y
  exact broadcastInDim_apply _ bcast_S_S3300000 y i (idx_main_v103 i) (fun a => a.elim0)

def val_main_v104 : (⟨S3300000, .i1⟩ : BufTy).Contents (Elt F) :=
  cmpi .slt (val_main_v3 (F := F) x1) (val_main_v103 (F := F))

def val_main_c_19 : (⟨S_, .i32⟩ : BufTy).Contents (Elt F) :=
  constantI S_ 32 100000#32
theorem val_main_c_19_apply (i : S_.Idx) :
    val_main_c_19 (F := F) i = 100000#32 := rfl

def val_main_v105 : (⟨S3300000, .i32⟩ : BufTy).Contents (Elt F) :=
  broadcastInDim S3300000 ![] bcast_S_S3300000 (val_main_c_19 (F := F))
abbrev idx_main_v105 (i : S3300000.Idx) : S_.Idx := fun a => a.elim0
theorem val_main_v105_apply (i : S3300000.Idx) :
    val_main_v105 (F := F) i = val_main_c_19 (F := F) (idx_main_v105 i) := by
  unfold val_main_v105
  generalize val_main_c_19 (F := F) = y
  exact broadcastInDim_apply _ bcast_S_S3300000 y i (idx_main_v105 i) (fun a => a.elim0)

def val_main_v106 : (⟨S3300000, .i32⟩ : BufTy).Contents (Elt F) :=
  addi (val_main_v3 (F := F) x1) (val_main_v105 (F := F))

def val_main_v107 : (⟨S3300000, .i32⟩ : BufTy).Contents (Elt F) :=
  select (val_main_v104 (F := F) x1) (val_main_v106 (F := F) x1) (val_main_v3 (F := F) x1)

def val_main_v108 : (⟨S3300000x1, .i32⟩ : BufTy).Contents (Elt F) :=
  broadcastInDim S3300000x1 ![0] bcast_S3300000_S3300000x1_0 (val_main_v107 (F := F) x1)
abbrev idx_main_v108 (i : S3300000x1.Idx) : S3300000.Idx := fun a => match a with
  | ⟨0, _⟩ => ⟨(i 0).val, (i 0).isLt⟩
theorem val_main_v108_apply (i : S3300000x1.Idx) :
    val_main_v108 (F := F) x1 i = val_main_v107 (F := F) x1 (idx_main_v108 i) := by
  unfold val_main_v108
  generalize val_main_v107 (F := F) x1 = y
  exact broadcastInDim_apply _ bcast_S3300000_S3300000x1_0 y i (idx_main_v108 i) (fun a => match a with
    | ⟨0, _⟩ => by show (i 0).val = if (3300000 : Nat) = 1 then 0 else (i 0).val; rw [if_neg (by decide)])

def val_main_v109 : (⟨S3300000x6, .f32⟩ : BufTy).Contents (Elt F) :=
  Host.gather gather_S100000x6_S3300000x1_S3300000x6_1_0_n_n_0_1_16 (val_main_v102 (F := F) x0 x1 x3 x4 x5 x6 x7 x8 x9 x10 x11) (val_main_v108 (F := F) x1)

def val_main_v110 : (⟨S3300000x1, .f32⟩ : BufTy).Contents (Elt F) :=
  broadcastInDim S3300000x1 ![0] bcast_S3300000_S3300000x1_0 (val_main_v29 (F := F) x1)
abbrev idx_main_v110 (i : S3300000x1.Idx) : S3300000.Idx := fun a => match a with
  | ⟨0, _⟩ => ⟨(i 0).val, (i 0).isLt⟩
theorem val_main_v110_apply (i : S3300000x1.Idx) :
    val_main_v110 (F := F) x1 i = val_main_v29 (F := F) x1 (idx_main_v110 i) := by
  unfold val_main_v110
  generalize val_main_v29 (F := F) x1 = y
  exact broadcastInDim_apply _ bcast_S3300000_S3300000x1_0 y i (idx_main_v110 i) (fun a => match a with
    | ⟨0, _⟩ => by show (i 0).val = if (3300000 : Nat) = 1 then 0 else (i 0).val; rw [if_neg (by decide)])

def val_main_v111 : (⟨S3300000x6, .f32⟩ : BufTy).Contents (Elt F) :=
  broadcastInDim S3300000x6 ![0, 1] bcast_S3300000x1_S3300000x6_0_1 (val_main_v110 (F := F) x1)
abbrev idx_main_v111 (i : S3300000x6.Idx) : S3300000x1.Idx := fun a => match a with
  | ⟨0, _⟩ => ⟨(i 0).val, (i 0).isLt⟩
  | ⟨1, _⟩ => ⟨0, Nat.one_pos⟩
theorem val_main_v111_apply (i : S3300000x6.Idx) :
    val_main_v111 (F := F) x1 i = val_main_v110 (F := F) x1 (idx_main_v111 i) := by
  unfold val_main_v111
  generalize val_main_v110 (F := F) x1 = y
  exact broadcastInDim_apply _ bcast_S3300000x1_S3300000x6_0_1 y i (idx_main_v111 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v112 : (⟨S3300000x6, .f32⟩ : BufTy).Contents (Elt F) :=
  mulf (val_main_v109 (F := F) x0 x1 x3 x4 x5 x6 x7 x8 x9 x10 x11) (val_main_v111 (F := F) x1)

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v113 : (⟨S100000x6, .f32⟩ : BufTy).Contents (Elt F) :=
  broadcastInDim S100000x6 ![] bcast_S_S100000x6 (val_main_cst_20 (F := F))
abbrev idx_main_v113 (i : S100000x6.Idx) : S_.Idx := fun a => a.elim0
theorem val_main_v113_apply (i : S100000x6.Idx) :
    val_main_v113 (F := F) i = val_main_cst_20 (F := F) (idx_main_v113 i) := by
  unfold val_main_v113
  generalize val_main_cst_20 (F := F) = y
  exact broadcastInDim_apply _ bcast_S_S100000x6 y i (idx_main_v113 i) (fun a => a.elim0)

def val_main_v114 : (⟨S3300000x1, .i32⟩ : BufTy).Contents (Elt F) :=
  broadcastInDim S3300000x1 ![0] bcast_S3300000_S3300000x1_0 (val_main_v6 (F := F) x1)
abbrev idx_main_v114 (i : S3300000x1.Idx) : S3300000.Idx := fun a => match a with
  | ⟨0, _⟩ => ⟨(i 0).val, (i 0).isLt⟩
theorem val_main_v114_apply (i : S3300000x1.Idx) :
    val_main_v114 (F := F) x1 i = val_main_v6 (F := F) x1 (idx_main_v114 i) := by
  unfold val_main_v114
  generalize val_main_v6 (F := F) x1 = y
  exact broadcastInDim_apply _ bcast_S3300000_S3300000x1_0 y i (idx_main_v114 i) (fun a => match a with
    | ⟨0, _⟩ => by show (i 0).val = if (3300000 : Nat) = 1 then 0 else (i 0).val; rw [if_neg (by decide)])

def val_main_v115 : (⟨S100000x6, .f32⟩ : BufTy).Contents (Elt F) :=
  Host.scatterAdd scatter_S100000x6_S3300000x1_S3300000x6_1_0_0_1 (val_main_v113 (F := F)) (val_main_v114 (F := F) x1) (val_main_v112 (F := F) x0 x1 x3 x4 x5 x6 x7 x8 x9 x10 x11)

def val_main_v116 : (⟨S1x6, .f32⟩ : BufTy).Contents (Elt F) :=
  broadcastInDim S1x6 ![1] bcast_S6_S1x6_1 (x12)
abbrev idx_main_v116 (i : S1x6.Idx) : S6.Idx := fun a => match a with
  | ⟨0, _⟩ => ⟨(i 1).val, (i 1).isLt⟩
theorem val_main_v116_apply (i : S1x6.Idx) :
    val_main_v116 (F := F) x12 i = x12 (idx_main_v116 i) := by
  unfold val_main_v116
  exact broadcastInDim_apply _ bcast_S6_S1x6_1 x12 i (idx_main_v116 i) (fun a => match a with
    | ⟨0, _⟩ => by show (i 1).val = if (6 : Nat) = 1 then 0 else (i 1).val; rw [if_neg (by decide)])

def val_main_v117 : (⟨S100000x6, .f32⟩ : BufTy).Contents (Elt F) :=
  broadcastInDim S100000x6 ![0, 1] bcast_S1x6_S100000x6_0_1 (val_main_v116 (F := F) x12)
abbrev idx_main_v117 (i : S100000x6.Idx) : S1x6.Idx := fun a => match a with
  | ⟨0, _⟩ => ⟨0, Nat.one_pos⟩
  | ⟨1, _⟩ => ⟨(i 1).val, (i 1).isLt⟩
theorem val_main_v117_apply (i : S100000x6.Idx) :
    val_main_v117 (F := F) x12 i = val_main_v116 (F := F) x12 (idx_main_v117 i) := by
  unfold val_main_v117
  generalize val_main_v116 (F := F) x12 = y
  exact broadcastInDim_apply _ bcast_S1x6_S100000x6_0_1 y i (idx_main_v117 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v118 : (⟨S100000x6, .f32⟩ : BufTy).Contents (Elt F) :=
  addf (val_main_v115 (F := F) x0 x1 x3 x4 x5 x6 x7 x8 x9 x10 x11) (val_main_v117 (F := F) x12)

def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl

def val_main_call5_v0 : (⟨S100000x6, .f32⟩ : BufTy).Contents (Elt F) :=
  broadcastInDim S100000x6 ![] bcast_S_S100000x6 (val_main_call5_cst (F := F))
abbrev idx_main_call5_v0 (i : S100000x6.Idx) : S_.Idx := fun a => a.elim0
theorem val_main_call5_v0_apply (i : S100000x6.Idx) :
    val_main_call5_v0 (F := F) i = val_main_call5_cst (F := F) (idx_main_call5_v0 i) := by
  unfold val_main_call5_v0
  generalize val_main_call5_cst (F := F) = y
  exact broadcastInDim_apply _ bcast_S_S100000x6 y i (idx_main_call5_v0 i) (fun a => a.elim0)

def val_main_v119 : (⟨S100000x6, .f32⟩ : BufTy).Contents (Elt F) :=
  maximumf (val_main_v118 (F := F) x0 x1 x3 x4 x5 x6 x7 x8 x9 x10 x11 x12) (val_main_call5_v0 (F := F))

def val_main_v120 : (⟨S100000x6, .f32⟩ : BufTy).Contents (Elt F) :=
  Host.dotGeneral dot_S100000x6_S6x6_S100000x6_1_0_0_1_n_n none (val_main_v119 (F := F) x0 x1 x3 x4 x5 x6 x7 x8 x9 x10 x11 x12) (x13)
theorem lhs_main_v120_0 (i : S100000x6.Idx) (q : dot_S100000x6_S6x6_S100000x6_1_0_0_1_n_n.contr.Idx) :
    (dot_S100000x6_S6x6_S100000x6_1_0_0_1_n_n.lhsIdx i q 0).val = (i 0).val := by
  unfold DotDims.lhsIdx
  rw [dif_neg (show ¬(0 : Fin S100000x6.rank) ∈ dot_S100000x6_S6x6_S100000x6_1_0_0_1_n_n.lhsBatch by decide), dif_pos (show (0 : Fin S100000x6.rank) ∈ dot_S100000x6_S6x6_S100000x6_1_0_0_1_n_n.lhsNonContracting by decide)]
  rfl
theorem lhs_main_v120_1 (i : S100000x6.Idx) (q : dot_S100000x6_S6x6_S100000x6_1_0_0_1_n_n.contr.Idx) :
    (dot_S100000x6_S6x6_S100000x6_1_0_0_1_n_n.lhsIdx i q 1).val = (q ⟨0, by decide⟩).val :=
  dot_S100000x6_S6x6_S100000x6_1_0_0_1_n_n.lhsIdx_val_of_single rfl i q
theorem rhs_main_v120_0 (i : S100000x6.Idx) (q : dot_S100000x6_S6x6_S100000x6_1_0_0_1_n_n.contr.Idx) :
    (dot_S100000x6_S6x6_S100000x6_1_0_0_1_n_n.rhsIdx i q 0).val = (q ⟨0, by decide⟩).val :=
  dot_S100000x6_S6x6_S100000x6_1_0_0_1_n_n.rhsIdx_val_of_single rfl i q
theorem rhs_main_v120_1 (i : S100000x6.Idx) (q : dot_S100000x6_S6x6_S100000x6_1_0_0_1_n_n.contr.Idx) :
    (dot_S100000x6_S6x6_S100000x6_1_0_0_1_n_n.rhsIdx i q 1).val = (i 1).val := by
  unfold DotDims.rhsIdx
  rw [dif_neg (show ¬(1 : Fin S6x6.rank) ∈ dot_S100000x6_S6x6_S100000x6_1_0_0_1_n_n.rhsBatch by decide), dif_pos (show (1 : Fin S6x6.rank) ∈ dot_S100000x6_S6x6_S100000x6_1_0_0_1_n_n.rhsNonContracting by decide)]
  rfl
abbrev lidx_main_v120 (i : S100000x6.Idx) (k : Fin 6) : S100000x6.Idx := fun a => match a with
  | ⟨0, _⟩ => ⟨(i 0).val, (i 0).isLt⟩
  | ⟨1, _⟩ => ⟨k.val, k.isLt⟩
abbrev ridx_main_v120 (i : S100000x6.Idx) (k : Fin 6) : S6x6.Idx := fun a => match a with
  | ⟨0, _⟩ => ⟨k.val, k.isLt⟩
  | ⟨1, _⟩ => ⟨(i 1).val, (i 1).isLt⟩
theorem val_main_v120_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (i : S100000x6.Idx) :
    val_main_v120 (F := Ideal) x0 x1 x3 x4 x5 x6 x7 x8 x9 x10 x11 x12 x13 i = ∑ k : Fin 6, (val_main_v119 (F := Ideal) x0 x1 x3 x4 x5 x6 x7 x8 x9 x10 x11 x12) (lidx_main_v120 i k) * x13 (ridx_main_v120 i k) := by
  unfold val_main_v120
  generalize val_main_v119 (F := Ideal) x0 x1 x3 x4 x5 x6 x7 x8 x9 x10 x11 x12 = y0
  simp only [Host.dotGeneral]
  rw [Ideal.dotGeneral_apply, ← Equiv.sum_comp (ValueIdx.contrEquiv1 dot_S100000x6_S6x6_S100000x6_1_0_0_1_n_n 6 rfl rfl).symm]
  refine Finset.sum_congr rfl fun k _ => ?_
  have hk := ValueIdx.contrEquiv1_symm_val dot_S100000x6_S6x6_S100000x6_1_0_0_1_n_n 6 rfl rfl k
  have el : dot_S100000x6_S6x6_S100000x6_1_0_0_1_n_n.lhsIdx i ((ValueIdx.contrEquiv1 dot_S100000x6_S6x6_S100000x6_1_0_0_1_n_n 6 rfl rfl).symm k) = lidx_main_v120 i k := funext fun a => Fin.ext (by
    match a with
    | ⟨0, _⟩ => exact lhs_main_v120_0 _ _
    | ⟨1, _⟩ => exact (lhs_main_v120_1 _ _).trans hk)
  have er : dot_S100000x6_S6x6_S100000x6_1_0_0_1_n_n.rhsIdx i ((ValueIdx.contrEquiv1 dot_S100000x6_S6x6_S100000x6_1_0_0_1_n_n 6 rfl rfl).symm k) = ridx_main_v120 i k := funext fun a => Fin.ext (by
    match a with
    | ⟨0, _⟩ => exact (rhs_main_v120_0 _ _).trans hk
    | ⟨1, _⟩ => exact rhs_main_v120_1 _ _)
  rw [el, er]

def val_main_c_21 : (⟨S_, .i32⟩ : BufTy).Contents (Elt F) :=
  constantI S_ 32 0#32
theorem val_main_c_21_apply (i : S_.Idx) :
    val_main_c_21 (F := F) i = 0#32 := rfl

def val_main_v121 : (⟨S3300000, .i32⟩ : BufTy).Contents (Elt F) :=
  broadcastInDim S3300000 ![] bcast_S_S3300000 (val_main_c_21 (F := F))
abbrev idx_main_v121 (i : S3300000.Idx) : S_.Idx := fun a => a.elim0
theorem val_main_v121_apply (i : S3300000.Idx) :
    val_main_v121 (F := F) i = val_main_c_21 (F := F) (idx_main_v121 i) := by
  unfold val_main_v121
  generalize val_main_c_21 (F := F) = y
  exact broadcastInDim_apply _ bcast_S_S3300000 y i (idx_main_v121 i) (fun a => a.elim0)

def val_main_v122 : (⟨S3300000, .i1⟩ : BufTy).Contents (Elt F) :=
  cmpi .slt (val_main_v3 (F := F) x1) (val_main_v121 (F := F))

def val_main_c_22 : (⟨S_, .i32⟩ : BufTy).Contents (Elt F) :=
  constantI S_ 32 100000#32
theorem val_main_c_22_apply (i : S_.Idx) :
    val_main_c_22 (F := F) i = 100000#32 := rfl

def val_main_v123 : (⟨S3300000, .i32⟩ : BufTy).Contents (Elt F) :=
  broadcastInDim S3300000 ![] bcast_S_S3300000 (val_main_c_22 (F := F))
abbrev idx_main_v123 (i : S3300000.Idx) : S_.Idx := fun a => a.elim0
theorem val_main_v123_apply (i : S3300000.Idx) :
    val_main_v123 (F := F) i = val_main_c_22 (F := F) (idx_main_v123 i) := by
  unfold val_main_v123
  generalize val_main_c_22 (F := F) = y
  exact broadcastInDim_apply _ bcast_S_S3300000 y i (idx_main_v123 i) (fun a => a.elim0)

def val_main_v124 : (⟨S3300000, .i32⟩ : BufTy).Contents (Elt F) :=
  addi (val_main_v3 (F := F) x1) (val_main_v123 (F := F))

def val_main_v125 : (⟨S3300000, .i32⟩ : BufTy).Contents (Elt F) :=
  select (val_main_v122 (F := F) x1) (val_main_v124 (F := F) x1) (val_main_v3 (F := F) x1)

def val_main_v126 : (⟨S3300000x1, .i32⟩ : BufTy).Contents (Elt F) :=
  broadcastInDim S3300000x1 ![0] bcast_S3300000_S3300000x1_0 (val_main_v125 (F := F) x1)
abbrev idx_main_v126 (i : S3300000x1.Idx) : S3300000.Idx := fun a => match a with
  | ⟨0, _⟩ => ⟨(i 0).val, (i 0).isLt⟩
theorem val_main_v126_apply (i : S3300000x1.Idx) :
    val_main_v126 (F := F) x1 i = val_main_v125 (F := F) x1 (idx_main_v126 i) := by
  unfold val_main_v126
  generalize val_main_v125 (F := F) x1 = y
  exact broadcastInDim_apply _ bcast_S3300000_S3300000x1_0 y i (idx_main_v126 i) (fun a => match a with
    | ⟨0, _⟩ => by show (i 0).val = if (3300000 : Nat) = 1 then 0 else (i 0).val; rw [if_neg (by decide)])

def val_main_v127 : (⟨S3300000x6, .f32⟩ : BufTy).Contents (Elt F) :=
  Host.gather gather_S100000x6_S3300000x1_S3300000x6_1_0_n_n_0_1_16 (val_main_v120 (F := F) x0 x1 x3 x4 x5 x6 x7 x8 x9 x10 x11 x12 x13) (val_main_v126 (F := F) x1)

def val_main_v128 : (⟨S3300000x1, .f32⟩ : BufTy).Contents (Elt F) :=
  broadcastInDim S3300000x1 ![0] bcast_S3300000_S3300000x1_0 (val_main_v29 (F := F) x1)
abbrev idx_main_v128 (i : S3300000x1.Idx) : S3300000.Idx := fun a => match a with
  | ⟨0, _⟩ => ⟨(i 0).val, (i 0).isLt⟩
theorem val_main_v128_apply (i : S3300000x1.Idx) :
    val_main_v128 (F := F) x1 i = val_main_v29 (F := F) x1 (idx_main_v128 i) := by
  unfold val_main_v128
  generalize val_main_v29 (F := F) x1 = y
  exact broadcastInDim_apply _ bcast_S3300000_S3300000x1_0 y i (idx_main_v128 i) (fun a => match a with
    | ⟨0, _⟩ => by show (i 0).val = if (3300000 : Nat) = 1 then 0 else (i 0).val; rw [if_neg (by decide)])

def val_main_v129 : (⟨S3300000x6, .f32⟩ : BufTy).Contents (Elt F) :=
  broadcastInDim S3300000x6 ![0, 1] bcast_S3300000x1_S3300000x6_0_1 (val_main_v128 (F := F) x1)
abbrev idx_main_v129 (i : S3300000x6.Idx) : S3300000x1.Idx := fun a => match a with
  | ⟨0, _⟩ => ⟨(i 0).val, (i 0).isLt⟩
  | ⟨1, _⟩ => ⟨0, Nat.one_pos⟩
theorem val_main_v129_apply (i : S3300000x6.Idx) :
    val_main_v129 (F := F) x1 i = val_main_v128 (F := F) x1 (idx_main_v129 i) := by
  unfold val_main_v129
  generalize val_main_v128 (F := F) x1 = y
  exact broadcastInDim_apply _ bcast_S3300000x1_S3300000x6_0_1 y i (idx_main_v129 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v130 : (⟨S3300000x6, .f32⟩ : BufTy).Contents (Elt F) :=
  mulf (val_main_v127 (F := F) x0 x1 x3 x4 x5 x6 x7 x8 x9 x10 x11 x12 x13) (val_main_v129 (F := F) x1)

def val_main_cst_23 : (⟨S_, .f32⟩ : BufTy).Contents (Elt F) :=
  constant S_ .f32 0x00000000#32
theorem val_main_cst_23_apply (i : S_.Idx) :
    val_main_cst_23 (F := F) i = FloatOps.ofBits .f32 0x00000000#32 := rfl

def val_main_v131 : (⟨S100000x6, .f32⟩ : BufTy).Contents (Elt F) :=
  broadcastInDim S100000x6 ![] bcast_S_S100000x6 (val_main_cst_23 (F := F))
abbrev idx_main_v131 (i : S100000x6.Idx) : S_.Idx := fun a => a.elim0
theorem val_main_v131_apply (i : S100000x6.Idx) :
    val_main_v131 (F := F) i = val_main_cst_23 (F := F) (idx_main_v131 i) := by
  unfold val_main_v131
  generalize val_main_cst_23 (F := F) = y
  exact broadcastInDim_apply _ bcast_S_S100000x6 y i (idx_main_v131 i) (fun a => a.elim0)

def val_main_v132 : (⟨S3300000x1, .i32⟩ : BufTy).Contents (Elt F) :=
  broadcastInDim S3300000x1 ![0] bcast_S3300000_S3300000x1_0 (val_main_v6 (F := F) x1)
abbrev idx_main_v132 (i : S3300000x1.Idx) : S3300000.Idx := fun a => match a with
  | ⟨0, _⟩ => ⟨(i 0).val, (i 0).isLt⟩
theorem val_main_v132_apply (i : S3300000x1.Idx) :
    val_main_v132 (F := F) x1 i = val_main_v6 (F := F) x1 (idx_main_v132 i) := by
  unfold val_main_v132
  generalize val_main_v6 (F := F) x1 = y
  exact broadcastInDim_apply _ bcast_S3300000_S3300000x1_0 y i (idx_main_v132 i) (fun a => match a with
    | ⟨0, _⟩ => by show (i 0).val = if (3300000 : Nat) = 1 then 0 else (i 0).val; rw [if_neg (by decide)])

def val_main_v133 : (⟨S100000x6, .f32⟩ : BufTy).Contents (Elt F) :=
  Host.scatterAdd scatter_S100000x6_S3300000x1_S3300000x6_1_0_0_1 (val_main_v131 (F := F)) (val_main_v132 (F := F) x1) (val_main_v130 (F := F) x0 x1 x3 x4 x5 x6 x7 x8 x9 x10 x11 x12 x13)

def val_main_v134 : (⟨S1x6, .f32⟩ : BufTy).Contents (Elt F) :=
  broadcastInDim S1x6 ![1] bcast_S6_S1x6_1 (x14)
abbrev idx_main_v134 (i : S1x6.Idx) : S6.Idx := fun a => match a with
  | ⟨0, _⟩ => ⟨(i 1).val, (i 1).isLt⟩
theorem val_main_v134_apply (i : S1x6.Idx) :
    val_main_v134 (F := F) x14 i = x14 (idx_main_v134 i) := by
  unfold val_main_v134
  exact broadcastInDim_apply _ bcast_S6_S1x6_1 x14 i (idx_main_v134 i) (fun a => match a with
    | ⟨0, _⟩ => by show (i 1).val = if (6 : Nat) = 1 then 0 else (i 1).val; rw [if_neg (by decide)])

def val_main_v135 : (⟨S100000x6, .f32⟩ : BufTy).Contents (Elt F) :=
  broadcastInDim S100000x6 ![0, 1] bcast_S1x6_S100000x6_0_1 (val_main_v134 (F := F) x14)
abbrev idx_main_v135 (i : S100000x6.Idx) : S1x6.Idx := fun a => match a with
  | ⟨0, _⟩ => ⟨0, Nat.one_pos⟩
  | ⟨1, _⟩ => ⟨(i 1).val, (i 1).isLt⟩
theorem val_main_v135_apply (i : S100000x6.Idx) :
    val_main_v135 (F := F) x14 i = val_main_v134 (F := F) x14 (idx_main_v135 i) := by
  unfold val_main_v135
  generalize val_main_v134 (F := F) x14 = y
  exact broadcastInDim_apply _ bcast_S1x6_S100000x6_0_1 y i (idx_main_v135 i) (fun a => match a with
    | ⟨0, _⟩ => by show 0 = if (1 : Nat) = 1 then 0 else (i 0).val; rw [if_pos rfl]
    | ⟨1, _⟩ => by show (i 1).val = if (6 : Nat) = 1 then 0 else (i 1).val; rw [if_neg (by decide)])

def val_main_v136 : (⟨S100000x6, .f32⟩ : BufTy).Contents (Elt F) :=
  addf (val_main_v133 (F := F) x0 x1 x3 x4 x5 x6 x7 x8 x9 x10 x11 x12 x13) (val_main_v135 (F := F) x14)

def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl

def val_main_call6_v0 : (⟨S100000x6, .f32⟩ : BufTy).Contents (Elt F) :=
  broadcastInDim S100000x6 ![] bcast_S_S100000x6 (val_main_call6_cst (F := F))
abbrev idx_main_call6_v0 (i : S100000x6.Idx) : S_.Idx := fun a => a.elim0
theorem val_main_call6_v0_apply (i : S100000x6.Idx) :
    val_main_call6_v0 (F := F) i = val_main_call6_cst (F := F) (idx_main_call6_v0 i) := by
  unfold val_main_call6_v0
  generalize val_main_call6_cst (F := F) = y
  exact broadcastInDim_apply _ bcast_S_S100000x6 y i (idx_main_call6_v0 i) (fun a => a.elim0)

def val_main_v137 : (⟨S100000x6, .f32⟩ : BufTy).Contents (Elt F) :=
  maximumf (val_main_v136 (F := F) x0 x1 x3 x4 x5 x6 x7 x8 x9 x10 x11 x12 x13 x14) (val_main_call6_v0 (F := F))

def val_main_v138 : (⟨S100000x10, .f32⟩ : BufTy).Contents (Elt F) :=
  Host.dotGeneral dot_S100000x6_S6x10_S100000x10_1_0_0_1_n_n none (val_main_v137 (F := F) x0 x1 x3 x4 x5 x6 x7 x8 x9 x10 x11 x12 x13 x14) (x15)
theorem lhs_main_v138_0 (i : S100000x10.Idx) (q : dot_S100000x6_S6x10_S100000x10_1_0_0_1_n_n.contr.Idx) :
    (dot_S100000x6_S6x10_S100000x10_1_0_0_1_n_n.lhsIdx i q 0).val = (i 0).val := by
  unfold DotDims.lhsIdx
  rw [dif_neg (show ¬(0 : Fin S100000x6.rank) ∈ dot_S100000x6_S6x10_S100000x10_1_0_0_1_n_n.lhsBatch by decide), dif_pos (show (0 : Fin S100000x6.rank) ∈ dot_S100000x6_S6x10_S100000x10_1_0_0_1_n_n.lhsNonContracting by decide)]
  rfl
theorem lhs_main_v138_1 (i : S100000x10.Idx) (q : dot_S100000x6_S6x10_S100000x10_1_0_0_1_n_n.contr.Idx) :
    (dot_S100000x6_S6x10_S100000x10_1_0_0_1_n_n.lhsIdx i q 1).val = (q ⟨0, by decide⟩).val :=
  dot_S100000x6_S6x10_S100000x10_1_0_0_1_n_n.lhsIdx_val_of_single rfl i q
theorem rhs_main_v138_0 (i : S100000x10.Idx) (q : dot_S100000x6_S6x10_S100000x10_1_0_0_1_n_n.contr.Idx) :
    (dot_S100000x6_S6x10_S100000x10_1_0_0_1_n_n.rhsIdx i q 0).val = (q ⟨0, by decide⟩).val :=
  dot_S100000x6_S6x10_S100000x10_1_0_0_1_n_n.rhsIdx_val_of_single rfl i q
theorem rhs_main_v138_1 (i : S100000x10.Idx) (q : dot_S100000x6_S6x10_S100000x10_1_0_0_1_n_n.contr.Idx) :
    (dot_S100000x6_S6x10_S100000x10_1_0_0_1_n_n.rhsIdx i q 1).val = (i 1).val := by
  unfold DotDims.rhsIdx
  rw [dif_neg (show ¬(1 : Fin S6x10.rank) ∈ dot_S100000x6_S6x10_S100000x10_1_0_0_1_n_n.rhsBatch by decide), dif_pos (show (1 : Fin S6x10.rank) ∈ dot_S100000x6_S6x10_S100000x10_1_0_0_1_n_n.rhsNonContracting by decide)]
  rfl
abbrev lidx_main_v138 (i : S100000x10.Idx) (k : Fin 6) : S100000x6.Idx := fun a => match a with
  | ⟨0, _⟩ => ⟨(i 0).val, (i 0).isLt⟩
  | ⟨1, _⟩ => ⟨k.val, k.isLt⟩
abbrev ridx_main_v138 (i : S100000x10.Idx) (k : Fin 6) : S6x10.Idx := fun a => match a with
  | ⟨0, _⟩ => ⟨k.val, k.isLt⟩
  | ⟨1, _⟩ => ⟨(i 1).val, (i 1).isLt⟩
theorem val_main_v138_apply (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (i : S100000x10.Idx) :
    val_main_v138 (F := Ideal) x0 x1 x3 x4 x5 x6 x7 x8 x9 x10 x11 x12 x13 x14 x15 i = ∑ k : Fin 6, (val_main_v137 (F := Ideal) x0 x1 x3 x4 x5 x6 x7 x8 x9 x10 x11 x12 x13 x14) (lidx_main_v138 i k) * x15 (ridx_main_v138 i k) := by
  unfold val_main_v138
  generalize val_main_v137 (F := Ideal) x0 x1 x3 x4 x5 x6 x7 x8 x9 x10 x11 x12 x13 x14 = y0
  simp only [Host.dotGeneral]
  rw [Ideal.dotGeneral_apply, ← Equiv.sum_comp (ValueIdx.contrEquiv1 dot_S100000x6_S6x10_S100000x10_1_0_0_1_n_n 6 rfl rfl).symm]
  refine Finset.sum_congr rfl fun k _ => ?_
  have hk := ValueIdx.contrEquiv1_symm_val dot_S100000x6_S6x10_S100000x10_1_0_0_1_n_n 6 rfl rfl k
  have el : dot_S100000x6_S6x10_S100000x10_1_0_0_1_n_n.lhsIdx i ((ValueIdx.contrEquiv1 dot_S100000x6_S6x10_S100000x10_1_0_0_1_n_n 6 rfl rfl).symm k) = lidx_main_v138 i k := funext fun a => Fin.ext (by
    match a with
    | ⟨0, _⟩ => exact lhs_main_v138_0 _ _
    | ⟨1, _⟩ => exact (lhs_main_v138_1 _ _).trans hk)
  have er : dot_S100000x6_S6x10_S100000x10_1_0_0_1_n_n.rhsIdx i ((ValueIdx.contrEquiv1 dot_S100000x6_S6x10_S100000x10_1_0_0_1_n_n 6 rfl rfl).symm k) = ridx_main_v138 i k := funext fun a => Fin.ext (by
    match a with
    | ⟨0, _⟩ => exact (rhs_main_v138_0 _ _).trans hk
    | ⟨1, _⟩ => exact rhs_main_v138_1 _ _)
  rw [el, er]

def val_main_c_24 : (⟨S_, .i32⟩ : BufTy).Contents (Elt F) :=
  constantI S_ 32 0#32
theorem val_main_c_24_apply (i : S_.Idx) :
    val_main_c_24 (F := F) i = 0#32 := rfl

def val_main_v139 : (⟨S3300000, .i32⟩ : BufTy).Contents (Elt F) :=
  broadcastInDim S3300000 ![] bcast_S_S3300000 (val_main_c_24 (F := F))
abbrev idx_main_v139 (i : S3300000.Idx) : S_.Idx := fun a => a.elim0
theorem val_main_v139_apply (i : S3300000.Idx) :
    val_main_v139 (F := F) i = val_main_c_24 (F := F) (idx_main_v139 i) := by
  unfold val_main_v139
  generalize val_main_c_24 (F := F) = y
  exact broadcastInDim_apply _ bcast_S_S3300000 y i (idx_main_v139 i) (fun a => a.elim0)

def val_main_v140 : (⟨S3300000, .i1⟩ : BufTy).Contents (Elt F) :=
  cmpi .slt (val_main_v3 (F := F) x1) (val_main_v139 (F := F))

def val_main_c_25 : (⟨S_, .i32⟩ : BufTy).Contents (Elt F) :=
  constantI S_ 32 100000#32
theorem val_main_c_25_apply (i : S_.Idx) :
    val_main_c_25 (F := F) i = 100000#32 := rfl

def val_main_v141 : (⟨S3300000, .i32⟩ : BufTy).Contents (Elt F) :=
  broadcastInDim S3300000 ![] bcast_S_S3300000 (val_main_c_25 (F := F))
abbrev idx_main_v141 (i : S3300000.Idx) : S_.Idx := fun a => a.elim0
theorem val_main_v141_apply (i : S3300000.Idx) :
    val_main_v141 (F := F) i = val_main_c_25 (F := F) (idx_main_v141 i) := by
  unfold val_main_v141
  generalize val_main_c_25 (F := F) = y
  exact broadcastInDim_apply _ bcast_S_S3300000 y i (idx_main_v141 i) (fun a => a.elim0)

def val_main_v142 : (⟨S3300000, .i32⟩ : BufTy).Contents (Elt F) :=
  addi (val_main_v3 (F := F) x1) (val_main_v141 (F := F))

def val_main_v143 : (⟨S3300000, .i32⟩ : BufTy).Contents (Elt F) :=
  select (val_main_v140 (F := F) x1) (val_main_v142 (F := F) x1) (val_main_v3 (F := F) x1)

def val_main_v144 : (⟨S3300000x1, .i32⟩ : BufTy).Contents (Elt F) :=
  broadcastInDim S3300000x1 ![0] bcast_S3300000_S3300000x1_0 (val_main_v143 (F := F) x1)
abbrev idx_main_v144 (i : S3300000x1.Idx) : S3300000.Idx := fun a => match a with
  | ⟨0, _⟩ => ⟨(i 0).val, (i 0).isLt⟩
theorem val_main_v144_apply (i : S3300000x1.Idx) :
    val_main_v144 (F := F) x1 i = val_main_v143 (F := F) x1 (idx_main_v144 i) := by
  unfold val_main_v144
  generalize val_main_v143 (F := F) x1 = y
  exact broadcastInDim_apply _ bcast_S3300000_S3300000x1_0 y i (idx_main_v144 i) (fun a => match a with
    | ⟨0, _⟩ => by show (i 0).val = if (3300000 : Nat) = 1 then 0 else (i 0).val; rw [if_neg (by decide)])

def val_main_v145 : (⟨S3300000x10, .f32⟩ : BufTy).Contents (Elt F) :=
  Host.gather gather_S100000x10_S3300000x1_S3300000x10_1_0_n_n_0_1_110 (val_main_v138 (F := F) x0 x1 x3 x4 x5 x6 x7 x8 x9 x10 x11 x12 x13 x14 x15) (val_main_v144 (F := F) x1)

def val_main_v146 : (⟨S3300000x1, .f32⟩ : BufTy).Contents (Elt F) :=
  broadcastInDim S3300000x1 ![0] bcast_S3300000_S3300000x1_0 (val_main_v29 (F := F) x1)
abbrev idx_main_v146 (i : S3300000x1.Idx) : S3300000.Idx := fun a => match a with
  | ⟨0, _⟩ => ⟨(i 0).val, (i 0).isLt⟩
theorem val_main_v146_apply (i : S3300000x1.Idx) :
    val_main_v146 (F := F) x1 i = val_main_v29 (F := F) x1 (idx_main_v146 i) := by
  unfold val_main_v146
  generalize val_main_v29 (F := F) x1 = y
  exact broadcastInDim_apply _ bcast_S3300000_S3300000x1_0 y i (idx_main_v146 i) (fun a => match a with
    | ⟨0, _⟩ => by show (i 0).val = if (3300000 : Nat) = 1 then 0 else (i 0).val; rw [if_neg (by decide)])

def val_main_v147 : (⟨S3300000x10, .f32⟩ : BufTy).Contents (Elt F) :=
  broadcastInDim S3300000x10 ![0, 1] bcast_S3300000x1_S3300000x10_0_1 (val_main_v146 (F := F) x1)
abbrev idx_main_v147 (i : S3300000x10.Idx) : S3300000x1.Idx := fun a => match a with
  | ⟨0, _⟩ => ⟨(i 0).val, (i 0).isLt⟩
  | ⟨1, _⟩ => ⟨0, Nat.one_pos⟩
theorem val_main_v147_apply (i : S3300000x10.Idx) :
    val_main_v147 (F := F) x1 i = val_main_v146 (F := F) x1 (idx_main_v147 i) := by
  unfold val_main_v147
  generalize val_main_v146 (F := F) x1 = y
  exact broadcastInDim_apply _ bcast_S3300000x1_S3300000x10_0_1 y i (idx_main_v147 i) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

def val_main_v148 : (⟨S3300000x10, .f32⟩ : BufTy).Contents (Elt F) :=
  mulf (val_main_v145 (F := F) x0 x1 x3 x4 x5 x6 x7 x8 x9 x10 x11 x12 x13 x14 x15) (val_main_v147 (F := F) x1)

def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl

def val_main_v149 : (⟨S100000x10, .f32⟩ : BufTy).Contents (Elt F) :=
  broadcastInDim S100000x10 ![] bcast_S_S100000x10 (val_main_cst_26 (F := F))
abbrev idx_main_v149 (i : S100000x10.Idx) : S_.Idx := fun a => a.elim0
theorem val_main_v149_apply (i : S100000x10.Idx) :
    val_main_v149 (F := F) i = val_main_cst_26 (F := F) (idx_main_v149 i) := by
  unfold val_main_v149
  generalize val_main_cst_26 (F := F) = y
  exact broadcastInDim_apply _ bcast_S_S100000x10 y i (idx_main_v149 i) (fun a => a.elim0)

def val_main_v150 : (⟨S3300000x1, .i32⟩ : BufTy).Contents (Elt F) :=
  broadcastInDim S3300000x1 ![0] bcast_S3300000_S3300000x1_0 (val_main_v6 (F := F) x1)
abbrev idx_main_v150 (i : S3300000x1.Idx) : S3300000.Idx := fun a => match a with
  | ⟨0, _⟩ => ⟨(i 0).val, (i 0).isLt⟩
theorem val_main_v150_apply (i : S3300000x1.Idx) :
    val_main_v150 (F := F) x1 i = val_main_v6 (F := F) x1 (idx_main_v150 i) := by
  unfold val_main_v150
  generalize val_main_v6 (F := F) x1 = y
  exact broadcastInDim_apply _ bcast_S3300000_S3300000x1_0 y i (idx_main_v150 i) (fun a => match a with
    | ⟨0, _⟩ => by show (i 0).val = if (3300000 : Nat) = 1 then 0 else (i 0).val; rw [if_neg (by decide)])

def val_main_v151 : (⟨S100000x10, .f32⟩ : BufTy).Contents (Elt F) :=
  Host.scatterAdd scatter_S100000x10_S3300000x1_S3300000x10_1_0_0_1 (val_main_v149 (F := F)) (val_main_v150 (F := F) x1) (val_main_v148 (F := F) x0 x1 x3 x4 x5 x6 x7 x8 x9 x10 x11 x12 x13 x14 x15)

def val_main_v152 : (⟨S1x10, .f32⟩ : BufTy).Contents (Elt F) :=
  broadcastInDim S1x10 ![1] bcast_S10_S1x10_1 (x16)
abbrev idx_main_v152 (i : S1x10.Idx) : S10.Idx := fun a => match a with
  | ⟨0, _⟩ => ⟨(i 1).val, (i 1).isLt⟩
theorem val_main_v152_apply (i : S1x10.Idx) :
    val_main_v152 (F := F) x16 i = x16 (idx_main_v152 i) := by
  unfold val_main_v152
  exact broadcastInDim_apply _ bcast_S10_S1x10_1 x16 i (idx_main_v152 i) (fun a => match a with
    | ⟨0, _⟩ => by show (i 1).val = if (10 : Nat) = 1 then 0 else (i 1).val; rw [if_neg (by decide)])

def val_main_v153 : (⟨S100000x10, .f32⟩ : BufTy).Contents (Elt F) :=
  broadcastInDim S100000x10 ![0, 1] bcast_S1x10_S100000x10_0_1 (val_main_v152 (F := F) x16)
abbrev idx_main_v153 (i : S100000x10.Idx) : S1x10.Idx := fun a => match a with
  | ⟨0, _⟩ => ⟨0, Nat.one_pos⟩
  | ⟨1, _⟩ => ⟨(i 1).val, (i 1).isLt⟩
theorem val_main_v153_apply (i : S100000x10.Idx) :
    val_main_v153 (F := F) x16 i = val_main_v152 (F := F) x16 (idx_main_v153 i) := by
  unfold val_main_v153
  generalize val_main_v152 (F := F) x16 = y
  exact broadcastInDim_apply _ bcast_S1x10_S100000x10_0_1 y i (idx_main_v153 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

def val_main_v154 : (⟨S100000x10, .f32⟩ : BufTy).Contents (Elt F) :=
  addf (val_main_v151 (F := F) x0 x1 x3 x4 x5 x6 x7 x8 x9 x10 x11 x12 x13 x14 x15) (val_main_v153 (F := F) x16)

def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl

def val_main_call7_v0 : (⟨S100000x10, .f32⟩ : BufTy).Contents (Elt F) :=
  broadcastInDim S100000x10 ![] bcast_S_S100000x10 (val_main_call7_cst (F := F))
abbrev idx_main_call7_v0 (i : S100000x10.Idx) : S_.Idx := fun a => a.elim0
theorem val_main_call7_v0_apply (i : S100000x10.Idx) :
    val_main_call7_v0 (F := F) i = val_main_call7_cst (F := F) (idx_main_call7_v0 i) := by
  unfold val_main_call7_v0
  generalize val_main_call7_cst (F := F) = y
  exact broadcastInDim_apply _ bcast_S_S100000x10 y i (idx_main_call7_v0 i) (fun a => a.elim0)

def val_main_v155 : (⟨S100000x10, .f32⟩ : BufTy).Contents (Elt F) :=
  maximumf (val_main_v154 (F := F) x0 x1 x3 x4 x5 x6 x7 x8 x9 x10 x11 x12 x13 x14 x15 x16) (val_main_call7_v0 (F := F))

def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl

def val_main_v156 : (⟨S64x10, .f32⟩ : BufTy).Contents (Elt F) :=
  broadcastInDim S64x10 ![] bcast_S_S64x10 (val_main_cst_27 (F := F))
abbrev idx_main_v156 (i : S64x10.Idx) : S_.Idx := fun a => a.elim0
theorem val_main_v156_apply (i : S64x10.Idx) :
    val_main_v156 (F := F) i = val_main_cst_27 (F := F) (idx_main_v156 i) := by
  unfold val_main_v156
  generalize val_main_cst_27 (F := F) = y
  exact broadcastInDim_apply _ bcast_S_S64x10 y i (idx_main_v156 i) (fun a => a.elim0)

def val_main_v157 : (⟨S100000x1, .i32⟩ : BufTy).Contents (Elt F) :=
  broadcastInDim S100000x1 ![0] bcast_S100000_S100000x1_0 (x2)
abbrev idx_main_v157 (i : S100000x1.Idx) : S100000.Idx := fun a => match a with
  | ⟨0, _⟩ => ⟨(i 0).val, (i 0).isLt⟩
theorem val_main_v157_apply (i : S100000x1.Idx) :
    val_main_v157 (F := F) x2 i = x2 (idx_main_v157 i) := by
  unfold val_main_v157
  exact broadcastInDim_apply _ bcast_S100000_S100000x1_0 x2 i (idx_main_v157 i) (fun a => match a with
    | ⟨0, _⟩ => by show (i 0).val = if (100000 : Nat) = 1 then 0 else (i 0).val; rw [if_neg (by decide)])

def val_main_v158 : (⟨S64x10, .f32⟩ : BufTy).Contents (Elt F) :=
  Host.scatterAdd scatter_S64x10_S100000x1_S100000x10_1_0_0_1 (val_main_v156 (F := F)) (val_main_v157 (F := F) x2) (val_main_v155 (F := F) x0 x1 x3 x4 x5 x6 x7 x8 x9 x10 x11 x12 x13 x14 x15 x16)

def val_main_cst_28 : (⟨S_, .f32⟩ : BufTy).Contents (Elt F) :=
  constant S_ .f32 0x3F800000#32
theorem val_main_cst_28_apply (i : S_.Idx) :
    val_main_cst_28 (F := F) i = FloatOps.ofBits .f32 0x3F800000#32 := rfl

def val_main_v159 : (⟨S100000, .f32⟩ : BufTy).Contents (Elt F) :=
  broadcastInDim S100000 ![] bcast_S_S100000 (val_main_cst_28 (F := F))
abbrev idx_main_v159 (i : S100000.Idx) : S_.Idx := fun a => a.elim0
theorem val_main_v159_apply (i : S100000.Idx) :
    val_main_v159 (F := F) i = val_main_cst_28 (F := F) (idx_main_v159 i) := by
  unfold val_main_v159
  generalize val_main_cst_28 (F := F) = y
  exact broadcastInDim_apply _ bcast_S_S100000 y i (idx_main_v159 i) (fun a => a.elim0)

def val_main_cst_29 : (⟨S_, .f32⟩ : BufTy).Contents (Elt F) :=
  constant S_ .f32 0x00000000#32
theorem val_main_cst_29_apply (i : S_.Idx) :
    val_main_cst_29 (F := F) i = FloatOps.ofBits .f32 0x00000000#32 := rfl

def val_main_v160 : (⟨S64, .f32⟩ : BufTy).Contents (Elt F) :=
  broadcastInDim S64 ![] bcast_S_S64 (val_main_cst_29 (F := F))
abbrev idx_main_v160 (i : S64.Idx) : S_.Idx := fun a => a.elim0
theorem val_main_v160_apply (i : S64.Idx) :
    val_main_v160 (F := F) i = val_main_cst_29 (F := F) (idx_main_v160 i) := by
  unfold val_main_v160
  generalize val_main_cst_29 (F := F) = y
  exact broadcastInDim_apply _ bcast_S_S64 y i (idx_main_v160 i) (fun a => a.elim0)

def val_main_v161 : (⟨S100000x1, .i32⟩ : BufTy).Contents (Elt F) :=
  broadcastInDim S100000x1 ![0] bcast_S100000_S100000x1_0 (x2)
abbrev idx_main_v161 (i : S100000x1.Idx) : S100000.Idx := fun a => match a with
  | ⟨0, _⟩ => ⟨(i 0).val, (i 0).isLt⟩
theorem val_main_v161_apply (i : S100000x1.Idx) :
    val_main_v161 (F := F) x2 i = x2 (idx_main_v161 i) := by
  unfold val_main_v161
  exact broadcastInDim_apply _ bcast_S100000_S100000x1_0 x2 i (idx_main_v161 i) (fun a => match a with
    | ⟨0, _⟩ => by show (i 0).val = if (100000 : Nat) = 1 then 0 else (i 0).val; rw [if_neg (by decide)])

def val_main_v162 : (⟨S64, .f32⟩ : BufTy).Contents (Elt F) :=
  Host.scatterAdd scatter_S64_S100000x1_S100000_n_0_0_1 (val_main_v160 (F := F)) (val_main_v161 (F := F) x2) (val_main_v159 (F := F))

def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl

def val_main_v163 : (⟨S64, .f32⟩ : BufTy).Contents (Elt F) :=
  broadcastInDim S64 ![] bcast_S_S64 (val_main_cst_30 (F := F))
abbrev idx_main_v163 (i : S64.Idx) : S_.Idx := fun a => a.elim0
theorem val_main_v163_apply (i : S64.Idx) :
    val_main_v163 (F := F) i = val_main_cst_30 (F := F) (idx_main_v163 i) := by
  unfold val_main_v163
  generalize val_main_cst_30 (F := F) = y
  exact broadcastInDim_apply _ bcast_S_S64 y i (idx_main_v163 i) (fun a => a.elim0)

def val_main_v164 : (⟨S64, .f32⟩ : BufTy).Contents (Elt F) :=
  maximumf (val_main_v162 (F := F) x2) (val_main_v163 (F := F))
theorem val_main_v164_apply (i : S64.Idx) :
    val_main_v164 (F := F) x2 i = FloatOps.maximumf (val_main_v162 (F := F) x2 i) (val_main_v163 (F := F) i) := rfl

def val_main_v165 : (⟨S64x1, .f32⟩ : BufTy).Contents (Elt F) :=
  broadcastInDim S64x1 ![0] bcast_S64_S64x1_0 (val_main_v164 (F := F) x2)
abbrev idx_main_v165 (i : S64x1.Idx) : S64.Idx := fun a => match a with
  | ⟨0, _⟩ => ⟨(i 0).val, (i 0).isLt⟩
theorem val_main_v165_apply (i : S64x1.Idx) :
    val_main_v165 (F := F) x2 i = val_main_v164 (F := F) x2 (idx_main_v165 i) := by
  unfold val_main_v165
  generalize val_main_v164 (F := F) x2 = y
  exact broadcastInDim_apply _ bcast_S64_S64x1_0 y i (idx_main_v165 i) (fun a => match a with
    | ⟨0, _⟩ => by show (i 0).val = if (64 : Nat) = 1 then 0 else (i 0).val; rw [if_neg (by decide)])

def val_main_v166 : (⟨S64x10, .f32⟩ : BufTy).Contents (Elt F) :=
  broadcastInDim S64x10 ![0, 1] bcast_S64x1_S64x10_0_1 (val_main_v165 (F := F) x2)
abbrev idx_main_v166 (i : S64x10.Idx) : S64x1.Idx := fun a => match a with
  | ⟨0, _⟩ => ⟨(i 0).val, (i 0).isLt⟩
  | ⟨1, _⟩ => ⟨0, Nat.one_pos⟩
theorem val_main_v166_apply (i : S64x10.Idx) :
    val_main_v166 (F := F) x2 i = val_main_v165 (F := F) x2 (idx_main_v166 i) := by
  unfold val_main_v166
  generalize val_main_v165 (F := F) x2 = y
  exact broadcastInDim_apply _ bcast_S64x1_S64x10_0_1 y i (idx_main_v166 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v167 : (⟨S64x10, .f32⟩ : BufTy).Contents (Elt F) :=
  Host.divf (val_main_v158 (F := F) x0 x1 x2 x3 x4 x5 x6 x7 x8 x9 x10 x11 x12 x13 x14 x15 x16) (val_main_v166 (F := F) x2)

def val_main_call8_cst : (⟨S_, .f32⟩ : BufTy).Contents (Elt F) :=
  constant S_ .f32 0xFF800000#32
theorem val_main_call8_cst_apply (i : S_.Idx) :
    val_main_call8_cst (F := F) i = FloatOps.ofBits .f32 0xFF800000#32 := rfl

def val_main_call8_v0 : (⟨S64, .f32⟩ : BufTy).Contents (Elt F) :=
  Host.reduce FloatOps.maximumf (val_main_v167 (F := F) x0 x1 x2 x3 x4 x5 x6 x7 x8 x9 x10 x11 x12 x13 x14 x15 x16) (val_main_call8_cst (F := F)) reducesTo_S64x10_S64_d1 h_S_

def val_main_call8_cst_0 : (⟨S_, .f32⟩ : BufTy).Contents (Elt F) :=
  constant S_ .f32 0xFF800000#32
theorem val_main_call8_cst_0_apply (i : S_.Idx) :
    val_main_call8_cst_0 (F := F) i = FloatOps.ofBits .f32 0xFF800000#32 := rfl

def val_main_call8_v1 : (⟨S64, .f32⟩ : BufTy).Contents (Elt F) :=
  broadcastInDim S64 ![] bcast_S_S64 (val_main_call8_cst_0 (F := F))
abbrev idx_main_call8_v1 (i : S64.Idx) : S_.Idx := fun a => a.elim0
theorem val_main_call8_v1_apply (i : S64.Idx) :
    val_main_call8_v1 (F := F) i = val_main_call8_cst_0 (F := F) (idx_main_call8_v1 i) := by
  unfold val_main_call8_v1
  generalize val_main_call8_cst_0 (F := F) = y
  exact broadcastInDim_apply _ bcast_S_S64 y i (idx_main_call8_v1 i) (fun a => a.elim0)

def val_main_call8_v2 : (⟨S64, .f32⟩ : BufTy).Contents (Elt F) :=
  maximumf (val_main_call8_v1 (F := F)) (val_main_call8_v0 (F := F) x0 x1 x2 x3 x4 x5 x6 x7 x8 x9 x10 x11 x12 x13 x14 x15 x16)
theorem val_main_call8_v2_apply (i : S64.Idx) :
    val_main_call8_v2 (F := F) x0 x1 x2 x3 x4 x5 x6 x7 x8 x9 x10 x11 x12 x13 x14 x15 x16 i = FloatOps.maximumf (val_main_call8_v1 (F := F) i) (val_main_call8_v0 (F := F) x0 x1 x2 x3 x4 x5 x6 x7 x8 x9 x10 x11 x12 x13 x14 x15 x16 i) := rfl

def val_main_call8_v3 : (⟨S64x1, .f32⟩ : BufTy).Contents (Elt F) :=
  broadcastInDim S64x1 ![0] bcast_S64_S64x1_0 (val_main_call8_v2 (F := F) x0 x1 x2 x3 x4 x5 x6 x7 x8 x9 x10 x11 x12 x13 x14 x15 x16)
abbrev idx_main_call8_v3 (i : S64x1.Idx) : S64.Idx := fun a => match a with
  | ⟨0, _⟩ => ⟨(i 0).val, (i 0).isLt⟩
theorem val_main_call8_v3_apply (i : S64x1.Idx) :
    val_main_call8_v3 (F := F) x0 x1 x2 x3 x4 x5 x6 x7 x8 x9 x10 x11 x12 x13 x14 x15 x16 i = val_main_call8_v2 (F := F) x0 x1 x2 x3 x4 x5 x6 x7 x8 x9 x10 x11 x12 x13 x14 x15 x16 (idx_main_call8_v3 i) := by
  unfold val_main_call8_v3
  generalize val_main_call8_v2 (F := F) x0 x1 x2 x3 x4 x5 x6 x7 x8 x9 x10 x11 x12 x13 x14 x15 x16 = y
  exact broadcastInDim_apply _ bcast_S64_S64x1_0 y i (idx_main_call8_v3 i) (fun a => match a with
    | ⟨0, _⟩ => by show (i 0).val = if (64 : Nat) = 1 then 0 else (i 0).val; rw [if_neg (by decide)])

def val_main_call8_v4 : (⟨S64x10, .f32⟩ : BufTy).Contents (Elt F) :=
  broadcastInDim S64x10 ![0, 1] bcast_S64x1_S64x10_0_1 (val_main_call8_v3 (F := F) x0 x1 x2 x3 x4 x5 x6 x7 x8 x9 x10 x11 x12 x13 x14 x15 x16)
abbrev idx_main_call8_v4 (i : S64x10.Idx) : S64x1.Idx := fun a => match a with
  | ⟨0, _⟩ => ⟨(i 0).val, (i 0).isLt⟩
  | ⟨1, _⟩ => ⟨0, Nat.one_pos⟩
theorem val_main_call8_v4_apply (i : S64x10.Idx) :
    val_main_call8_v4 (F := F) x0 x1 x2 x3 x4 x5 x6 x7 x8 x9 x10 x11 x12 x13 x14 x15 x16 i = val_main_call8_v3 (F := F) x0 x1 x2 x3 x4 x5 x6 x7 x8 x9 x10 x11 x12 x13 x14 x15 x16 (idx_main_call8_v4 i) := by
  unfold val_main_call8_v4
  generalize val_main_call8_v3 (F := F) x0 x1 x2 x3 x4 x5 x6 x7 x8 x9 x10 x11 x12 x13 x14 x15 x16 = y
  exact broadcastInDim_apply _ bcast_S64x1_S64x10_0_1 y i (idx_main_call8_v4 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_call8_v5 : (⟨S64x10, .f32⟩ : BufTy).Contents (Elt F) :=
  subf (val_main_v167 (F := F) x0 x1 x2 x3 x4 x5 x6 x7 x8 x9 x10 x11 x12 x13 x14 x15 x16) (val_main_call8_v4 (F := F) x0 x1 x2 x3 x4 x5 x6 x7 x8 x9 x10 x11 x12 x13 x14 x15 x16)
theorem val_main_call8_v5_apply (i : S64x10.Idx) :
    val_main_call8_v5 (F := F) x0 x1 x2 x3 x4 x5 x6 x7 x8 x9 x10 x11 x12 x13 x14 x15 x16 i = FloatOps.subf (val_main_v167 (F := F) x0 x1 x2 x3 x4 x5 x6 x7 x8 x9 x10 x11 x12 x13 x14 x15 x16 i) (val_main_call8_v4 (F := F) x0 x1 x2 x3 x4 x5 x6 x7 x8 x9 x10 x11 x12 x13 x14 x15 x16 i) := rfl

def val_main_call8_v6 : (⟨S64x10, .f32⟩ : BufTy).Contents (Elt F) :=
  Host.exp (val_main_call8_v5 (F := F) x0 x1 x2 x3 x4 x5 x6 x7 x8 x9 x10 x11 x12 x13 x14 x15 x16)
theorem val_main_call8_v6_apply (i : S64x10.Idx) :
    val_main_call8_v6 (F := F) x0 x1 x2 x3 x4 x5 x6 x7 x8 x9 x10 x11 x12 x13 x14 x15 x16 i = FloatOps.hostUnary .exp (val_main_call8_v5 (F := F) x0 x1 x2 x3 x4 x5 x6 x7 x8 x9 x10 x11 x12 x13 x14 x15 x16 i) := rfl

def val_main_call8_cst_1 : (⟨S_, .f32⟩ : BufTy).Contents (Elt F) :=
  constant S_ .f32 0x00000000#32
theorem val_main_call8_cst_1_apply (i : S_.Idx) :
    val_main_call8_cst_1 (F := F) i = FloatOps.ofBits .f32 0x00000000#32 := rfl

def val_main_call8_v7 : (⟨S64, .f32⟩ : BufTy).Contents (Elt F) :=
  Host.reduceAdd (val_main_call8_v6 (F := F) x0 x1 x2 x3 x4 x5 x6 x7 x8 x9 x10 x11 x12 x13 x14 x15 x16) (val_main_call8_cst_1 (F := F)) reducesTo_S64x10_S64_d1 h_S_
abbrev idx_main_call8_v7 (i : S64.Idx) (k : Fin 10) : S64x10.Idx := fun a => match a with
  | ⟨0, _⟩ => ⟨(i 0).val, (i 0).isLt⟩
  | ⟨1, _⟩ => ⟨k.val, k.isLt⟩
theorem val_main_call8_v7_apply (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (x16 : (⟨S10, .f32⟩ : BufTy).Contents (Elt Ideal)) (i : S64.Idx) :
    val_main_call8_v7 (F := Ideal) x0 x1 x2 x3 x4 x5 x6 x7 x8 x9 x10 x11 x12 x13 x14 x15 x16 i = (val_main_call8_cst_1 (F := Ideal)) (Shape.Idx.first h_S_) + ∑ k : Fin 10, (val_main_call8_v6 (F := Ideal) x0 x1 x2 x3 x4 x5 x6 x7 x8 x9 x10 x11 x12 x13 x14 x15 x16) (idx_main_call8_v7 i k) := by
  unfold val_main_call8_v7
  generalize val_main_call8_v6 (F := Ideal) x0 x1 x2 x3 x4 x5 x6 x7 x8 x9 x10 x11 x12 x13 x14 x15 x16 = y0
  simp only [Host.reduceAdd, Ideal.hostReduceAdd_def]
  rw [Ideal.hostReduceAdd_single reducesTo_S64x10_S64_d1 (by decide)]
  refine congrArg (_ + ·) (Finset.sum_congr rfl fun k _ => ?_)
  exact congrArg y0 (funext fun a => Fin.ext (by match a with | ⟨0, _⟩ => rfl | ⟨1, _⟩ => rfl))

def val_main_call8_v8 : (⟨S64x1, .f32⟩ : BufTy).Contents (Elt F) :=
  broadcastInDim S64x1 ![0] bcast_S64_S64x1_0 (val_main_call8_v7 (F := F) x0 x1 x2 x3 x4 x5 x6 x7 x8 x9 x10 x11 x12 x13 x14 x15 x16)
abbrev idx_main_call8_v8 (i : S64x1.Idx) : S64.Idx := fun a => match a with
  | ⟨0, _⟩ => ⟨(i 0).val, (i 0).isLt⟩
theorem val_main_call8_v8_apply (i : S64x1.Idx) :
    val_main_call8_v8 (F := F) x0 x1 x2 x3 x4 x5 x6 x7 x8 x9 x10 x11 x12 x13 x14 x15 x16 i = val_main_call8_v7 (F := F) x0 x1 x2 x3 x4 x5 x6 x7 x8 x9 x10 x11 x12 x13 x14 x15 x16 (idx_main_call8_v8 i) := by
  unfold val_main_call8_v8
  generalize val_main_call8_v7 (F := F) x0 x1 x2 x3 x4 x5 x6 x7 x8 x9 x10 x11 x12 x13 x14 x15 x16 = y
  exact broadcastInDim_apply _ bcast_S64_S64x1_0 y i (idx_main_call8_v8 i) (fun a => match a with
    | ⟨0, _⟩ => by show (i 0).val = if (64 : Nat) = 1 then 0 else (i 0).val; rw [if_neg (by decide)])

def val_main_call8_v9 : (⟨S64x1, .f32⟩ : BufTy).Contents (Elt F) :=
  Host.log (val_main_call8_v8 (F := F) x0 x1 x2 x3 x4 x5 x6 x7 x8 x9 x10 x11 x12 x13 x14 x15 x16)
theorem val_main_call8_v9_apply (i : S64x1.Idx) :
    val_main_call8_v9 (F := F) x0 x1 x2 x3 x4 x5 x6 x7 x8 x9 x10 x11 x12 x13 x14 x15 x16 i = FloatOps.hostUnary .log (val_main_call8_v8 (F := F) x0 x1 x2 x3 x4 x5 x6 x7 x8 x9 x10 x11 x12 x13 x14 x15 x16 i) := rfl

def val_main_call8_v10 : (⟨S64x10, .f32⟩ : BufTy).Contents (Elt F) :=
  broadcastInDim S64x10 ![0, 1] bcast_S64x1_S64x10_0_1 (val_main_call8_v9 (F := F) x0 x1 x2 x3 x4 x5 x6 x7 x8 x9 x10 x11 x12 x13 x14 x15 x16)
abbrev idx_main_call8_v10 (i : S64x10.Idx) : S64x1.Idx := fun a => match a with
  | ⟨0, _⟩ => ⟨(i 0).val, (i 0).isLt⟩
  | ⟨1, _⟩ => ⟨0, Nat.one_pos⟩
theorem val_main_call8_v10_apply (i : S64x10.Idx) :
    val_main_call8_v10 (F := F) x0 x1 x2 x3 x4 x5 x6 x7 x8 x9 x10 x11 x12 x13 x14 x15 x16 i = val_main_call8_v9 (F := F) x0 x1 x2 x3 x4 x5 x6 x7 x8 x9 x10 x11 x12 x13 x14 x15 x16 (idx_main_call8_v10 i) := by
  unfold val_main_call8_v10
  generalize val_main_call8_v9 (F := F) x0 x1 x2 x3 x4 x5 x6 x7 x8 x9 x10 x11 x12 x13 x14 x15 x16 = y
  exact broadcastInDim_apply _ bcast_S64x1_S64x10_0_1 y i (idx_main_call8_v10 i) (fun a => match a with
    | ⟨0, _⟩ => by show (i 0).val = if (64 : Nat) = 1 then 0 else (i 0).val; rw [if_neg (by decide)]
    | ⟨1, _⟩ => by show 0 = if (1 : Nat) = 1 then 0 else (i 1).val; rw [if_pos rfl])

def val_main_v168 : (⟨S64x10, .f32⟩ : BufTy).Contents (Elt F) :=
  subf (val_main_call8_v5 (F := F) x0 x1 x2 x3 x4 x5 x6 x7 x8 x9 x10 x11 x12 x13 x14 x15 x16) (val_main_call8_v10 (F := F) x0 x1 x2 x3 x4 x5 x6 x7 x8 x9 x10 x11 x12 x13 x14 x15 x16)
theorem val_main_v168_apply (i : S64x10.Idx) :
    val_main_v168 (F := F) x0 x1 x2 x3 x4 x5 x6 x7 x8 x9 x10 x11 x12 x13 x14 x15 x16 i = FloatOps.subf (val_main_call8_v5 (F := F) x0 x1 x2 x3 x4 x5 x6 x7 x8 x9 x10 x11 x12 x13 x14 x15 x16 i) (val_main_call8_v10 (F := F) x0 x1 x2 x3 x4 x5 x6 x7 x8 x9 x10 x11 x12 x13 x14 x15 x16 i) := rfl

theorem val_main_v168_eq (m : (ℓ : Loc nD τ sig) → Buf (Elt F) ℓ) (c : Dev nD) :
    Cert.ReferenceIdeal.ValueP.res_main_v168 m c = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.ValueP.res_main_v168; rfl

end Cert.ReferenceIdeal.ReadP

end
-- ==== Proof.Ref.Defs.lean ====
import proofs.«415844_j33432025432092_2_alg».proof.ReferenceIdeal
import proofs.«415844_j33432025432092_2_alg».proof.Proof.Spec
import proofs.«415844_j33432025432092_2_alg».proof.Proof.Access

noncomputable section

namespace Cert.ReferenceIdeal.RefValue

open Cert.ReferenceIdeal Idealize.ShloMosaic Idealize.ShloMosaic.ValueIdx Cert.Access

variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (x16 : (⟨S10, .f32⟩ : BufTy).Contents (Elt Ideal))

/-- Source word of a listed edge. -/
def sw (e : Fin 3200000) : BitVec 32 := x1 (ix2 0 e)

/-- Destination word of a listed edge. -/
def dw (e : Fin 3200000) : BitVec 32 := x1 (ix2 1 e)

/-- Batch word of a node. -/
def bw (n : Fin 100000) : BitVec 32 := x2 (ix1 n)

/-- The listed edges followed by one loop per node. -/
def graphOf : Cert.Spec.LGraph 100000 (3200000 + 100000) :=
  Cert.Spec.refGraph 100000 3200000 (by norm_num) (sw x1) (dw x1)

/-- Node rows after a layer: the listed layer of the rows before it. -/
def hid1 : Fin 100000 → Fin 6 → EReal :=
  Cert.Spec.layerL (graphOf x1) (mat x0) (mat x3) (vec x4)

def hid2 : Fin 100000 → Fin 6 → EReal :=
  Cert.Spec.layerL (graphOf x1) (hid1 x0 x1 x3 x4) (mat x5) (vec x6)

def hid3 : Fin 100000 → Fin 6 → EReal :=
  Cert.Spec.layerL (graphOf x1) (hid2 x0 x1 x3 x4 x5 x6) (mat x7) (vec x8)

def hid4 : Fin 100000 → Fin 6 → EReal :=
  Cert.Spec.layerL (graphOf x1) (hid3 x0 x1 x3 x4 x5 x6 x7 x8) (mat x9) (vec x10)

def hid5 : Fin 100000 → Fin 6 → EReal :=
  Cert.Spec.layerL (graphOf x1) (hid4 x0 x1 x3 x4 x5 x6 x7 x8 x9 x10) (mat x11) (vec x12)

def hid6 : Fin 100000 → Fin 6 → EReal :=
  Cert.Spec.layerL (graphOf x1) (hid5 x0 x1 x3 x4 x5 x6 x7 x8 x9 x10 x11 x12) (mat x13) (vec x14)

def hid7 : Fin 100000 → Fin 10 → EReal :=
  Cert.Spec.layerL (graphOf x1) (hid6 x0 x1 x3 x4 x5 x6 x7 x8 x9 x10 x11 x12 x13 x14) (mat x15) (vec x16)

/-- Per-graph mean of the last rows, under the row-wise log-softmax. -/
def refOut : Fin 64 → Fin 10 → EReal :=
  Cert.Spec.outL (Cert.Spec.refGraph 100000 3200000 (by norm_num) (sw x1) (dw x1)) (Cert.Spec.inGraph (bw x2))
    (mat x0) (mat x3) (vec x4) (mat x5) (vec x6) (mat x7) (vec x8) (mat x9) (vec x10) (mat x11) (vec x12) (mat x13) (vec x14) (mat x15) (vec x16)

theorem refOut_eq :
    refOut x0 x1 x2 x3 x4 x5 x6 x7 x8 x9 x10 x11 x12 x13 x14 x15 x16 = Cert.Spec.logSoftmax (Cert.Spec.poolMean (Cert.Spec.inGraph (bw x2)) (hid7 x0 x1 x3 x4 x5 x6 x7 x8 x9 x10 x11 x12 x13 x14 x15 x16)) := rfl

end Cert.ReferenceIdeal.RefValue

end
-- ==== Proof.Ref.Rows.lean ====
import proofs.«415844_j33432025432092_2_alg».proof.Proof.Spec
import proofs.«415844_j33432025432092_2_alg».proof.Proof.LibGatherScatter
import Idealize.ShloMosaic.Lib.IdealHost

open scoped BigOperators

noncomputable section

namespace Cert.ReferenceIdeal.RefValue

open Idealize.ShloMosaic Idealize.ShloMosaic.ValueIdx Idealize.ShloMosaic.RowOps Idealize.ShloMosaic.StableHlo.Predicate
open Cert.Spec

theorem clampRow_wrapped {n : Nat} (N : Nat) (hN : 0 < N) (idx : IVec ⟨2, ![n, 1]⟩ 32) (e : Fin n) (w : BitVec 32)
    (h : idx (ixP e) = Scalar.select (IntOp.cmpi .slt w 0#32) (IntOp.addi w (BitVec.ofNat 32 N)) w) :
    clampRow N hN idx e = rowOf N hN w := by
  apply Fin.ext
  show min (idx (ixP e)).toInt.toNat (N - 1) = min ((if w.slt 0#32 then w + BitVec.ofNat 32 N else w).toInt.toNat) (N - 1)
  rw [h]
  unfold Scalar.select IntOp.cmpi IntOp.addi
  cases hb : w.slt 0#32 <;> simp

section Degree

variable {N n : Nat} (L : LGraph N n)

theorem deg_at (ds : ScatterDims ⟨1, ![N]⟩ ⟨2, ![n, 1]⟩ ⟨1, ![n]⟩)
    (huw : ds.updateWindowDims = []) (hiw : ds.insertedWindowDims = [0]) (hsd : ds.scatterDimsToOperandDims = [0])
    (hivd : ds.indexVectorDim = 1)
    (z : FVec Ideal ⟨1, ![N]⟩ .f32) (hz : ∀ i, z (ix1 i) = 0)
    (dIdx : IVec ⟨2, ![n, 1]⟩ 32) (hd : ∀ e (i : Fin N), lands dIdx e i.val ↔ L.lands e i)
    (ones : FVec Ideal ⟨1, ![n]⟩ .f32) (h1 : ∀ e, ones (ix1 e) = 1) (i : Fin N) :
    Host.scatterAdd ds z dIdx ones (ix1 i) = degL L i := by
  show Ideal.hostScatterAdd ds z dIdx ones (ix1 i) = _
  rw [scatterAdd_row1 ds huw hiw hsd hivd, hz]
  unfold degL
  have hf : (Finset.univ.filter fun e : Fin n => lands dIdx e i.val) = Finset.univ.filter fun e => L.lands e i :=
    Finset.filter_congr fun e _ => hd e i
  rw [hf]
  exact congrArg (0 + ·) (Finset.sum_congr rfl fun e _ => h1 e)

theorem dinv_at (d z0 z1 : FVec Ideal ⟨1, ![N]⟩ .f32) (hdeg : ∀ i, d (ix1 i) = degL L i)
    (hz0 : ∀ i, z0 (ix1 i) = 0) (hz1 : ∀ i, z1 (ix1 i) = 0) (i : Fin N) :
    select (cmpf .ogt d z0) (Host.rsqrt d) z1 (ix1 i) = dinvL L i := by
  show Scalar.select (Ideal.cmp .ogt (d (ix1 i)) (z0 (ix1 i))) (Ideal.rsqrt (d (ix1 i))) (z1 (ix1 i)) = _
  rw [hdeg, hz0, hz1]
  unfold dinvL Scalar.select Ideal.cmp
  by_cases hp : 0 < degL L i
  · rw [if_pos hp, if_pos (by simp [hp])]
  · rw [if_neg hp, if_neg (by simp [hp])]

theorem norm_at (hN : 0 < N) (dg : GatherDims ⟨1, ![N]⟩ ⟨2, ![n, 1]⟩ ⟨1, ![n]⟩)
    (hcoll : dg.collapsedSliceDims = [0]) (hob : dg.operandBatchingDims = []) (hsim : dg.startIndexMap = [0])
    (hivd : dg.indexVectorDim = 1)
    (dv : FVec Ideal ⟨1, ![N]⟩ .f32) (hdv : ∀ i, dv (ix1 i) = dinvL L i)
    (sIdx tIdx : IVec ⟨2, ![n, 1]⟩ 32)
    (hs : ∀ e, clampRow N hN sIdx e = L.srcRow e) (ht : ∀ e, clampRow N hN tIdx e = L.dstRow e) (e : Fin n) :
    mulf (Host.gather dg dv sIdx) (Host.gather dg dv tIdx) (ix1 e) = norm L e := by
  show Host.gather dg dv sIdx (ix1 e) * Host.gather dg dv tIdx (ix1 e) = _
  rw [gather_row1 dg hcoll hob hsim hivd dv sIdx e hN, gather_row1 dg hcoll hob hsim hivd dv tIdx e hN, hs, ht, hdv, hdv]
  rfl

theorem layer_at {K D : Nat} (hN : 0 < N)
    (h : Fin N → Fin K → EReal) (W : Fin K → Fin D → EReal) (b : Fin D → EReal)
    (dg : GatherDims ⟨2, ![N, D]⟩ ⟨2, ![n, 1]⟩ ⟨2, ![n, D]⟩)
    (hoff : dg.offsetDims = [1]) (hcoll : dg.collapsedSliceDims = [0]) (hob : dg.operandBatchingDims = [])
    (hsim : dg.startIndexMap = [0]) (hivd : dg.indexVectorDim = 1) (hss : dg.sliceSizes = ![1, D])
    (ds : ScatterDims ⟨2, ![N, D]⟩ ⟨2, ![n, 1]⟩ ⟨2, ![n, D]⟩)
    (huw : ds.updateWindowDims = [1]) (hiw : ds.insertedWindowDims = [0]) (hsd : ds.scatterDimsToOperandDims = [0])
    (hivd' : ds.indexVectorDim = 1)
    (proj : FVec Ideal ⟨2, ![N, D]⟩ .f32) (hproj : ∀ i j, proj (ix2 i j) = ∑ k, h i k * W k j)
    (sIdx dIdx : IVec ⟨2, ![n, 1]⟩ 32)
    (hs : ∀ e, clampRow N hN sIdx e = L.srcRow e)
    (hd : ∀ e (i : Fin N), lands dIdx e i.val ↔ L.lands e i)
    (nrm : FVec Ideal ⟨2, ![n, D]⟩ .f32) (hn : ∀ e j, nrm (ix2 e j) = norm L e)
    (z bias zr : FVec Ideal ⟨2, ![N, D]⟩ .f32)
    (hz : ∀ i j, z (ix2 i j) = 0) (hb : ∀ i j, bias (ix2 i j) = b j) (hzr : ∀ i j, zr (ix2 i j) = 0)
    (i : Fin N) (j : Fin D) :
    maximumf (addf (Host.scatterAdd ds z dIdx (mulf (Host.gather dg proj sIdx) nrm)) bias) zr (ix2 i j)
      = layerL L h W b i j := by
  show max (Ideal.hostScatterAdd ds z dIdx (mulf (Host.gather dg proj sIdx) nrm) (ix2 i j) + bias (ix2 i j)) (zr (ix2 i j)) = _
  rw [scatterAdd_rows ds huw hiw hsd hivd', hz, hb, hzr]
  unfold layerL
  have hf : (Finset.univ.filter fun e : Fin n => lands dIdx e i.val) = Finset.univ.filter fun e => L.lands e i :=
    Finset.filter_congr fun e _ => hd e i
  rw [hf]
  refine congrArg (fun t => max (0 + t + b j) 0) (Finset.sum_congr rfl fun e _ => ?_)
  show Host.gather dg proj sIdx (ix2 e j) * nrm (ix2 e j) = _
  rw [gather_rows dg hoff hcoll hob hsim hivd hss proj sIdx e j hN, hs, hproj, hn]

end Degree

section Pool

variable {N C D : Nat}

theorem pool_at (inG : Fin N → Fin C → Prop) [∀ n g, Decidable (inG n g)]
    (ds : ScatterDims ⟨2, ![C, D]⟩ ⟨2, ![N, 1]⟩ ⟨2, ![N, D]⟩)
    (huw : ds.updateWindowDims = [1]) (hiw : ds.insertedWindowDims = [0]) (hsd : ds.scatterDimsToOperandDims = [0])
    (hivd : ds.indexVectorDim = 1)
    (ds1 : ScatterDims ⟨1, ![C]⟩ ⟨2, ![N, 1]⟩ ⟨1, ![N]⟩)
    (huw1 : ds1.updateWindowDims = []) (hiw1 : ds1.insertedWindowDims = [0]) (hsd1 : ds1.scatterDimsToOperandDims = [0])
    (hivd1 : ds1.indexVectorDim = 1)
    (hfin : FVec Ideal ⟨2, ![N, D]⟩ .f32) (h : Fin N → Fin D → EReal) (hh : ∀ n j, hfin (ix2 n j) = h n j)
    (bIdx bIdx1 : IVec ⟨2, ![N, 1]⟩ 32)
    (hbI : ∀ n (g : Fin C), lands bIdx n g.val ↔ inG n g) (hbI1 : ∀ n (g : Fin C), lands bIdx1 n g.val ↔ inG n g)
    (z : FVec Ideal ⟨2, ![C, D]⟩ .f32) (hz : ∀ g j, z (ix2 g j) = 0)
    (z1 : FVec Ideal ⟨1, ![C]⟩ .f32) (hz1 : ∀ g, z1 (ix1 g) = 0)
    (ones : FVec Ideal ⟨1, ![N]⟩ .f32) (h1 : ∀ n, ones (ix1 n) = 1)
    (den : FVec Ideal ⟨2, ![C, D]⟩ .f32)
    (hden : ∀ g j, den (ix2 g j) = max (Host.scatterAdd ds1 z1 bIdx1 ones (ix1 g)) 1)
    (g : Fin C) (j : Fin D) :
    Host.divf (Host.scatterAdd ds z bIdx hfin) den (ix2 g j) = poolMean inG h g j := by
  show Ideal.div (Ideal.hostScatterAdd ds z bIdx hfin (ix2 g j)) (den (ix2 g j)) = _
  rw [hden]
  show Ideal.div _ (max (Ideal.hostScatterAdd ds1 z1 bIdx1 ones (ix1 g)) 1) = _
  rw [scatterAdd_rows ds huw hiw hsd hivd, scatterAdd_row1 ds1 huw1 hiw1 hsd1 hivd1, hz, hz1]
  unfold poolMean poolSum poolCnt
  have hf : (Finset.univ.filter fun e : Fin N => lands bIdx e g.val) = Finset.univ.filter fun e => inG e g :=
    Finset.filter_congr fun e _ => hbI e g
  have hf1 : (Finset.univ.filter fun e : Fin N => lands bIdx1 e g.val) = Finset.univ.filter fun e => inG e g :=
    Finset.filter_congr fun e _ => hbI1 e g
  rw [hf, hf1]
  refine congrArg₂ Ideal.div (congrArg (0 + ·) (Finset.sum_congr rfl fun e _ => hh e j)) ?_
  exact congrArg (fun t => max (0 + t) 1) (Finset.sum_congr rfl fun e _ => h1 e)

end Pool

end Cert.ReferenceIdeal.RefValue

end
-- ==== Proof.Ref.Graph.lean ====
import proofs.«415844_j33432025432092_2_alg».proof.Proof.Ref.ReadP
import proofs.«415844_j33432025432092_2_alg».proof.Proof.Ref.Defs
import proofs.«415844_j33432025432092_2_alg».proof.Proof.Ref.Rows

open scoped BigOperators

noncomputable section

namespace Cert.ReferenceIdeal.RefValue

open Cert.ReferenceIdeal Cert.ReferenceIdeal.Gen Cert.ReferenceIdeal.ReadP Idealize.ShloMosaic Idealize.ShloMosaic.StableHlo
open Idealize.ShloMosaic.ValueIdx Idealize.ShloMosaic.RowOps Idealize.ShloMosaic.StableHlo.Predicate Cert.Spec Cert.Access

/-- A column of words, each wrapped once when negative, names (clamped) the rows the words name. -/
theorem clampRow_col {n N : Nat} (hN : 0 < N) (S zb nb : IVec ⟨1, ![n]⟩ 32) (col : IVec ⟨2, ![n, 1]⟩ 32)
    (hz : ∀ e, zb (ix1 e) = 0#32) (hn : ∀ e, nb (ix1 e) = BitVec.ofNat 32 N)
    (hcol : ∀ e, col (ixP e) = select (cmpi .slt S zb) (addi S nb) S (ix1 e))
    (w : Fin n → BitVec 32) (hS : ∀ e, S (ix1 e) = w e) (e : Fin n) :
    clampRow N hN col e = rowOf N hN (w e) := by
  rw [← hS]
  refine clampRow_wrapped N hN col e _ ?_
  rw [hcol]
  show Scalar.select (IntOp.cmpi .slt (S (ix1 e)) (zb (ix1 e))) (IntOp.addi (S (ix1 e)) (nb (ix1 e))) (S (ix1 e)) = _
  rw [hz, hn]

theorem withLoops_lt {N E : Nat} (w : Fin E → BitVec 32) (e : Fin (E + N)) (h : e.val < E) :
    withLoops (N := N) w e = w ⟨e.val, h⟩ := by
  have he : e = Fin.castAdd N ⟨e.val, h⟩ := Fin.ext rfl
  exact (congrArg (withLoops (N := N) w) he).trans (Fin.addCases_left _)

theorem withLoops_ge {N E : Nat} (w : Fin E → BitVec 32) (e : Fin (E + N)) (h : ¬e.val < E) :
    withLoops (N := N) w e = BitVec.ofNat 32 (e.val - E) := by
  have hlt : e.val - E < N := by have := e.isLt; omega
  have he : e = Fin.natAdd E ⟨e.val - E, hlt⟩ := Fin.ext (by show e.val = E + (e.val - E); omega)
  exact (congrArg (withLoops (N := N) w) he).trans (Fin.addCases_right _)

/-- The listed words followed by the node numbers are the listed form's words. -/
theorem concat_loops (a : (⟨S3200000, .i32⟩ : BufTy).Contents (Elt Ideal)) (w : Fin 3200000 → BitVec 32)
    (ha : ∀ e, a (ix1 e) = w e) (e : Fin 3300000) :
    concatenate S3300000 0 [⟨S3200000, a⟩, ⟨S100000, val_main_v0 (F := Ideal)⟩] concatenates_S3200000_S100000_S3300000_d0 (ix1 e)
      = withLoops (N := 100000) w e := by
  by_cases h : e.val < 3200000
  · refine Eq.trans ?_ (withLoops_lt (N := 100000) w e h).symm
    exact (concatenate_pair_apply_left (0 : Fin 1) a (val_main_v0 (F := Ideal))
      concatenates_S3200000_S100000_S3300000_d0 (ix1 e) rfl (ix1 ⟨e.val, h⟩)
      (fun b => by match b with | ⟨0, _⟩ => rfl)).trans (ha _)
  · refine Eq.trans ?_ (withLoops_ge (N := 100000) w e h).symm
    refine (concatenate_pair_apply_right (0 : Fin 1) a (val_main_v0 (F := Ideal))
      concatenates_S3200000_S100000_S3300000_d0 (ix1 e) rfl rfl
      (ix1 ⟨e.val - 3200000, by have := e.isLt; omega⟩)
      (fun b hb => absurd (Subsingleton.elim _ _) hb) ?_).trans rfl
    show e.val - 3200000 + 3200000 = e.val
    omega

variable (x1 : (⟨S2x3200000, .i32⟩ : BufTy).Contents (Elt Ideal))

theorem src_words (e : Fin 3300000) :
    val_main_v3 (F := Ideal) x1 (ix1 e) = withLoops (N := 100000) (sw x1) e :=
  concat_loops _ _ (fun e => by
    rw [val_main_v2_apply, val_main_v1_apply]
    exact congrArg x1 (funext fun a => by
      match a with
      | ⟨0, _⟩ => exact Fin.ext rfl
      | ⟨1, _⟩ => exact Fin.ext (Nat.mod_eq_of_lt e.isLt))) e

theorem dst_words (e : Fin 3300000) :
    val_main_v6 (F := Ideal) x1 (ix1 e) = withLoops (N := 100000) (dw x1) e :=
  concat_loops _ _ (fun e => by
    rw [val_main_v5_apply, val_main_v4_apply]
    exact congrArg x1 (funext fun a => by
      match a with
      | ⟨0, _⟩ => exact Fin.ext rfl
      | ⟨1, _⟩ => exact Fin.ext (Nat.mod_eq_of_lt e.isLt))) e

theorem row_v20 (e : Fin 3300000) :
    clampRow 100000 (by norm_num) (val_main_v20 (F := Ideal) x1) e = (graphOf x1).srcRow e :=
  clampRow_col (by norm_num) (val_main_v3 (F := Ideal) x1) (val_main_v15 (F := Ideal)) (val_main_v17 (F := Ideal)) _
    (fun _ => by rw [val_main_v15_apply, val_main_c_apply]) (fun _ => by rw [val_main_v17_apply, val_main_c_3_apply])
    (fun _ => by rw [val_main_v20_apply]; exact congrArg (val_main_v19 (F := Ideal) x1) (eq_ix1 _))
    _ (src_words x1) e

theorem row_v27 (e : Fin 3300000) :
    clampRow 100000 (by norm_num) (val_main_v27 (F := Ideal) x1) e = (graphOf x1).dstRow e :=
  clampRow_col (by norm_num) (val_main_v6 (F := Ideal) x1) (val_main_v22 (F := Ideal)) (val_main_v24 (F := Ideal)) _
    (fun _ => by rw [val_main_v22_apply, val_main_c_4_apply]) (fun _ => by rw [val_main_v24_apply, val_main_c_5_apply])
    (fun _ => by rw [val_main_v27_apply]; exact congrArg (val_main_v26 (F := Ideal) x1) (eq_ix1 _))
    _ (dst_words x1) e

theorem row_v36 (e : Fin 3300000) :
    clampRow 100000 (by norm_num) (val_main_v36 (F := Ideal) x1) e = (graphOf x1).srcRow e :=
  clampRow_col (by norm_num) (val_main_v3 (F := Ideal) x1) (val_main_v31 (F := Ideal)) (val_main_v33 (F := Ideal)) _
    (fun _ => by rw [val_main_v31_apply, val_main_c_6_apply]) (fun _ => by rw [val_main_v33_apply, val_main_c_7_apply])
    (fun _ => by rw [val_main_v36_apply]; exact congrArg (val_main_v35 (F := Ideal) x1) (eq_ix1 _))
    _ (src_words x1) e

theorem row_v54 (e : Fin 3300000) :
    clampRow 100000 (by norm_num) (val_main_v54 (F := Ideal) x1) e = (graphOf x1).srcRow e :=
  clampRow_col (by norm_num) (val_main_v3 (F := Ideal) x1) (val_main_v49 (F := Ideal)) (val_main_v51 (F := Ideal)) _
    (fun _ => by rw [val_main_v49_apply, val_main_c_9_apply]) (fun _ => by rw [val_main_v51_apply, val_main_c_10_apply])
    (fun _ => by rw [val_main_v54_apply]; exact congrArg (val_main_v53 (F := Ideal) x1) (eq_ix1 _))
    _ (src_words x1) e

theorem row_v72 (e : Fin 3300000) :
    clampRow 100000 (by norm_num) (val_main_v72 (F := Ideal) x1) e = (graphOf x1).srcRow e :=
  clampRow_col (by norm_num) (val_main_v3 (F := Ideal) x1) (val_main_v67 (F := Ideal)) (val_main_v69 (F := Ideal)) _
    (fun _ => by rw [val_main_v67_apply, val_main_c_12_apply]) (fun _ => by rw [val_main_v69_apply, val_main_c_13_apply])
    (fun _ => by rw [val_main_v72_apply]; exact congrArg (val_main_v71 (F := Ideal) x1) (eq_ix1 _))
    _ (src_words x1) e

theorem row_v90 (e : Fin 3300000) :
    clampRow 100000 (by norm_num) (val_main_v90 (F := Ideal) x1) e = (graphOf x1).srcRow e :=
  clampRow_col (by norm_num) (val_main_v3 (F := Ideal) x1) (val_main_v85 (F := Ideal)) (val_main_v87 (F := Ideal)) _
    (fun _ => by rw [val_main_v85_apply, val_main_c_15_apply]) (fun _ => by rw [val_main_v87_apply, val_main_c_16_apply])
    (fun _ => by rw [val_main_v90_apply]; exact congrArg (val_main_v89 (F := Ideal) x1) (eq_ix1 _))
    _ (src_words x1) e

theorem row_v108 (e : Fin 3300000) :
    clampRow 100000 (by norm_num) (val_main_v108 (F := Ideal) x1) e = (graphOf x1).srcRow e :=
  clampRow_col (by norm_num) (val_main_v3 (F := Ideal) x1) (val_main_v103 (F := Ideal)) (val_main_v105 (F := Ideal)) _
    (fun _ => by rw [val_main_v103_apply, val_main_c_18_apply]) (fun _ => by rw [val_main_v105_apply, val_main_c_19_apply])
    (fun _ => by rw [val_main_v108_apply]; exact congrArg (val_main_v107 (F := Ideal) x1) (eq_ix1 _))
    _ (src_words x1) e

theorem row_v126 (e : Fin 3300000) :
    clampRow 100000 (by norm_num) (val_main_v126 (F := Ideal) x1) e = (graphOf x1).srcRow e :=
  clampRow_col (by norm_num) (val_main_v3 (F := Ideal) x1) (val_main_v121 (F := Ideal)) (val_main_v123 (F := Ideal)) _
    (fun _ => by rw [val_main_v121_apply, val_main_c_21_apply]) (fun _ => by rw [val_main_v123_apply, val_main_c_22_apply])
    (fun _ => by rw [val_main_v126_apply]; exact congrArg (val_main_v125 (F := Ideal) x1) (eq_ix1 _))
    _ (src_words x1) e

theorem row_v144 (e : Fin 3300000) :
    clampRow 100000 (by norm_num) (val_main_v144 (F := Ideal) x1) e = (graphOf x1).srcRow e :=
  clampRow_col (by norm_num) (val_main_v3 (F := Ideal) x1) (val_main_v139 (F := Ideal)) (val_main_v141 (F := Ideal)) _
    (fun _ => by rw [val_main_v139_apply, val_main_c_24_apply]) (fun _ => by rw [val_main_v141_apply, val_main_c_25_apply])
    (fun _ => by rw [val_main_v144_apply]; exact congrArg (val_main_v143 (F := Ideal) x1) (eq_ix1 _))
    _ (src_words x1) e

/-- A one-column copy of the destination words lands where the graph's edges do. -/
theorem lands_of_col (col : IVec ⟨2, ![3300000, 1]⟩ 32)
    (h : ∀ e, col (ixP e) = val_main_v6 (F := Ideal) x1 (ix1 e)) (e : Fin 3300000) (i : Fin 100000) :
    lands col e i.val ↔ (graphOf x1).lands e i := by
  show (col (ixP e)).toInt = (i.val : Int) ↔ (withLoops (N := 100000) (dw x1) e).toInt = (i.val : Int)
  rw [h, dst_words]

theorem lands_v9 (e : Fin 3300000) (i : Fin 100000) :
    lands (val_main_v9 (F := Ideal) x1) e i.val ↔ (graphOf x1).lands e i :=
  lands_of_col x1 _ (fun e => (val_main_v9_apply x1 (ixP e)).trans
    (congrArg (val_main_v6 (F := Ideal) x1) (eq_ix1 _))) e i

theorem lands_v42 (e : Fin 3300000) (i : Fin 100000) :
    lands (val_main_v42 (F := Ideal) x1) e i.val ↔ (graphOf x1).lands e i :=
  lands_of_col x1 _ (fun e => (val_main_v42_apply x1 (ixP e)).trans
    (congrArg (val_main_v6 (F := Ideal) x1) (eq_ix1 _))) e i

theorem lands_v60 (e : Fin 3300000) (i : Fin 100000) :
    lands (val_main_v60 (F := Ideal) x1) e i.val ↔ (graphOf x1).lands e i :=
  lands_of_col x1 _ (fun e => (val_main_v60_apply x1 (ixP e)).trans
    (congrArg (val_main_v6 (F := Ideal) x1) (eq_ix1 _))) e i

theorem lands_v78 (e : Fin 3300000) (i : Fin 100000) :
    lands (val_main_v78 (F := Ideal) x1) e i.val ↔ (graphOf x1).lands e i :=
  lands_of_col x1 _ (fun e => (val_main_v78_apply x1 (ixP e)).trans
    (congrArg (val_main_v6 (F := Ideal) x1) (eq_ix1 _))) e i

theorem lands_v96 (e : Fin 3300000) (i : Fin 100000) :
    lands (val_main_v96 (F := Ideal) x1) e i.val ↔ (graphOf x1).lands e i :=
  lands_of_col x1 _ (fun e => (val_main_v96_apply x1 (ixP e)).trans
    (congrArg (val_main_v6 (F := Ideal) x1) (eq_ix1 _))) e i

theorem lands_v114 (e : Fin 3300000) (i : Fin 100000) :
    lands (val_main_v114 (F := Ideal) x1) e i.val ↔ (graphOf x1).lands e i :=
  lands_of_col x1 _ (fun e => (val_main_v114_apply x1 (ixP e)).trans
    (congrArg (val_main_v6 (F := Ideal) x1) (eq_ix1 _))) e i

theorem lands_v132 (e : Fin 3300000) (i : Fin 100000) :
    lands (val_main_v132 (F := Ideal) x1) e i.val ↔ (graphOf x1).lands e i :=
  lands_of_col x1 _ (fun e => (val_main_v132_apply x1 (ixP e)).trans
    (congrArg (val_main_v6 (F := Ideal) x1) (eq_ix1 _))) e i

theorem lands_v150 (e : Fin 3300000) (i : Fin 100000) :
    lands (val_main_v150 (F := Ideal) x1) e i.val ↔ (graphOf x1).lands e i :=
  lands_of_col x1 _ (fun e => (val_main_v150_apply x1 (ixP e)).trans
    (congrArg (val_main_v6 (F := Ideal) x1) (eq_ix1 _))) e i

theorem deg_read (i : Fin 100000) : val_main_v10 (F := Ideal) x1 (ix1 i) = degL (graphOf x1) i :=
  deg_at (graphOf x1) scatter_S100000_S3300000x1_S3300000_n_0_0_1 rfl rfl rfl rfl (val_main_v8 (F := Ideal))
    (fun i => by rw [val_main_v8_apply, val_main_cst_0_apply]; exact Ideal.ofBits_zero_f32)
    (val_main_v9 (F := Ideal) x1) (lands_v9 x1) (val_main_v7 (F := Ideal))
    (fun e => by rw [val_main_v7_apply, val_main_cst_apply]; exact Ideal.ofBits_one_f32) i

theorem dinv_read (i : Fin 100000) : val_main_v14 (F := Ideal) x1 (ix1 i) = dinvL (graphOf x1) i :=
  dinv_at (graphOf x1) (val_main_v10 (F := Ideal) x1) (val_main_v11 (F := Ideal)) (val_main_call0_v1 (F := Ideal)) (deg_read x1)
    (fun i => by rw [val_main_v11_apply, val_main_cst_1_apply]; exact Ideal.ofBits_zero_f32)
    (fun i => by rw [val_main_call0_v1_apply, val_main_call0_v0_apply, val_main_cst_2_apply]; exact Ideal.ofBits_zero_f32) i

theorem norm_read (e : Fin 3300000) : val_main_v29 (F := Ideal) x1 (ix1 e) = norm (graphOf x1) e :=
  norm_at (graphOf x1) (by norm_num) gather_S100000_S3300000x1_S3300000_n_0_n_n_0_1_1 rfl rfl rfl rfl
    (val_main_v14 (F := Ideal) x1) (dinv_read x1) (val_main_v20 (F := Ideal) x1) (val_main_v27 (F := Ideal) x1)
    (row_v20 x1) (row_v27 x1) e

end Cert.ReferenceIdeal.RefValue

end
-- ==== Proof.Ref.Layers.lean ====
import proofs.«415844_j33432025432092_2_alg».proof.Proof.Ref.ReadP
import proofs.«415844_j33432025432092_2_alg».proof.Proof.Ref.Defs
import proofs.«415844_j33432025432092_2_alg».proof.Proof.Ref.Rows
import proofs.«415844_j33432025432092_2_alg».proof.Proof.Ref.Graph

open scoped BigOperators

noncomputable section

namespace Cert.ReferenceIdeal.RefValue

open Cert.ReferenceIdeal Cert.ReferenceIdeal.Gen Cert.ReferenceIdeal.ReadP Idealize.ShloMosaic Idealize.ShloMosaic.StableHlo
open Idealize.ShloMosaic.ValueIdx Idealize.ShloMosaic.RowOps Idealize.ShloMosaic.StableHlo.Predicate Cert.Spec Cert.Access

variable (x0 : (⟨S100000x128, .f32⟩ : BufTy).Contents (Elt Ideal)) (x1 : (⟨S2x3200000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (x16 : (⟨S10, .f32⟩ : BufTy).Contents (Elt Ideal))

/-- The matrix product at an entry is the sum over the shared axis. -/
theorem proj1_read (i : Fin 100000) (j : Fin 6) :
    val_main_v30 (F := Ideal) x0 x3 (ix2 i j) = ∑ k, (mat x0) i k * mat x3 k j := by
  rw [val_main_v30_apply]
  refine Finset.sum_congr rfl fun k _ => ?_
  exact congrArg₂ (· * ·) (congrArg x0 (eq_ix2 _))
    (congrArg x3 (eq_ix2 _))

/-- An edge's weight is repeated along its row. -/
theorem nrm1_read (e : Fin 3300000) (j : Fin 6) :
    val_main_v39 (F := Ideal) x1 (ix2 e j) = norm (graphOf x1) e := by
  rw [val_main_v39_apply, val_main_v38_apply]
  exact (congrArg (val_main_v29 (F := Ideal) x1) (eq_ix1 _)).trans (norm_read x1 e)

/-- Each layer's rows are the listed layer of the rows before; the seven layers differ in names only. -/
theorem layer1_read (i : Fin 100000) (j : Fin 6) :
    val_main_v47 (F := Ideal) x0 x1 x3 x4 (ix2 i j) = hid1 x0 x1 x3 x4 i j := by
  unfold hid1
  exact layer_at (graphOf x1) (by norm_num) (mat x0) (mat x3) (vec x4)
    gather_S100000x6_S3300000x1_S3300000x6_1_0_n_n_0_1_16 rfl rfl rfl rfl rfl rfl
    scatter_S100000x6_S3300000x1_S3300000x6_1_0_0_1 rfl rfl rfl rfl
    (val_main_v30 (F := Ideal) x0 x3) (proj1_read x0 x3)
    (val_main_v36 (F := Ideal) x1) (val_main_v42 (F := Ideal) x1) (row_v36 x1) (lands_v42 x1)
    (val_main_v39 (F := Ideal) x1) (nrm1_read x1)
    (val_main_v41 (F := Ideal)) (val_main_v45 (F := Ideal) x4) (val_main_call1_v0 (F := Ideal))
    (fun i j => by rw [val_main_v41_apply, val_main_cst_8_apply]; exact Ideal.ofBits_zero_f32)
    (fun i j => by
      rw [val_main_v45_apply, val_main_v44_apply]
      exact congrArg x4 (eq_ix1 _))
    (fun i j => by rw [val_main_call1_v0_apply, val_main_call1_cst_apply]; exact Ideal.ofBits_zero_f32)
    i j

theorem proj2_read (i : Fin 100000) (j : Fin 6) :
    val_main_v48 (F := Ideal) x0 x1 x3 x4 x5 (ix2 i j) = ∑ k, (hid1 x0 x1 x3 x4) i k * mat x5 k j := by
  rw [val_main_v48_apply]
  refine Finset.sum_congr rfl fun k _ => ?_
  exact congrArg₂ (· * ·) ((congrArg (val_main_v47 (F := Ideal) x0 x1 x3 x4) (eq_ix2 _)).trans
      (layer1_read x0 x1 x3 x4 i k))
    (congrArg x5 (eq_ix2 _))

theorem nrm2_read (e : Fin 3300000) (j : Fin 6) :
    val_main_v57 (F := Ideal) x1 (ix2 e j) = norm (graphOf x1) e := by
  rw [val_main_v57_apply, val_main_v56_apply]
  exact (congrArg (val_main_v29 (F := Ideal) x1) (eq_ix1 _)).trans (norm_read x1 e)

theorem layer2_read (i : Fin 100000) (j : Fin 6) :
    val_main_v65 (F := Ideal) x0 x1 x3 x4 x5 x6 (ix2 i j) = hid2 x0 x1 x3 x4 x5 x6 i j := by
  unfold hid2
  exact layer_at (graphOf x1) (by norm_num) (hid1 x0 x1 x3 x4) (mat x5) (vec x6)
    gather_S100000x6_S3300000x1_S3300000x6_1_0_n_n_0_1_16 rfl rfl rfl rfl rfl rfl
    scatter_S100000x6_S3300000x1_S3300000x6_1_0_0_1 rfl rfl rfl rfl
    (val_main_v48 (F := Ideal) x0 x1 x3 x4 x5) (proj2_read x0 x1 x3 x4 x5)
    (val_main_v54 (F := Ideal) x1) (val_main_v60 (F := Ideal) x1) (row_v54 x1) (lands_v60 x1)
    (val_main_v57 (F := Ideal) x1) (nrm2_read x1)
    (val_main_v59 (F := Ideal)) (val_main_v63 (F := Ideal) x6) (val_main_call2_v0 (F := Ideal))
    (fun i j => by rw [val_main_v59_apply, val_main_cst_11_apply]; exact Ideal.ofBits_zero_f32)
    (fun i j => by
      rw [val_main_v63_apply, val_main_v62_apply]
      exact congrArg x6 (eq_ix1 _))
    (fun i j => by rw [val_main_call2_v0_apply, val_main_call2_cst_apply]; exact Ideal.ofBits_zero_f32)
    i j

theorem proj3_read (i : Fin 100000) (j : Fin 6) :
    val_main_v66 (F := Ideal) x0 x1 x3 x4 x5 x6 x7 (ix2 i j) = ∑ k, (hid2 x0 x1 x3 x4 x5 x6) i k * mat x7 k j := by
  rw [val_main_v66_apply]
  refine Finset.sum_congr rfl fun k _ => ?_
  exact congrArg₂ (· * ·) ((congrArg (val_main_v65 (F := Ideal) x0 x1 x3 x4 x5 x6) (eq_ix2 _)).trans
      (layer2_read x0 x1 x3 x4 x5 x6 i k))
    (congrArg x7 (eq_ix2 _))

theorem nrm3_read (e : Fin 3300000) (j : Fin 6) :
    val_main_v75 (F := Ideal) x1 (ix2 e j) = norm (graphOf x1) e := by
  rw [val_main_v75_apply, val_main_v74_apply]
  exact (congrArg (val_main_v29 (F := Ideal) x1) (eq_ix1 _)).trans (norm_read x1 e)

theorem layer3_read (i : Fin 100000) (j : Fin 6) :
    val_main_v83 (F := Ideal) x0 x1 x3 x4 x5 x6 x7 x8 (ix2 i j) = hid3 x0 x1 x3 x4 x5 x6 x7 x8 i j := by
  unfold hid3
  exact layer_at (graphOf x1) (by norm_num) (hid2 x0 x1 x3 x4 x5 x6) (mat x7) (vec x8)
    gather_S100000x6_S3300000x1_S3300000x6_1_0_n_n_0_1_16 rfl rfl rfl rfl rfl rfl
    scatter_S100000x6_S3300000x1_S3300000x6_1_0_0_1 rfl rfl rfl rfl
    (val_main_v66 (F := Ideal) x0 x1 x3 x4 x5 x6 x7) (proj3_read x0 x1 x3 x4 x5 x6 x7)
    (val_main_v72 (F := Ideal) x1) (val_main_v78 (F := Ideal) x1) (row_v72 x1) (lands_v78 x1)
    (val_main_v75 (F := Ideal) x1) (nrm3_read x1)
    (val_main_v77 (F := Ideal)) (val_main_v81 (F := Ideal) x8) (val_main_call3_v0 (F := Ideal))
    (fun i j => by rw [val_main_v77_apply, val_main_cst_14_apply]; exact Ideal.ofBits_zero_f32)
    (fun i j => by
      rw [val_main_v81_apply, val_main_v80_apply]
      exact congrArg x8 (eq_ix1 _))
    (fun i j => by rw [val_main_call3_v0_apply, val_main_call3_cst_apply]; exact Ideal.ofBits_zero_f32)
    i j

theorem proj4_read (i : Fin 100000) (j : Fin 6) :
    val_main_v84 (F := Ideal) x0 x1 x3 x4 x5 x6 x7 x8 x9 (ix2 i j) = ∑ k, (hid3 x0 x1 x3 x4 x5 x6 x7 x8) i k * mat x9 k j := by
  rw [val_main_v84_apply]
  refine Finset.sum_congr rfl fun k _ => ?_
  exact congrArg₂ (· * ·) ((congrArg (val_main_v83 (F := Ideal) x0 x1 x3 x4 x5 x6 x7 x8) (eq_ix2 _)).trans
      (layer3_read x0 x1 x3 x4 x5 x6 x7 x8 i k))
    (congrArg x9 (eq_ix2 _))

theorem nrm4_read (e : Fin 3300000) (j : Fin 6) :
    val_main_v93 (F := Ideal) x1 (ix2 e j) = norm (graphOf x1) e := by
  rw [val_main_v93_apply, val_main_v92_apply]
  exact (congrArg (val_main_v29 (F := Ideal) x1) (eq_ix1 _)).trans (norm_read x1 e)

theorem layer4_read (i : Fin 100000) (j : Fin 6) :
    val_main_v101 (F := Ideal) x0 x1 x3 x4 x5 x6 x7 x8 x9 x10 (ix2 i j) = hid4 x0 x1 x3 x4 x5 x6 x7 x8 x9 x10 i j := by
  unfold hid4
  exact layer_at (graphOf x1) (by norm_num) (hid3 x0 x1 x3 x4 x5 x6 x7 x8) (mat x9) (vec x10)
    gather_S100000x6_S3300000x1_S3300000x6_1_0_n_n_0_1_16 rfl rfl rfl rfl rfl rfl
    scatter_S100000x6_S3300000x1_S3300000x6_1_0_0_1 rfl rfl rfl rfl
    (val_main_v84 (F := Ideal) x0 x1 x3 x4 x5 x6 x7 x8 x9) (proj4_read x0 x1 x3 x4 x5 x6 x7 x8 x9)
    (val_main_v90 (F := Ideal) x1) (val_main_v96 (F := Ideal) x1) (row_v90 x1) (lands_v96 x1)
    (val_main_v93 (F := Ideal) x1) (nrm4_read x1)
    (val_main_v95 (F := Ideal)) (val_main_v99 (F := Ideal) x10) (val_main_call4_v0 (F := Ideal))
    (fun i j => by rw [val_main_v95_apply, val_main_cst_17_apply]; exact Ideal.ofBits_zero_f32)
    (fun i j => by
      rw [val_main_v99_apply, val_main_v98_apply]
      exact congrArg x10 (eq_ix1 _))
    (fun i j => by rw [val_main_call4_v0_apply, val_main_call4_cst_apply]; exact Ideal.ofBits_zero_f32)
    i j

theorem proj5_read (i : Fin 100000) (j : Fin 6) :
    val_main_v102 (F := Ideal) x0 x1 x3 x4 x5 x6 x7 x8 x9 x10 x11 (ix2 i j) = ∑ k, (hid4 x0 x1 x3 x4 x5 x6 x7 x8 x9 x10) i k * mat x11 k j := by
  rw [val_main_v102_apply]
  refine Finset.sum_congr rfl fun k _ => ?_
  exact congrArg₂ (· * ·) ((congrArg (val_main_v101 (F := Ideal) x0 x1 x3 x4 x5 x6 x7 x8 x9 x10) (eq_ix2 _)).trans
      (layer4_read x0 x1 x3 x4 x5 x6 x7 x8 x9 x10 i k))
    (congrArg x11 (eq_ix2 _))

theorem nrm5_read (e : Fin 3300000) (j : Fin 6) :
    val_main_v111 (F := Ideal) x1 (ix2 e j) = norm (graphOf x1) e := by
  rw [val_main_v111_apply, val_main_v110_apply]
  exact (congrArg (val_main_v29 (F := Ideal) x1) (eq_ix1 _)).trans (norm_read x1 e)

theorem layer5_read (i : Fin 100000) (j : Fin 6) :
    val_main_v119 (F := Ideal) x0 x1 x3 x4 x5 x6 x7 x8 x9 x10 x11 x12 (ix2 i j) = hid5 x0 x1 x3 x4 x5 x6 x7 x8 x9 x10 x11 x12 i j := by
  unfold hid5
  exact layer_at (graphOf x1) (by norm_num) (hid4 x0 x1 x3 x4 x5 x6 x7 x8 x9 x10) (mat x11) (vec x12)
    gather_S100000x6_S3300000x1_S3300000x6_1_0_n_n_0_1_16 rfl rfl rfl rfl rfl rfl
    scatter_S100000x6_S3300000x1_S3300000x6_1_0_0_1 rfl rfl rfl rfl
    (val_main_v102 (F := Ideal) x0 x1 x3 x4 x5 x6 x7 x8 x9 x10 x11) (proj5_read x0 x1 x3 x4 x5 x6 x7 x8 x9 x10 x11)
    (val_main_v108 (F := Ideal) x1) (val_main_v114 (F := Ideal) x1) (row_v108 x1) (lands_v114 x1)
    (val_main_v111 (F := Ideal) x1) (nrm5_read x1)
    (val_main_v113 (F := Ideal)) (val_main_v117 (F := Ideal) x12) (val_main_call5_v0 (F := Ideal))
    (fun i j => by rw [val_main_v113_apply, val_main_cst_20_apply]; exact Ideal.ofBits_zero_f32)
    (fun i j => by
      rw [val_main_v117_apply, val_main_v116_apply]
      exact congrArg x12 (eq_ix1 _))
    (fun i j => by rw [val_main_call5_v0_apply, val_main_call5_cst_apply]; exact Ideal.ofBits_zero_f32)
    i j

theorem proj6_read (i : Fin 100000) (j : Fin 6) :
    val_main_v120 (F := Ideal) x0 x1 x3 x4 x5 x6 x7 x8 x9 x10 x11 x12 x13 (ix2 i j) = ∑ k, (hid5 x0 x1 x3 x4 x5 x6 x7 x8 x9 x10 x11 x12) i k * mat x13 k j := by
  rw [val_main_v120_apply]
  refine Finset.sum_congr rfl fun k _ => ?_
  exact congrArg₂ (· * ·) ((congrArg (val_main_v119 (F := Ideal) x0 x1 x3 x4 x5 x6 x7 x8 x9 x10 x11 x12) (eq_ix2 _)).trans
      (layer5_read x0 x1 x3 x4 x5 x6 x7 x8 x9 x10 x11 x12 i k))
    (congrArg x13 (eq_ix2 _))

theorem nrm6_read (e : Fin 3300000) (j : Fin 6) :
    val_main_v129 (F := Ideal) x1 (ix2 e j) = norm (graphOf x1) e := by
  rw [val_main_v129_apply, val_main_v128_apply]
  exact (congrArg (val_main_v29 (F := Ideal) x1) (eq_ix1 _)).trans (norm_read x1 e)

theorem layer6_read (i : Fin 100000) (j : Fin 6) :
    val_main_v137 (F := Ideal) x0 x1 x3 x4 x5 x6 x7 x8 x9 x10 x11 x12 x13 x14 (ix2 i j) = hid6 x0 x1 x3 x4 x5 x6 x7 x8 x9 x10 x11 x12 x13 x14 i j := by
  unfold hid6
  exact layer_at (graphOf x1) (by norm_num) (hid5 x0 x1 x3 x4 x5 x6 x7 x8 x9 x10 x11 x12) (mat x13) (vec x14)
    gather_S100000x6_S3300000x1_S3300000x6_1_0_n_n_0_1_16 rfl rfl rfl rfl rfl rfl
    scatter_S100000x6_S3300000x1_S3300000x6_1_0_0_1 rfl rfl rfl rfl
    (val_main_v120 (F := Ideal) x0 x1 x3 x4 x5 x6 x7 x8 x9 x10 x11 x12 x13) (proj6_read x0 x1 x3 x4 x5 x6 x7 x8 x9 x10 x11 x12 x13)
    (val_main_v126 (F := Ideal) x1) (val_main_v132 (F := Ideal) x1) (row_v126 x1) (lands_v132 x1)
    (val_main_v129 (F := Ideal) x1) (nrm6_read x1)
    (val_main_v131 (F := Ideal)) (val_main_v135 (F := Ideal) x14) (val_main_call6_v0 (F := Ideal))
    (fun i j => by rw [val_main_v131_apply, val_main_cst_23_apply]; exact Ideal.ofBits_zero_f32)
    (fun i j => by
      rw [val_main_v135_apply, val_main_v134_apply]
      exact congrArg x14 (eq_ix1 _))
    (fun i j => by rw [val_main_call6_v0_apply, val_main_call6_cst_apply]; exact Ideal.ofBits_zero_f32)
    i j

theorem proj7_read (i : Fin 100000) (j : Fin 10) :
    val_main_v138 (F := Ideal) x0 x1 x3 x4 x5 x6 x7 x8 x9 x10 x11 x12 x13 x14 x15 (ix2 i j) = ∑ k, (hid6 x0 x1 x3 x4 x5 x6 x7 x8 x9 x10 x11 x12 x13 x14) i k * mat x15 k j := by
  rw [val_main_v138_apply]
  refine Finset.sum_congr rfl fun k _ => ?_
  exact congrArg₂ (· * ·) ((congrArg (val_main_v137 (F := Ideal) x0 x1 x3 x4 x5 x6 x7 x8 x9 x10 x11 x12 x13 x14) (eq_ix2 _)).trans
      (layer6_read x0 x1 x3 x4 x5 x6 x7 x8 x9 x10 x11 x12 x13 x14 i k))
    (congrArg x15 (eq_ix2 _))

theorem nrm7_read (e : Fin 3300000) (j : Fin 10) :
    val_main_v147 (F := Ideal) x1 (ix2 e j) = norm (graphOf x1) e := by
  rw [val_main_v147_apply, val_main_v146_apply]
  exact (congrArg (val_main_v29 (F := Ideal) x1) (eq_ix1 _)).trans (norm_read x1 e)

theorem layer7_read (i : Fin 100000) (j : Fin 10) :
    val_main_v155 (F := Ideal) x0 x1 x3 x4 x5 x6 x7 x8 x9 x10 x11 x12 x13 x14 x15 x16 (ix2 i j) = hid7 x0 x1 x3 x4 x5 x6 x7 x8 x9 x10 x11 x12 x13 x14 x15 x16 i j := by
  unfold hid7
  exact layer_at (graphOf x1) (by norm_num) (hid6 x0 x1 x3 x4 x5 x6 x7 x8 x9 x10 x11 x12 x13 x14) (mat x15) (vec x16)
    gather_S100000x10_S3300000x1_S3300000x10_1_0_n_n_0_1_110 rfl rfl rfl rfl rfl rfl
    scatter_S100000x10_S3300000x1_S3300000x10_1_0_0_1 rfl rfl rfl rfl
    (val_main_v138 (F := Ideal) x0 x1 x3 x4 x5 x6 x7 x8 x9 x10 x11 x12 x13 x14 x15) (proj7_read x0 x1 x3 x4 x5 x6 x7 x8 x9 x10 x11 x12 x13 x14 x15)
    (val_main_v144 (F := Ideal) x1) (val_main_v150 (F := Ideal) x1) (row_v144 x1) (lands_v150 x1)
    (val_main_v147 (F := Ideal) x1) (nrm7_read x1)
    (val_main_v149 (F := Ideal)) (val_main_v153 (F := Ideal) x16) (val_main_call7_v0 (F := Ideal))
    (fun i j => by rw [val_main_v149_apply, val_main_cst_26_apply]; exact Ideal.ofBits_zero_f32)
    (fun i j => by
      rw [val_main_v153_apply, val_main_v152_apply]
      exact congrArg x16 (eq_ix1 _))
    (fun i j => by rw [val_main_call7_v0_apply, val_main_call7_cst_apply]; exact Ideal.ofBits_zero_f32)
    i j

end Cert.ReferenceIdeal.RefValue

end
-- ==== Proof.Ref.Softmax.lean ====
import proofs.«415844_j33432025432092_2_alg».proof.Proof.Spec
import Idealize.ShloMosaic.PureOps.Reduce
import Idealize.ShloMosaic.PureOps.Ideal.Laws
import Idealize.ShloMosaic.Lib.ValueIdx

open scoped BigOperators

noncomputable section

namespace Cert.ReferenceIdeal.RefValue

open Idealize.ShloMosaic Idealize.ShloMosaic.ValueIdx

theorem ofBits_neg_inf_f32 : Ideal.ofBits .f32 0xFF800000#32 = ⊥ := by
  simp [Ideal.ofBits, Ideal.ieee]

theorem rowFold_at {C D : Nat} (x : FVec Ideal ⟨2, ![C, D]⟩ .f32) (P : Fin C → Fin D → EReal)
    (hp : ∀ g j, x (ix2 g j) = P g j)
    (init : FVec Ideal ⟨0, ![]⟩ .f32) (hinit : ∀ i, init i = ⊥)
    (h' : (⟨2, ![C, D]⟩ : Shape).ReducesTo [1] ⟨1, ![C]⟩) (h : (⟨2, ![C, D]⟩ : Shape).Reduces [1] ⟨1, ![C]⟩)
    (hu : 0 < (⟨0, ![]⟩ : Shape).numel) (g : Fin C) :
    Host.reduce FloatOps.maximumf x init h' hu (ix1 g) = Finset.univ.fold max ⊥ (fun j => P g j) := by
  rw [Host.reduce_eq_fold_single FloatOps.maximumf x init h' h hu, hinit]
  show (Finset.univ : Finset (Fin D)).fold max ⊥ (fun k => x (h.lift (ix1 g) k)) = _
  refine congrArg (fun f => (Finset.univ : Finset (Fin D)).fold max ⊥ f) (funext fun (k : Fin D) => ?_)
  refine Eq.trans (congrArg x ?_) (hp g k)
  exact funext fun a => Fin.ext (by match a with | ⟨0, _⟩ => rfl | ⟨1, _⟩ => rfl)

end Cert.ReferenceIdeal.RefValue

end
-- ==== Proof.Ref.Pool.lean ====
import proofs.«415844_j33432025432092_2_alg».proof.Proof.Ref.ReadP
import proofs.«415844_j33432025432092_2_alg».proof.Proof.Spec
import proofs.«415844_j33432025432092_2_alg».proof.Proof.Access
import proofs.«415844_j33432025432092_2_alg».proof.Proof.Ref.Defs
import proofs.«415844_j33432025432092_2_alg».proof.Proof.Ref.Rows
import proofs.«415844_j33432025432092_2_alg».proof.Proof.Ref.Softmax

open scoped BigOperators

noncomputable section

namespace Cert.ReferenceIdeal.RefValue

open Cert.ReferenceIdeal Cert.ReferenceIdeal.Gen Cert.ReferenceIdeal.ReadP Idealize.ShloMosaic Idealize.ShloMosaic.StableHlo
open Idealize.ShloMosaic.StableHlo.Predicate Idealize.ShloMosaic.ValueIdx Idealize.ShloMosaic.RowOps Cert.Access Cert.Spec

variable (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (x16 : (⟨S10, .f32⟩ : BufTy).Contents (Elt Ideal))

/-- Column sums per graph over the larger of the node count and one. -/
theorem mean_at
    (hH : ∀ (n : Fin 100000) (j : Fin 10), val_main_v155 (F := Ideal) x0 x1 x3 x4 x5 x6 x7 x8 x9 x10 x11 x12 x13 x14 x15 x16 (ix2 n j) = hid7 x0 x1 x3 x4 x5 x6 x7 x8 x9 x10 x11 x12 x13 x14 x15 x16 n j)
    (g : Fin 64) (j : Fin 10) :
    val_main_v167 (F := Ideal) x0 x1 x2 x3 x4 x5 x6 x7 x8 x9 x10 x11 x12 x13 x14 x15 x16 (ix2 g j) = poolMean (inGraph (bw x2)) (hid7 x0 x1 x3 x4 x5 x6 x7 x8 x9 x10 x11 x12 x13 x14 x15 x16) g j := by
  have hb : ∀ n : Fin 100000, val_main_v157 (F := Ideal) x2 (ixP n) = x2 (ix1 n) := fun n =>
    (val_main_v157_apply x2 (ixP n)).trans (congrArg x2 (eq_ix1 _))
  have hb1 : ∀ n : Fin 100000, val_main_v161 (F := Ideal) x2 (ixP n) = x2 (ix1 n) := fun n =>
    (val_main_v161_apply x2 (ixP n)).trans (congrArg x2 (eq_ix1 _))
  have hbI : ∀ (n : Fin 100000) (g : Fin 64), lands (val_main_v157 (F := Ideal) x2) n g.val ↔ inGraph (bw x2) n g := by
    intro n g
    unfold lands
    rw [hb n]
    exact Iff.rfl
  have hbI1 : ∀ (n : Fin 100000) (g : Fin 64), lands (val_main_v161 (F := Ideal) x2) n g.val ↔ inGraph (bw x2) n g := by
    intro n g
    unfold lands
    rw [hb1 n]
    exact Iff.rfl
  have hz : ∀ (g : Fin 64) (j : Fin 10), val_main_v156 (F := Ideal) (ix2 g j) = 0 := fun g j =>
    (val_main_v156_apply _).trans ((val_main_cst_27_apply _).trans Ideal.ofBits_zero_f32)
  have hz1 : ∀ g : Fin 64, val_main_v160 (F := Ideal) (ix1 g) = 0 := fun g =>
    (val_main_v160_apply _).trans ((val_main_cst_29_apply _).trans Ideal.ofBits_zero_f32)
  have h1 : ∀ n : Fin 100000, val_main_v159 (F := Ideal) (ix1 n) = 1 := fun n =>
    (val_main_v159_apply _).trans ((val_main_cst_28_apply _).trans Ideal.ofBits_one_f32)
  have hden : ∀ (g : Fin 64) (j : Fin 10), val_main_v166 (F := Ideal) x2 (ix2 g j)
      = max (Host.scatterAdd (F := Ideal) (φ := .f32) scatter_S64_S100000x1_S100000_n_0_0_1 (val_main_v160 (F := Ideal)) (val_main_v161 (F := Ideal) x2)
          (val_main_v159 (F := Ideal)) (ix1 g)) 1 := by
    intro g j
    rw [val_main_v166_apply, val_main_v165_apply]
    have hi : idx_main_v165 (idx_main_v166 (ix2 g j)) = ix1 g := funext fun a => by match a with | ⟨0, _⟩ => rfl
    rw [hi, val_main_v164_apply, val_main_v163_apply, val_main_cst_30_apply]
    show max (val_main_v162 (F := Ideal) x2 (ix1 g)) (Ideal.ofBits .f32 0x3F800000#32) = _
    rw [Ideal.ofBits_one_f32]
    rfl
  unfold val_main_v167 val_main_v158
  exact pool_at (inGraph (bw x2)) scatter_S64x10_S100000x1_S100000x10_1_0_0_1 rfl rfl rfl rfl
    scatter_S64_S100000x1_S100000_n_0_0_1 rfl rfl rfl rfl
    (val_main_v155 (F := Ideal) x0 x1 x3 x4 x5 x6 x7 x8 x9 x10 x11 x12 x13 x14 x15 x16) (hid7 x0 x1 x3 x4 x5 x6 x7 x8 x9 x10 x11 x12 x13 x14 x15 x16) hH
    (val_main_v157 (F := Ideal) x2) (val_main_v161 (F := Ideal) x2) hbI hbI1
    (val_main_v156 (F := Ideal)) hz (val_main_v160 (F := Ideal)) hz1 (val_main_v159 (F := Ideal)) h1
    (val_main_v166 (F := Ideal) x2) hden g j

/-- Each pooled row minus the log of the sum of its shifted exponentials. -/
theorem lsm_of_mean
    (P : Fin 64 → Fin 10 → EReal)
    (hmean : ∀ (g : Fin 64) (j : Fin 10), val_main_v167 (F := Ideal) x0 x1 x2 x3 x4 x5 x6 x7 x8 x9 x10 x11 x12 x13 x14 x15 x16 (ix2 g j) = P g j)
    (g : Fin 64) (j : Fin 10) :
    val_main_v168 (F := Ideal) x0 x1 x2 x3 x4 x5 x6 x7 x8 x9 x10 x11 x12 x13 x14 x15 x16 (ix2 g j) = logSoftmax P g j := by
  have h0 : ∀ g : Fin 64, val_main_call8_v0 (F := Ideal) x0 x1 x2 x3 x4 x5 x6 x7 x8 x9 x10 x11 x12 x13 x14 x15 x16 (ix1 g)
      = Finset.univ.fold max ⊥ (fun j => P g j) := fun g =>
    rowFold_at (val_main_v167 (F := Ideal) x0 x1 x2 x3 x4 x5 x6 x7 x8 x9 x10 x11 x12 x13 x14 x15 x16) P hmean (val_main_call8_cst (F := Ideal))
      (fun i => (val_main_call8_cst_apply i).trans ofBits_neg_inf_f32) reducesTo_S64x10_S64_d1 (by decide) h_S_ g
  have h2 : ∀ g : Fin 64, val_main_call8_v2 (F := Ideal) x0 x1 x2 x3 x4 x5 x6 x7 x8 x9 x10 x11 x12 x13 x14 x15 x16 (ix1 g) = rowMax P g := by
    intro g
    rw [val_main_call8_v2_apply, val_main_call8_v1_apply, val_main_call8_cst_0_apply, h0 g]
    show max (Ideal.ofBits .f32 0xFF800000#32) _ = max ⊥ _
    rw [ofBits_neg_inf_f32]
  have h4 : ∀ (g : Fin 64) (k : Fin 10), val_main_call8_v4 (F := Ideal) x0 x1 x2 x3 x4 x5 x6 x7 x8 x9 x10 x11 x12 x13 x14 x15 x16 (ix2 g k) = rowMax P g := by
    intro g k
    rw [val_main_call8_v4_apply, val_main_call8_v3_apply]
    have hi : idx_main_call8_v3 (idx_main_call8_v4 (ix2 g k)) = ix1 g := funext fun a => by match a with | ⟨0, _⟩ => rfl
    rw [hi, h2 g]
  have h5 : ∀ (g : Fin 64) (k : Fin 10), val_main_call8_v5 (F := Ideal) x0 x1 x2 x3 x4 x5 x6 x7 x8 x9 x10 x11 x12 x13 x14 x15 x16 (ix2 g k) = P g k - rowMax P g := by
    intro g k
    rw [val_main_call8_v5_apply, hmean g k, h4 g k]
    rfl
  have h7 : ∀ g : Fin 64, val_main_call8_v7 (F := Ideal) x0 x1 x2 x3 x4 x5 x6 x7 x8 x9 x10 x11 x12 x13 x14 x15 x16 (ix1 g)
      = 0 + ∑ k, Ideal.exp (P g k - rowMax P g) := by
    intro g
    rw [val_main_call8_v7_apply, val_main_call8_cst_1_apply]
    refine congrArg₂ (· + ·) Ideal.ofBits_zero_f32 (Finset.sum_congr rfl fun k _ => ?_)
    have hi : idx_main_call8_v7 (ix1 g) k = ix2 g k := funext fun a => by match a with | ⟨0, _⟩ => rfl | ⟨1, _⟩ => rfl
    rw [hi, val_main_call8_v6_apply, h5 g k]
    rfl
  have h10 : ∀ (g : Fin 64) (j : Fin 10), val_main_call8_v10 (F := Ideal) x0 x1 x2 x3 x4 x5 x6 x7 x8 x9 x10 x11 x12 x13 x14 x15 x16 (ix2 g j)
      = Ideal.log (0 + ∑ k, Ideal.exp (P g k - rowMax P g)) := by
    intro g j
    rw [val_main_call8_v10_apply, val_main_call8_v9_apply, val_main_call8_v8_apply]
    have hi : idx_main_call8_v8 (idx_main_call8_v10 (ix2 g j)) = ix1 g := funext fun a => by match a with | ⟨0, _⟩ => rfl
    rw [hi, h7 g]
    rfl
  rw [val_main_v168_apply, h5 g j, h10 g j]
  rfl

/-- From the rows after the last layer to the result array. -/
theorem tail_eq
    (hH : ∀ (n : Fin 100000) (j : Fin 10), val_main_v155 (F := Ideal) x0 x1 x3 x4 x5 x6 x7 x8 x9 x10 x11 x12 x13 x14 x15 x16 (ix2 n j) = hid7 x0 x1 x3 x4 x5 x6 x7 x8 x9 x10 x11 x12 x13 x14 x15 x16 n j) :
    val_main_v168 (F := Ideal) x0 x1 x2 x3 x4 x5 x6 x7 x8 x9 x10 x11 x12 x13 x14 x15 x16 = fun idx => refOut x0 x1 x2 x3 x4 x5 x6 x7 x8 x9 x10 x11 x12 x13 x14 x15 x16 (idx 0) (idx 1) := by
  funext idx
  show _ = refOut x0 x1 x2 x3 x4 x5 x6 x7 x8 x9 x10 x11 x12 x13 x14 x15 x16 (idx 0) (idx 1)
  rw [refOut_eq]
  exact (congrArg (val_main_v168 (F := Ideal) x0 x1 x2 x3 x4 x5 x6 x7 x8 x9 x10 x11 x12 x13 x14 x15 x16) (eq_ix2 idx)).trans
    (lsm_of_mean x0 x1 x2 x3 x4 x5 x6 x7 x8 x9 x10 x11 x12 x13 x14 x15 x16 _ (mean_at x0 x1 x2 x3 x4 x5 x6 x7 x8 x9 x10 x11 x12 x13 x14 x15 x16 hH) (idx 0) (idx 1))

end Cert.ReferenceIdeal.RefValue

end
-- ==== Proof.Ref.Result.lean ====
import proofs.«415844_j33432025432092_2_alg».proof.Proof.Ref.RunP
import proofs.«415844_j33432025432092_2_alg».proof.Proof.Ref.ReadP
import proofs.«415844_j33432025432092_2_alg».proof.Proof.Ref.Defs
import proofs.«415844_j33432025432092_2_alg».proof.Proof.Ref.Layers
import proofs.«415844_j33432025432092_2_alg».proof.Proof.Ref.Pool

/-! The reference program's result is the listed computation of its arguments. -/

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx Cert.Access

/-- The result array, read at an index, is the listed computation's entry. -/
theorem val_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x6, .f32⟩ : BufTy).Contents (Elt Ideal)) (x4 : (⟨S6, .f32⟩ : BufTy).Contents (Elt Ideal)) (x5 : (⟨S6x6, .f32⟩ : BufTy).Contents (Elt Ideal)) (x6 : (⟨S6, .f32⟩ : BufTy).Contents (Elt Ideal)) (x7 : (⟨S6x6, .f32⟩ : BufTy).Contents (Elt Ideal)) (x8 : (⟨S6, .f32⟩ : BufTy).Contents (Elt Ideal)) (x9 : (⟨S6x6, .f32⟩ : BufTy).Contents (Elt Ideal)) (x10 : (⟨S6, .f32⟩ : BufTy).Contents (Elt Ideal)) (x11 : (⟨S6x6, .f32⟩ : BufTy).Contents (Elt Ideal)) (x12 : (⟨S6, .f32⟩ : BufTy).Contents (Elt Ideal)) (x13 : (⟨S6x6, .f32⟩ : BufTy).Contents (Elt Ideal)) (x14 : (⟨S6, .f32⟩ : BufTy).Contents (Elt Ideal)) (x15 : (⟨S6x10, .f32⟩ : BufTy).Contents (Elt Ideal)) (x16 : (⟨S10, .f32⟩ : BufTy).Contents (Elt Ideal)) :
    val_main_v168 (F := Ideal) x0 x1 x2 x3 x4 x5 x6 x7 x8 x9 x10 x11 x12 x13 x14 x15 x16 = fun idx => refOut x0 x1 x2 x3 x4 x5 x6 x7 x8 x9 x10 x11 x12 x13 x14 x15 x16 (idx 0) (idx 1) :=
  tail_eq x0 x1 x2 x3 x4 x5 x6 x7 x8 x9 x10 x11 x12 x13 x14 x15 x16 (layer7_read x0 x1 x3 x4 x5 x6 x7 x8 x9 x10 x11 x12 x13 x14 x15 x16)

/-- The run's result buffer is the listed computation of the argument buffers. -/
theorem result_eq (m : (ℓ : Loc nD τ sig) → Buf (Elt Ideal) ℓ) (c : Dev nD) :
    Cert.ReferenceIdeal.ValueP.res_main_v168 (F := Ideal) m c
      = fun idx => refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (idx 0) (idx 1) :=
  (val_main_v168_eq (F := Ideal) m c).trans
    (val_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))

end Cert.ReferenceIdeal.RefValue

end
-- ==== Proof.Math.lean ====
import proofs.«415844_j33432025432092_2_alg».proof.Proof.Spec
import Mathlib.Algebra.BigOperators.Fin
import Mathlib.Data.EReal.Basic
import Mathlib.Data.EReal.Operations

open scoped BigOperators

noncomputable section

namespace Cert.Spec

open Idealize.ShloMosaic

section Words

variable {N : ℕ}

theorem toInt_ofNat (hN31 : N < 2 ^ 31) (n : Fin N) : (BitVec.ofNat 32 n.val).toInt = (n.val : Int) := by
  have := n.isLt
  rw [BitVec.toInt_eq_toNat_cond, BitVec.toNat_ofNat]
  omega

theorem rowOf_of_toInt (hN : 0 < N) (w : BitVec 32) (i : Fin N) (h : w.toInt = (i.val : Int)) :
    rowOf N hN w = i := by
  have hs : w.slt 0#32 = false := by
    simp [BitVec.slt, h]
  apply Fin.ext
  have := i.isLt
  simp only [rowOf, hs, h]
  simp
  omega

theorem rowOf_ofNat (hN : 0 < N) (hN31 : N < 2 ^ 31) (n : Fin N) : rowOf N hN (BitVec.ofNat 32 n.val) = n :=
  rowOf_of_toInt hN _ n (toInt_ofNat hN31 n)

end Words

/-- L is G's edge list followed by the N self loops. -/
structure Matches {N E : ℕ} (L : LGraph N (E + N)) (G : Graph N E) : Prop where
  src_left : ∀ e, L.srcRow (Fin.castAdd N e) = G.srcRow e
  lands_left : ∀ e i, L.lands (Fin.castAdd N e) i ↔ G.lands e i
  src_right : ∀ n, L.srcRow (Fin.natAdd E n) = n
  lands_right : ∀ n i, L.lands (Fin.natAdd E n) i ↔ n = i
  dst_of_lands : ∀ e' i, L.lands e' i → L.dstRow e' = i

section RefKer

variable {N E : ℕ} (hN : 0 < N) (hN31 : N < 2 ^ 31) (sw dw : Fin E → BitVec 32)

theorem refGraph_srcRow_left (e : Fin E) :
    (refGraph N E hN sw dw).srcRow (Fin.castAdd N e) = (kerGraph N E hN sw dw).srcRow e := by
  simp [refGraph, kerGraph, withLoops]

theorem refGraph_lands_left (e : Fin E) (i : Fin N) :
    (refGraph N E hN sw dw).lands (Fin.castAdd N e) i ↔ (kerGraph N E hN sw dw).lands e i := by
  simp [refGraph, kerGraph, withLoops]

include hN31 in
theorem refGraph_srcRow_right (n : Fin N) : (refGraph N E hN sw dw).srcRow (Fin.natAdd E n) = n := by
  simp only [refGraph, withLoops, Fin.addCases_right]
  exact rowOf_ofNat hN hN31 n

include hN31 in
theorem refGraph_lands_right (n i : Fin N) : (refGraph N E hN sw dw).lands (Fin.natAdd E n) i ↔ n = i := by
  simp only [refGraph, withLoops, Fin.addCases_right]
  rw [toInt_ofNat hN31 n]
  constructor
  · intro h; exact Fin.ext (by exact_mod_cast h)
  · intro h; rw [h]

theorem refGraph_dstRow_of_lands (e' : Fin (E + N)) (i : Fin N) (h : (refGraph N E hN sw dw).lands e' i) :
    (refGraph N E hN sw dw).dstRow e' = i :=
  rowOf_of_toInt hN _ i h

include hN31 in
theorem refGraph_matches : Matches (refGraph N E hN sw dw) (kerGraph N E hN sw dw) where
  src_left := refGraph_srcRow_left hN sw dw
  lands_left := refGraph_lands_left hN sw dw
  src_right := refGraph_srcRow_right hN hN31 sw dw
  lands_right := refGraph_lands_right hN hN31 sw dw
  dst_of_lands := refGraph_dstRow_of_lands hN sw dw

end RefKer

section Sums

theorem coe_sum {ι : Type*} (s : Finset ι) (f : ι → ℝ) :
    ∑ e ∈ s, ((f e : ℝ) : EReal) = ((∑ e ∈ s, f e : ℝ) : EReal) := by
  classical
  induction s using Finset.induction_on with
  | empty => simp
  | insert a s ha ih => rw [Finset.sum_insert ha, Finset.sum_insert ha, ih, EReal.coe_add]

theorem max_coe_zero (x : ℝ) : max (x : EReal) 0 = ((max x 0 : ℝ) : EReal) := by
  rw [← EReal.coe_zero]
  exact (EReal.coe_strictMono.monotone.map_max).symm

theorem sum_filter_add {E N : ℕ} {M : Type*} [AddCommMonoid M] (p : Fin (E + N) → Prop) [DecidablePred p]
    (f : Fin (E + N) → M) :
    ∑ e ∈ Finset.univ.filter p, f e =
      ∑ e ∈ Finset.univ.filter (fun e => p (Fin.castAdd N e)), f (Fin.castAdd N e) +
        ∑ n ∈ Finset.univ.filter (fun n => p (Fin.natAdd E n)), f (Fin.natAdd E n) := by
  rw [Finset.sum_filter, Fin.sum_univ_add, Finset.sum_filter, Finset.sum_filter]

theorem sum_lands_split {N E : ℕ} {M : Type*} [AddCommMonoid M] {L : LGraph N (E + N)} {G : Graph N E}
    (hm : Matches L G) (i : Fin N) (f : Fin (E + N) → M) :
    ∑ e' ∈ Finset.univ.filter (fun e' => L.lands e' i), f e' =
      ∑ e ∈ Finset.univ.filter (fun e => G.lands e i), f (Fin.castAdd N e) + f (Fin.natAdd E i) := by
  rw [sum_filter_add]
  congr 1
  · exact Finset.sum_congr (Finset.filter_congr (fun e _ => hm.lands_left e i)) (fun _ _ => rfl)
  · rw [Finset.filter_congr (fun n _ => hm.lands_right n i), Finset.filter_eq' Finset.univ i]
    simp

end Sums

section Degrees

variable {N E : ℕ} (G : Graph N E)

def degR (i : Fin N) : ℝ := ((Finset.univ.filter (fun e => G.lands e i)).card : ℝ) + 1

theorem one_le_degR (i : Fin N) : 1 ≤ degR G i := by
  unfold degR
  have : (0 : ℝ) ≤ ((Finset.univ.filter (fun e => G.lands e i)).card : ℝ) := Nat.cast_nonneg _
  linarith

theorem deg_eq (i : Fin N) : deg G i = ((degR G i : ℝ) : EReal) := by
  unfold deg degR
  rw [Finset.sum_const, nsmul_one, zero_add, EReal.coe_add, EReal.coe_natCast, EReal.coe_one]

def dinvR (i : Fin N) : ℝ := (Real.sqrt (degR G i))⁻¹

theorem dinv_eq (i : Fin N) : dinv G i = ((dinvR G i : ℝ) : EReal) := by
  have h1 := one_le_degR G i
  unfold dinv dinvR
  rw [deg_eq, Ideal.rsqrt_coe, if_neg (not_lt.2 (by linarith)), if_neg (ne_of_gt (by linarith))]

variable {G} {L : LGraph N (E + N)}

theorem degL_eq (hm : Matches L G) (i : Fin N) : degL L i = deg G i := by
  unfold degL deg
  rw [sum_lands_split hm i (fun _ => (1 : EReal)), add_assoc]

theorem degL_pos (hm : Matches L G) (i : Fin N) : 0 < degL L i := by
  rw [degL_eq hm, deg_eq]
  exact EReal.coe_pos.2 (lt_of_lt_of_le one_pos (one_le_degR G i))

theorem dinvL_eq_coe (hm : Matches L G) (i : Fin N) : dinvL L i = ((dinvR G i : ℝ) : EReal) := by
  unfold dinvL
  rw [if_pos (degL_pos hm i), degL_eq hm]
  exact dinv_eq G i

end Degrees

section Layer

variable {N E K D : ℕ} (G : Graph N E)

def layerR (hr : Fin N → Fin K → ℝ) (Wr : Fin K → Fin D → ℝ) (br : Fin D → ℝ) (i : Fin N) (j : Fin D) : ℝ :=
  max (dinvR G i * ((∑ e ∈ Finset.univ.filter (fun e => G.lands e i),
      (∑ k, hr (G.srcRow e) k * Wr k j) * dinvR G (G.srcRow e)) + (∑ k, hr i k * Wr k j) * dinvR G i) + br j) 0

theorem layer_coe (hr : Fin N → Fin K → ℝ) (Wr : Fin K → Fin D → ℝ) (br : Fin D → ℝ) :
    layer G (fun i k => ((hr i k : ℝ) : EReal)) (fun k j => ((Wr k j : ℝ) : EReal)) (fun j => ((br j : ℝ) : EReal))
      = fun i j => ((layerR G hr Wr br i j : ℝ) : EReal) := by
  funext i j
  simp only [layer, post, agg, lin, dinv_eq, ← EReal.coe_mul, coe_sum, zero_add, ← EReal.coe_add, max_coe_zero,
    layerR]

variable {G} {L : LGraph N (E + N)}

theorem layerL_coe (hm : Matches L G) (hr : Fin N → Fin K → ℝ) (Wr : Fin K → Fin D → ℝ) (br : Fin D → ℝ) :
    layerL L (fun i k => ((hr i k : ℝ) : EReal)) (fun k j => ((Wr k j : ℝ) : EReal)) (fun j => ((br j : ℝ) : EReal))
      = fun i j => ((layerR G hr Wr br i j : ℝ) : EReal) := by
  funext i j
  have hd : ∀ n, dinvL L n = ((dinvR G n : ℝ) : EReal) := dinvL_eq_coe hm
  have key : ∑ e' ∈ Finset.univ.filter (fun e' => L.lands e' i),
        (∑ k, hr (L.srcRow e') k * Wr k j) * (dinvR G (L.srcRow e') * dinvR G (L.dstRow e'))
      = dinvR G i * ((∑ e ∈ Finset.univ.filter (fun e => G.lands e i),
          (∑ k, hr (G.srcRow e) k * Wr k j) * dinvR G (G.srcRow e)) + (∑ k, hr i k * Wr k j) * dinvR G i) := by
    rw [sum_lands_split hm i, hm.src_right, hm.dst_of_lands _ i ((hm.lands_right i i).2 rfl), mul_add,
      Finset.mul_sum]
    congr 1
    · refine Finset.sum_congr rfl (fun e he => ?_)
      have hl : G.lands e i := (Finset.mem_filter.1 he).2
      rw [hm.src_left, hm.dst_of_lands _ i ((hm.lands_left e i).2 hl)]
      ring
    · ring
  simp only [layerL, norm, hd, ← EReal.coe_mul, coe_sum, zero_add, ← EReal.coe_add, max_coe_zero, layerR, key]

/-- With real entries the per-edge weight d⁻¹ᐟ²(src) · d⁻¹ᐟ²(dst) factors out of the sum over a node's incoming edges. -/
theorem layerL_eq_layer (hm : Matches L G) {h : Fin N → Fin K → EReal} {W : Fin K → Fin D → EReal}
    {b : Fin D → EReal} (hh : ∀ i k, ∃ r : ℝ, h i k = (r : EReal)) (hW : ∀ k j, ∃ r : ℝ, W k j = (r : EReal))
    (hb : ∀ j, ∃ r : ℝ, b j = (r : EReal)) : layerL L h W b = layer G h W b := by
  choose hr hh using hh
  choose Wr hW using hW
  choose br hb using hb
  obtain rfl : h = fun i k => ((hr i k : ℝ) : EReal) := funext fun i => funext fun k => hh i k
  obtain rfl : W = fun k j => ((Wr k j : ℝ) : EReal) := funext fun k => funext fun j => hW k j
  obtain rfl : b = fun j => ((br j : ℝ) : EReal) := funext fun j => hb j
  rw [layerL_coe hm, layer_coe]

variable (G) in

/-- A layer of real entries has real entries, so the argument repeats down the seven layers. -/
theorem layer_real {h : Fin N → Fin K → EReal} {W : Fin K → Fin D → EReal}
    {b : Fin D → EReal} (hh : ∀ i k, ∃ r : ℝ, h i k = (r : EReal)) (hW : ∀ k j, ∃ r : ℝ, W k j = (r : EReal))
    (hb : ∀ j, ∃ r : ℝ, b j = (r : EReal)) : ∀ i j, ∃ r : ℝ, layer G h W b i j = (r : EReal) := by
  choose hr hh using hh
  choose Wr hW using hW
  choose br hb using hb
  obtain rfl : h = fun i k => ((hr i k : ℝ) : EReal) := funext fun i => funext fun k => hh i k
  obtain rfl : W = fun k j => ((Wr k j : ℝ) : EReal) := funext fun k => funext fun j => hW k j
  obtain rfl : b = fun j => ((br j : ℝ) : EReal) := funext fun j => hb j
  intro i j
  exact ⟨layerR G hr Wr br i j, congrFun (congrFun (layer_coe G hr Wr br) i) j⟩

end Layer

section Whole

variable {N E C : ℕ}

theorem outL_eq_outK_of_matches {L : LGraph N (E + N)} {G : Graph N E} (hm : Matches L G)
    (inG : Fin N → Fin C → Prop) [∀ n g, Decidable (inG n g)]
    (x : Fin N → Fin 128 → EReal) (W1 : Fin 128 → Fin 6 → EReal) (b1 : Fin 6 → EReal)
    (W2 : Fin 6 → Fin 6 → EReal) (b2 : Fin 6 → EReal) (W3 : Fin 6 → Fin 6 → EReal) (b3 : Fin 6 → EReal)
    (W4 : Fin 6 → Fin 6 → EReal) (b4 : Fin 6 → EReal) (W5 : Fin 6 → Fin 6 → EReal) (b5 : Fin 6 → EReal)
    (W6 : Fin 6 → Fin 6 → EReal) (b6 : Fin 6 → EReal) (Wf : Fin 6 → Fin 10 → EReal) (bf : Fin 10 → EReal)
    (hx : ∀ i k, ∃ r : ℝ, x i k = (r : EReal))
    (hW1 : ∀ k j, ∃ r : ℝ, W1 k j = (r : EReal)) (hb1 : ∀ j, ∃ r : ℝ, b1 j = (r : EReal))
    (hW2 : ∀ k j, ∃ r : ℝ, W2 k j = (r : EReal)) (hb2 : ∀ j, ∃ r : ℝ, b2 j = (r : EReal))
    (hW3 : ∀ k j, ∃ r : ℝ, W3 k j = (r : EReal)) (hb3 : ∀ j, ∃ r : ℝ, b3 j = (r : EReal))
    (hW4 : ∀ k j, ∃ r : ℝ, W4 k j = (r : EReal)) (hb4 : ∀ j, ∃ r : ℝ, b4 j = (r : EReal))
    (hW5 : ∀ k j, ∃ r : ℝ, W5 k j = (r : EReal)) (hb5 : ∀ j, ∃ r : ℝ, b5 j = (r : EReal))
    (hW6 : ∀ k j, ∃ r : ℝ, W6 k j = (r : EReal)) (hb6 : ∀ j, ∃ r : ℝ, b6 j = (r : EReal))
    (hWf : ∀ k j, ∃ r : ℝ, Wf k j = (r : EReal)) (hbf : ∀ j, ∃ r : ℝ, bf j = (r : EReal)) :
    outL L inG x W1 b1 W2 b2 W3 b3 W4 b4 W5 b5 W6 b6 Wf bf = outK G inG x W1 b1 W2 b2 W3 b3 W4 b4 W5 b5 W6 b6 Wf bf := by
  have h1 := layer_real G hx hW1 hb1
  have h2 := layer_real G h1 hW2 hb2
  have h3 := layer_real G h2 hW3 hb3
  have h4 := layer_real G h3 hW4 hb4
  have h5 := layer_real G h4 hW5 hb5
  have h6 := layer_real G h5 hW6 hb6
  unfold outL outK
  rw [layerL_eq_layer hm hx hW1 hb1, layerL_eq_layer hm h1 hW2 hb2, layerL_eq_layer hm h2 hW3 hb3,
    layerL_eq_layer hm h3 hW4 hb4, layerL_eq_layer hm h4 hW5 hb5, layerL_eq_layer hm h5 hW6 hb6,
    layerL_eq_layer hm h6 hWf hbf]

theorem outL_eq_outK (hN : 0 < N) (hN31 : N < 2 ^ 31) (sw dw : Fin E → BitVec 32)
    (inG : Fin N → Fin C → Prop) [∀ n g, Decidable (inG n g)]
    (x : Fin N → Fin 128 → EReal) (W1 : Fin 128 → Fin 6 → EReal) (b1 : Fin 6 → EReal)
    (W2 : Fin 6 → Fin 6 → EReal) (b2 : Fin 6 → EReal) (W3 : Fin 6 → Fin 6 → EReal) (b3 : Fin 6 → EReal)
    (W4 : Fin 6 → Fin 6 → EReal) (b4 : Fin 6 → EReal) (W5 : Fin 6 → Fin 6 → EReal) (b5 : Fin 6 → EReal)
    (W6 : Fin 6 → Fin 6 → EReal) (b6 : Fin 6 → EReal) (Wf : Fin 6 → Fin 10 → EReal) (bf : Fin 10 → EReal)
    (hx : ∀ i k, ∃ r : ℝ, x i k = (r : EReal))
    (hW1 : ∀ k j, ∃ r : ℝ, W1 k j = (r : EReal)) (hb1 : ∀ j, ∃ r : ℝ, b1 j = (r : EReal))
    (hW2 : ∀ k j, ∃ r : ℝ, W2 k j = (r : EReal)) (hb2 : ∀ j, ∃ r : ℝ, b2 j = (r : EReal))
    (hW3 : ∀ k j, ∃ r : ℝ, W3 k j = (r : EReal)) (hb3 : ∀ j, ∃ r : ℝ, b3 j = (r : EReal))
    (hW4 : ∀ k j, ∃ r : ℝ, W4 k j = (r : EReal)) (hb4 : ∀ j, ∃ r : ℝ, b4 j = (r : EReal))
    (hW5 : ∀ k j, ∃ r : ℝ, W5 k j = (r : EReal)) (hb5 : ∀ j, ∃ r : ℝ, b5 j = (r : EReal))
    (hW6 : ∀ k j, ∃ r : ℝ, W6 k j = (r : EReal)) (hb6 : ∀ j, ∃ r : ℝ, b6 j = (r : EReal))
    (hWf : ∀ k j, ∃ r : ℝ, Wf k j = (r : EReal)) (hbf : ∀ j, ∃ r : ℝ, bf j = (r : EReal)) :
    outL (refGraph N E hN sw dw) inG x W1 b1 W2 b2 W3 b3 W4 b4 W5 b5 W6 b6 Wf bf
      = outK (kerGraph N E hN sw dw) inG x W1 b1 W2 b2 W3 b3 W4 b4 W5 b5 W6 b6 Wf bf :=
  outL_eq_outK_of_matches (refGraph_matches hN hN31 sw dw) inG x W1 b1 W2 b2 W3 b3 W4 b4 W5 b5 W6 b6 Wf bf
    hx hW1 hb1 hW2 hb2 hW3 hb3 hW4 hb4 hW5 hb5 hW6 hb6 hWf hbf

end Whole

end Cert.Spec

end
-- ==== Proof.Finite.lean ====
import proofs.«415844_j33432025432092_2_alg».proof.Defs
import proofs.«415844_j33432025432092_2_alg».proof.Proof.Access
import Idealize.ShloMosaic.Lib.ReduceAll
import Idealize.ShloMosaic.Lib.IdealHost
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h' : Ideal.cmp .olt (max x (-x)) ⊤ = 1#1 := by rw [← ofBits_inf]; exact h
  induction x using EReal.rec with
  | bot => simp [Ideal.cmp] at h'
  | coe r => exact ⟨r, rfl⟩
  | top => simp [Ideal.cmp] at h'

theorem real_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant (F := Ideal) S_ .f32 0x7F800000#32)))
      init hr hu ix0 = 1#1) (i : s.Idx) : ∃ r : ℝ, x i = (r : EReal) := by
  have h1 := Host.reduce_andi_all _ init hr hu ix0 e i
  rw [cmpf_apply, broadcastInDim_scalar_apply, constant_apply] at h1
  exact real_of_abs_lt (x i) h1

section Fn

variable [Facts]

theorem fn_real (a0 : FVec Ideal S100000x128 .f32) (a1 : IVec S2x3200000 32) (a2 : IVec S100000 32)
    (a3 : FVec Ideal S128x6 .f32) (a4 : FVec Ideal S6 .f32) (a5 : FVec Ideal S6x6 .f32) (a6 : FVec Ideal S6 .f32)
    (a7 : FVec Ideal S6x6 .f32) (a8 : FVec Ideal S6 .f32) (a9 : FVec Ideal S6x6 .f32) (a10 : FVec Ideal S6 .f32)
    (a11 : FVec Ideal S6x6 .f32) (a12 : FVec Ideal S6 .f32) (a13 : FVec Ideal S6x6 .f32) (a14 : FVec Ideal S6 .f32)
    (a15 : FVec Ideal S6x10 .f32) (a16 : FVec Ideal S10 .f32)
    (h : fn (F := Ideal) a0 a1 a2 a3 a4 a5 a6 a7 a8 a9 a10 a11 a12 a13 a14 a15 a16 = fun _ => 1#1) :
    (∀ i, ∃ r : ℝ, a0 i = (r : EReal)) ∧ (∀ i, ∃ r : ℝ, a3 i = (r : EReal)) ∧ (∀ i, ∃ r : ℝ, a4 i = (r : EReal)) ∧
    (∀ i, ∃ r : ℝ, a5 i = (r : EReal)) ∧ (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧ (∀ i, ∃ r : ℝ, a10 i = (r : EReal)) ∧
    (∀ i, ∃ r : ℝ, a11 i = (r : EReal)) ∧ (∀ i, ∃ r : ℝ, a12 i = (r : EReal)) ∧ (∀ i, ∃ r : ℝ, a13 i = (r : EReal)) ∧
    (∀ i, ∃ r : ℝ, a14 i = (r : EReal)) ∧ (∀ i, ∃ r : ℝ, a15 i = (r : EReal)) ∧ (∀ i, ∃ r : ℝ, a16 i = (r : EReal)) := by
  have h0 := congrFun h ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨real_of_all a0 _ _ _ _ e0, real_of_all a3 _ _ _ _ e3, real_of_all a4 _ _ _ _ e4, real_of_all a5 _ _ _ _ e5,
    real_of_all a6 _ _ _ _ e6, real_of_all a7 _ _ _ _ e7, real_of_all a8 _ _ _ _ e8, real_of_all a9 _ _ _ _ e9,
    real_of_all a10 _ _ _ _ e10, real_of_all a11 _ _ _ _ e11, real_of_all a12 _ _ _ _ e12, real_of_all a13 _ _ _ _ e13,
    real_of_all a14 _ _ _ _ e14, real_of_all a15 _ _ _ _ e15, real_of_all a16 _ _ _ _ e16⟩

end Fn

section Args

open Idealize.SL.Sem Cert.Access

variable [Facts]

theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i k, ∃ r : ℝ, mat (m ((c.tc : Thread Cert.KernelIdeal.nD Cert.KernelIdeal.τ).loc Cert.KernelIdeal.main_arg0)) i k = (r : EReal)) ∧
    (∀ i k, ∃ r : ℝ, mat (m ((c.tc : Thread Cert.KernelIdeal.nD Cert.KernelIdeal.τ).loc Cert.KernelIdeal.main_arg3)) i k = (r : EReal)) ∧
    (∀ i, ∃ r : ℝ, vec (m ((c.tc : Thread Cert.KernelIdeal.nD Cert.KernelIdeal.τ).loc Cert.KernelIdeal.main_arg4)) i = (r : EReal)) ∧
    (∀ i k, ∃ r : ℝ, mat (m ((c.tc : Thread Cert.KernelIdeal.nD Cert.KernelIdeal.τ).loc Cert.KernelIdeal.main_arg5)) i k = (r : EReal)) ∧
    (∀ i, ∃ r : ℝ, vec (m ((c.tc : Thread Cert.KernelIdeal.nD Cert.KernelIdeal.τ).loc Cert.KernelIdeal.main_arg6)) i = (r : EReal)) ∧
    (∀ i k, ∃ r : ℝ, mat (m ((c.tc : Thread Cert.KernelIdeal.nD Cert.KernelIdeal.τ).loc Cert.KernelIdeal.main_arg7)) i k = (r : EReal)) ∧
    (∀ i, ∃ r : ℝ, vec (m ((c.tc : Thread Cert.KernelIdeal.nD Cert.KernelIdeal.τ).loc Cert.KernelIdeal.main_arg8)) i = (r : EReal)) ∧
    (∀ i k, ∃ r : ℝ, mat (m ((c.tc : Thread Cert.KernelIdeal.nD Cert.KernelIdeal.τ).loc Cert.KernelIdeal.main_arg9)) i k = (r : EReal)) ∧
    (∀ i, ∃ r : ℝ, vec (m ((c.tc : Thread Cert.KernelIdeal.nD Cert.KernelIdeal.τ).loc Cert.KernelIdeal.main_arg10)) i = (r : EReal)) ∧
    (∀ i k, ∃ r : ℝ, mat (m ((c.tc : Thread Cert.KernelIdeal.nD Cert.KernelIdeal.τ).loc Cert.KernelIdeal.main_arg11)) i k = (r : EReal)) ∧
    (∀ i, ∃ r : ℝ, vec (m ((c.tc : Thread Cert.KernelIdeal.nD Cert.KernelIdeal.τ).loc Cert.KernelIdeal.main_arg12)) i = (r : EReal)) ∧
    (∀ i k, ∃ r : ℝ, mat (m ((c.tc : Thread Cert.KernelIdeal.nD Cert.KernelIdeal.τ).loc Cert.KernelIdeal.main_arg13)) i k = (r : EReal)) ∧
    (∀ i, ∃ r : ℝ, vec (m ((c.tc : Thread Cert.KernelIdeal.nD Cert.KernelIdeal.τ).loc Cert.KernelIdeal.main_arg14)) i = (r : EReal)) ∧
    (∀ i k, ∃ r : ℝ, mat (m ((c.tc : Thread Cert.KernelIdeal.nD Cert.KernelIdeal.τ).loc Cert.KernelIdeal.main_arg15)) i k = (r : EReal)) ∧
    (∀ i, ∃ r : ℝ, vec (m ((c.tc : Thread Cert.KernelIdeal.nD Cert.KernelIdeal.τ).loc Cert.KernelIdeal.main_arg16)) i = (r : EReal)) := by
  obtain ⟨h0, h3, h4, h5, h6, h7, h8, h9, h10, h11, h12, h13, h14, h15, h16⟩ := fn_real _ _ _ _ _ _ _ _ _ _ _ _ _ _ _ _ _ (h c)
  exact ⟨fun i k => h0 (ix2 i k), fun i k => h3 (ix2 i k), fun i => h4 (ix1 i), fun i k => h5 (ix2 i k), fun i => h6 (ix1 i), fun i k => h7 (ix2 i k), fun i => h8 (ix1 i), fun i k => h9 (ix2 i k), fun i => h10 (ix1 i), fun i k => h11 (ix2 i k), fun i => h12 (ix1 i), fun i k => h13 (ix2 i k), fun i => h14 (ix1 i), fun i k => h15 (ix2 i k), fun i => h16 (ix1 i)⟩

end Args

end Cert.Finite

end
-- ==== Proof.lean ====
import proofs.«415844_j33432025432092_2_alg».proof.Defs
import proofs.«415844_j33432025432092_2_alg».proof.Proof.Gen.Kernel
import proofs.«415844_j33432025432092_2_alg».proof.Proof.Gen.KernelIdeal
import proofs.«415844_j33432025432092_2_alg».proof.Proof.Gen.ReferenceIdeal
import proofs.«415844_j33432025432092_2_alg».proof.Proof.Gen.Pre_finite_inputs
import proofs.«415844_j33432025432092_2_alg».proof.Proof.Kernel.RunMain
import proofs.«415844_j33432025432092_2_alg».proof.Proof.KernelIdeal.Compose
import proofs.«415844_j33432025432092_2_alg».proof.Proof.Ref.Result
import proofs.«415844_j33432025432092_2_alg».proof.Proof.Math
import proofs.«415844_j33432025432092_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Regions.frame (F := Bits) m ρ

theorem frame_ki : Cert.frame_KernelIdeal := fun m ρ _ => Cert.KernelIdeal.Regions.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the seven-layer network's output; the self-loop form and the edge-list form agree on real inputs. -/
theorem algebraic : Cert.algebraic_KernelIdeal_ReferenceIdeal := by
  intro m ρ m' ρ' hpre hagree
  refine ⟨fun c => Cert.KernelIdeal.Regions.o24 (F := Ideal) m c, Cert.KernelIdeal.Regions.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16⟩ := hagree c
  obtain ⟨hx, hW1, hb1, hW2, hb2, hW3, hb3, hW4, hb4, hW5, hb5, hW6, hb6, hWf, hbf⟩ := Cert.Finite.args_real m hpre c
  rw [Cert.ReferenceIdeal.RefValue.result_eq m' c, a0, a1, a2, a3, a4, a5, a6, a7, a8, a9, a10, a11, a12, a13, a14, a15, a16]
  refine Eq.trans ?_ (Cert.KernelIdeal.Regions.kernel_result m c).symm
  funext idx
  have key := Cert.Spec.outL_eq_outK (N := 100000) (E := 3200000) (C := 64) (by norm_num) (by norm_num)
    (Cert.KernelIdeal.Regions.sw m c) (Cert.KernelIdeal.Regions.dw m c) (Cert.Spec.inGraph (Cert.KernelIdeal.Regions.bw m c))
    _ _ _ _ _ _ _ _ _ _ _ _ _ _ _ hx hW1 hb1 hW2 hb2 hW3 hb3 hW4 hb4 hW5 hb5 hW6 hb6 hWf hbf
  exact congrFun (congrFun key (idx 0)) (idx 1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
